-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x10 .f32) (main_arg16 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x10 .f32) (main_arg16 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x10 .f32) (main_arg16 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S100352x128 : Shape := ⟨2, ![100352, 128]⟩
abbrev S100352 : Shape := ⟨1, ![100352]⟩
abbrev S100352x1 : Shape := ⟨2, ![100352, 1]⟩
abbrev S1x10 : Shape := ⟨2, ![1, 10]⟩
abbrev S512x10 : Shape := ⟨2, ![512, 10]⟩
abbrev S2048x128 : Shape := ⟨2, ![2048, 128]⟩
abbrev S2048x1 : Shape := ⟨2, ![2048, 1]⟩
abbrev S512x128 : Shape := ⟨2, ![512, 128]⟩
abbrev S2048x512 : Shape := ⟨2, ![2048, 512]⟩

abbrev nBuf : Space → Nat
  | .hbm => 108
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S100000x128, .f32⟩
  | .hbm, ⟨37, _⟩ => ⟨S1x128, .f32⟩
  | .hbm, ⟨38, _⟩ => ⟨S1x128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S100000x128, .f32⟩
  | .hbm, ⟨76, _⟩ => ⟨S1x128, .f32⟩
  | .hbm, ⟨77, _⟩ => ⟨S1x128, .f32⟩
  | .hbm, ⟨78, _⟩ => ⟨S128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S1x128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S_, .i32⟩
  | .hbm, ⟨100, _⟩ => ⟨S_, .f32⟩
  | .hbm, ⟨101, _⟩ => ⟨S100352x128, .f32⟩
  | .hbm, ⟨102, _⟩ => ⟨S_, .i32⟩
  | .hbm, ⟨103, _⟩ => ⟨S_, .i32⟩
  | .hbm, ⟨104, _⟩ => ⟨S100352, .i32⟩
  | .hbm, ⟨105, _⟩ => ⟨S100352x1, .i32⟩
  | .hbm, ⟨106, _⟩ => ⟨S1x10, .f32⟩
  | .hbm, ⟨107, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S2048x128, .f32⟩
  | .local _ .vmem, ⟨41, _⟩ => ⟨S2048x128, .f32⟩
  | .local _ .vmem, ⟨42, _⟩ => ⟨S2048x1, .i32⟩
  | .local _ .vmem, ⟨43, _⟩ => ⟨S2048x1, .i32⟩
  | .local _ .vmem, ⟨44, _⟩ => ⟨S128x10, .f32⟩
  | .local _ .vmem, ⟨45, _⟩ => ⟨S1x10, .f32⟩
  | .local _ .vmem, ⟨46, _⟩ => ⟨S512x10, .f32⟩
  | .local _ .vmem, ⟨47, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_v35 : Ref sig .tc := ⟨.hbm, 61, rfl⟩
abbrev main_v36 : Ref sig .tc := ⟨.hbm, 62, rfl⟩
abbrev main_c_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_10 : Ref sig .tc := ⟨.hbm, 99, rfl⟩
abbrev main_call0_v0 : Ref sig .tc := ⟨.hbm, 100, rfl⟩
abbrev main_v66 : Ref sig .tc := ⟨.hbm, 101, rfl⟩
abbrev main_c_11 : Ref sig .tc := ⟨.hbm, 102, rfl⟩
abbrev main_call1_v0 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_26 : BitVec 32 := 0#32
  let v43 : BitVec 1 := Scalar.cmpi .ne v42 c0_i32_26
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_26 : BitVec 32 := 0#32
  let v44 : BitVec 1 := Scalar.cmpi .ne v43 c0_i32_26
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![49], ![false]⟩

def k4_cond2 (i : grid4.Coords) : BitVec 1 :=
  let arg0 : BitVec 32 := BitVec.ofNat 32 (i 0).val
  let c48_i32 : BitVec 32 := 48#32
  let v20 : BitVec 1 := Scalar.cmpi .eq arg0 c48_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  pads_S100000x128_S100352x128_03520_000 : S100000x128.Pads (![0, 0] : Fin 2 → Nat) ![352, 0] ![0, 0] S100352x128
  h_S_ : 0 < S_.numel
  pads_S100000_S100352_03520 : S100000.Pads (![0] : Fin 1 → Nat) ![352] ![0] S100352
  shapeCasts_S100352_S100352x1 : S100352.ShapeCasts S100352x1
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S2048x512_S2048x128_S512x128_0_0_1_1_n_n_wf : DotDims.WF S2048x512 S2048x128 S512x128 [0] [0] [1] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S100352x128.size a
  hwx4_0 : ∀ i : grid4.Coords, EltTy.bits .f32 = 32 ∨ (Rect.block (s := S100352x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x1.size a ≤ S100352x1.size a
  hwx4_1 : ∀ i : grid4.Coords, EltTy.bits .i32 = 32 ∨ (Rect.block (s := S100352x1) S2048x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x10.size a ≤ S128x10.size a
  hwx4_2 : ∀ i : grid4.Coords, EltTy.bits .f32 = 32 ∨ (Rect.block (s := S128x10) S128x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x10.size a ≤ S1x10.size a
  hwx4_3 : ∀ i : grid4.Coords, EltTy.bits .f32 = 32 ∨ (Rect.block (s := S1x10) S1x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x10.size a ≤ S512x10.size a
  hwx4_4 : ∀ i : grid4.Coords, EltTy.bits .f32 = 32 ∨ (Rect.block (s := S512x10) S512x10.size (cc4_transform_4 i) (hinb4_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2048x512_S2048x128_S512x128_0_0_1_1_n_n : DotDims S2048x512 S2048x128 S512x128 where
  lhsContracting := [0]
  rhsContracting := [0]
  lhsNonContracting := [1]
  rhsNonContracting := [1]
  lhsBatch := []
  rhsBatch := []
  wf := dot_S2048x512_S2048x128_S512x128_0_0_1_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v47_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v47_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v66) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S2048x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S128x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S512x10.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512x10 : Shape := ⟨2, ![512, 10]⟩
abbrev S1x10 : Shape := ⟨2, ![1, 10]⟩

abbrev nBuf : Space → Nat
  | .hbm => 170
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x10, .f32⟩
  | 16 => ⟨S10, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S100000x128, .f32⟩
  | 59 => ⟨S100000x128, .f32⟩
  | 60 => ⟨S100000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S_, .f32⟩
  | 121 => ⟨S128, .f32⟩
  | 122 => ⟨S128, .f32⟩
  | 123 => ⟨S_, .i32⟩
  | 124 => ⟨S_, .f32⟩
  | 125 => ⟨S128, .f32⟩
  | 126 => ⟨S1x128, .f32⟩
  | 127 => ⟨S_, .f32⟩
  | _ => ⟨S100000x128, .f32⟩

abbrev hbmTy0_1 (i : Nat) : BufTy := match i % 128 with
  | 0 => ⟨S1x128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S_, .f32⟩
  | 22 => ⟨S128, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S512x128, .f32⟩
  | 36 => ⟨S100000x1, .i32⟩
  | 37 => ⟨S512x128, .f32⟩
  | 38 => ⟨S512x10, .f32⟩
  | 39 => ⟨S1x10, .f32⟩
  | 40 => ⟨S512x10, .f32⟩
  | 41 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_5 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_6 : Ref sig .tc := ⟨.hbm, 90, rfl⟩
abbrev main_v44 : Ref sig .tc := ⟨.hbm, 91, rfl⟩
abbrev main_v45 : Ref sig .tc := ⟨.hbm, 92, rfl⟩
abbrev main_c_7 : Ref sig .tc := ⟨.hbm, 93, rfl⟩
abbrev main_v46 : Ref sig .tc := ⟨.hbm, 94, rfl⟩
abbrev main_v47 : Ref sig .tc := ⟨.hbm, 95, rfl⟩
abbrev main_c_8 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_9 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_10 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_11 : Ref sig .tc := ⟨.hbm, 118, rfl⟩
abbrev main_v67 : Ref sig .tc := ⟨.hbm, 119, rfl⟩
abbrev main_cst_12 : Ref sig .tc := ⟨.hbm, 120, rfl⟩
abbrev main_v68 : Ref sig .tc := ⟨.hbm, 121, rfl⟩
abbrev main_v69 : Ref sig .tc := ⟨.hbm, 122, rfl⟩
abbrev main_c_13 : Ref sig .tc := ⟨.hbm, 123, rfl⟩
abbrev main_call1_cst : Ref sig .tc := ⟨.hbm, 124, rfl⟩
abbrev main_call1_v0 : Ref sig .tc := ⟨.hbm, 125, rfl⟩
abbrev main_call1_v1 : Ref sig .tc := ⟨.hbm, 126, rfl⟩
abbrev main_call1_cst_0 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_call1_v5 : Ref sig .tc := ⟨.hbm, 131, rfl⟩
abbrev main_call1_v6 : Ref sig .tc := ⟨.hbm, 132, rfl⟩
abbrev main_call1_v7 : Ref sig .tc := ⟨.hbm, 133, rfl⟩
abbrev main_call1_cst_1 : Ref sig .tc := ⟨.hbm, 134, rfl⟩
abbrev main_call1_v8 : Ref sig .tc := ⟨.hbm, 135, rfl⟩
abbrev main_call1_cst_2 : Ref sig .tc := ⟨.hbm, 136, rfl⟩
abbrev main_call1_v9 : Ref sig .tc := ⟨.hbm, 137, rfl⟩
abbrev main_call1_v10 : Ref sig .tc := ⟨.hbm, 138, rfl⟩
abbrev main_call1_v11 : Ref sig .tc := ⟨.hbm, 139, rfl⟩
abbrev main_call1_cst_3 : Ref sig .tc := ⟨.hbm, 140, rfl⟩
abbrev main_call1_v12 : Ref sig .tc := ⟨.hbm, 141, rfl⟩
abbrev main_call1_cst_4 : Ref sig .tc := ⟨.hbm, 142, rfl⟩
abbrev main_call1_call0_v0 : Ref sig .tc := ⟨.hbm, 143, rfl⟩
abbrev main_call1_call0_v1 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_cst_14 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_cst_15 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.WRun.lean ====
import proofs.«412881_j60095182405865_1_alg».proof.Proof.Gen.Kernel.Launch
import proofs.«412881_j60095182405865_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev Cont (F : FTy → Type) [FloatOps F] : Type := (c : Dev nD) → (b : Ref sig .tc) → Buf (Elt F) ((c : Thread nD τ).loc b)

section Run

variable (m : (ℓ : Loc nD τ sig) → Buf (Elt F) ℓ) (ρ : Dev nD → PrngReg)

variable (d0 : Cont F → (c : Dev nD) → Dat τ (Elt F) Unit ℕ (UR sig nD τ) ℕ cfg0 c)

variable (d1 : Cont F → (c : Dev nD) → Dat τ (Elt F) Unit ℕ (UR sig nD τ) ℕ cfg1 c)

variable (d2 : Cont F → (c : Dev nD) → Dat τ (Elt F) Unit ℕ (UR sig nD τ) ℕ cfg2 c)

variable (d3 : Cont F → (c : Dev nD) → Dat τ (Elt F) Unit ℕ (UR sig nD τ) ℕ cfg3 c)

variable (d4 : Cont F → (c : Dev nD) → Dat τ (Elt F) Unit ℕ (UR sig nD τ) ℕ cfg4 c)

-- What the run of @main asks of the five regions' proof data, stated once: each window's array as the region finds it, whole
-- shares, nothing owed, every point recorded, the body's obligation, and the two ends of the region invariant.
structure RegFacts : Prop where
  hA0 : ∀ (V : Cont F) (c : Dev nD) (w : Fin cfg0.W), (d0 V c).A w = V c (Pipeline.arrRef spec0 w)
  hq0 : ∀ (V : Cont F) (c : Dev nD) (w : Fin cfg0.W), (d0 V c).q w = fullShare
  ho0 : ∀ (V : Cont F) (c : Dev nD) t, (d0 V c).owed t = 0
  hr0 : ∀ (V : Cont F) (c : Dev nD) t, (d0 V c).recorded t = Set.univ
  hb0 : ∀ (V : Cont F) (c : Dev nD), BodyObligation (d0 V c) (defs₀ (F := F)) Variants.none () Set.univ
  hi0 : ∀ (V : Cont F) (c : Dev nD), (Pipeline.ΦA spec0 c : sProp 𝕄) ⊢ (d0 V c).Φ 0
  hx0 : ∀ (V : Cont F) (c : Dev nD), (d0 V c).Φ (Fin.last cfg0.N) ⊢ (Pipeline.ΦA spec0 c : sProp 𝕄)
  hA1 : ∀ (V : Cont F) (c : Dev nD) (w : Fin cfg1.W), (d1 V c).A w = V c (Pipeline.arrRef spec1 w)
  hq1 : ∀ (V : Cont F) (c : Dev nD) (w : Fin cfg1.W), (d1 V c).q w = fullShare
  ho1 : ∀ (V : Cont F) (c : Dev nD) t, (d1 V c).owed t = 0
  hr1 : ∀ (V : Cont F) (c : Dev nD) t, (d1 V c).recorded t = Set.univ
  hb1 : ∀ (V : Cont F) (c : Dev nD), BodyObligation (d1 V c) (defs₀ (F := F)) Variants.none () Set.univ
  hi1 : ∀ (V : Cont F) (c : Dev nD), (Pipeline.ΦA spec1 c : sProp 𝕄) ⊢ (d1 V c).Φ 0
  hx1 : ∀ (V : Cont F) (c : Dev nD), (d1 V c).Φ (Fin.last cfg1.N) ⊢ (Pipeline.ΦA spec1 c : sProp 𝕄)
  hA2 : ∀ (V : Cont F) (c : Dev nD) (w : Fin cfg2.W), (d2 V c).A w = V c (Pipeline.arrRef spec2 w)
  hq2 : ∀ (V : Cont F) (c : Dev nD) (w : Fin cfg2.W), (d2 V c).q w = fullShare
  ho2 : ∀ (V : Cont F) (c : Dev nD) t, (d2 V c).owed t = 0
  hr2 : ∀ (V : Cont F) (c : Dev nD) t, (d2 V c).recorded t = Set.univ
  hb2 : ∀ (V : Cont F) (c : Dev nD), BodyObligation (d2 V c) (defs₀ (F := F)) Variants.none () Set.univ
  hi2 : ∀ (V : Cont F) (c : Dev nD), (Pipeline.ΦA spec2 c : sProp 𝕄) ⊢ (d2 V c).Φ 0
  hx2 : ∀ (V : Cont F) (c : Dev nD), (d2 V c).Φ (Fin.last cfg2.N) ⊢ (Pipeline.ΦA spec2 c : sProp 𝕄)
  hA3 : ∀ (V : Cont F) (c : Dev nD) (w : Fin cfg3.W), (d3 V c).A w = V c (Pipeline.arrRef spec3 w)
  hq3 : ∀ (V : Cont F) (c : Dev nD) (w : Fin cfg3.W), (d3 V c).q w = fullShare
  ho3 : ∀ (V : Cont F) (c : Dev nD) t, (d3 V c).owed t = 0
  hr3 : ∀ (V : Cont F) (c : Dev nD) t, (d3 V c).recorded t = Set.univ
  hb3 : ∀ (V : Cont F) (c : Dev nD), BodyObligation (d3 V c) (defs₀ (F := F)) Variants.none () Set.univ
  hi3 : ∀ (V : Cont F) (c : Dev nD), (Pipeline.ΦA spec3 c : sProp 𝕄) ⊢ (d3 V c).Φ 0
  hx3 : ∀ (V : Cont F) (c : Dev nD), (d3 V c).Φ (Fin.last cfg3.N) ⊢ (Pipeline.ΦA spec3 c : sProp 𝕄)
  hA4 : ∀ (V : Cont F) (c : Dev nD) (w : Fin cfg4.W), (d4 V c).A w = V c (Pipeline.arrRef spec4 w)
  hq4 : ∀ (V : Cont F) (c : Dev nD) (w : Fin cfg4.W), (d4 V c).q w = fullShare
  ho4 : ∀ (V : Cont F) (c : Dev nD) t, (d4 V c).owed t = 0
  hr4 : ∀ (V : Cont F) (c : Dev nD) t, (d4 V c).recorded t = Set.univ
  hb4 : ∀ (V : Cont F) (c : Dev nD), BodyObligation (d4 V c) (defs₀ (F := F)) Variants.none () Set.univ
  hi4 : ∀ (V : Cont F) (c : Dev nD), (Pipeline.ΦA spec4 c : sProp 𝕄) ⊢ (d4 V c).Φ 0
  hx4 : ∀ (V : Cont F) (c : Dev nD), (d4 V c).Φ (Fin.last cfg4.N) ⊢ (Pipeline.ΦA spec4 c : sProp 𝕄)

variable (K : RegFacts d0 d1 d2 d3 d4)

abbrev kW0 : Dev nD → Valuation τ sig (Elt F) := fun c b => (s₀ m ρ).mem ((c : Dev nD), b)

abbrev kW1 : Dev nD → Valuation τ sig (Elt F) := fun c => StableHlo.after hostOps0 (kW0 m ρ c)

abbrev kU1 : Cont F := fun c b => kW1 m ρ c b

def kW2 (c : Dev nD) : Valuation τ sig (Elt F) :=
  Pipeline.withArrays spec0 c (kW1 m ρ c) fun w => (d0 (kU1 m ρ) c).arrAt w cfg0.N
theorem kW2_arr (c : Dev nD) (w : Fin cfg0.W) :
    kW2 m ρ d0 c (Proc.devRef .tc (Pipeline.arrRef spec0 w)) = (d0 (kU1 m ρ) c).arrAt w cfg0.N := by
  unfold kW2; exact Pipeline.withArrays_arr spec0 launch0.win.arr_inj c _ _ w
theorem kW2_of_ne (c : Dev nD) (b : Ref sig .tc) (hb : ∀ w, Pipeline.arrRef spec0 w ≠ b) :
    kW2 m ρ d0 c (Proc.devRef .tc b) = kW1 m ρ c (Proc.devRef .tc b) := by
  unfold kW2; exact Pipeline.withArrays_of_ne spec0 c _ _ b hb

abbrev kU2 : Cont F := fun c b => kW2 m ρ d0 c b
theorem hF0 (c : Dev nD) (w : Fin cfg0.W) : (d0 (kU1 m ρ) c).arrAt w cfg0.N = kU2 m ρ d0 c (Pipeline.arrRef spec0 w) :=
  (kW2_arr m ρ d0 c w).symm
theorem hrest0 (c : Dev nD) : ∀ b, b ∉ Finset.univ.image (Pipeline.arrRef spec0) → kU2 m ρ d0 c b = kU1 m ρ c b :=
  fun b hb => kW2_of_ne m ρ d0 c b fun w e => hb (Finset.mem_image.mpr ⟨w, Finset.mem_univ _, e⟩)

abbrev kW3 : Dev nD → Valuation τ sig (Elt F) := fun c => StableHlo.after hostOps1 (kW2 m ρ d0 c)

abbrev kU3 : Cont F := fun c b => kW3 m ρ d0 c b

def kW4 (c : Dev nD) : Valuation τ sig (Elt F) :=
  Pipeline.withArrays spec1 c (kW3 m ρ d0 c) fun w => (d1 (kU3 m ρ d0) c).arrAt w cfg1.N
theorem kW4_arr (c : Dev nD) (w : Fin cfg1.W) :
    kW4 m ρ d0 d1 c (Proc.devRef .tc (Pipeline.arrRef spec1 w)) = (d1 (kU3 m ρ d0) c).arrAt w cfg1.N := by
  unfold kW4; exact Pipeline.withArrays_arr spec1 launch1.win.arr_inj c _ _ w
theorem kW4_of_ne (c : Dev nD) (b : Ref sig .tc) (hb : ∀ w, Pipeline.arrRef spec1 w ≠ b) :
    kW4 m ρ d0 d1 c (Proc.devRef .tc b) = kW3 m ρ d0 c (Proc.devRef .tc b) := by
  unfold kW4; exact Pipeline.withArrays_of_ne spec1 c _ _ b hb

abbrev kU4 : Cont F := fun c b => kW4 m ρ d0 d1 c b
theorem hF1 (c : Dev nD) (w : Fin cfg1.W) : (d1 (kU3 m ρ d0) c).arrAt w cfg1.N = kU4 m ρ d0 d1 c (Pipeline.arrRef spec1 w) :=
  (kW4_arr m ρ d0 d1 c w).symm
theorem hrest1 (c : Dev nD) : ∀ b, b ∉ Finset.univ.image (Pipeline.arrRef spec1) → kU4 m ρ d0 d1 c b = kU3 m ρ d0 c b :=
  fun b hb => kW4_of_ne m ρ d0 d1 c b fun w e => hb (Finset.mem_image.mpr ⟨w, Finset.mem_univ _, e⟩)

abbrev kW5 : Dev nD → Valuation τ sig (Elt F) := fun c => StableHlo.after hostOps2 (kW4 m ρ d0 d1 c)

abbrev kU5 : Cont F := fun c b => kW5 m ρ d0 d1 c b

def kW6 (c : Dev nD) : Valuation τ sig (Elt F) :=
  Pipeline.withArrays spec2 c (kW5 m ρ d0 d1 c) fun w => (d2 (kU5 m ρ d0 d1) c).arrAt w cfg2.N
theorem kW6_arr (c : Dev nD) (w : Fin cfg2.W) :
    kW6 m ρ d0 d1 d2 c (Proc.devRef .tc (Pipeline.arrRef spec2 w)) = (d2 (kU5 m ρ d0 d1) c).arrAt w cfg2.N := by
  unfold kW6; exact Pipeline.withArrays_arr spec2 launch2.win.arr_inj c _ _ w
theorem kW6_of_ne (c : Dev nD) (b : Ref sig .tc) (hb : ∀ w, Pipeline.arrRef spec2 w ≠ b) :
    kW6 m ρ d0 d1 d2 c (Proc.devRef .tc b) = kW5 m ρ d0 d1 c (Proc.devRef .tc b) := by
  unfold kW6; exact Pipeline.withArrays_of_ne spec2 c _ _ b hb

abbrev kU6 : Cont F := fun c b => kW6 m ρ d0 d1 d2 c b
theorem hF2 (c : Dev nD) (w : Fin cfg2.W) : (d2 (kU5 m ρ d0 d1) c).arrAt w cfg2.N = kU6 m ρ d0 d1 d2 c (Pipeline.arrRef spec2 w) :=
  (kW6_arr m ρ d0 d1 d2 c w).symm
theorem hrest2 (c : Dev nD) : ∀ b, b ∉ Finset.univ.image (Pipeline.arrRef spec2) → kU6 m ρ d0 d1 d2 c b = kU5 m ρ d0 d1 c b :=
  fun b hb => kW6_of_ne m ρ d0 d1 d2 c b fun w e => hb (Finset.mem_image.mpr ⟨w, Finset.mem_univ _, e⟩)

abbrev kW7 : Dev nD → Valuation τ sig (Elt F) := fun c => StableHlo.after hostOps3 (kW6 m ρ d0 d1 d2 c)

abbrev kU7 : Cont F := fun c b => kW7 m ρ d0 d1 d2 c b

def kW8 (c : Dev nD) : Valuation τ sig (Elt F) :=
  Pipeline.withArrays spec3 c (kW7 m ρ d0 d1 d2 c) fun w => (d3 (kU7 m ρ d0 d1 d2) c).arrAt w cfg3.N
theorem kW8_arr (c : Dev nD) (w : Fin cfg3.W) :
    kW8 m ρ d0 d1 d2 d3 c (Proc.devRef .tc (Pipeline.arrRef spec3 w)) = (d3 (kU7 m ρ d0 d1 d2) c).arrAt w cfg3.N := by
  unfold kW8; exact Pipeline.withArrays_arr spec3 launch3.win.arr_inj c _ _ w
theorem kW8_of_ne (c : Dev nD) (b : Ref sig .tc) (hb : ∀ w, Pipeline.arrRef spec3 w ≠ b) :
    kW8 m ρ d0 d1 d2 d3 c (Proc.devRef .tc b) = kW7 m ρ d0 d1 d2 c (Proc.devRef .tc b) := by
  unfold kW8; exact Pipeline.withArrays_of_ne spec3 c _ _ b hb

abbrev kU8 : Cont F := fun c b => kW8 m ρ d0 d1 d2 d3 c b
theorem hF3 (c : Dev nD) (w : Fin cfg3.W) : (d3 (kU7 m ρ d0 d1 d2) c).arrAt w cfg3.N = kU8 m ρ d0 d1 d2 d3 c (Pipeline.arrRef spec3 w) :=
  (kW8_arr m ρ d0 d1 d2 d3 c w).symm
theorem hrest3 (c : Dev nD) : ∀ b, b ∉ Finset.univ.image (Pipeline.arrRef spec3) → kU8 m ρ d0 d1 d2 d3 c b = kU7 m ρ d0 d1 d2 c b :=
  fun b hb => kW8_of_ne m ρ d0 d1 d2 d3 c b fun w e => hb (Finset.mem_image.mpr ⟨w, Finset.mem_univ _, e⟩)

abbrev kW9 : Dev nD → Valuation τ sig (Elt F) := fun c => StableHlo.after hostOps4 (kW8 m ρ d0 d1 d2 d3 c)

abbrev kW10 : Dev nD → Valuation τ sig (Elt F) := fun c => StableHlo.after hostOps4_1 (kW9 m ρ d0 d1 d2 d3 c)

abbrev kW11 : Dev nD → Valuation τ sig (Elt F) := fun c => StableHlo.after hostOps4_2 (kW10 m ρ d0 d1 d2 d3 c)

abbrev kW12 : Dev nD → Valuation τ sig (Elt F) := fun c => StableHlo.after hostOps4_3 (kW11 m ρ d0 d1 d2 d3 c)

abbrev kW13 : Dev nD → Valuation τ sig (Elt F) := fun c => StableHlo.after hostOps4_4 (kW12 m ρ d0 d1 d2 d3 c)

abbrev kU13 : Cont F := fun c b => kW13 m ρ d0 d1 d2 d3 c b

def kW14 (c : Dev nD) : Valuation τ sig (Elt F) :=
  Pipeline.withArrays spec4 c (kW13 m ρ d0 d1 d2 d3 c) fun w => (d4 (kU13 m ρ d0 d1 d2 d3) c).arrAt w cfg4.N
theorem kW14_arr (c : Dev nD) (w : Fin cfg4.W) :
    kW14 m ρ d0 d1 d2 d3 d4 c (Proc.devRef .tc (Pipeline.arrRef spec4 w)) = (d4 (kU13 m ρ d0 d1 d2 d3) c).arrAt w cfg4.N := by
  unfold kW14; exact Pipeline.withArrays_arr spec4 launch4.win.arr_inj c _ _ w
theorem kW14_of_ne (c : Dev nD) (b : Ref sig .tc) (hb : ∀ w, Pipeline.arrRef spec4 w ≠ b) :
    kW14 m ρ d0 d1 d2 d3 d4 c (Proc.devRef .tc b) = kW13 m ρ d0 d1 d2 d3 c (Proc.devRef .tc b) := by
  unfold kW14; exact Pipeline.withArrays_of_ne spec4 c _ _ b hb

abbrev kU14 : Cont F := fun c b => kW14 m ρ d0 d1 d2 d3 d4 c b
theorem hF4 (c : Dev nD) (w : Fin cfg4.W) : (d4 (kU13 m ρ d0 d1 d2 d3) c).arrAt w cfg4.N = kU14 m ρ d0 d1 d2 d3 d4 c (Pipeline.arrRef spec4 w) :=
  (kW14_arr m ρ d0 d1 d2 d3 d4 c w).symm
theorem hrest4 (c : Dev nD) : ∀ b, b ∉ Finset.univ.image (Pipeline.arrRef spec4) → kU14 m ρ d0 d1 d2 d3 d4 c b = kU13 m ρ d0 d1 d2 d3 c b :=
  fun b hb => kW14_of_ne m ρ d0 d1 d2 d3 d4 c b fun w e => hb (Finset.mem_image.mpr ⟨w, Finset.mem_univ _, e⟩)

def kPdats : (p : Fin 5) → (c : Dev nD) → Dat τ (Elt F) Unit ℕ (UR sig nD τ) ℕ (Pipeline.pin (pcfgs (F := F)) adm p) c
  | ⟨0, _⟩ => fun c => d0 (kU1 m ρ) c
  | ⟨1, _⟩ => fun c => d1 (kU3 m ρ d0) c
  | ⟨2, _⟩ => fun c => d2 (kU5 m ρ d0 d1) c
  | ⟨3, _⟩ => fun c => d3 (kU7 m ρ d0 d1 d2) c
  | ⟨4, _⟩ => fun c => d4 (kU13 m ρ d0 d1 d2 d3) c
abbrev k𝒱₀ : Variants := Variants.none

abbrev kL : GSem nD τ sig → Finset Unit := fun _ => ∅
abbrev klv : GSem nD τ sig → Unit → ℕ := fun _ _ => 0

abbrev kR (c : Dev nD) : sProp 𝕄 := iprop((∃ r, prngReg c r) ∗ ∃ W, owes (c : Thread nD τ) (0 : CellTallies nD τ sig Unit) W)

abbrev kHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ k𝒱₀ kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev kTₙ (c : Dev nD) : sProp 𝕄 := iprop(StableHlo.held (c : Thread nD τ) (Pipeline.ucRefs τ sig) (kW14 m ρ d0 d1 d2 d3 d4 c) ∗ ∃ r, prngReg c r)

set_option backward.isDefEq.respectTransparency.types false in
def kReg0 :
    Pipeline.RegionSeg (pcfgs (F := F)) adm (kPdats m ρ d0 d1 d2 d3 d4) () defs₀ k𝒱₀ kL klv 0 where
  win := launch0.win.to₀
  block_pos := launch0.block_pos
  stage_whole := launch0.stage_whole
  K := PEmpty
  osem k := k.elim
  ho := Pipeline.OwnSemFacts.none _
  hbody c := (K.hb0 (kU1 m ρ) c).loose
  hwaits := Pipeline.hwaits_of_owed_zero _ _ _ _ kL klv 0 fun c t => K.ho0 (kU1 m ρ) c t
  pre c := iprop(StableHlo.held (c : Thread nD τ) (Pipeline.ucRefs τ sig) (kW1 m ρ c) ∗ kR c)
  post c := iprop(StableHlo.held (c : Thread nD τ) (Pipeline.ucRefs τ sig) (kW2 m ρ d0 c) ∗ kR c)
  X c := iprop(∃ r, prngReg c r)
  Y c := iprop(∃ r, prngReg c r)
  Z c := Pipeline.unscopedRest (Ix := Unit) (Name := ℕ) (U := UR sig nD τ) (Lvl := ℕ) spec0 c (kU1 m ρ c)
  hentry c := by
    rw [Pipeline.ownSems0_none]
    have hsplit := Pipeline.arrays_of_unscopedBufs (p := 0) (pcfgs (F := F)) adm (kPdats m ρ d0 d1 d2 d3 d4) launch0.win launch0.arr_whole c
      ((kPdats m ρ d0 d1 d2 d3 d4 0 c).share_full fun w => K.hq0 (kU1 m ρ) c w) (kU1 m ρ c) fun w => K.hA0 (kU1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 0 c).owed 0 = 0 from K.ho0 (kU1 m ρ) c 0]
      icases HO with ⟨%W, HO⟩; iexists W; isplitr
      · ipureintro; exact fun x _ => Or.inl (show x ∈ (d0 (kU1 m ρ) c).recorded 0 from by rw [K.hr0 (kU1 m ρ) c 0]; exact Set.mem_univ x)
      iexact HO
    isplitl [Hp]; · iexact Hp
    iexact Hrest
  hin c :=
    (show iprop((∃ r, prngReg c r) ∗ Pipeline.prefHeld (pcfgs (F := F) 0).pre c (fun _ => fullShare) (adm (F := F) 0).1 ∗ Pipeline.scopedRest (Pipeline.pin (pcfgs (F := F)) adm 0).spec c)
        ⊢ (Pipeline.ΦA spec0 c : sProp 𝕄) from by
      unfold Pipeline.ΦA
      iintro ⟨Hp, -, Hr⟩
      isplitl [Hr]; · iexact Hr
      iexact Hp).trans (K.hi0 (kU1 m ρ) c)
  hout c := by
    rw [Pipeline.ownSems0_none]
    exact (K.hx0 (kU1 m ρ) c).trans (show (Pipeline.ΦA spec0 c : sProp 𝕄)
        ⊢ iprop((∃ r, prngReg c r) ∗ emp ∗ Pipeline.scopedRest (Pipeline.pin (pcfgs (F := F)) adm 0).spec c) from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (kPdats m ρ d0 d1 d2 d3 d4) ((kPdats m ρ d0 d1 d2 d3 d4 0 c).share_full fun w => K.hq0 (kU1 m ρ) c w)
      (kU1 m ρ c) (kU2 m ρ d0 c) ((kPdats m ρ d0 d1 d2 d3 d4 0 c).arrAt · cfg0.N) (hF0 m ρ d0 c) (hrest0 m ρ d0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (kPdats m ρ d0 d1 d2 d3 d4 0 c).owed (Fin.last _) = 0 from K.ho0 (kU1 m ρ) c _]
    icases HO with ⟨%W, -, HO⟩; iexists W; iexact HO

set_option backward.isDefEq.respectTransparency.types false in
def kReg1 :
    Pipeline.RegionSeg (pcfgs (F := F)) adm (kPdats m ρ d0 d1 d2 d3 d4) () defs₀ k𝒱₀ kL klv 1 where
  win := launch1.win.to₀
  block_pos := launch1.block_pos
  stage_whole := launch1.stage_whole
  K := PEmpty
  osem k := k.elim
  ho := Pipeline.OwnSemFacts.none _
  hbody c := (K.hb1 (kU3 m ρ d0) c).loose
  hwaits := Pipeline.hwaits_of_owed_zero _ _ _ _ kL klv 1 fun c t => K.ho1 (kU3 m ρ d0) c t
  pre c := iprop(StableHlo.held (c : Thread nD τ) (Pipeline.ucRefs τ sig) (kW3 m ρ d0 c) ∗ kR c)
  post c := iprop(StableHlo.held (c : Thread nD τ) (Pipeline.ucRefs τ sig) (kW4 m ρ d0 d1 c) ∗ kR c)
  X c := iprop(∃ r, prngReg c r)
  Y c := iprop(∃ r, prngReg c r)
  Z c := Pipeline.unscopedRest (Ix := Unit) (Name := ℕ) (U := UR sig nD τ) (Lvl := ℕ) spec1 c (kU3 m ρ d0 c)
  hentry c := by
    rw [Pipeline.ownSems0_none]
    have hsplit := Pipeline.arrays_of_unscopedBufs (p := 1) (pcfgs (F := F)) adm (kPdats m ρ d0 d1 d2 d3 d4) launch1.win launch1.arr_whole c
      ((kPdats m ρ d0 d1 d2 d3 d4 1 c).share_full fun w => K.hq1 (kU3 m ρ d0) c w) (kU3 m ρ d0 c) fun w => K.hA1 (kU3 m ρ d0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 1 c).owed 0 = 0 from K.ho1 (kU3 m ρ d0) c 0]
      icases HO with ⟨%W, HO⟩; iexists W; isplitr
      · ipureintro; exact fun x _ => Or.inl (show x ∈ (d1 (kU3 m ρ d0) c).recorded 0 from by rw [K.hr1 (kU3 m ρ d0) c 0]; exact Set.mem_univ x)
      iexact HO
    isplitl [Hp]; · iexact Hp
    iexact Hrest
  hin c :=
    (show iprop((∃ r, prngReg c r) ∗ Pipeline.prefHeld (pcfgs (F := F) 1).pre c (fun _ => fullShare) (adm (F := F) 1).1 ∗ Pipeline.scopedRest (Pipeline.pin (pcfgs (F := F)) adm 1).spec c)
        ⊢ (Pipeline.ΦA spec1 c : sProp 𝕄) from by
      unfold Pipeline.ΦA
      iintro ⟨Hp, -, Hr⟩
      isplitl [Hr]; · iexact Hr
      iexact Hp).trans (K.hi1 (kU3 m ρ d0) c)
  hout c := by
    rw [Pipeline.ownSems0_none]
    exact (K.hx1 (kU3 m ρ d0) c).trans (show (Pipeline.ΦA spec1 c : sProp 𝕄)
        ⊢ iprop((∃ r, prngReg c r) ∗ emp ∗ Pipeline.scopedRest (Pipeline.pin (pcfgs (F := F)) adm 1).spec c) from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (kPdats m ρ d0 d1 d2 d3 d4) ((kPdats m ρ d0 d1 d2 d3 d4 1 c).share_full fun w => K.hq1 (kU3 m ρ d0) c w)
      (kU3 m ρ d0 c) (kU4 m ρ d0 d1 c) ((kPdats m ρ d0 d1 d2 d3 d4 1 c).arrAt · cfg1.N) (hF1 m ρ d0 d1 c) (hrest1 m ρ d0 d1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (kPdats m ρ d0 d1 d2 d3 d4 1 c).owed (Fin.last _) = 0 from K.ho1 (kU3 m ρ d0) c _]
    icases HO with ⟨%W, -, HO⟩; iexists W; iexact HO

set_option backward.isDefEq.respectTransparency.types false in
def kReg2 :
    Pipeline.RegionSeg (pcfgs (F := F)) adm (kPdats m ρ d0 d1 d2 d3 d4) () defs₀ k𝒱₀ kL klv 2 where
  win := launch2.win.to₀
  block_pos := launch2.block_pos
  stage_whole := launch2.stage_whole
  K := PEmpty
  osem k := k.elim
  ho := Pipeline.OwnSemFacts.none _
  hbody c := (K.hb2 (kU5 m ρ d0 d1) c).loose
  hwaits := Pipeline.hwaits_of_owed_zero _ _ _ _ kL klv 2 fun c t => K.ho2 (kU5 m ρ d0 d1) c t
  pre c := iprop(StableHlo.held (c : Thread nD τ) (Pipeline.ucRefs τ sig) (kW5 m ρ d0 d1 c) ∗ kR c)
  post c := iprop(StableHlo.held (c : Thread nD τ) (Pipeline.ucRefs τ sig) (kW6 m ρ d0 d1 d2 c) ∗ kR c)
  X c := iprop(∃ r, prngReg c r)
  Y c := iprop(∃ r, prngReg c r)
  Z c := Pipeline.unscopedRest (Ix := Unit) (Name := ℕ) (U := UR sig nD τ) (Lvl := ℕ) spec2 c (kU5 m ρ d0 d1 c)
  hentry c := by
    rw [Pipeline.ownSems0_none]
    have hsplit := Pipeline.arrays_of_unscopedBufs (p := 2) (pcfgs (F := F)) adm (kPdats m ρ d0 d1 d2 d3 d4) launch2.win launch2.arr_whole c
      ((kPdats m ρ d0 d1 d2 d3 d4 2 c).share_full fun w => K.hq2 (kU5 m ρ d0 d1) c w) (kU5 m ρ d0 d1 c) fun w => K.hA2 (kU5 m ρ d0 d1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 2 c).owed 0 = 0 from K.ho2 (kU5 m ρ d0 d1) c 0]
      icases HO with ⟨%W, HO⟩; iexists W; isplitr
      · ipureintro; exact fun x _ => Or.inl (show x ∈ (d2 (kU5 m ρ d0 d1) c).recorded 0 from by rw [K.hr2 (kU5 m ρ d0 d1) c 0]; exact Set.mem_univ x)
      iexact HO
    isplitl [Hp]; · iexact Hp
    iexact Hrest
  hin c :=
    (show iprop((∃ r, prngReg c r) ∗ Pipeline.prefHeld (pcfgs (F := F) 2).pre c (fun _ => fullShare) (adm (F := F) 2).1 ∗ Pipeline.scopedRest (Pipeline.pin (pcfgs (F := F)) adm 2).spec c)
        ⊢ (Pipeline.ΦA spec2 c : sProp 𝕄) from by
      unfold Pipeline.ΦA
      iintro ⟨Hp, -, Hr⟩
      isplitl [Hr]; · iexact Hr
      iexact Hp).trans (K.hi2 (kU5 m ρ d0 d1) c)
  hout c := by
    rw [Pipeline.ownSems0_none]
    exact (K.hx2 (kU5 m ρ d0 d1) c).trans (show (Pipeline.ΦA spec2 c : sProp 𝕄)
        ⊢ iprop((∃ r, prngReg c r) ∗ emp ∗ Pipeline.scopedRest (Pipeline.pin (pcfgs (F := F)) adm 2).spec c) from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (kPdats m ρ d0 d1 d2 d3 d4) ((kPdats m ρ d0 d1 d2 d3 d4 2 c).share_full fun w => K.hq2 (kU5 m ρ d0 d1) c w)
      (kU5 m ρ d0 d1 c) (kU6 m ρ d0 d1 d2 c) ((kPdats m ρ d0 d1 d2 d3 d4 2 c).arrAt · cfg2.N) (hF2 m ρ d0 d1 d2 c) (hrest2 m ρ d0 d1 d2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (kPdats m ρ d0 d1 d2 d3 d4 2 c).owed (Fin.last _) = 0 from K.ho2 (kU5 m ρ d0 d1) c _]
    icases HO with ⟨%W, -, HO⟩; iexists W; iexact HO

set_option backward.isDefEq.respectTransparency.types false in
def kReg3 :
    Pipeline.RegionSeg (pcfgs (F := F)) adm (kPdats m ρ d0 d1 d2 d3 d4) () defs₀ k𝒱₀ kL klv 3 where
  win := launch3.win.to₀
  block_pos := launch3.block_pos
  stage_whole := launch3.stage_whole
  K := PEmpty
  osem k := k.elim
  ho := Pipeline.OwnSemFacts.none _
  hbody c := (K.hb3 (kU7 m ρ d0 d1 d2) c).loose
  hwaits := Pipeline.hwaits_of_owed_zero _ _ _ _ kL klv 3 fun c t => K.ho3 (kU7 m ρ d0 d1 d2) c t
  pre c := iprop(StableHlo.held (c : Thread nD τ) (Pipeline.ucRefs τ sig) (kW7 m ρ d0 d1 d2 c) ∗ kR c)
  post c := iprop(StableHlo.held (c : Thread nD τ) (Pipeline.ucRefs τ sig) (kW8 m ρ d0 d1 d2 d3 c) ∗ kR c)
  X c := iprop(∃ r, prngReg c r)
  Y c := iprop(∃ r, prngReg c r)
  Z c := Pipeline.unscopedRest (Ix := Unit) (Name := ℕ) (U := UR sig nD τ) (Lvl := ℕ) spec3 c (kU7 m ρ d0 d1 d2 c)
  hentry c := by
    rw [Pipeline.ownSems0_none]
    have hsplit := Pipeline.arrays_of_unscopedBufs (p := 3) (pcfgs (F := F)) adm (kPdats m ρ d0 d1 d2 d3 d4) launch3.win launch3.arr_whole c
      ((kPdats m ρ d0 d1 d2 d3 d4 3 c).share_full fun w => K.hq3 (kU7 m ρ d0 d1 d2) c w) (kU7 m ρ d0 d1 d2 c) fun w => K.hA3 (kU7 m ρ d0 d1 d2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 3 c).owed 0 = 0 from K.ho3 (kU7 m ρ d0 d1 d2) c 0]
      icases HO with ⟨%W, HO⟩; iexists W; isplitr
      · ipureintro; exact fun x _ => Or.inl (show x ∈ (d3 (kU7 m ρ d0 d1 d2) c).recorded 0 from by rw [K.hr3 (kU7 m ρ d0 d1 d2) c 0]; exact Set.mem_univ x)
      iexact HO
    isplitl [Hp]; · iexact Hp
    iexact Hrest
  hin c :=
    (show iprop((∃ r, prngReg c r) ∗ Pipeline.prefHeld (pcfgs (F := F) 3).pre c (fun _ => fullShare) (adm (F := F) 3).1 ∗ Pipeline.scopedRest (Pipeline.pin (pcfgs (F := F)) adm 3).spec c)
        ⊢ (Pipeline.ΦA spec3 c : sProp 𝕄) from by
      unfold Pipeline.ΦA
      iintro ⟨Hp, -, Hr⟩
      isplitl [Hr]; · iexact Hr
      iexact Hp).trans (K.hi3 (kU7 m ρ d0 d1 d2) c)
  hout c := by
    rw [Pipeline.ownSems0_none]
    exact (K.hx3 (kU7 m ρ d0 d1 d2) c).trans (show (Pipeline.ΦA spec3 c : sProp 𝕄)
        ⊢ iprop((∃ r, prngReg c r) ∗ emp ∗ Pipeline.scopedRest (Pipeline.pin (pcfgs (F := F)) adm 3).spec c) from by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (kPdats m ρ d0 d1 d2 d3 d4) ((kPdats m ρ d0 d1 d2 d3 d4 3 c).share_full fun w => K.hq3 (kU7 m ρ d0 d1 d2) c w)
      (kU7 m ρ d0 d1 d2 c) (kU8 m ρ d0 d1 d2 d3 c) ((kPdats m ρ d0 d1 d2 d3 d4 3 c).arrAt · cfg3.N) (hF3 m ρ d0 d1 d2 d3 c) (hrest3 m ρ d0 d1 d2 d3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (kPdats m ρ d0 d1 d2 d3 d4 3 c).owed (Fin.last _) = 0 from K.ho3 (kU7 m ρ d0 d1 d2) c _]
    icases HO with ⟨%W, -, HO⟩; iexists W; iexact HO

set_option backward.isDefEq.respectTransparency.types false in
def kReg4 :
    Pipeline.RegionSeg (pcfgs (F := F)) adm (kPdats m ρ d0 d1 d2 d3 d4) () defs₀ k𝒱₀ kL klv 4 where
  win := launch4.win.to₀
  block_pos := launch4.block_pos
  stage_whole := launch4.stage_whole
  K := PEmpty
  osem k := k.elim
  ho := Pipeline.OwnSemFacts.none _
  hbody c := (K.hb4 (kU13 m ρ d0 d1 d2 d3) c).loose
  hwaits := Pipeline.hwaits_of_owed_zero _ _ _ _ kL klv 4 fun c t => K.ho4 (kU13 m ρ d0 d1 d2 d3) c t
  pre c := iprop(StableHlo.held (c : Thread nD τ) (Pipeline.ucRefs τ sig) (kW13 m ρ d0 d1 d2 d3 c) ∗ kR c)
  post c := iprop(kTₙ m ρ d0 d1 d2 d3 d4 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (kU13 m ρ d0 d1 d2 d3 c)
  hentry c := by
    rw [Pipeline.ownSems0_none]
    have hsplit := Pipeline.arrays_of_unscopedBufs (p := 4) (pcfgs (F := F)) adm (kPdats m ρ d0 d1 d2 d3 d4) launch4.win launch4.arr_whole c
      ((kPdats m ρ d0 d1 d2 d3 d4 4 c).share_full fun w => K.hq4 (kU13 m ρ d0 d1 d2 d3) c w) (kU13 m ρ d0 d1 d2 d3 c) fun w => K.hA4 (kU13 m ρ d0 d1 d2 d3) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 4 c).owed 0 = 0 from K.ho4 (kU13 m ρ d0 d1 d2 d3) c 0]
      icases HO with ⟨%W, HO⟩; iexists W; isplitr
      · ipureintro; exact fun x _ => Or.inl (show x ∈ (d4 (kU13 m ρ d0 d1 d2 d3) c).recorded 0 from by rw [K.hr4 (kU13 m ρ d0 d1 d2 d3) c 0]; exact Set.mem_univ x)
      iexact HO
    isplitl [Hp]; · iexact Hp
    iexact Hrest
  hin c :=
    (show iprop((∃ r, prngReg c r) ∗ Pipeline.prefHeld (pcfgs (F := F) 4).pre c (fun _ => fullShare) (adm (F := F) 4).1 ∗ Pipeline.scopedRest (Pipeline.pin (pcfgs (F := F)) adm 4).spec c)
        ⊢ (Pipeline.ΦA spec4 c : sProp 𝕄) from by
      unfold Pipeline.ΦA
      iintro ⟨Hp, -, Hr⟩
      isplitl [Hr]; · iexact Hr
      iexact Hp).trans (K.hi4 (kU13 m ρ d0 d1 d2 d3) c)
  hout c := by
    rw [Pipeline.ownSems0_none]
    exact (K.hx4 (kU13 m ρ d0 d1 d2 d3) c).trans (show (Pipeline.ΦA spec4 c : sProp 𝕄)
        ⊢ iprop((∃ r, prngReg c r) ∗ emp ∗ Pipeline.scopedRest (Pipeline.pin (pcfgs (F := F)) adm 4).spec c) from by
      unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (kPdats m ρ d0 d1 d2 d3 d4) ((kPdats m ρ d0 d1 d2 d3 d4 4 c).share_full fun w => K.hq4 (kU13 m ρ d0 d1 d2 d3) c w)
      (kU13 m ρ d0 d1 d2 d3 c) (kU14 m ρ d0 d1 d2 d3 d4 c) ((kPdats m ρ d0 d1 d2 d3 d4 4 c).arrAt · cfg4.N) (hF4 m ρ d0 d1 d2 d3 d4 c) (hrest4 m ρ d0 d1 d2 d3 d4 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (kPdats m ρ d0 d1 d2 d3 d4 4 c).owed (Fin.last _) = 0 from K.ho4 (kU13 m ρ d0 d1 d2 d3) c _]
    icases HO with ⟨%W, -, HO⟩; iexists W; iexact HO

abbrev kSegs :
    List (Pipeline.Seg (pcfgs (F := F)) adm (kPdats m ρ d0 d1 d2 d3 d4) () defs₀ k𝒱₀ kL klv) :=
  [ .host (kHseg hostOps0 hostOps0_sub hostOps0_fresh (kW0 m ρ)),
    .region (kReg0 m ρ d0 d1 d2 d3 d4 K),
    .host (kHseg hostOps1 hostOps1_sub hostOps1_fresh (kW2 m ρ d0)),
    .region (kReg1 m ρ d0 d1 d2 d3 d4 K),
    .host (kHseg hostOps2 hostOps2_sub hostOps2_fresh (kW4 m ρ d0 d1)),
    .region (kReg2 m ρ d0 d1 d2 d3 d4 K),
    .host (kHseg hostOps3 hostOps3_sub hostOps3_fresh (kW6 m ρ d0 d1 d2)),
    .region (kReg3 m ρ d0 d1 d2 d3 d4 K),
    .host (kHseg hostOps4 hostOps4_sub hostOps4_fresh (kW8 m ρ d0 d1 d2 d3)),
    .host (kHseg hostOps4_1 hostOps4_1_sub hostOps4_1_fresh (kW9 m ρ d0 d1 d2 d3)),
    .host (kHseg hostOps4_2 hostOps4_2_sub hostOps4_2_fresh (kW10 m ρ d0 d1 d2 d3)),
    .host (kHseg hostOps4_3 hostOps4_3_sub hostOps4_3_fresh (kW11 m ρ d0 d1 d2 d3)),
    .host (kHseg hostOps4_4 hostOps4_4_sub hostOps4_4_fresh (kW12 m ρ d0 d1 d2 d3)),
    .region (kReg4 m ρ d0 d1 d2 d3 d4 K) ]

theorem kMain_run (c : Dev nD) :
    main (F := F) c = Pipeline.Seg.run (kSegs m ρ d0 d1 d2 d3 d4 K) := (main_chain c).trans (by chain_rfl)

include K
set_option backward.isDefEq.respectTransparency.types false in
theorem run_all :
    θ_run defs (onTc (τ := τ) (main (F := F))) ⟨m, fun _ => 0, ρ⟩ (fun r => ∀ c : Dev nD,
      ∀ b ∈ Pipeline.ucRefs τ sig, r.2.mem (((c : Thread nD τ)).1, b) = kW14 m ρ d0 d1 d2 d3 d4 c b) :=
  Pipeline.θ_run_regions_kit (pcfgs (F := F)) adm (kPdats m ρ d0 d1 d2 d3 d4) () cellOf_inj emb₁ defs₀ k𝒱₀ kL klv m ρ main (kSegs m ρ d0 d1 d2 d3 d4 K)
    (fun c Q => by rw [kMain_run m ρ d0 d1 d2 d3 d4 K c])
    (by simp only [kSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (kW0 m ρ c) ∗ kR c)) (Tₙ := kTₙ m ρ d0 d1 d2 d3 d4)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach kL klv fun c => ?_
      rw [show unscopedBufs c (fun b => m ((c : Thread nD τ).loc b)) = StableHlo.held (c : Thread nD τ) (Pipeline.ucRefs τ sig) (kW0 m ρ c)
        from Pipeline.unscopedBufs_held c (kW0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = kW14 m ρ d0 d1 d2 d3 d4 c b)
    (hfin := fun c s' => by
      iintro ⟨⟨Hh, -⟩, HSI⟩
      unfold StableHlo.held
      imodintro
      iapply (pointsTo_read_all (Pipeline.ucRefs τ sig) (fun b => (((c : Thread nD τ)).1, b)) (kW14 m ρ d0 d1 d2 d3 d4 c) s')
      isplitl [Hh] <;> iassumption)
    (hQ := fun s h c => h c)

end Run

end Cert.Kernel.Hand

end
-- ==== Proof.WRunArgs.lean ====
import proofs.«412881_j60095182405865_1_alg».proof.Proof.WRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- Across a region a buffer changes only if it is the array of one of the region's windows, and then only as that array does.
theorem withArrays_in {gr W : ℕ} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16]

section RunArgs

variable (m : (ℓ : Loc nD τ sig) → Buf (Elt F) ℓ) (ρ : Dev nD → PrngReg)

variable (d0 : Cont F → (c : Dev nD) → Dat τ (Elt F) Unit ℕ (UR sig nD τ) ℕ cfg0 c)
variable (d1 : Cont F → (c : Dev nD) → Dat τ (Elt F) Unit ℕ (UR sig nD τ) ℕ cfg1 c)
variable (d2 : Cont F → (c : Dev nD) → Dat τ (Elt F) Unit ℕ (UR sig nD τ) ℕ cfg2 c)
variable (d3 : Cont F → (c : Dev nD) → Dat τ (Elt F) Unit ℕ (UR sig nD τ) ℕ cfg3 c)
variable (d4 : Cont F → (c : Dev nD) → Dat τ (Elt F) Unit ℕ (UR sig nD τ) ℕ cfg4 c)
variable (hA0 : ∀ (V : Cont F) (c : Dev nD) (w : Fin cfg0.W), (d0 V c).A w = V c (Pipeline.arrRef spec0 w))
variable (hA2 : ∀ (V : Cont F) (c : Dev nD) (w : Fin cfg2.W), (d2 V c).A w = V c (Pipeline.arrRef spec2 w))
variable (hA4 : ∀ (V : Cont F) (c : Dev nD) (w : Fin cfg4.W), (d4 V c).A w = V c (Pipeline.arrRef spec4 w))

-- No host stretch writes an argument and no region has one as the array of an output window, so at every boundary
-- of @main an argument's buffer holds what the launch memory held.
theorem kW0_arg (c : Dev nD) (b : Ref sig .tc) (hb : b ∈ argRefs) :
    kW0 m ρ c (Proc.devRef .tc b) = m ((c : Thread nD τ).loc b) := rfl
theorem kW1_arg (c : Dev nD) (b : Ref sig .tc) (hb : b ∈ argRefs) :
    kW1 m ρ c (Proc.devRef .tc b) = m ((c : Thread nD τ).loc b) :=
  (StableHlo.after_of_writes_sub hostOps0 _ hostOps0_writes ((by decide : ∀ b ∈ argRefs, b ∉ hostOps0_W) b hb)).trans (kW0_arg m ρ c b hb)
include hA0
theorem kW2_arg (c : Dev nD) (b : Ref sig .tc) (hb : b ∈ argRefs) :
    kW2 m ρ d0 c (Proc.devRef .tc b) = m ((c : Thread nD τ).loc b) := by
  unfold kW2
  exact (withArrays_in spec0 launch0.win.arr_inj c _ _ b fun w e =>
    ((d0 (kU1 m ρ) c).arrAt_in w ((by decide : ∀ b ∈ argRefs, ∀ w, Pipeline.arrRef spec0 w = b → (cfg0.win w).isOut = false) b hb w e) _).trans
      (hA0 (kU1 m ρ) c w)).trans (kW1_arg m ρ c b hb)
theorem kW3_arg (c : Dev nD) (b : Ref sig .tc) (hb : b ∈ argRefs) :
    kW3 m ρ d0 c (Proc.devRef .tc b) = m ((c : Thread nD τ).loc b) :=
  (StableHlo.after_of_writes_sub hostOps1 _ hostOps1_writes ((by decide : ∀ b ∈ argRefs, b ∉ hostOps1_W) b hb)).trans (kW2_arg m ρ d0 hA0 c b hb)
theorem kW4_arg (c : Dev nD) (b : Ref sig .tc) (hb : b ∈ argRefs) :
    kW4 m ρ d0 d1 c (Proc.devRef .tc b) = m ((c : Thread nD τ).loc b) :=
  (kW4_of_ne m ρ d0 d1 c b ((by decide : ∀ b ∈ argRefs, ∀ w, Pipeline.arrRef spec1 w ≠ b) b hb)).trans (kW3_arg m ρ d0 hA0 c b hb)
theorem kW5_arg (c : Dev nD) (b : Ref sig .tc) (hb : b ∈ argRefs) :
    kW5 m ρ d0 d1 c (Proc.devRef .tc b) = m ((c : Thread nD τ).loc b) :=
  (StableHlo.after_of_writes_sub hostOps2 _ hostOps2_writes ((by decide : ∀ b ∈ argRefs, b ∉ hostOps2_W) b hb)).trans (kW4_arg m ρ d0 d1 hA0 c b hb)
include hA2
theorem kW6_arg (c : Dev nD) (b : Ref sig .tc) (hb : b ∈ argRefs) :
    kW6 m ρ d0 d1 d2 c (Proc.devRef .tc b) = m ((c : Thread nD τ).loc b) := by
  unfold kW6
  exact (withArrays_in spec2 launch2.win.arr_inj c _ _ b fun w e =>
    ((d2 (kU5 m ρ d0 d1) c).arrAt_in w ((by decide : ∀ b ∈ argRefs, ∀ w, Pipeline.arrRef spec2 w = b → (cfg2.win w).isOut = false) b hb w e) _).trans
      (hA2 (kU5 m ρ d0 d1) c w)).trans (kW5_arg m ρ d0 d1 hA0 c b hb)
theorem kW7_arg (c : Dev nD) (b : Ref sig .tc) (hb : b ∈ argRefs) :
    kW7 m ρ d0 d1 d2 c (Proc.devRef .tc b) = m ((c : Thread nD τ).loc b) :=
  (StableHlo.after_of_writes_sub hostOps3 _ hostOps3_writes ((by decide : ∀ b ∈ argRefs, b ∉ hostOps3_W) b hb)).trans (kW6_arg m ρ d0 d1 d2 hA0 hA2 c b hb)
theorem kW8_arg (c : Dev nD) (b : Ref sig .tc) (hb : b ∈ argRefs) :
    kW8 m ρ d0 d1 d2 d3 c (Proc.devRef .tc b) = m ((c : Thread nD τ).loc b) :=
  (kW8_of_ne m ρ d0 d1 d2 d3 c b ((by decide : ∀ b ∈ argRefs, ∀ w, Pipeline.arrRef spec3 w ≠ b) b hb)).trans (kW7_arg m ρ d0 d1 d2 hA0 hA2 c b hb)
theorem kW9_arg (c : Dev nD) (b : Ref sig .tc) (hb : b ∈ argRefs) :
    kW9 m ρ d0 d1 d2 d3 c (Proc.devRef .tc b) = m ((c : Thread nD τ).loc b) :=
  (StableHlo.after_of_writes_sub hostOps4 _ hostOps4_writes ((by decide : ∀ b ∈ argRefs, b ∉ hostOps4_W) b hb)).trans (kW8_arg m ρ d0 d1 d2 d3 hA0 hA2 c b hb)
theorem kW10_arg (c : Dev nD) (b : Ref sig .tc) (hb : b ∈ argRefs) :
    kW10 m ρ d0 d1 d2 d3 c (Proc.devRef .tc b) = m ((c : Thread nD τ).loc b) :=
  (StableHlo.after_of_writes_sub hostOps4_1 _ hostOps4_1_writes ((by decide : ∀ b ∈ argRefs, b ∉ hostOps4_1_W) b hb)).trans (kW9_arg m ρ d0 d1 d2 d3 hA0 hA2 c b hb)
theorem kW11_arg (c : Dev nD) (b : Ref sig .tc) (hb : b ∈ argRefs) :
    kW11 m ρ d0 d1 d2 d3 c (Proc.devRef .tc b) = m ((c : Thread nD τ).loc b) :=
  (StableHlo.after_of_writes_sub hostOps4_2 _ hostOps4_2_writes ((by decide : ∀ b ∈ argRefs, b ∉ hostOps4_2_W) b hb)).trans (kW10_arg m ρ d0 d1 d2 d3 hA0 hA2 c b hb)
theorem kW12_arg (c : Dev nD) (b : Ref sig .tc) (hb : b ∈ argRefs) :
    kW12 m ρ d0 d1 d2 d3 c (Proc.devRef .tc b) = m ((c : Thread nD τ).loc b) :=
  (StableHlo.after_of_writes_sub hostOps4_3 _ hostOps4_3_writes ((by decide : ∀ b ∈ argRefs, b ∉ hostOps4_3_W) b hb)).trans (kW11_arg m ρ d0 d1 d2 d3 hA0 hA2 c b hb)
theorem kW13_arg (c : Dev nD) (b : Ref sig .tc) (hb : b ∈ argRefs) :
    kW13 m ρ d0 d1 d2 d3 c (Proc.devRef .tc b) = m ((c : Thread nD τ).loc b) :=
  (StableHlo.after_of_writes_sub hostOps4_4 _ hostOps4_4_writes ((by decide : ∀ b ∈ argRefs, b ∉ hostOps4_4_W) b hb)).trans (kW12_arg m ρ d0 d1 d2 d3 hA0 hA2 c b hb)
include hA4
theorem kW14_arg (c : Dev nD) (b : Ref sig .tc) (hb : b ∈ argRefs) :
    kW14 m ρ d0 d1 d2 d3 d4 c (Proc.devRef .tc b) = m ((c : Thread nD τ).loc b) := by
  unfold kW14
  exact (withArrays_in spec4 launch4.win.arr_inj c _ _ b fun w e =>
    ((d4 (kU13 m ρ d0 d1 d2 d3) c).arrAt_in w ((by decide : ∀ b ∈ argRefs, ∀ w, Pipeline.arrRef spec4 w = b → (cfg4.win w).isOut = false) b hb w e) _).trans
      (hA4 (kU13 m ρ d0 d1 d2 d3) c w)).trans (kW13_arg m ρ d0 d1 d2 d3 hA0 hA2 c b hb)

end RunArgs

end Cert.Kernel.Hand

end
-- ==== Proof.WReg0.lean ====
import proofs.«412881_j60095182405865_1_alg».proof.Proof.Gen.Kernel.Launch
import proofs.«412881_j60095182405865_1_alg».proof.Proof.Gen.Kernel.Skeleton
import proofs.«412881_j60095182405865_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem offZ : (![0, 0] : Fin 2 → ℕ) = fun _ => 0 := funext fun a => by fin_cases a <;> rfl

abbrev isFirst0 (i : grid0.Coords) : Prop := (Scalar.cmpi .ne (Scalar.extui (Scalar.cmpi .eq (BitVec.ofNat 32 (i 0).val) 0#32)) 0#32) = 1#1

abbrev isLast0 (i : grid0.Coords) : Prop := k0_cond2 i = 1#1

theorem store_last {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

theorem storeRow_last {sp : Space} (v : View sig .tc sp S1x128 .f32) (f : v.ty.Contents (Elt F)) (inb : ∀ a, (![0, 0] : Fin 2 → ℕ) a + S1x128.size a ≤ S1x128.size a)
    (w : S1x128.Idx → Elt F .f32) (L : List (View.Piece (Elt F) S1x128 .f32)) :
    v.read (Elt F) (v.writes (Elt F) f (⟨Rect.unit ![0, 0] S1x128.size inb, w⟩ :: L)) = w :=
  store_last v f offZ inb w L

theorem storeBlk_last {sp : Space} (v : View sig .tc sp S5000x128 .f32) (f : v.ty.Contents (Elt F)) (inb : ∀ a, (![0, 0] : Fin 2 → ℕ) a + S5000x128.size a ≤ S5000x128.size a)
    (w : S5000x128.Idx → Elt F .f32) (L : List (View.Piece (Elt F) S5000x128 .f32)) :
    v.read (Elt F) (v.writes (Elt F) f (⟨Rect.unit ![0, 0] S5000x128.size inb, w⟩ :: L)) = w :=
  store_last v f offZ inb w L

theorem loadRow_after {sp : Space} (v : View sig .tc sp S1x128 .f32) (inb : ∀ a, (![0, 0] : Fin 2 → ℕ) a + S1x128.size a ≤ S1x128.size a) (w : S1x128.Idx → Elt F .f32) :
    v.readCov [(⟨Rect.unit ![0, 0] S1x128.size inb, w⟩ : View.Piece (Elt F) S1x128 .f32)] (Rect.unit ![0, 0] S1x128.size inb).toLoadRect = w :=
  View.readCov_unit_zero v offZ inb w

def mlpBlk0 (x0 x1 : Vec F S5000x128 .f32) (w1 : Vec F S128x128 .f32) (b1 : Vec F S1x128 .f32) (w2 : Vec F S128x128 .f32) (b2 : Vec F S1x128 .f32) : Vec F S5000x128 .f32 :=
  k0_pay4 x0 x1 w1 w2 b1 b2

def sumStep0 (x0 x1 : Vec F S5000x128 .f32) (w1 : Vec F S128x128 .f32) (b1 : Vec F S1x128 .f32) (w2 : Vec F S128x128 .f32) (b2 : Vec F S1x128 .f32) (s : Vec F S1x128 .f32) : Vec F S1x128 .f32 :=
  k0_pay5 x0 x1 w1 w2 b1 b2 s

def sqStep0 (h : Vec F S5000x128 .f32) (q : Vec F S1x128 .f32) : Vec F S1x128 .f32 :=
  k0_pay1 h q

def zeroSum0 : Vec F S1x128 .f32 := k0_pay2
def zeroSq0 : Vec F S1x128 .f32 := k0_pay3

set_option maxHeartbeats 4000000 in
theorem run0_mid (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬isFirst0 i) (hc2 : ¬isLast0 i)
    (x0 x1 : Vec F S5000x128 .f32) (w1 : Vec F S128x128 .f32) (b1 : Vec F S1x128 .f32) (w2 : Vec F S128x128 .f32) (b2 : Vec F S1x128 .f32)
    (y7 y8 s q : Vec F S1x128 .f32) (K : PUnit → sProp 𝕄) :
    iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ (∃ d, owns (c : Thread nD τ) arg7 fullShare d) ∗ owns (c : Thread nD τ) arg8 fullShare y7 ∗ owns (c : Thread nD τ) arg9 fullShare y8 ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare (mlpBlk0 x0 x1 w1 b1 w2 b2) ∗ owns (c : Thread nD τ) arg8 fullShare y7 ∗ owns (c : Thread nD τ) arg9 fullShare y8 ∗ owns (c : Thread nD τ) arg10 fullShare (sumStep0 x0 x1 w1 b1 w2 b2 s) ∗ owns (c : Thread nD τ) arg11 fullShare (sqStep0 (mlpBlk0 x0 x1 w1 b1 w2 b2) q)) -∗ K ⟨⟩))
      ⊢ wp frame (wpE (defs₀ (F := F)) Variants.none c none) E (cc0__mlp_reduce_kernel i arg1 harg1 arg2 harg2 arg3 harg3 arg4 harg4 arg5 harg5 arg6 harg6 arg7 harg7 arg8 harg8 arg9 harg9 arg10 harg10 arg11 harg11) K := by
  simp only [cc0__mlp_reduce_kernel_eq_skeleton]; unfold cc0__mlp_reduce_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  subst hf1 hf2 hf3 hf4 hf5 hf6 hf8 hf9 hf10 hf11
  sl_exec (disch := first | exact hc1 | exact hc2)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H8]; · iexists _; isplitr; · ipureintro; rfl
                  iexact H8
  isplitl [H9]; · iexists _; isplitr; · ipureintro; rfl
                  iexact H9
  isplitl [H10]
  · iexists _; isplitr
    swap; · iexact H10
    ipureintro
    refine (storeRow_last _ _ _ _ _).trans ?_
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    simp only [View.readAt_eq_ld, View.ld_unit_zero (S := S1x128) offZ, View.ld_unit_zero (S := S5000x128) offZ, View.ld_unit_zero (S := S128x128) offZ]
    rfl

set_option maxHeartbeats 4000000 in
theorem run0_first (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : isFirst0 i) (hc2 : ¬isLast0 i)
    (x0 x1 : Vec F S5000x128 .f32) (w1 : Vec F S128x128 .f32) (b1 : Vec F S1x128 .f32) (w2 : Vec F S128x128 .f32) (b2 : Vec F S1x128 .f32)
    (y7 y8 : Vec F S1x128 .f32) (K : PUnit → sProp 𝕄) :
    iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ (∃ d, owns (c : Thread nD τ) arg7 fullShare d) ∗ owns (c : Thread nD τ) arg8 fullShare y7 ∗ owns (c : Thread nD τ) arg9 fullShare y8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare (mlpBlk0 x0 x1 w1 b1 w2 b2) ∗ owns (c : Thread nD τ) arg8 fullShare y7 ∗ owns (c : Thread nD τ) arg9 fullShare y8 ∗ owns (c : Thread nD τ) arg10 fullShare (sumStep0 x0 x1 w1 b1 w2 b2 zeroSum0) ∗ owns (c : Thread nD τ) arg11 fullShare (sqStep0 (mlpBlk0 x0 x1 w1 b1 w2 b2) zeroSq0)) -∗ K ⟨⟩))
      ⊢ wp frame (wpE (defs₀ (F := F)) Variants.none c none) E (cc0__mlp_reduce_kernel i arg1 harg1 arg2 harg2 arg3 harg3 arg4 harg4 arg5 harg5 arg6 harg6 arg7 harg7 arg8 harg8 arg9 harg9 arg10 harg10 arg11 harg11) K := by
  simp only [cc0__mlp_reduce_kernel_eq_skeleton]; unfold cc0__mlp_reduce_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, Hk⟩
  subst hf1 hf2 hf3 hf4 hf5 hf6 hf8 hf9
  sl_exec (disch := first | exact hc1 | exact hc2)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H8]; · iexists _; isplitr; · ipureintro; rfl
                  iexact H8
  isplitl [H9]; · iexists _; isplitr; · ipureintro; rfl
                  iexact H9
  isplitl [H10]
  · iexists _; isplitr
    swap; · iexact H10
    ipureintro
    refine (storeRow_last _ _ _ _ _).trans ?_
    unfold run0_first.sl.v26 run0_first.sl.H10_1
    rw [loadRow_after]
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    unfold run0_first.sl.v33 run0_first.sl.H11_1
    rw [loadRow_after]
    simp only [View.readAt_eq_ld, View.ld_unit_zero (S := S1x128) offZ, View.ld_unit_zero (S := S5000x128) offZ, View.ld_unit_zero (S := S128x128) offZ]
    rfl

set_option maxHeartbeats 4000000 in
theorem run0_last (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬isFirst0 i) (hc2 : isLast0 i)
    (x0 x1 : Vec F S5000x128 .f32) (w1 : Vec F S128x128 .f32) (b1 : Vec F S1x128 .f32) (w2 : Vec F S128x128 .f32) (b2 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare (mlpBlk0 x0 x1 w1 b1 w2 b2) ∗ owns (c : Thread nD τ) arg8 fullShare (sumStep0 x0 x1 w1 b1 w2 b2 s) ∗ owns (c : Thread nD τ) arg9 fullShare (sqStep0 (mlpBlk0 x0 x1 w1 b1 w2 b2) q) ∗ owns (c : Thread nD τ) arg10 fullShare (sumStep0 x0 x1 w1 b1 w2 b2 s) ∗ owns (c : Thread nD τ) arg11 fullShare (sqStep0 (mlpBlk0 x0 x1 w1 b1 w2 b2) q)) -∗ K ⟨⟩))
      ⊢ wp frame (wpE (defs₀ (F := F)) Variants.none c none) E (cc0__mlp_reduce_kernel i arg1 harg1 arg2 harg2 arg3 harg3 arg4 harg4 arg5 harg5 arg6 harg6 arg7 harg7 arg8 harg8 arg9 harg9 arg10 harg10 arg11 harg11) K := by
  simp only [cc0__mlp_reduce_kernel_eq_skeleton]; unfold cc0__mlp_reduce_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  subst hf1 hf2 hf3 hf4 hf5 hf6 hf10 hf11
  sl_exec (disch := first | exact hc1 | exact hc2)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H8]
  · iexists _; isplitr
    swap; · iexact H8
    ipureintro
    refine (storeRow_last _ _ _ _ _).trans ?_
    unfold run0_last.sl.v44 run0_last.sl.H10_1
    rw [loadRow_after]
    simp only [View.readAt_eq_ld, View.ld_unit_zero (S := S1x128) offZ, View.ld_unit_zero (S := S5000x128) offZ, View.ld_unit_zero (S := S128x128) offZ]
    rfl
  isplitl [H9]
  · iexists _; isplitr
    swap; · iexact H9
    ipureintro
    refine (storeRow_last _ _ _ _ _).trans ?_
    unfold run0_last.sl.v46 run0_last.sl.H11_1
    rw [loadRow_after]
    simp only [View.readAt_eq_ld, View.ld_unit_zero (S := S1x128) offZ, View.ld_unit_zero (S := S5000x128) offZ, View.ld_unit_zero (S := S128x128) offZ]
    rfl
  isplitl [H10]
  · iexists _; isplitr
    swap; · iexact H10
    ipureintro
    refine (storeRow_last _ _ _ _ _).trans ?_
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    simp only [View.readAt_eq_ld, View.ld_unit_zero (S := S1x128) offZ, View.ld_unit_zero (S := S5000x128) offZ, View.ld_unit_zero (S := S128x128) offZ]
    rfl

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem first_iff0 : ∀ t : Fin cfg0.N, isFirst0 (grid0.coords t) ↔ t.val = 0 :=
  (by decide +kernel : ∀ t : Fin grid0.N, isFirst0 (grid0.coords t) ↔ t.val = 0)
theorem last_iff0 : ∀ t : Fin cfg0.N, isLast0 (grid0.coords t) ↔ t.val = 19 :=
  (by decide +kernel : ∀ t : Fin grid0.N, isLast0 (grid0.coords t) ↔ t.val = 19)

theorem idle0_7 : ∀ t : Fin cfg0.N, ¬isLast0 (grid0.coords t) → cfg0.idle 7 (grid0.coords t) = true := by decide +kernel
theorem idle0_8 : ∀ t : Fin cfg0.N, ¬isLast0 (grid0.coords t) → cfg0.idle 8 (grid0.coords t) = true := by decide +kernel
theorem noFlush0_7 : ∀ t : Fin cfg0.N, ¬isLast0 (grid0.coords t) → (cfg0.win 7).flush t = false := by decide +kernel
theorem noFlush0_8 : ∀ t : Fin cfg0.N, ¬isLast0 (grid0.coords t) → (cfg0.win 8).flush t = false := by decide +kernel
theorem live0_7 : ∀ t : Fin cfg0.N, isLast0 (grid0.coords t) → cfg0.idle 7 (grid0.coords t) = false := by decide +kernel
theorem live0_8 : ∀ t : Fin cfg0.N, isLast0 (grid0.coords t) → cfg0.idle 8 (grid0.coords t) = false := by decide +kernel

def hidAt0 (c : Dev nD) (t : Fin cfg0.N) : Vec F S5000x128 .f32 :=
  mlpBlk0 (iblk0 V c 0 t) (iblk0 V c 1 t) (iblk0 V c 2 t) (iblk0 V c 3 t) (iblk0 V c 4 t) (iblk0 V c 5 t)

def sumAt0 (c : Dev nD) (t : Fin cfg0.N) (s : Vec F S1x128 .f32) : Vec F S1x128 .f32 :=
  sumStep0 (iblk0 V c 0 t) (iblk0 V c 1 t) (iblk0 V c 2 t) (iblk0 V c 3 t) (iblk0 V c 4 t) (iblk0 V c 5 t) s

def accAt0 (c : Dev nD) : (n : ℕ) → n < cfg0.N → Vec F S1x128 .f32 × Vec F S1x128 .f32
  | 0, hn => (sumAt0 V c ⟨0, hn⟩ zeroSum0, sqStep0 (hidAt0 V c ⟨0, hn⟩) zeroSq0)
  | n + 1, hn => (sumAt0 V c ⟨n + 1, hn⟩ (accAt0 c n (Nat.lt_of_succ_lt hn)).1,
      sqStep0 (hidAt0 V c ⟨n + 1, hn⟩) (accAt0 c n (Nat.lt_of_succ_lt hn)).2)

theorem accAt0_first (c : Dev nD) (t : Fin cfg0.N) (h : t.val = 0) :
    accAt0 V c t.val t.isLt = (sumAt0 V c t zeroSum0, sqStep0 (hidAt0 V c t) zeroSq0) := by
  obtain ⟨n, hn⟩ := t
  cases n with
  | zero => rfl
  | succ n => exact absurd h (Nat.succ_ne_zero n)

theorem accAt0_later (c : Dev nD) (t : Fin cfg0.N) (h : t.val ≠ 0) :
    accAt0 V c t.val t.isLt = (sumAt0 V c t (accAt0 V c (t.val - 1) (Nat.lt_of_le_of_lt (Nat.sub_le _ _) t.isLt)).1,
      sqStep0 (hidAt0 V c t) (accAt0 V c (t.val - 1) (Nat.lt_of_le_of_lt (Nat.sub_le _ _) t.isLt)).2) := by
  obtain ⟨n, hn⟩ := t
  cases n with
  | zero => exact absurd rfl h
  | succ n => rfl

abbrev scSum0 : Memref sig .tc .vmem S1x128 .f32 := Memref.whole cc0_scratch0
abbrev scSq0 : Memref sig .tc .vmem S1x128 .f32 := Memref.whole cc0_scratch1

abbrev restBut0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scSum0 fullShare d) ∗ (∃ d, owns (c : Thread nD τ) scSq0 fullShare d)) ∗ restBut0 c) ∗ (∃ r, prngReg c r)) := by
  unfold Pipeline.ΦA; rw [scopedRest0_split]; simp only [scSum0, scSq0, owns_whole]; try rfl

def PhiS0 (c : Dev nD) : (n : ℕ) → n ≤ cfg0.N → sProp 𝕄
  | 0, _ => Pipeline.ΦA spec0 c
  | n + 1, hn => iprop(iprop(iprop(owns (c : Thread nD τ) scSum0 fullShare (accAt0 V c n hn).1 ∗ owns (c : Thread nD τ) scSq0 fullShare (accAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scSum0 fullShare (accAt0 V c n hn).1 ∗ owns (c : Thread nD τ) scSq0 fullShare (accAt0 V c n hn).2) ∗ restBut0 c) ∗ (∃ r, prngReg c r)) := rfl

theorem PhiS0_pos (c : Dev nD) (n : ℕ) (h : n ≤ cfg0.N) (hz : n ≠ 0) :
    PhiS0 V c n h = iprop(iprop(iprop(owns (c : Thread nD τ) scSum0 fullShare (accAt0 V c (n - 1) (by omega)).1 ∗ owns (c : Thread nD τ) scSq0 fullShare (accAt0 V c (n - 1) (by omega)).2) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => hidAt0 V c t
    | ⟨7, _⟩ => (accAt0 V c t.val t.isLt).1
    | ⟨8, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = hidAt0 V c t := by dsimp only [dat0]
theorem after0_7 (c : Dev nD) (t : Fin cfg0.N) : (dat0 V c).after 7 t = (accAt0 V c t.val t.isLt).1 := by dsimp only [dat0]
theorem after0_8 (c : Dev nD) (t : Fin cfg0.N) : (dat0 V c).after 8 t = (accAt0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (dat0 V c).leavesExact 7 t
    ∗ (dat0 V c).leavesExact 8 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6]
  have hN : t.val < 20 := lt_of_lt_of_eq t.isLt (show cfg0.N = 20 from N_0)
  by_cases hz : t.val = 0
  ·
    have hF : isFirst0 (grid0.coords t) := (first_iff0 t).mpr hz
    have hL : ¬isLast0 (grid0.coords t) := fun h => by have := (last_iff0 t).mp h; omega
    rw [Dat.leavesExact_idle (dat0 V c) 7 t (idle0_7 t hL) (noFlush0_7 t hL), Dat.leavesExact_idle (dat0 V c) 8 t (idle0_8 t hL) (noFlush0_8 t hL)]
    rw [accAt0_first V c t hz]
    rw [PhiS0_castSucc V c t, PhiS0_zero V c _ _ hz, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_first c Set.univ (grid0.coords t) _ _ _ _ _ _ _ _ _ _ _ _ _ _ _ _ _ _ _ _ _ _ hF hL (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · by_cases hl : t.val = 19
    ·
      have hF : ¬isFirst0 (grid0.coords t) := fun h => hz ((first_iff0 t).mp h)
      have hL : isLast0 (grid0.coords t) := (last_iff0 t).mpr hl
      rw [show (dat0 V c).leavesExact 7 t = owns (c : Thread nD τ) (st0_7 t) fullShare ((dat0 V c).after 7 t) from by
        unfold Dat.leavesExact; rw [live0_7 t hL], after0_7]
      rw [show (dat0 V c).leavesExact 8 t = owns (c : Thread nD τ) (st0_8 t) fullShare ((dat0 V c).after 8 t) from by
        unfold Dat.leavesExact; rw [live0_8 t hL], after0_8]
      rw [accAt0_later V c t hz]
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_last c Set.univ (grid0.coords t) _ _ _ _ _ _ _ _ _ _ _ _ _ _ _ _ _ _ _ _ _ _ hF hL (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    ·
      have hF : ¬isFirst0 (grid0.coords t) := fun h => hz ((first_iff0 t).mp h)
      have hL : ¬isLast0 (grid0.coords t) := fun h => hl ((last_iff0 t).mp h)
      rw [Dat.leavesExact_idle (dat0 V c) 7 t (idle0_7 t hL) (noFlush0_7 t hL), Dat.leavesExact_idle (dat0 V c) 8 t (idle0_8 t hL) (noFlush0_8 t hL)]
      rw [accAt0_later V c t hz]
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_mid c Set.univ (grid0.coords t) _ _ _ _ _ _ _ _ _ _ _ _ _ _ _ _ _ _ _ _ _ _ hF hL (iblk0 V c 0 t) (iblk0 V c 1 t) (iblk0 V c 2 t) (iblk0 V c 3 t) (iblk0 V c 4 t) (iblk0 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 20 := N_0; omega)

end

end Cert.Kernel.Hand

end
-- ==== Proof.WReg1.lean ====
import proofs.«412881_j60095182405865_1_alg».proof.Proof.Gen.Kernel.Launch
import proofs.«412881_j60095182405865_1_alg».proof.Proof.Gen.Kernel.Skeleton
import proofs.«412881_j60095182405865_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem holds1_h_of {c : Dev nD} (dat : Dat τ (Elt F) Unit ℕ (UR sig nD τ) ℕ cfg1 c)
    (hA : dat.A 0 = V c (Pipeline.arrRef spec1 0)) (hafter : ∀ t, dat.after 0 t = blk1 V c 0 t)
    (t : Fin cfg1.N) (d) : dat.before 0 t d = blk1 V c 0 t :=
  (dat.before_in_eq_fetched 0 rfl (fun _ => rfl) (fun _ _ _ => rfl)
    (fun t => by rw [hafter]; unfold Dat.blockOf blk1; rw [hA]; try rfl) t d).trans
    (by unfold Dat.fetched Dat.blockOf blk1; rw [hA]; try rfl)

theorem holds1_scale_of {c : Dev nD} (dat : Dat τ (Elt F) Unit ℕ (UR sig nD τ) ℕ cfg1 c)
    (hA : dat.A 1 = V c (Pipeline.arrRef spec1 1)) (hafter : ∀ t, dat.after 1 t = blk1 V c 1 t)
    (t : Fin cfg1.N) (d) : dat.before 1 t d = blk1 V c 1 t :=
  (dat.before_in_eq_fetched 1 rfl (fun _ => rfl) (fun _ _ _ => rfl)
    (fun t => by rw [hafter]; unfold Dat.blockOf blk1; rw [hA]; try rfl) t d).trans
    (by unfold Dat.fetched Dat.blockOf blk1; rw [hA]; try rfl)

theorem holds1_shift_of {c : Dev nD} (dat : Dat τ (Elt F) Unit ℕ (UR sig nD τ) ℕ cfg1 c)
    (hA : dat.A 2 = V c (Pipeline.arrRef spec1 2)) (hafter : ∀ t, dat.after 2 t = blk1 V c 2 t)
    (t : Fin cfg1.N) (d) : dat.before 2 t d = blk1 V c 2 t :=
  (dat.before_in_eq_fetched 2 rfl (fun _ => rfl) (fun _ _ _ => rfl)
    (fun t => by rw [hafter]; unfold Dat.blockOf blk1; rw [hA]; try rfl) t d).trans
    (by unfold Dat.fetched Dat.blockOf blk1; rw [hA]; try rfl)

abbrev whole1 : Rect S5000x128 := Rect.unit (s := S5000x128) ![0, 0] S5000x128.size inb_S5000x128_S5000x128_0_0

abbrev wholeRow1 : Rect S1x128 := Rect.unit (s := S1x128) ![0, 0] S1x128.size inb_S1x128_S1x128_0_0

def bnBlock1 (h : Vec F S5000x128 .f32) (scale shift : Vec F S1x128 .f32) : Vec F S5000x128 .f32 :=
  View.canon [⟨whole1, k1_pay1 (View.ld h whole1) (View.ld scale wholeRow1) (View.ld shift wholeRow1)⟩]

theorem bnBlock1_cover (p : Vec F S5000x128 .f32) (y : S5000x128.Idx) :
    ∃ pc ∈ ([⟨whole1, p⟩] : List (View.Piece (Elt F) S5000x128 .f32)), y ∈ pc.1.set :=
  View.cover_of_tiled [⟨whole1, p⟩] S5000x128.size (by rfl) y

set_option maxHeartbeats 1000000 in

theorem bn_body1 (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S5000x128 .f32) (harg4 : arg4.IsWhole)
    (h : Vec F S5000x128 .f32) (scale shift : Vec F S1x128 .f32) (K : PUnit → sProp 𝕄) :
    iprop(owns (c : Thread nD τ) arg1 fullShare h ∗ owns (c : Thread nD τ) arg2 fullShare scale
        ∗ owns (c : Thread nD τ) arg3 fullShare shift ∗ (∃ d, owns (c : Thread nD τ) arg4 fullShare d)
        ∗ (iprop(owns (c : Thread nD τ) arg1 fullShare h ∗ owns (c : Thread nD τ) arg2 fullShare scale
            ∗ owns (c : Thread nD τ) arg3 fullShare shift
            ∗ owns (c : Thread nD τ) arg4 fullShare (bnBlock1 h scale shift)) -∗ K ⟨⟩))
      ⊢ wp frame (wpE (defs₀ (F := F)) Variants.none c none) E
          (cc1__bn_kernel i arg1 harg1 arg2 harg2 arg3 harg3 arg4 harg4) K := by
  simp only [cc1__bn_kernel_eq_skeleton]; unfold cc1__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (bnBlock1_cover _)

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => bnBlock1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_h (c : Dev nD) (t : Fin cfg1.N) : (dat1 V c).after 0 t = blk1 V c 0 t := by dsimp only [dat1]
theorem after1_scale (c : Dev nD) (t : Fin cfg1.N) : (dat1 V c).after 1 t = blk1 V c 1 t := by dsimp only [dat1]
theorem after1_shift (c : Dev nD) (t : Fin cfg1.N) : (dat1 V c).after 2 t = blk1 V c 2 t := by dsimp only [dat1]
theorem after1_out (c : Dev nD) (t : Fin cfg1.N) :
    (dat1 V c).after 3 t = bnBlock1 (blk1 V c 0 t) (blk1 V c 1 t) (blk1 V c 2 t) := by dsimp only [dat1]

theorem holds1_h (c : Dev nD) (t : Fin cfg1.N) (d) : (dat1 V c).before 0 t d = blk1 V c 0 t :=
  holds1_h_of V (dat1 V c) (A_eq1 V c 0) (after1_h V c) t d
theorem holds1_scale (c : Dev nD) (t : Fin cfg1.N) (d) : (dat1 V c).before 1 t d = blk1 V c 1 t :=
  holds1_scale_of V (dat1 V c) (A_eq1 V c 1) (after1_scale V c) t d
theorem holds1_shift (c : Dev nD) (t : Fin cfg1.N) (d) : (dat1 V c).before 2 t d = blk1 V c 2 t :=
  holds1_shift_of V (dat1 V c) (A_eq1 V c 2) (after1_shift V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem bn_point1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [holds1_h, holds1_scale, holds1_shift]
  rw [show (dat1 V c).Φ t.succ = (dat1 V c).Φ t.castSucc from rfl,
    show (dat1 V c).owesAt () t.succ = (dat1 V c).owesAt () t.castSucc from rfl,
    after1_h, after1_scale, after1_shift, after1_out]
  iintro ⟨HΦ, Ho, ⟨%d0, H0⟩, ⟨%d1, H1⟩, ⟨%d2, H2⟩, ⟨%d3, H3⟩⟩
  iapply (bn_body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact bn_point1 V c t

theorem hin1 (c : Dev nD) : (Pipeline.ΦA spec1 c : sProp 𝕄) ⊢ (dat1 V c).Φ 0 := BI.Entails.refl _
theorem hout1 (c : Dev nD) : (dat1 V c).Φ (Fin.last cfg1.N) ⊢ (Pipeline.ΦA spec1 c : sProp 𝕄) := BI.Entails.refl _

end

end Cert.Kernel.Hand

end
-- ==== Proof.WReg2Body.lean ====
import proofs.«412881_j60095182405865_1_alg».proof.Proof.WReg0
import proofs.«412881_j60095182405865_1_alg».proof.Proof.Gen.Kernel.Launch
import proofs.«412881_j60095182405865_1_alg».proof.Proof.Gen.Kernel.Skeleton
import proofs.«412881_j60095182405865_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev atFirst2 (i : grid2.Coords) : Prop :=
  (Scalar.cmpi .ne (Scalar.extui (Scalar.cmpi .eq (BitVec.ofNat 32 (i 0).val) 0#32)) 0#32) = 1#1

theorem atFirst2_iff : ∀ t : Fin cfg2.N, atFirst2 (grid2.coords t) ↔ t.val % 20 = 0 :=
  (by decide +kernel : ∀ t : Fin grid2.N, atFirst2 (grid2.coords t) ↔ t.val % 20 = 0)

abbrev atLast2 (i : grid2.Coords) : Prop := k2_cond2 i = 1#1

theorem atLast2_iff : ∀ t : Fin cfg2.N, atLast2 (grid2.coords t) ↔ t.val % 20 = 19 :=
  (by decide +kernel : ∀ t : Fin grid2.N, atLast2 (grid2.coords t) ↔ t.val % 20 = 19)

theorem colSum_idle2 : ∀ t : Fin cfg2.N, ¬atLast2 (grid2.coords t) → cfg2.idle 7 (grid2.coords t) = true := by decide +kernel
theorem colSq_idle2 : ∀ t : Fin cfg2.N, ¬atLast2 (grid2.coords t) → cfg2.idle 8 (grid2.coords t) = true := by decide +kernel

theorem colSum_noFlush2 : ∀ t : Fin cfg2.N, ¬atLast2 (grid2.coords t) → (cfg2.win 7).flush t = false := by decide +kernel
theorem colSq_noFlush2 : ∀ t : Fin cfg2.N, ¬atLast2 (grid2.coords t) → (cfg2.win 8).flush t = false := by decide +kernel

theorem colSum_live2 : ∀ t : Fin cfg2.N, atLast2 (grid2.coords t) → cfg2.idle 7 (grid2.coords t) = false := by decide +kernel
theorem colSq_live2 : ∀ t : Fin cfg2.N, atLast2 (grid2.coords t) → cfg2.idle 8 (grid2.coords t) = false := by decide +kernel

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)

abbrev sumM2 : Memref sig .tc .vmem S1x128 .f32 := Memref.whole cc2_scratch0
abbrev sqM2 : Memref sig .tc .vmem S1x128 .f32 := Memref.whole cc2_scratch1

abbrev rowV2 : View sig .tc .vmem S1x128 .f32 := sumM2.view
abbrev blockV2 : View sig .tc .vmem S5000x128 .f32 := (Memref.whole cc2_stg6_0 : Memref sig .tc .vmem S5000x128 .f32).view

abbrev otherScoped2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) sumM2 fullShare d) ∗ (∃ d, owns (c : Thread nD τ) sqM2 fullShare d)) ∗ otherScoped2 (F := F) c) ∗ (∃ r, prngReg c r)) := by
  unfold Pipeline.ΦA; rw [scopedRest2_split]; simp only [sumM2, sqM2, owns_whole]; try rfl

def mlpBlock2 (x0 x1 : Vec F S5000x128 .f32) (x2 : Vec F S128x128 .f32) (x3 : Vec F S1x128 .f32) (x4 : Vec F S128x128 .f32) (x5 : Vec F S1x128 .f32) : Vec F S5000x128 .f32 :=
  k2_pay5 x0 x1 x2 x4 x3 x5

def sumStep2 (x0 x1 : Vec F S5000x128 .f32) (x2 : Vec F S128x128 .f32) (x3 : Vec F S1x128 .f32) (x4 : Vec F S128x128 .f32) (x5 : Vec F S1x128 .f32) (s : Vec F S1x128 .f32) : Vec F S1x128 .f32 :=
  k2_pay1 (k2_pay6 x0 x1 x2 x4 x3 x5 s)

def sqStep2 (h : Vec F S5000x128 .f32) (q : Vec F S1x128 .f32) : Vec F S1x128 .f32 :=
  k2_pay2 h q

def zeroSum2 : Vec F S1x128 .f32 := k2_pay3
def zeroSq2 : Vec F S1x128 .f32 := k2_pay4

set_option maxHeartbeats 4000000 in

theorem mlp_first2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : atFirst2 i) (hc1 : ¬atLast2 i) (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (mlpBlock2 x0 x1 x2 x3 x4 x5) ∗ owns (c : Thread nD τ) arg10 fullShare (sumStep2 x0 x1 x2 x3 x4 x5 zeroSum2) ∗ owns (c : Thread nD τ) arg11 fullShare (sqStep2 (mlpBlock2 x0 x1 x2 x3 x4 x5) zeroSq2)) -∗ K ⟨⟩))
      ⊢ wp frame (wpE (defs₀ (F := F)) Variants.none c none) E (cc2__mlp_reduce_kernel i arg1 harg1 arg2 harg2 arg3 harg3 arg4 harg4 arg5 harg5 arg6 harg6 arg7 harg7 arg8 harg8 arg9 harg9 arg10 harg10 arg11 harg11) K := by
  simp only [cc2__mlp_reduce_kernel_eq_skeleton]; unfold cc2__mlp_reduce_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d10, %f10, -, H10⟩, ⟨%d11, %f11, -, H11⟩, Hk⟩
  subst hf1 hf2 hf3 hf4 hf5 hf6
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H10]
  · iexists _; isplitr
    swap; · iexact H10
    ipureintro
    refine (storeRow_last _ _ _ _ _).trans ?_
    sl_unfold_run_names
    rw [loadRow_after]
    try rw [loadRow_after]
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    sl_unfold_run_names
    rw [loadRow_after]
    try rw [loadRow_after]
    simp only [View.readAt_eq_ld, View.ld_unit_zero (S := S1x128) offZ, View.ld_unit_zero (S := S5000x128) offZ, View.ld_unit_zero (S := S128x128) offZ]
    rfl

set_option maxHeartbeats 4000000 in

theorem mlp_mid2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬atFirst2 i) (hc1 : ¬atLast2 i) (x0 x1 : Vec F S5000x128 .f32) (x2 : Vec F S128x128 .f32) (x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (mlpBlock2 x0 x1 x2 x3 x4 x5) ∗ owns (c : Thread nD τ) arg10 fullShare (sumStep2 x0 x1 x2 x3 x4 x5 s) ∗ owns (c : Thread nD τ) arg11 fullShare (sqStep2 (mlpBlock2 x0 x1 x2 x3 x4 x5) q)) -∗ K ⟨⟩))
      ⊢ wp frame (wpE (defs₀ (F := F)) Variants.none c none) E (cc2__mlp_reduce_kernel i arg1 harg1 arg2 harg2 arg3 harg3 arg4 harg4 arg5 harg5 arg6 harg6 arg7 harg7 arg8 harg8 arg9 harg9 arg10 harg10 arg11 harg11) K := by
  simp only [cc2__mlp_reduce_kernel_eq_skeleton]; unfold cc2__mlp_reduce_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f10, %hf10, H10⟩, ⟨%f11, %hf11, H11⟩, Hk⟩
  subst hf1 hf2 hf3 hf4 hf5 hf6 hf10 hf11
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H10]
  · iexists _; isplitr
    swap; · iexact H10
    ipureintro
    refine (storeRow_last _ _ _ _ _).trans ?_
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    simp only [View.readAt_eq_ld, View.ld_unit_zero (S := S1x128) offZ, View.ld_unit_zero (S := S5000x128) offZ, View.ld_unit_zero (S := S128x128) offZ]
    rfl

set_option maxHeartbeats 4000000 in

theorem mlp_last2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬atFirst2 i) (hc1 : atLast2 i) (x0 x1 : Vec F S5000x128 .f32) (x2 : Vec F S128x128 .f32) (x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (mlpBlock2 x0 x1 x2 x3 x4 x5) ∗ owns (c : Thread nD τ) arg8 fullShare (sumStep2 x0 x1 x2 x3 x4 x5 s) ∗ owns (c : Thread nD τ) arg9 fullShare (sqStep2 (mlpBlock2 x0 x1 x2 x3 x4 x5) q)
            ∗ owns (c : Thread nD τ) arg10 fullShare (sumStep2 x0 x1 x2 x3 x4 x5 s) ∗ owns (c : Thread nD τ) arg11 fullShare (sqStep2 (mlpBlock2 x0 x1 x2 x3 x4 x5) q)) -∗ K ⟨⟩))
      ⊢ wp frame (wpE (defs₀ (F := F)) Variants.none c none) E (cc2__mlp_reduce_kernel i arg1 harg1 arg2 harg2 arg3 harg3 arg4 harg4 arg5 harg5 arg6 harg6 arg7 harg7 arg8 harg8 arg9 harg9 arg10 harg10 arg11 harg11) K := by
  simp only [cc2__mlp_reduce_kernel_eq_skeleton]; unfold cc2__mlp_reduce_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  subst hf1 hf2 hf3 hf4 hf5 hf6 hf10 hf11
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H8]
  · iexists _; isplitr
    swap; · iexact H8
    ipureintro
    refine (storeRow_last _ _ _ _ _).trans ?_
    sl_unfold_run_names
    rw [loadRow_after]
    try rw [loadRow_after]
    simp only [View.readAt_eq_ld, View.ld_unit_zero (S := S1x128) offZ, View.ld_unit_zero (S := S5000x128) offZ, View.ld_unit_zero (S := S128x128) offZ]
    rfl
  isplitl [H9]
  · iexists _; isplitr
    swap; · iexact H9
    ipureintro
    refine (storeRow_last _ _ _ _ _).trans ?_
    sl_unfold_run_names
    rw [loadRow_after]
    try rw [loadRow_after]
    simp only [View.readAt_eq_ld, View.ld_unit_zero (S := S1x128) offZ, View.ld_unit_zero (S := S5000x128) offZ, View.ld_unit_zero (S := S128x128) offZ]
    rfl
  isplitl [H10]
  · iexists _; isplitr
    swap; · iexact H10
    ipureintro
    refine (storeRow_last _ _ _ _ _).trans ?_
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    simp only [View.readAt_eq_ld, View.ld_unit_zero (S := S1x128) offZ, View.ld_unit_zero (S := S5000x128) offZ, View.ld_unit_zero (S := S128x128) offZ]
    rfl

end Cert.Kernel.Hand

end
-- ==== Proof.WReg2.lean ====
import proofs.«412881_j60095182405865_1_alg».proof.Proof.WReg2Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

def outAt2 (c : Dev nD) (t : Fin cfg2.N) : Vec F S5000x128 .f32 :=
  mlpBlock2 (blk2 V c 0 t) (blk2 V c 1 t) (blk2 V c 2 t) (blk2 V c 3 t) (blk2 V c 4 t) (blk2 V c 5 t)

def scrAt2 (c : Dev nD) : (n : ℕ) → n < cfg2.N → Vec F S1x128 .f32 × Vec F S1x128 .f32
  | 0, hn => (sumStep2 (blk2 V c 0 ⟨0, hn⟩) (blk2 V c 1 ⟨0, hn⟩) (blk2 V c 2 ⟨0, hn⟩) (blk2 V c 3 ⟨0, hn⟩) (blk2 V c 4 ⟨0, hn⟩) (blk2 V c 5 ⟨0, hn⟩) zeroSum2, sqStep2 (outAt2 V c ⟨0, hn⟩) zeroSq2)
  | n + 1, hn => (sumStep2 (blk2 V c 0 ⟨n + 1, hn⟩) (blk2 V c 1 ⟨n + 1, hn⟩) (blk2 V c 2 ⟨n + 1, hn⟩) (blk2 V c 3 ⟨n + 1, hn⟩) (blk2 V c 4 ⟨n + 1, hn⟩) (blk2 V c 5 ⟨n + 1, hn⟩) (scrAt2 c n (Nat.lt_of_succ_lt hn)).1, sqStep2 (outAt2 V c ⟨n + 1, hn⟩) (scrAt2 c n (Nat.lt_of_succ_lt hn)).2)

theorem scrAt2_first (c : Dev nD) (t : Fin cfg2.N) (hz : t.val = 0) :
    scrAt2 V c t.val t.isLt = (sumStep2 (blk2 V c 0 t) (blk2 V c 1 t) (blk2 V c 2 t) (blk2 V c 3 t) (blk2 V c 4 t) (blk2 V c 5 t) zeroSum2, sqStep2 (outAt2 V c t) zeroSq2) := by
  obtain ⟨n, hn⟩ := t
  cases n with
  | zero => rfl
  | succ n => exact absurd hz (Nat.succ_ne_zero n)

theorem scrAt2_later (c : Dev nD) (t : Fin cfg2.N) (hz : t.val ≠ 0) :
    scrAt2 V c t.val t.isLt = (sumStep2 (blk2 V c 0 t) (blk2 V c 1 t) (blk2 V c 2 t) (blk2 V c 3 t) (blk2 V c 4 t) (blk2 V c 5 t) (scrAt2 V c (t.val - 1) (Nat.lt_of_le_of_lt (Nat.sub_le _ _) t.isLt)).1, sqStep2 (outAt2 V c t) (scrAt2 V c (t.val - 1) (Nat.lt_of_le_of_lt (Nat.sub_le _ _) t.isLt)).2) := by
  obtain ⟨n, hn⟩ := t
  cases n with
  | zero => exact absurd rfl hz
  | succ n => rfl

def PhiS2 (c : Dev nD) : (n : ℕ) → n ≤ cfg2.N → sProp 𝕄
  | 0, _ => Pipeline.ΦA spec2 c
  | n + 1, hn => iprop(iprop(iprop(owns (c : Thread nD τ) sumM2 fullShare (scrAt2 V c n hn).1 ∗ owns (c : Thread nD τ) sqM2 fullShare (scrAt2 V c n hn).2) ∗ otherScoped2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) sumM2 fullShare (scrAt2 V c n hn).1 ∗ owns (c : Thread nD τ) sqM2 fullShare (scrAt2 V c n hn).2) ∗ otherScoped2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) sumM2 fullShare (scrAt2 V c (n - 1) (by omega)).1 ∗ owns (c : Thread nD τ) sqM2 fullShare (scrAt2 V c (n - 1) (by omega)).2) ∗ otherScoped2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => outAt2 V c t
    | ⟨7, _⟩ => (scrAt2 V c t.val t.isLt).1
    | ⟨8, _⟩ => (scrAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = outAt2 V c t := by dsimp only [dat2]
theorem after2_7 (c : Dev nD) (t : Fin cfg2.N) : (dat2 V c).after 7 t = (scrAt2 V c t.val t.isLt).1 := by dsimp only [dat2]
theorem after2_8 (c : Dev nD) (t : Fin cfg2.N) : (dat2 V c).after 8 t = (scrAt2 V c t.val t.isLt).2 := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d
theorem before2_5 (c : Dev nD) (t : Fin cfg2.N) (d) : (dat2 V c).before 5 t d = blk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

theorem leaves2_0 (c : Dev nD) (t : Fin cfg2.N) : (dat2 V c).leavesExact 0 t = owns (c : Thread nD τ) (ms2_0 t) fullShare (blk2 V c 0 t) := by
  rw [← after2_0 V c t]
theorem leaves2_1 (c : Dev nD) (t : Fin cfg2.N) : (dat2 V c).leavesExact 1 t = owns (c : Thread nD τ) (ms2_1 t) fullShare (blk2 V c 1 t) := by
  rw [← after2_1 V c t]
theorem leaves2_2 (c : Dev nD) (t : Fin cfg2.N) : (dat2 V c).leavesExact 2 t = owns (c : Thread nD τ) (ms2_2 t) fullShare (blk2 V c 2 t) := by
  rw [← after2_2 V c t]
theorem leaves2_3 (c : Dev nD) (t : Fin cfg2.N) : (dat2 V c).leavesExact 3 t = owns (c : Thread nD τ) (ms2_3 t) fullShare (blk2 V c 3 t) := by
  rw [← after2_3 V c t]
theorem leaves2_4 (c : Dev nD) (t : Fin cfg2.N) : (dat2 V c).leavesExact 4 t = owns (c : Thread nD τ) (ms2_4 t) fullShare (blk2 V c 4 t) := by
  rw [← after2_4 V c t]
theorem leaves2_5 (c : Dev nD) (t : Fin cfg2.N) : (dat2 V c).leavesExact 5 t = owns (c : Thread nD τ) (ms2_5 t) fullShare (blk2 V c 5 t) := by
  rw [← after2_5 V c t]
theorem leaves2_6 (c : Dev nD) (t : Fin cfg2.N) : (dat2 V c).leavesExact 6 t = owns (c : Thread nD τ) (ms2_6 t) fullShare (outAt2 V c t) := by
  rw [← after2_6 V c t]

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  have hN : t.val < 20 := lt_of_lt_of_eq t.isLt (show cfg2.N = 20 from N_2)
  by_cases h0 : t.val % 20 = 0
  · have h2 : ¬t.val % 20 = 19 := by omega
    have hz : t.val = 0 := by omega
    have hnl : ¬atLast2 (grid2.coords t) := fun h => h2 ((atLast2_iff t).mp h)
    rw [Dat.leavesExact_idle (dat2 V c) 7 t (colSum_idle2 t hnl) (colSum_noFlush2 t hnl),
      Dat.leavesExact_idle (dat2 V c) 8 t (colSq_idle2 t hnl) (colSq_noFlush2 t hnl)]
    rw [scrAt2_first V c t hz]; (try dsimp only)
    unfold outAt2
    rw [PhiS2_castSucc V c t, PhiS2_zero V c _ _ hz, PhiA2_eq]
    iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (mlp_first2 c Set.univ (grid2.coords t) _ _ _ _ _ _ _ _ _ _ _ _ _ _ _ _ _ _ _ _ _ _ ((atFirst2_iff t).mpr h0) hnl (blk2 V c 0 t) (blk2 V c 1 t) (blk2 V c 2 t) (blk2 V c 3 t) (blk2 V c 4 t) (blk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HQ]; · iexact HQ
    iintro ⟨H0, H1, H2, H3, H4, H5, H6, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := by omega
    have hnf : ¬atFirst2 (grid2.coords t) := fun h => h0 ((atFirst2_iff t).mp h)
    by_cases h2 : t.val % 20 = 19
    · have hl : atLast2 (grid2.coords t) := (atLast2_iff t).mpr h2
      rw [show (dat2 V c).leavesExact 7 t = owns (c : Thread nD τ) (ms2_7 t) fullShare ((dat2 V c).after 7 t) from by
        unfold Dat.leavesExact; rw [colSum_live2 t hl], after2_7]
      rw [show (dat2 V c).leavesExact 8 t = owns (c : Thread nD τ) (ms2_8 t) fullShare ((dat2 V c).after 8 t) from by
        unfold Dat.leavesExact; rw [colSq_live2 t hl], after2_8]
      rw [scrAt2_later V c t hz]; (try dsimp only)
      unfold outAt2
      rw [PhiS2_castSucc V c t, PhiS2_pos V c _ _ hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (mlp_last2 c Set.univ (grid2.coords t) _ _ _ _ _ _ _ _ _ _ _ _ _ _ _ _ _ _ _ _ _ _ hnf hl (blk2 V c 0 t) (blk2 V c 1 t) (blk2 V c 2 t) (blk2 V c 3 t) (blk2 V c 4 t) (blk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hnl : ¬atLast2 (grid2.coords t) := fun h => h2 ((atLast2_iff t).mp h)
      rw [Dat.leavesExact_idle (dat2 V c) 7 t (colSum_idle2 t hnl) (colSum_noFlush2 t hnl),
        Dat.leavesExact_idle (dat2 V c) 8 t (colSq_idle2 t hnl) (colSq_noFlush2 t hnl)]
      rw [scrAt2_later V c t hz]; (try dsimp only)
      unfold outAt2
      rw [PhiS2_castSucc V c t, PhiS2_pos V c _ _ hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (mlp_mid2 c Set.univ (grid2.coords t) _ _ _ _ _ _ _ _ _ _ _ _ _ _ _ _ _ _ _ _ _ _ hnf hnl (blk2 V c 0 t) (blk2 V c 1 t) (blk2 V c 2 t) (blk2 V c 3 t) (blk2 V c 4 t) (blk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS, HQ⟩, HR⟩, Hg⟩
  isplitl [HS HQ HR]
  · isplitl [HS HQ]
    · isplitl [HS]
      · iexists _; iexact HS
      iexists _; iexact HQ
    iexact HR
  iexact Hg

theorem hout2 (c : Dev nD) : (dat2 V c).Φ (Fin.last cfg2.N) ⊢ (Pipeline.ΦA spec2 c : sProp 𝕄) :=
  Phi_out2 V c _ (by rw [Fin.val_last]; have : cfg2.N = 20 := N_2; omega)

end

end Cert.Kernel.Hand

end
-- ==== Proof.WReg3.lean ====
import proofs.«412881_j60095182405865_1_alg».proof.Proof.Gen.Kernel.Launch
import proofs.«412881_j60095182405865_1_alg».proof.Proof.Gen.Kernel.Skeleton
import proofs.«412881_j60095182405865_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def blk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

theorem holds3_h_of {c : Dev nD} (dat : Dat τ (Elt F) Unit ℕ (UR sig nD τ) ℕ cfg3 c)
    (hA : dat.A 0 = V c (Pipeline.arrRef spec3 0)) (hafter : ∀ t, dat.after 0 t = blk3 V c 0 t)
    (t : Fin cfg3.N) (d) : dat.before 0 t d = blk3 V c 0 t :=
  (dat.before_in_eq_fetched 0 rfl (fun _ => rfl) (fun _ _ _ => rfl)
    (fun t => by rw [hafter]; unfold Dat.blockOf blk3; rw [hA]; try rfl) t d).trans
    (by unfold Dat.fetched Dat.blockOf blk3; rw [hA]; try rfl)

theorem holds3_scale_of {c : Dev nD} (dat : Dat τ (Elt F) Unit ℕ (UR sig nD τ) ℕ cfg3 c)
    (hA : dat.A 1 = V c (Pipeline.arrRef spec3 1)) (hafter : ∀ t, dat.after 1 t = blk3 V c 1 t)
    (t : Fin cfg3.N) (d) : dat.before 1 t d = blk3 V c 1 t :=
  (dat.before_in_eq_fetched 1 rfl (fun _ => rfl) (fun _ _ _ => rfl)
    (fun t => by rw [hafter]; unfold Dat.blockOf blk3; rw [hA]; try rfl) t d).trans
    (by unfold Dat.fetched Dat.blockOf blk3; rw [hA]; try rfl)

theorem holds3_shift_of {c : Dev nD} (dat : Dat τ (Elt F) Unit ℕ (UR sig nD τ) ℕ cfg3 c)
    (hA : dat.A 2 = V c (Pipeline.arrRef spec3 2)) (hafter : ∀ t, dat.after 2 t = blk3 V c 2 t)
    (t : Fin cfg3.N) (d) : dat.before 2 t d = blk3 V c 2 t :=
  (dat.before_in_eq_fetched 2 rfl (fun _ => rfl) (fun _ _ _ => rfl)
    (fun t => by rw [hafter]; unfold Dat.blockOf blk3; rw [hA]; try rfl) t d).trans
    (by unfold Dat.fetched Dat.blockOf blk3; rw [hA]; try rfl)

abbrev whole3 : Rect S5000x128 := Rect.unit (s := S5000x128) ![0, 0] S5000x128.size inb_S5000x128_S5000x128_0_0

abbrev wholeRow3 : Rect S1x128 := Rect.unit (s := S1x128) ![0, 0] S1x128.size inb_S1x128_S1x128_0_0

def bnBlock3 (h : Vec F S5000x128 .f32) (scale shift : Vec F S1x128 .f32) : Vec F S5000x128 .f32 :=
  View.canon [⟨whole3, k3_pay1 (View.ld h whole3) (View.ld scale wholeRow3) (View.ld shift wholeRow3)⟩]

theorem bnBlock3_cover (p : Vec F S5000x128 .f32) (y : S5000x128.Idx) :
    ∃ pc ∈ ([⟨whole3, p⟩] : List (View.Piece (Elt F) S5000x128 .f32)), y ∈ pc.1.set :=
  View.cover_of_tiled [⟨whole3, p⟩] S5000x128.size (by rfl) y

set_option maxHeartbeats 1000000 in

theorem bn_body3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S5000x128 .f32) (harg4 : arg4.IsWhole)
    (h : Vec F S5000x128 .f32) (scale shift : Vec F S1x128 .f32) (K : PUnit → sProp 𝕄) :
    iprop(owns (c : Thread nD τ) arg1 fullShare h ∗ owns (c : Thread nD τ) arg2 fullShare scale
        ∗ owns (c : Thread nD τ) arg3 fullShare shift ∗ (∃ d, owns (c : Thread nD τ) arg4 fullShare d)
        ∗ (iprop(owns (c : Thread nD τ) arg1 fullShare h ∗ owns (c : Thread nD τ) arg2 fullShare scale
            ∗ owns (c : Thread nD τ) arg3 fullShare shift
            ∗ owns (c : Thread nD τ) arg4 fullShare (bnBlock3 h scale shift)) -∗ K ⟨⟩))
      ⊢ wp frame (wpE (defs₀ (F := F)) Variants.none c none) E
          (cc3__bn_kernel i arg1 harg1 arg2 harg2 arg3 harg3 arg4 harg4) K := by
  simp only [cc3__bn_kernel_eq_skeleton]; unfold cc3__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (bnBlock3_cover _)

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => bnBlock3 (blk3 V c 0 t) (blk3 V c 1 t) (blk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_h (c : Dev nD) (t : Fin cfg3.N) : (dat3 V c).after 0 t = blk3 V c 0 t := by dsimp only [dat3]
theorem after3_scale (c : Dev nD) (t : Fin cfg3.N) : (dat3 V c).after 1 t = blk3 V c 1 t := by dsimp only [dat3]
theorem after3_shift (c : Dev nD) (t : Fin cfg3.N) : (dat3 V c).after 2 t = blk3 V c 2 t := by dsimp only [dat3]
theorem after3_out (c : Dev nD) (t : Fin cfg3.N) :
    (dat3 V c).after 3 t = bnBlock3 (blk3 V c 0 t) (blk3 V c 1 t) (blk3 V c 2 t) := by dsimp only [dat3]

theorem holds3_h (c : Dev nD) (t : Fin cfg3.N) (d) : (dat3 V c).before 0 t d = blk3 V c 0 t :=
  holds3_h_of V (dat3 V c) (A_eq3 V c 0) (after3_h V c) t d
theorem holds3_scale (c : Dev nD) (t : Fin cfg3.N) (d) : (dat3 V c).before 1 t d = blk3 V c 1 t :=
  holds3_scale_of V (dat3 V c) (A_eq3 V c 1) (after3_scale V c) t d
theorem holds3_shift (c : Dev nD) (t : Fin cfg3.N) (d) : (dat3 V c).before 2 t d = blk3 V c 2 t :=
  holds3_shift_of V (dat3 V c) (A_eq3 V c 2) (after3_shift V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem bn_point3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [holds3_h, holds3_scale, holds3_shift]
  rw [show (dat3 V c).Φ t.succ = (dat3 V c).Φ t.castSucc from rfl,
    show (dat3 V c).owesAt () t.succ = (dat3 V c).owesAt () t.castSucc from rfl,
    after3_h, after3_scale, after3_shift, after3_out]
  iintro ⟨HΦ, Ho, ⟨%d0, H0⟩, ⟨%d1, H1⟩, ⟨%d2, H2⟩, ⟨%d3, H3⟩⟩
  iapply (bn_body3 c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact bn_point3 V c t

theorem hin3 (c : Dev nD) : (Pipeline.ΦA spec3 c : sProp 𝕄) ⊢ (dat3 V c).Φ 0 := BI.Entails.refl _
theorem hout3 (c : Dev nD) : (dat3 V c).Φ (Fin.last cfg3.N) ⊢ (Pipeline.ΦA spec3 c : sProp 𝕄) := BI.Entails.refl _

end

end Cert.Kernel.Hand

end
-- ==== Proof.WReg4Runs.lean ====
import proofs.«412881_j60095182405865_1_alg».proof.Proof.Gen.Kernel.Launch
import proofs.«412881_j60095182405865_1_alg».proof.Proof.Gen.Kernel.Skeleton
import proofs.«412881_j60095182405865_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev isFirstBlock (i : grid4.Coords) : Prop :=
  (Scalar.cmpi .ne (Scalar.extui (Scalar.cmpi .eq (BitVec.ofNat 32 (i 0).val) 0#32)) 0#32) = 1#1

theorem isFirstBlock_iff : ∀ t : Fin cfg4.N, isFirstBlock (grid4.coords t) ↔ t.val % 49 = 0 :=
  (by decide +kernel : ∀ t : Fin grid4.N, isFirstBlock (grid4.coords t) ↔ t.val % 49 = 0)

abbrev isLastBlock (i : grid4.Coords) : Prop := k4_cond2 i = 1#1

theorem isLastBlock_iff : ∀ t : Fin cfg4.N, isLastBlock (grid4.coords t) ↔ t.val % 49 = 48 :=
  (by decide +kernel : ∀ t : Fin grid4.N, isLastBlock (grid4.coords t) ↔ t.val % 49 = 48)

theorem logits_idle : ∀ t : Fin cfg4.N, ¬isLastBlock (grid4.coords t) → cfg4.idle 4 (grid4.coords t) = true := by decide +kernel

theorem logits_noFlush : ∀ t : Fin cfg4.N, ¬isLastBlock (grid4.coords t) → (cfg4.win 4).flush t = false := by decide +kernel

theorem logits_live : ∀ t : Fin cfg4.N, isLastBlock (grid4.coords t) → cfg4.idle 4 (grid4.coords t) = false := by decide +kernel

abbrev ms4_0 (t : Fin cfg4.N) : Memref sig .tc .vmem S2048x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x10 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x10 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x10 .f32 := win4_4.stage (cfg4.slots t 4)
abbrev hs4_4 (t : Fin cfg4.N) : (ms4_4 t).IsWhole := hstage4_4 ((cfg4.slots t 4).cast nbuf4_4)

abbrev accM : Memref sig .tc .vmem S512x128 .f32 := Memref.whole cc4_scratch0

abbrev accV : View sig .tc .vmem S512x128 .f32 := accM.view
abbrev logitsV : View sig .tc .vmem S512x10 .f32 := (Memref.whole cc4_stg4_0 : Memref sig .tc .vmem S512x10 .f32).view

abbrev otherScoped (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns (c : Thread nD τ) accM fullShare d)) ∗ otherScoped (F := F) c) ∗ (∃ r, prngReg c r)) := by
  unfold Pipeline.ΦA; rw [scopedRest4_split]; simp only [accM, owns_whole]; try rfl

set_option maxHeartbeats 1000000 in

noncomputable def poolRunFirst (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : isFirstBlock i) (hc1 : ¬isLastBlock i) (x0 : Vec F S2048x128 .f32) (x1 : Vec F S2048x1 .i32) :
    { LS : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg6 fullShare d)
            ∗ (iprop(owns (c : Thread nD τ) arg1 fullShare x0 ∗ owns (c : Thread nD τ) arg2 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc4__pool_kernel i arg1 harg1 arg2 harg2 arg3 harg3 arg4 harg4 arg5 harg5 arg6 harg6) K } := by
  refine ⟨?_, fun E K => ?run⟩
  case run =>
    simp only [cc4__pool_kernel_eq_skeleton]; unfold cc4__pool_kernel_skel
    unfold owns
    iintro ⟨⟨%f0, %hf0, H0⟩, ⟨%f1, %hf1, H1⟩, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in

noncomputable def poolRunMid (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : ¬isLastBlock i) (x0 : Vec F S2048x128 .f32) (x1 : Vec F S2048x1 .i32) (xs : Vec F S512x128 .f32) :
    { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg6 fullShare xs
            ∗ (iprop(owns (c : Thread nD τ) arg1 fullShare x0 ∗ owns (c : Thread nD τ) arg2 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc4__pool_kernel i arg1 harg1 arg2 harg2 arg3 harg3 arg4 harg4 arg5 harg5 arg6 harg6) K } := by
  refine ⟨?_, fun E K => ?run⟩
  case run =>
    simp only [cc4__pool_kernel_eq_skeleton]; unfold cc4__pool_kernel_skel
    unfold owns
    iintro ⟨⟨%f0, %hf0, H0⟩, ⟨%f1, %hf1, H1⟩, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in

noncomputable def poolRunLast (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) :
    Σ' (LO : List (View.Piece (Elt F) S512x10 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc4__pool_kernel i arg1 harg1 arg2 harg2 arg3 harg3 arg4 harg4 arg5 harg5 arg6 harg6) K } := by
  refine ⟨?_, ?_, fun E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Hand

end
-- ==== Proof.WReg4.lean ====
import proofs.«412881_j60095182405865_1_alg».proof.Proof.WReg4Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem accFirst_cover (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : isFirstBlock i) (hc1 : ¬isLastBlock i) (x0 : Vec F S2048x128 .f32) (x1 : Vec F S2048x1 .i32) (y : S512x128.Idx) :
    ∃ pc ∈ (poolRunFirst c i arg1 harg1 arg2 harg2 arg3 harg3 arg4 harg4 arg5 harg5 arg6 harg6 hc0 hc1 x0 x1).1, y ∈ pc.1.set :=
  View.cover_of_tiledL (poolRunFirst c i arg1 harg1 arg2 harg2 arg3 harg3 arg4 harg4 arg5 harg5 arg6 harg6 hc0 hc1 x0 x1).1 S512x128.size (by sl_kernel_rfl) y

def accFirst (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : isFirstBlock i) (hc1 : ¬isLastBlock i) (x0 : Vec F S2048x128 .f32) (x1 : Vec F S2048x1 .i32) : Vec F S512x128 .f32 :=
  accV.read (Elt F) (accV.writes (Elt F) accV.junk (poolRunFirst c i arg1 harg1 arg2 harg2 arg3 harg3 arg4 harg4 arg5 harg5 arg6 harg6 hc0 hc1 x0 x1).1)

theorem accMid_cover (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : ¬isLastBlock i) (x0 : Vec F S2048x128 .f32) (x1 : Vec F S2048x1 .i32) (xs : Vec F S512x128 .f32) (y : S512x128.Idx) :
    ∃ pc ∈ (poolRunMid c i arg1 harg1 arg2 harg2 arg3 harg3 arg4 harg4 arg5 harg5 arg6 harg6 hc0 hc1 x0 x1 xs).1, y ∈ pc.1.set :=
  View.cover_of_tiledL (poolRunMid c i arg1 harg1 arg2 harg2 arg3 harg3 arg4 harg4 arg5 harg5 arg6 harg6 hc0 hc1 x0 x1 xs).1 S512x128.size (by sl_kernel_rfl) y

def accMid (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : ¬isLastBlock i) (x0 : Vec F S2048x128 .f32) (x1 : Vec F S2048x1 .i32) (xs : Vec F S512x128 .f32) : Vec F S512x128 .f32 :=
  accV.read (Elt F) (accV.writes (Elt F) accV.junk (poolRunMid c i arg1 harg1 arg2 harg2 arg3 harg3 arg4 harg4 arg5 harg5 arg6 harg6 hc0 hc1 x0 x1 xs).1)

theorem accLast_cover (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) (y : S512x128.Idx) :
    ∃ pc ∈ (poolRunLast c i arg1 harg1 arg2 harg2 arg3 harg3 arg4 harg4 arg5 harg5 arg6 harg6 hc0 hc1 x0 x1 x2 x3 xs).2.1, y ∈ pc.1.set :=
  View.cover_of_tiledL (poolRunLast c i arg1 harg1 arg2 harg2 arg3 harg3 arg4 harg4 arg5 harg5 arg6 harg6 hc0 hc1 x0 x1 x2 x3 xs).2.1 S512x128.size (by sl_kernel_rfl) y

def accLast (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) : Vec F S512x128 .f32 :=
  accV.read (Elt F) (accV.writes (Elt F) accV.junk (poolRunLast c i arg1 harg1 arg2 harg2 arg3 harg3 arg4 harg4 arg5 harg5 arg6 harg6 hc0 hc1 x0 x1 x2 x3 xs).2.1)

theorem logitsLast_cover (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) (y : S512x10.Idx) :
    ∃ pc ∈ (poolRunLast c i arg1 harg1 arg2 harg2 arg3 harg3 arg4 harg4 arg5 harg5 arg6 harg6 hc0 hc1 x0 x1 x2 x3 xs).1, y ∈ pc.1.set :=
  View.cover_of_tiledL (poolRunLast c i arg1 harg1 arg2 harg2 arg3 harg3 arg4 harg4 arg5 harg5 arg6 harg6 hc0 hc1 x0 x1 x2 x3 xs).1 S512x10.size (by sl_kernel_rfl) y

def logitsLast (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) : Vec F S512x10 .f32 :=
  logitsV.read (Elt F) (logitsV.writes (Elt F) logitsV.junk (poolRunLast c i arg1 harg1 arg2 harg2 arg3 harg3 arg4 harg4 arg5 harg5 arg6 harg6 hc0 hc1 x0 x1 x2 x3 xs).1)

section

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

def accAt (c : Dev nD) : (n : ℕ) → n < cfg4.N → Vec F S512x128 .f32
  | 0, hn => accFirst c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) accM (Memref.isWhole_whole _)
      ((isFirstBlock_iff ⟨0, hn⟩).mpr (Nat.zero_mod _)) (fun h => (fun h => by (try dsimp only at h); omega) ((isLastBlock_iff ⟨0, hn⟩).mp h))
      (iblk4 V c 0 ⟨0, hn⟩) (iblk4 V c 1 ⟨0, hn⟩)
  | n + 1, hn =>
    if h2 : (n + 1) % 49 = 48 then
      accLast c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) accM (Memref.isWhole_whole _)
        (fun h => (fun h => by have hN : n + 1 < 49 := lt_of_lt_of_eq hn (show cfg4.N = 49 from N_4); (try dsimp only at h); omega) ((isFirstBlock_iff ⟨n + 1, hn⟩).mp h)) ((isLastBlock_iff ⟨n + 1, hn⟩).mpr h2)
        (iblk4 V c 0 ⟨n + 1, hn⟩) (iblk4 V c 1 ⟨n + 1, hn⟩) (iblk4 V c 2 ⟨n + 1, hn⟩) (iblk4 V c 3 ⟨n + 1, hn⟩) (accAt c n (Nat.lt_of_succ_lt hn))
    else
      accMid c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) accM (Memref.isWhole_whole _)
        (fun h => (fun h => by have hN : n + 1 < 49 := lt_of_lt_of_eq hn (show cfg4.N = 49 from N_4); (try dsimp only at h); omega) ((isFirstBlock_iff ⟨n + 1, hn⟩).mp h)) (fun h => h2 ((isLastBlock_iff ⟨n + 1, hn⟩).mp h))
        (iblk4 V c 0 ⟨n + 1, hn⟩) (iblk4 V c 1 ⟨n + 1, hn⟩) (accAt c n (Nat.lt_of_succ_lt hn))

theorem accAt_first (c : Dev nD) (t : Fin cfg4.N) (h0 : t.val % 49 = 0) (h2 : ¬t.val % 49 = 48) :
    accAt V c t.val t.isLt = accFirst c (grid4.coords t) (ms4_0 t) (hs4_0 t) (ms4_1 t) (hs4_1 t) (ms4_2 t) (hs4_2 t) (ms4_3 t) (hs4_3 t) (ms4_4 t) (hs4_4 t) accM (Memref.isWhole_whole _)
      ((isFirstBlock_iff t).mpr h0) (fun h => h2 ((isLastBlock_iff t).mp h)) (iblk4 V c 0 t) (iblk4 V c 1 t) := by
  obtain ⟨n, hn⟩ := t
  cases n with
  | zero => exact rfl
  | succ n => exact (by exfalso; have hN : n + 1 < 49 := lt_of_lt_of_eq hn (show cfg4.N = 49 from N_4); (try dsimp only at h0); omega)

theorem accAt_mid (c : Dev nD) (t : Fin cfg4.N) (h0 : ¬t.val % 49 = 0) (h2 : ¬t.val % 49 = 48) :
    accAt V c t.val t.isLt = accMid c (grid4.coords t) (ms4_0 t) (hs4_0 t) (ms4_1 t) (hs4_1 t) (ms4_2 t) (hs4_2 t) (ms4_3 t) (hs4_3 t) (ms4_4 t) (hs4_4 t) accM (Memref.isWhole_whole _)
      (fun h => h0 ((isFirstBlock_iff t).mp h)) (fun h => h2 ((isLastBlock_iff t).mp h)) (iblk4 V c 0 t) (iblk4 V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h2).trans rfl

theorem accAt_last (c : Dev nD) (t : Fin cfg4.N) (h0 : ¬t.val % 49 = 0) (h2 : t.val % 49 = 48) :
    accAt V c t.val t.isLt = accLast c (grid4.coords t) (ms4_0 t) (hs4_0 t) (ms4_1 t) (hs4_1 t) (ms4_2 t) (hs4_2 t) (ms4_3 t) (hs4_3 t) (ms4_4 t) (hs4_4 t) accM (Memref.isWhole_whole _)
      (fun h => h0 ((isFirstBlock_iff t).mp h)) ((isLastBlock_iff t).mpr h2) (iblk4 V c 0 t) (iblk4 V c 1 t) (iblk4 V c 2 t) (iblk4 V c 3 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h2).trans rfl

def logitsAt (c : Dev nD) (n : ℕ) (hn : n < cfg4.N) : Vec F S512x10 .f32 :=
  if h2 : n % 49 = 48 then
    logitsLast c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) (ms4_4 ⟨n, hn⟩) (hs4_4 ⟨n, hn⟩) accM (Memref.isWhole_whole _)
      (fun h => (fun h => by (try dsimp only at h); omega) ((isFirstBlock_iff ⟨n, hn⟩).mp h)) ((isLastBlock_iff ⟨n, hn⟩).mpr h2)
      (iblk4 V c 0 ⟨n, hn⟩) (iblk4 V c 1 ⟨n, hn⟩) (iblk4 V c 2 ⟨n, hn⟩) (iblk4 V c 3 ⟨n, hn⟩) (accAt V c (n - 1) (Nat.lt_of_le_of_lt (Nat.sub_le _ _) hn))
  else logitsV.read (Elt F) logitsV.junk

theorem logitsAt_last (c : Dev nD) (t : Fin cfg4.N) (h0 : ¬t.val % 49 = 0) (h2 : t.val % 49 = 48) :
    logitsAt V c t.val t.isLt = logitsLast c (grid4.coords t) (ms4_0 t) (hs4_0 t) (ms4_1 t) (hs4_1 t) (ms4_2 t) (hs4_2 t) (ms4_3 t) (hs4_3 t) (ms4_4 t) (hs4_4 t) accM (Memref.isWhole_whole _)
      (fun h => h0 ((isFirstBlock_iff t).mp h)) ((isLastBlock_iff t).mpr h2) (iblk4 V c 0 t) (iblk4 V c 1 t) (iblk4 V c 2 t) (iblk4 V c 3 t)
      (accAt V c (t.val - 1) (Nat.lt_of_le_of_lt (Nat.sub_le _ _) t.isLt)) := by
  unfold logitsAt; exact (dif_pos h2).trans rfl

def PhiS (c : Dev nD) : (n : ℕ) → n ≤ cfg4.N → sProp 𝕄
  | 0, _ => Pipeline.ΦA spec4 c
  | n + 1, hn => iprop(iprop(owns (c : Thread nD τ) accM fullShare (accAt V c n hn) ∗ otherScoped (F := F) c) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop(owns (c : Thread nD τ) accM fullShare (accAt V c n hn) ∗ otherScoped (F := F) c) ∗ (∃ r, prngReg c r)) := rfl

theorem PhiS_pos (c : Dev nD) (n : ℕ) (h : n ≤ cfg4.N) (hz : n ≠ 0) :
    PhiS V c n h = iprop(iprop(owns (c : Thread nD τ) accM fullShare (accAt V c (n - 1) (by omega)) ∗ otherScoped (F := F) c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => logitsAt V c t.val t.isLt
  Φ t := PhiS V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS_castSucc (c : Dev nD) (t : Fin cfg4.N) :
    (dat4 V c).Φ t.castSucc = PhiS V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = logitsAt V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

theorem leaves4_0 (c : Dev nD) (t : Fin cfg4.N) : (dat4 V c).leavesExact 0 t = owns (c : Thread nD τ) (ms4_0 t) fullShare (iblk4 V c 0 t) := by
  rw [← after4_0 V c t]
theorem leaves4_1 (c : Dev nD) (t : Fin cfg4.N) : (dat4 V c).leavesExact 1 t = owns (c : Thread nD τ) (ms4_1 t) fullShare (iblk4 V c 1 t) := by
  rw [← after4_1 V c t]
theorem leaves4_2 (c : Dev nD) (t : Fin cfg4.N) : (dat4 V c).leavesExact 2 t = owns (c : Thread nD τ) (ms4_2 t) fullShare (iblk4 V c 2 t) := by
  rw [← after4_2 V c t]
theorem leaves4_3 (c : Dev nD) (t : Fin cfg4.N) : (dat4 V c).leavesExact 3 t = owns (c : Thread nD τ) (ms4_3 t) fullShare (iblk4 V c 3 t) := by
  rw [← after4_3 V c t]

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS V c (t.val + 1) t.isLt from rfl, PhiS_succ]
  rw [leaves4_0, leaves4_1, leaves4_2, leaves4_3]
  have hN : t.val < 49 := lt_of_lt_of_eq t.isLt (show cfg4.N = 49 from N_4)
  by_cases h0 : t.val % 49 = 0
  · have h2 : ¬t.val % 49 = 48 := by omega
    have hz : t.val = 0 := by omega
    rw [Dat.leavesExact_idle (dat4 V c) 4 t (logits_idle t (fun h => h2 ((isLastBlock_iff t).mp h))) (logits_noFlush t (fun h => h2 ((isLastBlock_iff t).mp h)))]
    rw [accAt_first V c t h0 h2]
    unfold accFirst; (try dsimp only)
    rw [PhiS_castSucc V c t, PhiS_zero V c _ _ hz, PhiA4_eq]
    iintro ⟨⟨⟨HS, HR⟩, Hg⟩, Ho, ⟨%d0, H0⟩, ⟨%d1, H1⟩, ⟨%d2, H2⟩, ⟨%d3, H3⟩, H4⟩
    iapply ((poolRunFirst c (grid4.coords t) _ _ _ _ _ _ _ _ _ _ _ _ ((isFirstBlock_iff t).mpr h0) (fun h => h2 ((isLastBlock_iff t).mp h)) (iblk4 V c 0 t) (iblk4 V c 1 t)).2 Set.univ _)
    isplitl [H0]; · iexact H0
    isplitl [H1]; · iexact H1
    isplitl [HS]; · iexact HS
    iintro ⟨H0, H1, ⟨%es, HS⟩⟩
    isplitl [HS HR Hg]
    · isplitl [HS HR]
      · isplitl [HS]
        · unfold owns; iexists _; isplitr
          swap; · iexact HS
          ipureintro; exact View.read_writes_of_cover _ _ _ _ _ (accFirst_cover c _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    iexact H4
  · have hz : t.val ≠ 0 := by omega
    by_cases h2 : t.val % 49 = 48
    · rw [show (dat4 V c).leavesExact 4 t = owns (c : Thread nD τ) (ms4_4 t) fullShare ((dat4 V c).after 4 t) from by
        unfold Dat.leavesExact; rw [logits_live t ((isLastBlock_iff t).mpr h2)], after4_4]
      rw [accAt_last V c t h0 h2, logitsAt_last V c t h0 h2]
      unfold accLast logitsLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((poolRunLast c (grid4.coords t) _ _ _ _ _ _ _ _ _ _ _ _ (fun h => h0 ((isFirstBlock_iff t).mp h)) ((isLastBlock_iff t).mpr h2) (iblk4 V c 0 t) (iblk4 V c 1 t) (iblk4 V c 2 t) (iblk4 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (accLast_cover c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (logitsLast_cover c _ _ _ _ _ _ _ _ _ _ _ _ _ _ _ _ _ _ _ _)
    · rw [Dat.leavesExact_idle (dat4 V c) 4 t (logits_idle t (fun h => h2 ((isLastBlock_iff t).mp h))) (logits_noFlush t (fun h => h2 ((isLastBlock_iff t).mp h)))]
      rw [accAt_mid V c t h0 h2]
      unfold accMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, H4⟩
      iapply ((poolRunMid c (grid4.coords t) _ _ _ _ _ _ _ _ _ _ _ _ (fun h => h0 ((isFirstBlock_iff t).mp h)) (fun h => h2 ((isLastBlock_iff t).mp h)) (iblk4 V c 0 t) (iblk4 V c 1 t) _).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (accMid_cover c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS V c 0 (Nat.zero_le _) from rfl, PhiS_zero V c 0 _ rfl]
  try exact Idealize.SL.BI.Entails.refl _

theorem Phi_out4 (c : Dev nD) (t : Fin (cfg4.N + 1)) (ht : t.val ≠ 0) : (dat4 V c).Φ t ⊢ (Pipeline.ΦA spec4 c : sProp 𝕄) := by
  rw [show (dat4 V c).Φ t = PhiS V c t.val (Nat.le_of_lt_succ t.isLt) from rfl, PhiS_pos V c _ _ ht, PhiA4_eq]
  iintro ⟨⟨HS, HR⟩, Hg⟩
  isplitl [HS HR]
  · isplitl [HS]
    · iexists _; iexact HS
    iexact HR
  iexact Hg

theorem hout4 (c : Dev nD) : (dat4 V c).Φ (Fin.last cfg4.N) ⊢ (Pipeline.ΦA spec4 c : sProp 𝕄) :=
  Phi_out4 V c _ (by rw [Fin.val_last]; have : cfg4.N = 49 := N_4; omega)

end

end Cert.Kernel.Hand

end
-- ==== Proof.WAssemble.lean ====
import proofs.«412881_j60095182405865_1_alg».proof.Proof.WRun
import proofs.«412881_j60095182405865_1_alg».proof.Proof.WRunArgs
import proofs.«412881_j60095182405865_1_alg».proof.Proof.WReg0
import proofs.«412881_j60095182405865_1_alg».proof.Proof.WReg1
import proofs.«412881_j60095182405865_1_alg».proof.Proof.WReg2
import proofs.«412881_j60095182405865_1_alg».proof.Proof.WReg3
import proofs.«412881_j60095182405865_1_alg».proof.Proof.WReg4

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

theorem regFacts : RegFacts (F := F) dat0 dat1 dat2 dat3 dat4 :=
  ⟨fun V c w => A_eq0 V c w, fun _ _ _ => rfl, fun _ _ _ => rfl, fun _ _ _ => rfl, fun V c => body_obligation0 V c, fun V c => hin0 V c, fun V c => hout0 V c,
   fun V c w => A_eq1 V c w, fun _ _ _ => rfl, fun _ _ _ => rfl, fun _ _ _ => rfl, fun V c => body_obligation1 V c, fun V c => hin1 V c, fun V c => hout1 V c,
   fun V c w => A_eq2 V c w, fun _ _ _ => rfl, fun _ _ _ => rfl, fun _ _ _ => rfl, fun V c => body_obligation2 V c, fun V c => hin2 V c, fun V c => hout2 V c,
   fun V c w => A_eq3 V c w, fun _ _ _ => rfl, fun _ _ _ => rfl, fun _ _ _ => rfl, fun V c => body_obligation3 V c, fun V c => hin3 V c, fun V c => hout3 V c,
   fun V c w => A_eq4 V c w, fun _ _ _ => rfl, fun _ _ _ => rfl, fun _ _ _ => rfl, fun V c => body_obligation4 V c, fun V c => hin4 V c, fun V c => hout4 V c⟩

abbrev poolEntry : Cont F := kU13 m ρ dat0 dat1 dat2 dat3

-- Every weakly fair execution of @main ends, nothing faulting, every argument as launched, the result array being the
-- last region's output array after its last grid point.
theorem run_result : θ_run defs (onTc (τ := τ) (main (F := F))) ⟨m, fun _ => 0, ρ⟩ (fun r => ∀ c : Dev nD,
      r.2.mem ((c.tc : Thread nD τ).loc main_v70) = (dat4 (poolEntry m ρ) c).arrAt 4 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (Q := fun r => ∀ c : Dev nD, ∀ b ∈ Pipeline.ucRefs τ sig, r.2.mem (((c : Thread nD τ)).1, b) = kW14 m ρ dat0 dat1 dat2 dat3 dat4 c b)
    (fun r h c =>
      have key : ∀ b ∈ argRefs, r.2.mem ((c.tc : Thread nD τ).loc b) = m ((c.tc : Thread nD τ).loc b) := fun b hb =>
        (h c _ (mem_uc b ((by decide : ∀ b ∈ argRefs, ¬ (Proc.devRef .tc b : DevRef τ sig).isScoped) b hb))).trans
          (kW14_arg m ρ dat0 dat1 dat2 dat3 dat4 regFacts.hA0 regFacts.hA2 regFacts.hA4 c b hb)
      ⟨(h c _ (mem_uc main_v70 (by decide))).trans (kW14_arr m ρ dat0 dat1 dat2 dat3 dat4 c 4),
        key main_arg0 (by decide), key main_arg1 (by decide), key main_arg2 (by decide), key main_arg3 (by decide), key main_arg4 (by decide), key main_arg5 (by decide), key main_arg6 (by decide), key main_arg7 (by decide), key main_arg8 (by decide), key main_arg9 (by decide), key main_arg10 (by decide), key main_arg11 (by decide), key main_arg12 (by decide), key main_arg13 (by decide), key main_arg14 (by decide), key main_arg15 (by decide), key main_arg16 (by decide)⟩)
    (run_all m ρ dat0 dat1 dat2 dat3 dat4 regFacts)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_result m ρ)

end Cert.Kernel.Hand

end
-- ==== Proof.Run.lean ====
import proofs.«412881_j60095182405865_1_alg».proof.Proof.Gen.KernelIdeal.Launch
import proofs.«412881_j60095182405865_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev Cont (F : FTy → Type) [FloatOps F] : Type := (c : Dev nD) → (b : Ref sig .tc) → Buf (Elt F) ((c : Thread nD τ).loc b)

section Run

variable (m : (ℓ : Loc nD τ sig) → Buf (Elt F) ℓ) (ρ : Dev nD → PrngReg)

variable (d0 : Cont F → (c : Dev nD) → Dat τ (Elt F) Unit ℕ (UR sig nD τ) ℕ cfg0 c)

variable (d1 : Cont F → (c : Dev nD) → Dat τ (Elt F) Unit ℕ (UR sig nD τ) ℕ cfg1 c)

variable (d2 : Cont F → (c : Dev nD) → Dat τ (Elt F) Unit ℕ (UR sig nD τ) ℕ cfg2 c)

variable (d3 : Cont F → (c : Dev nD) → Dat τ (Elt F) Unit ℕ (UR sig nD τ) ℕ cfg3 c)

variable (d4 : Cont F → (c : Dev nD) → Dat τ (Elt F) Unit ℕ (UR sig nD τ) ℕ cfg4 c)

-- What the run of @main asks of the five regions' proof data, stated once: each window's array as the region finds it, whole
-- shares, nothing owed, every point recorded, the body's obligation, and the two ends of the region invariant.
structure RegFacts : Prop where
  hA0 : ∀ (V : Cont F) (c : Dev nD) (w : Fin cfg0.W), (d0 V c).A w = V c (Pipeline.arrRef spec0 w)
  hq0 : ∀ (V : Cont F) (c : Dev nD) (w : Fin cfg0.W), (d0 V c).q w = fullShare
  ho0 : ∀ (V : Cont F) (c : Dev nD) t, (d0 V c).owed t = 0
  hr0 : ∀ (V : Cont F) (c : Dev nD) t, (d0 V c).recorded t = Set.univ
  hb0 : ∀ (V : Cont F) (c : Dev nD), BodyObligation (d0 V c) (defs₀ (F := F)) Variants.none () Set.univ
  hi0 : ∀ (V : Cont F) (c : Dev nD), (Pipeline.ΦA spec0 c : sProp 𝕄) ⊢ (d0 V c).Φ 0
  hx0 : ∀ (V : Cont F) (c : Dev nD), (d0 V c).Φ (Fin.last cfg0.N) ⊢ (Pipeline.ΦA spec0 c : sProp 𝕄)
  hA1 : ∀ (V : Cont F) (c : Dev nD) (w : Fin cfg1.W), (d1 V c).A w = V c (Pipeline.arrRef spec1 w)
  hq1 : ∀ (V : Cont F) (c : Dev nD) (w : Fin cfg1.W), (d1 V c).q w = fullShare
  ho1 : ∀ (V : Cont F) (c : Dev nD) t, (d1 V c).owed t = 0
  hr1 : ∀ (V : Cont F) (c : Dev nD) t, (d1 V c).recorded t = Set.univ
  hb1 : ∀ (V : Cont F) (c : Dev nD), BodyObligation (d1 V c) (defs₀ (F := F)) Variants.none () Set.univ
  hi1 : ∀ (V : Cont F) (c : Dev nD), (Pipeline.ΦA spec1 c : sProp 𝕄) ⊢ (d1 V c).Φ 0
  hx1 : ∀ (V : Cont F) (c : Dev nD), (d1 V c).Φ (Fin.last cfg1.N) ⊢ (Pipeline.ΦA spec1 c : sProp 𝕄)
  hA2 : ∀ (V : Cont F) (c : Dev nD) (w : Fin cfg2.W), (d2 V c).A w = V c (Pipeline.arrRef spec2 w)
  hq2 : ∀ (V : Cont F) (c : Dev nD) (w : Fin cfg2.W), (d2 V c).q w = fullShare
  ho2 : ∀ (V : Cont F) (c : Dev nD) t, (d2 V c).owed t = 0
  hr2 : ∀ (V : Cont F) (c : Dev nD) t, (d2 V c).recorded t = Set.univ
  hb2 : ∀ (V : Cont F) (c : Dev nD), BodyObligation (d2 V c) (defs₀ (F := F)) Variants.none () Set.univ
  hi2 : ∀ (V : Cont F) (c : Dev nD), (Pipeline.ΦA spec2 c : sProp 𝕄) ⊢ (d2 V c).Φ 0
  hx2 : ∀ (V : Cont F) (c : Dev nD), (d2 V c).Φ (Fin.last cfg2.N) ⊢ (Pipeline.ΦA spec2 c : sProp 𝕄)
  hA3 : ∀ (V : Cont F) (c : Dev nD) (w : Fin cfg3.W), (d3 V c).A w = V c (Pipeline.arrRef spec3 w)
  hq3 : ∀ (V : Cont F) (c : Dev nD) (w : Fin cfg3.W), (d3 V c).q w = fullShare
  ho3 : ∀ (V : Cont F) (c : Dev nD) t, (d3 V c).owed t = 0
  hr3 : ∀ (V : Cont F) (c : Dev nD) t, (d3 V c).recorded t = Set.univ
  hb3 : ∀ (V : Cont F) (c : Dev nD), BodyObligation (d3 V c) (defs₀ (F := F)) Variants.none () Set.univ
  hi3 : ∀ (V : Cont F) (c : Dev nD), (Pipeline.ΦA spec3 c : sProp 𝕄) ⊢ (d3 V c).Φ 0
  hx3 : ∀ (V : Cont F) (c : Dev nD), (d3 V c).Φ (Fin.last cfg3.N) ⊢ (Pipeline.ΦA spec3 c : sProp 𝕄)
  hA4 : ∀ (V : Cont F) (c : Dev nD) (w : Fin cfg4.W), (d4 V c).A w = V c (Pipeline.arrRef spec4 w)
  hq4 : ∀ (V : Cont F) (c : Dev nD) (w : Fin cfg4.W), (d4 V c).q w = fullShare
  ho4 : ∀ (V : Cont F) (c : Dev nD) t, (d4 V c).owed t = 0
  hr4 : ∀ (V : Cont F) (c : Dev nD) t, (d4 V c).recorded t = Set.univ
  hb4 : ∀ (V : Cont F) (c : Dev nD), BodyObligation (d4 V c) (defs₀ (F := F)) Variants.none () Set.univ
  hi4 : ∀ (V : Cont F) (c : Dev nD), (Pipeline.ΦA spec4 c : sProp 𝕄) ⊢ (d4 V c).Φ 0
  hx4 : ∀ (V : Cont F) (c : Dev nD), (d4 V c).Φ (Fin.last cfg4.N) ⊢ (Pipeline.ΦA spec4 c : sProp 𝕄)

variable (K : RegFacts d0 d1 d2 d3 d4)

abbrev kW0 : Dev nD → Valuation τ sig (Elt F) := fun c b => (s₀ m ρ).mem ((c : Dev nD), b)

abbrev kW1 : Dev nD → Valuation τ sig (Elt F) := fun c => StableHlo.after hostOps0 (kW0 m ρ c)

abbrev kU1 : Cont F := fun c b => kW1 m ρ c b

def kW2 (c : Dev nD) : Valuation τ sig (Elt F) :=
  Pipeline.withArrays spec0 c (kW1 m ρ c) fun w => (d0 (kU1 m ρ) c).arrAt w cfg0.N
theorem kW2_arr (c : Dev nD) (w : Fin cfg0.W) :
    kW2 m ρ d0 c (Proc.devRef .tc (Pipeline.arrRef spec0 w)) = (d0 (kU1 m ρ) c).arrAt w cfg0.N := by
  unfold kW2; exact Pipeline.withArrays_arr spec0 launch0.win.arr_inj c _ _ w
theorem kW2_of_ne (c : Dev nD) (b : Ref sig .tc) (hb : ∀ w, Pipeline.arrRef spec0 w ≠ b) :
    kW2 m ρ d0 c (Proc.devRef .tc b) = kW1 m ρ c (Proc.devRef .tc b) := by
  unfold kW2; exact Pipeline.withArrays_of_ne spec0 c _ _ b hb

abbrev kU2 : Cont F := fun c b => kW2 m ρ d0 c b
theorem hF0 (c : Dev nD) (w : Fin cfg0.W) : (d0 (kU1 m ρ) c).arrAt w cfg0.N = kU2 m ρ d0 c (Pipeline.arrRef spec0 w) :=
  (kW2_arr m ρ d0 c w).symm
theorem hrest0 (c : Dev nD) : ∀ b, b ∉ Finset.univ.image (Pipeline.arrRef spec0) → kU2 m ρ d0 c b = kU1 m ρ c b :=
  fun b hb => kW2_of_ne m ρ d0 c b fun w e => hb (Finset.mem_image.mpr ⟨w, Finset.mem_univ _, e⟩)

abbrev kW3 : Dev nD → Valuation τ sig (Elt F) := fun c => StableHlo.after hostOps1 (kW2 m ρ d0 c)

abbrev kU3 : Cont F := fun c b => kW3 m ρ d0 c b

def kW4 (c : Dev nD) : Valuation τ sig (Elt F) :=
  Pipeline.withArrays spec1 c (kW3 m ρ d0 c) fun w => (d1 (kU3 m ρ d0) c).arrAt w cfg1.N
theorem kW4_arr (c : Dev nD) (w : Fin cfg1.W) :
    kW4 m ρ d0 d1 c (Proc.devRef .tc (Pipeline.arrRef spec1 w)) = (d1 (kU3 m ρ d0) c).arrAt w cfg1.N := by
  unfold kW4; exact Pipeline.withArrays_arr spec1 launch1.win.arr_inj c _ _ w
theorem kW4_of_ne (c : Dev nD) (b : Ref sig .tc) (hb : ∀ w, Pipeline.arrRef spec1 w ≠ b) :
    kW4 m ρ d0 d1 c (Proc.devRef .tc b) = kW3 m ρ d0 c (Proc.devRef .tc b) := by
  unfold kW4; exact Pipeline.withArrays_of_ne spec1 c _ _ b hb

abbrev kU4 : Cont F := fun c b => kW4 m ρ d0 d1 c b
theorem hF1 (c : Dev nD) (w : Fin cfg1.W) : (d1 (kU3 m ρ d0) c).arrAt w cfg1.N = kU4 m ρ d0 d1 c (Pipeline.arrRef spec1 w) :=
  (kW4_arr m ρ d0 d1 c w).symm
theorem hrest1 (c : Dev nD) : ∀ b, b ∉ Finset.univ.image (Pipeline.arrRef spec1) → kU4 m ρ d0 d1 c b = kU3 m ρ d0 c b :=
  fun b hb => kW4_of_ne m ρ d0 d1 c b fun w e => hb (Finset.mem_image.mpr ⟨w, Finset.mem_univ _, e⟩)

abbrev kW5 : Dev nD → Valuation τ sig (Elt F) := fun c => StableHlo.after hostOps2 (kW4 m ρ d0 d1 c)

abbrev kU5 : Cont F := fun c b => kW5 m ρ d0 d1 c b

def kW6 (c : Dev nD) : Valuation τ sig (Elt F) :=
  Pipeline.withArrays spec2 c (kW5 m ρ d0 d1 c) fun w => (d2 (kU5 m ρ d0 d1) c).arrAt w cfg2.N
theorem kW6_arr (c : Dev nD) (w : Fin cfg2.W) :
    kW6 m ρ d0 d1 d2 c (Proc.devRef .tc (Pipeline.arrRef spec2 w)) = (d2 (kU5 m ρ d0 d1) c).arrAt w cfg2.N := by
  unfold kW6; exact Pipeline.withArrays_arr spec2 launch2.win.arr_inj c _ _ w
theorem kW6_of_ne (c : Dev nD) (b : Ref sig .tc) (hb : ∀ w, Pipeline.arrRef spec2 w ≠ b) :
    kW6 m ρ d0 d1 d2 c (Proc.devRef .tc b) = kW5 m ρ d0 d1 c (Proc.devRef .tc b) := by
  unfold kW6; exact Pipeline.withArrays_of_ne spec2 c _ _ b hb

abbrev kU6 : Cont F := fun c b => kW6 m ρ d0 d1 d2 c b
theorem hF2 (c : Dev nD) (w : Fin cfg2.W) : (d2 (kU5 m ρ d0 d1) c).arrAt w cfg2.N = kU6 m ρ d0 d1 d2 c (Pipeline.arrRef spec2 w) :=
  (kW6_arr m ρ d0 d1 d2 c w).symm
theorem hrest2 (c : Dev nD) : ∀ b, b ∉ Finset.univ.image (Pipeline.arrRef spec2) → kU6 m ρ d0 d1 d2 c b = kU5 m ρ d0 d1 c b :=
  fun b hb => kW6_of_ne m ρ d0 d1 d2 c b fun w e => hb (Finset.mem_image.mpr ⟨w, Finset.mem_univ _, e⟩)

abbrev kW7 : Dev nD → Valuation τ sig (Elt F) := fun c => StableHlo.after hostOps3 (kW6 m ρ d0 d1 d2 c)

abbrev kU7 : Cont F := fun c b => kW7 m ρ d0 d1 d2 c b

def kW8 (c : Dev nD) : Valuation τ sig (Elt F) :=
  Pipeline.withArrays spec3 c (kW7 m ρ d0 d1 d2 c) fun w => (d3 (kU7 m ρ d0 d1 d2) c).arrAt w cfg3.N
theorem kW8_arr (c : Dev nD) (w : Fin cfg3.W) :
    kW8 m ρ d0 d1 d2 d3 c (Proc.devRef .tc (Pipeline.arrRef spec3 w)) = (d3 (kU7 m ρ d0 d1 d2) c).arrAt w cfg3.N := by
  unfold kW8; exact Pipeline.withArrays_arr spec3 launch3.win.arr_inj c _ _ w
theorem kW8_of_ne (c : Dev nD) (b : Ref sig .tc) (hb : ∀ w, Pipeline.arrRef spec3 w ≠ b) :
    kW8 m ρ d0 d1 d2 d3 c (Proc.devRef .tc b) = kW7 m ρ d0 d1 d2 c (Proc.devRef .tc b) := by
  unfold kW8; exact Pipeline.withArrays_of_ne spec3 c _ _ b hb

abbrev kU8 : Cont F := fun c b => kW8 m ρ d0 d1 d2 d3 c b
theorem hF3 (c : Dev nD) (w : Fin cfg3.W) : (d3 (kU7 m ρ d0 d1 d2) c).arrAt w cfg3.N = kU8 m ρ d0 d1 d2 d3 c (Pipeline.arrRef spec3 w) :=
  (kW8_arr m ρ d0 d1 d2 d3 c w).symm
theorem hrest3 (c : Dev nD) : ∀ b, b ∉ Finset.univ.image (Pipeline.arrRef spec3) → kU8 m ρ d0 d1 d2 d3 c b = kU7 m ρ d0 d1 d2 c b :=
  fun b hb => kW8_of_ne m ρ d0 d1 d2 d3 c b fun w e => hb (Finset.mem_image.mpr ⟨w, Finset.mem_univ _, e⟩)

abbrev kW9 : Dev nD → Valuation τ sig (Elt F) := fun c => StableHlo.after hostOps4 (kW8 m ρ d0 d1 d2 d3 c)

abbrev kW10 : Dev nD → Valuation τ sig (Elt F) := fun c => StableHlo.after hostOps4_1 (kW9 m ρ d0 d1 d2 d3 c)

abbrev kW11 : Dev nD → Valuation τ sig (Elt F) := fun c => StableHlo.after hostOps4_2 (kW10 m ρ d0 d1 d2 d3 c)

abbrev kW12 : Dev nD → Valuation τ sig (Elt F) := fun c => StableHlo.after hostOps4_3 (kW11 m ρ d0 d1 d2 d3 c)

abbrev kW13 : Dev nD → Valuation τ sig (Elt F) := fun c => StableHlo.after hostOps4_4 (kW12 m ρ d0 d1 d2 d3 c)

abbrev kU13 : Cont F := fun c b => kW13 m ρ d0 d1 d2 d3 c b

def kW14 (c : Dev nD) : Valuation τ sig (Elt F) :=
  Pipeline.withArrays spec4 c (kW13 m ρ d0 d1 d2 d3 c) fun w => (d4 (kU13 m ρ d0 d1 d2 d3) c).arrAt w cfg4.N
theorem kW14_arr (c : Dev nD) (w : Fin cfg4.W) :
    kW14 m ρ d0 d1 d2 d3 d4 c (Proc.devRef .tc (Pipeline.arrRef spec4 w)) = (d4 (kU13 m ρ d0 d1 d2 d3) c).arrAt w cfg4.N := by
  unfold kW14; exact Pipeline.withArrays_arr spec4 launch4.win.arr_inj c _ _ w
theorem kW14_of_ne (c : Dev nD) (b : Ref sig .tc) (hb : ∀ w, Pipeline.arrRef spec4 w ≠ b) :
    kW14 m ρ d0 d1 d2 d3 d4 c (Proc.devRef .tc b) = kW13 m ρ d0 d1 d2 d3 c (Proc.devRef .tc b) := by
  unfold kW14; exact Pipeline.withArrays_of_ne spec4 c _ _ b hb

abbrev kU14 : Cont F := fun c b => kW14 m ρ d0 d1 d2 d3 d4 c b
theorem hF4 (c : Dev nD) (w : Fin cfg4.W) : (d4 (kU13 m ρ d0 d1 d2 d3) c).arrAt w cfg4.N = kU14 m ρ d0 d1 d2 d3 d4 c (Pipeline.arrRef spec4 w) :=
  (kW14_arr m ρ d0 d1 d2 d3 d4 c w).symm
theorem hrest4 (c : Dev nD) : ∀ b, b ∉ Finset.univ.image (Pipeline.arrRef spec4) → kU14 m ρ d0 d1 d2 d3 d4 c b = kU13 m ρ d0 d1 d2 d3 c b :=
  fun b hb => kW14_of_ne m ρ d0 d1 d2 d3 d4 c b fun w e => hb (Finset.mem_image.mpr ⟨w, Finset.mem_univ _, e⟩)

def kPdats : (p : Fin 5) → (c : Dev nD) → Dat τ (Elt F) Unit ℕ (UR sig nD τ) ℕ (Pipeline.pin (pcfgs (F := F)) adm p) c
  | ⟨0, _⟩ => fun c => d0 (kU1 m ρ) c
  | ⟨1, _⟩ => fun c => d1 (kU3 m ρ d0) c
  | ⟨2, _⟩ => fun c => d2 (kU5 m ρ d0 d1) c
  | ⟨3, _⟩ => fun c => d3 (kU7 m ρ d0 d1 d2) c
  | ⟨4, _⟩ => fun c => d4 (kU13 m ρ d0 d1 d2 d3) c
abbrev k𝒱₀ : Variants := Variants.none

abbrev kL : GSem nD τ sig → Finset Unit := fun _ => ∅
abbrev klv : GSem nD τ sig → Unit → ℕ := fun _ _ => 0

abbrev kR (c : Dev nD) : sProp 𝕄 := iprop((∃ r, prngReg c r) ∗ ∃ W, owes (c : Thread nD τ) (0 : CellTallies nD τ sig Unit) W)

abbrev kHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ k𝒱₀ kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev kTₙ (c : Dev nD) : sProp 𝕄 := iprop(StableHlo.held (c : Thread nD τ) (Pipeline.ucRefs τ sig) (kW14 m ρ d0 d1 d2 d3 d4 c) ∗ ∃ r, prngReg c r)

set_option backward.isDefEq.respectTransparency.types false in
def kReg0 :
    Pipeline.RegionSeg (pcfgs (F := F)) adm (kPdats m ρ d0 d1 d2 d3 d4) () defs₀ k𝒱₀ kL klv 0 where
  win := launch0.win.to₀
  block_pos := launch0.block_pos
  stage_whole := launch0.stage_whole
  K := PEmpty
  osem k := k.elim
  ho := Pipeline.OwnSemFacts.none _
  hbody c := (K.hb0 (kU1 m ρ) c).loose
  hwaits := Pipeline.hwaits_of_owed_zero _ _ _ _ kL klv 0 fun c t => K.ho0 (kU1 m ρ) c t
  pre c := iprop(StableHlo.held (c : Thread nD τ) (Pipeline.ucRefs τ sig) (kW1 m ρ c) ∗ kR c)
  post c := iprop(StableHlo.held (c : Thread nD τ) (Pipeline.ucRefs τ sig) (kW2 m ρ d0 c) ∗ kR c)
  X c := iprop(∃ r, prngReg c r)
  Y c := iprop(∃ r, prngReg c r)
  Z c := Pipeline.unscopedRest (Ix := Unit) (Name := ℕ) (U := UR sig nD τ) (Lvl := ℕ) spec0 c (kU1 m ρ c)
  hentry c := by
    rw [Pipeline.ownSems0_none]
    have hsplit := Pipeline.arrays_of_unscopedBufs (p := 0) (pcfgs (F := F)) adm (kPdats m ρ d0 d1 d2 d3 d4) launch0.win launch0.arr_whole c
      ((kPdats m ρ d0 d1 d2 d3 d4 0 c).share_full fun w => K.hq0 (kU1 m ρ) c w) (kU1 m ρ c) fun w => K.hA0 (kU1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 0 c).owed 0 = 0 from K.ho0 (kU1 m ρ) c 0]
      icases HO with ⟨%W, HO⟩; iexists W; isplitr
      · ipureintro; exact fun x _ => Or.inl (show x ∈ (d0 (kU1 m ρ) c).recorded 0 from by rw [K.hr0 (kU1 m ρ) c 0]; exact Set.mem_univ x)
      iexact HO
    isplitl [Hp]; · iexact Hp
    iexact Hrest
  hin c :=
    (show iprop((∃ r, prngReg c r) ∗ Pipeline.prefHeld (pcfgs (F := F) 0).pre c (fun _ => fullShare) (adm (F := F) 0).1 ∗ Pipeline.scopedRest (Pipeline.pin (pcfgs (F := F)) adm 0).spec c)
        ⊢ (Pipeline.ΦA spec0 c : sProp 𝕄) from by
      unfold Pipeline.ΦA
      iintro ⟨Hp, -, Hr⟩
      isplitl [Hr]; · iexact Hr
      iexact Hp).trans (K.hi0 (kU1 m ρ) c)
  hout c := by
    rw [Pipeline.ownSems0_none]
    exact (K.hx0 (kU1 m ρ) c).trans (show (Pipeline.ΦA spec0 c : sProp 𝕄)
        ⊢ iprop((∃ r, prngReg c r) ∗ emp ∗ Pipeline.scopedRest (Pipeline.pin (pcfgs (F := F)) adm 0).spec c) from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (kPdats m ρ d0 d1 d2 d3 d4) ((kPdats m ρ d0 d1 d2 d3 d4 0 c).share_full fun w => K.hq0 (kU1 m ρ) c w)
      (kU1 m ρ c) (kU2 m ρ d0 c) ((kPdats m ρ d0 d1 d2 d3 d4 0 c).arrAt · cfg0.N) (hF0 m ρ d0 c) (hrest0 m ρ d0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (kPdats m ρ d0 d1 d2 d3 d4 0 c).owed (Fin.last _) = 0 from K.ho0 (kU1 m ρ) c _]
    icases HO with ⟨%W, -, HO⟩; iexists W; iexact HO

set_option backward.isDefEq.respectTransparency.types false in
def kReg1 :
    Pipeline.RegionSeg (pcfgs (F := F)) adm (kPdats m ρ d0 d1 d2 d3 d4) () defs₀ k𝒱₀ kL klv 1 where
  win := launch1.win.to₀
  block_pos := launch1.block_pos
  stage_whole := launch1.stage_whole
  K := PEmpty
  osem k := k.elim
  ho := Pipeline.OwnSemFacts.none _
  hbody c := (K.hb1 (kU3 m ρ d0) c).loose
  hwaits := Pipeline.hwaits_of_owed_zero _ _ _ _ kL klv 1 fun c t => K.ho1 (kU3 m ρ d0) c t
  pre c := iprop(StableHlo.held (c : Thread nD τ) (Pipeline.ucRefs τ sig) (kW3 m ρ d0 c) ∗ kR c)
  post c := iprop(StableHlo.held (c : Thread nD τ) (Pipeline.ucRefs τ sig) (kW4 m ρ d0 d1 c) ∗ kR c)
  X c := iprop(∃ r, prngReg c r)
  Y c := iprop(∃ r, prngReg c r)
  Z c := Pipeline.unscopedRest (Ix := Unit) (Name := ℕ) (U := UR sig nD τ) (Lvl := ℕ) spec1 c (kU3 m ρ d0 c)
  hentry c := by
    rw [Pipeline.ownSems0_none]
    have hsplit := Pipeline.arrays_of_unscopedBufs (p := 1) (pcfgs (F := F)) adm (kPdats m ρ d0 d1 d2 d3 d4) launch1.win launch1.arr_whole c
      ((kPdats m ρ d0 d1 d2 d3 d4 1 c).share_full fun w => K.hq1 (kU3 m ρ d0) c w) (kU3 m ρ d0 c) fun w => K.hA1 (kU3 m ρ d0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 1 c).owed 0 = 0 from K.ho1 (kU3 m ρ d0) c 0]
      icases HO with ⟨%W, HO⟩; iexists W; isplitr
      · ipureintro; exact fun x _ => Or.inl (show x ∈ (d1 (kU3 m ρ d0) c).recorded 0 from by rw [K.hr1 (kU3 m ρ d0) c 0]; exact Set.mem_univ x)
      iexact HO
    isplitl [Hp]; · iexact Hp
    iexact Hrest
  hin c :=
    (show iprop((∃ r, prngReg c r) ∗ Pipeline.prefHeld (pcfgs (F := F) 1).pre c (fun _ => fullShare) (adm (F := F) 1).1 ∗ Pipeline.scopedRest (Pipeline.pin (pcfgs (F := F)) adm 1).spec c)
        ⊢ (Pipeline.ΦA spec1 c : sProp 𝕄) from by
      unfold Pipeline.ΦA
      iintro ⟨Hp, -, Hr⟩
      isplitl [Hr]; · iexact Hr
      iexact Hp).trans (K.hi1 (kU3 m ρ d0) c)
  hout c := by
    rw [Pipeline.ownSems0_none]
    exact (K.hx1 (kU3 m ρ d0) c).trans (show (Pipeline.ΦA spec1 c : sProp 𝕄)
        ⊢ iprop((∃ r, prngReg c r) ∗ emp ∗ Pipeline.scopedRest (Pipeline.pin (pcfgs (F := F)) adm 1).spec c) from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (kPdats m ρ d0 d1 d2 d3 d4) ((kPdats m ρ d0 d1 d2 d3 d4 1 c).share_full fun w => K.hq1 (kU3 m ρ d0) c w)
      (kU3 m ρ d0 c) (kU4 m ρ d0 d1 c) ((kPdats m ρ d0 d1 d2 d3 d4 1 c).arrAt · cfg1.N) (hF1 m ρ d0 d1 c) (hrest1 m ρ d0 d1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (kPdats m ρ d0 d1 d2 d3 d4 1 c).owed (Fin.last _) = 0 from K.ho1 (kU3 m ρ d0) c _]
    icases HO with ⟨%W, -, HO⟩; iexists W; iexact HO

set_option backward.isDefEq.respectTransparency.types false in
def kReg2 :
    Pipeline.RegionSeg (pcfgs (F := F)) adm (kPdats m ρ d0 d1 d2 d3 d4) () defs₀ k𝒱₀ kL klv 2 where
  win := launch2.win.to₀
  block_pos := launch2.block_pos
  stage_whole := launch2.stage_whole
  K := PEmpty
  osem k := k.elim
  ho := Pipeline.OwnSemFacts.none _
  hbody c := (K.hb2 (kU5 m ρ d0 d1) c).loose
  hwaits := Pipeline.hwaits_of_owed_zero _ _ _ _ kL klv 2 fun c t => K.ho2 (kU5 m ρ d0 d1) c t
  pre c := iprop(StableHlo.held (c : Thread nD τ) (Pipeline.ucRefs τ sig) (kW5 m ρ d0 d1 c) ∗ kR c)
  post c := iprop(StableHlo.held (c : Thread nD τ) (Pipeline.ucRefs τ sig) (kW6 m ρ d0 d1 d2 c) ∗ kR c)
  X c := iprop(∃ r, prngReg c r)
  Y c := iprop(∃ r, prngReg c r)
  Z c := Pipeline.unscopedRest (Ix := Unit) (Name := ℕ) (U := UR sig nD τ) (Lvl := ℕ) spec2 c (kU5 m ρ d0 d1 c)
  hentry c := by
    rw [Pipeline.ownSems0_none]
    have hsplit := Pipeline.arrays_of_unscopedBufs (p := 2) (pcfgs (F := F)) adm (kPdats m ρ d0 d1 d2 d3 d4) launch2.win launch2.arr_whole c
      ((kPdats m ρ d0 d1 d2 d3 d4 2 c).share_full fun w => K.hq2 (kU5 m ρ d0 d1) c w) (kU5 m ρ d0 d1 c) fun w => K.hA2 (kU5 m ρ d0 d1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 2 c).owed 0 = 0 from K.ho2 (kU5 m ρ d0 d1) c 0]
      icases HO with ⟨%W, HO⟩; iexists W; isplitr
      · ipureintro; exact fun x _ => Or.inl (show x ∈ (d2 (kU5 m ρ d0 d1) c).recorded 0 from by rw [K.hr2 (kU5 m ρ d0 d1) c 0]; exact Set.mem_univ x)
      iexact HO
    isplitl [Hp]; · iexact Hp
    iexact Hrest
  hin c :=
    (show iprop((∃ r, prngReg c r) ∗ Pipeline.prefHeld (pcfgs (F := F) 2).pre c (fun _ => fullShare) (adm (F := F) 2).1 ∗ Pipeline.scopedRest (Pipeline.pin (pcfgs (F := F)) adm 2).spec c)
        ⊢ (Pipeline.ΦA spec2 c : sProp 𝕄) from by
      unfold Pipeline.ΦA
      iintro ⟨Hp, -, Hr⟩
      isplitl [Hr]; · iexact Hr
      iexact Hp).trans (K.hi2 (kU5 m ρ d0 d1) c)
  hout c := by
    rw [Pipeline.ownSems0_none]
    exact (K.hx2 (kU5 m ρ d0 d1) c).trans (show (Pipeline.ΦA spec2 c : sProp 𝕄)
        ⊢ iprop((∃ r, prngReg c r) ∗ emp ∗ Pipeline.scopedRest (Pipeline.pin (pcfgs (F := F)) adm 2).spec c) from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (kPdats m ρ d0 d1 d2 d3 d4) ((kPdats m ρ d0 d1 d2 d3 d4 2 c).share_full fun w => K.hq2 (kU5 m ρ d0 d1) c w)
      (kU5 m ρ d0 d1 c) (kU6 m ρ d0 d1 d2 c) ((kPdats m ρ d0 d1 d2 d3 d4 2 c).arrAt · cfg2.N) (hF2 m ρ d0 d1 d2 c) (hrest2 m ρ d0 d1 d2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (kPdats m ρ d0 d1 d2 d3 d4 2 c).owed (Fin.last _) = 0 from K.ho2 (kU5 m ρ d0 d1) c _]
    icases HO with ⟨%W, -, HO⟩; iexists W; iexact HO

set_option backward.isDefEq.respectTransparency.types false in
def kReg3 :
    Pipeline.RegionSeg (pcfgs (F := F)) adm (kPdats m ρ d0 d1 d2 d3 d4) () defs₀ k𝒱₀ kL klv 3 where
  win := launch3.win.to₀
  block_pos := launch3.block_pos
  stage_whole := launch3.stage_whole
  K := PEmpty
  osem k := k.elim
  ho := Pipeline.OwnSemFacts.none _
  hbody c := (K.hb3 (kU7 m ρ d0 d1 d2) c).loose
  hwaits := Pipeline.hwaits_of_owed_zero _ _ _ _ kL klv 3 fun c t => K.ho3 (kU7 m ρ d0 d1 d2) c t
  pre c := iprop(StableHlo.held (c : Thread nD τ) (Pipeline.ucRefs τ sig) (kW7 m ρ d0 d1 d2 c) ∗ kR c)
  post c := iprop(StableHlo.held (c : Thread nD τ) (Pipeline.ucRefs τ sig) (kW8 m ρ d0 d1 d2 d3 c) ∗ kR c)
  X c := iprop(∃ r, prngReg c r)
  Y c := iprop(∃ r, prngReg c r)
  Z c := Pipeline.unscopedRest (Ix := Unit) (Name := ℕ) (U := UR sig nD τ) (Lvl := ℕ) spec3 c (kU7 m ρ d0 d1 d2 c)
  hentry c := by
    rw [Pipeline.ownSems0_none]
    have hsplit := Pipeline.arrays_of_unscopedBufs (p := 3) (pcfgs (F := F)) adm (kPdats m ρ d0 d1 d2 d3 d4) launch3.win launch3.arr_whole c
      ((kPdats m ρ d0 d1 d2 d3 d4 3 c).share_full fun w => K.hq3 (kU7 m ρ d0 d1 d2) c w) (kU7 m ρ d0 d1 d2 c) fun w => K.hA3 (kU7 m ρ d0 d1 d2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 3 c).owed 0 = 0 from K.ho3 (kU7 m ρ d0 d1 d2) c 0]
      icases HO with ⟨%W, HO⟩; iexists W; isplitr
      · ipureintro; exact fun x _ => Or.inl (show x ∈ (d3 (kU7 m ρ d0 d1 d2) c).recorded 0 from by rw [K.hr3 (kU7 m ρ d0 d1 d2) c 0]; exact Set.mem_univ x)
      iexact HO
    isplitl [Hp]; · iexact Hp
    iexact Hrest
  hin c :=
    (show iprop((∃ r, prngReg c r) ∗ Pipeline.prefHeld (pcfgs (F := F) 3).pre c (fun _ => fullShare) (adm (F := F) 3).1 ∗ Pipeline.scopedRest (Pipeline.pin (pcfgs (F := F)) adm 3).spec c)
        ⊢ (Pipeline.ΦA spec3 c : sProp 𝕄) from by
      unfold Pipeline.ΦA
      iintro ⟨Hp, -, Hr⟩
      isplitl [Hr]; · iexact Hr
      iexact Hp).trans (K.hi3 (kU7 m ρ d0 d1 d2) c)
  hout c := by
    rw [Pipeline.ownSems0_none]
    exact (K.hx3 (kU7 m ρ d0 d1 d2) c).trans (show (Pipeline.ΦA spec3 c : sProp 𝕄)
        ⊢ iprop((∃ r, prngReg c r) ∗ emp ∗ Pipeline.scopedRest (Pipeline.pin (pcfgs (F := F)) adm 3).spec c) from by
      unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (kPdats m ρ d0 d1 d2 d3 d4) ((kPdats m ρ d0 d1 d2 d3 d4 3 c).share_full fun w => K.hq3 (kU7 m ρ d0 d1 d2) c w)
      (kU7 m ρ d0 d1 d2 c) (kU8 m ρ d0 d1 d2 d3 c) ((kPdats m ρ d0 d1 d2 d3 d4 3 c).arrAt · cfg3.N) (hF3 m ρ d0 d1 d2 d3 c) (hrest3 m ρ d0 d1 d2 d3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (kPdats m ρ d0 d1 d2 d3 d4 3 c).owed (Fin.last _) = 0 from K.ho3 (kU7 m ρ d0 d1 d2) c _]
    icases HO with ⟨%W, -, HO⟩; iexists W; iexact HO

set_option backward.isDefEq.respectTransparency.types false in
def kReg4 :
    Pipeline.RegionSeg (pcfgs (F := F)) adm (kPdats m ρ d0 d1 d2 d3 d4) () defs₀ k𝒱₀ kL klv 4 where
  win := launch4.win.to₀
  block_pos := launch4.block_pos
  stage_whole := launch4.stage_whole
  K := PEmpty
  osem k := k.elim
  ho := Pipeline.OwnSemFacts.none _
  hbody c := (K.hb4 (kU13 m ρ d0 d1 d2 d3) c).loose
  hwaits := Pipeline.hwaits_of_owed_zero _ _ _ _ kL klv 4 fun c t => K.ho4 (kU13 m ρ d0 d1 d2 d3) c t
  pre c := iprop(StableHlo.held (c : Thread nD τ) (Pipeline.ucRefs τ sig) (kW13 m ρ d0 d1 d2 d3 c) ∗ kR c)
  post c := iprop(kTₙ m ρ d0 d1 d2 d3 d4 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (kU13 m ρ d0 d1 d2 d3 c)
  hentry c := by
    rw [Pipeline.ownSems0_none]
    have hsplit := Pipeline.arrays_of_unscopedBufs (p := 4) (pcfgs (F := F)) adm (kPdats m ρ d0 d1 d2 d3 d4) launch4.win launch4.arr_whole c
      ((kPdats m ρ d0 d1 d2 d3 d4 4 c).share_full fun w => K.hq4 (kU13 m ρ d0 d1 d2 d3) c w) (kU13 m ρ d0 d1 d2 d3 c) fun w => K.hA4 (kU13 m ρ d0 d1 d2 d3) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (kPdats m ρ d0 d1 d2 d3 d4 4 c).owed 0 = 0 from K.ho4 (kU13 m ρ d0 d1 d2 d3) c 0]
      icases HO with ⟨%W, HO⟩; iexists W; isplitr
      · ipureintro; exact fun x _ => Or.inl (show x ∈ (d4 (kU13 m ρ d0 d1 d2 d3) c).recorded 0 from by rw [K.hr4 (kU13 m ρ d0 d1 d2 d3) c 0]; exact Set.mem_univ x)
      iexact HO
    isplitl [Hp]; · iexact Hp
    iexact Hrest
  hin c :=
    (show iprop((∃ r, prngReg c r) ∗ Pipeline.prefHeld (pcfgs (F := F) 4).pre c (fun _ => fullShare) (adm (F := F) 4).1 ∗ Pipeline.scopedRest (Pipeline.pin (pcfgs (F := F)) adm 4).spec c)
        ⊢ (Pipeline.ΦA spec4 c : sProp 𝕄) from by
      unfold Pipeline.ΦA
      iintro ⟨Hp, -, Hr⟩
      isplitl [Hr]; · iexact Hr
      iexact Hp).trans (K.hi4 (kU13 m ρ d0 d1 d2 d3) c)
  hout c := by
    rw [Pipeline.ownSems0_none]
    exact (K.hx4 (kU13 m ρ d0 d1 d2 d3) c).trans (show (Pipeline.ΦA spec4 c : sProp 𝕄)
        ⊢ iprop((∃ r, prngReg c r) ∗ emp ∗ Pipeline.scopedRest (Pipeline.pin (pcfgs (F := F)) adm 4).spec c) from by
      unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (kPdats m ρ d0 d1 d2 d3 d4) ((kPdats m ρ d0 d1 d2 d3 d4 4 c).share_full fun w => K.hq4 (kU13 m ρ d0 d1 d2 d3) c w)
      (kU13 m ρ d0 d1 d2 d3 c) (kU14 m ρ d0 d1 d2 d3 d4 c) ((kPdats m ρ d0 d1 d2 d3 d4 4 c).arrAt · cfg4.N) (hF4 m ρ d0 d1 d2 d3 d4 c) (hrest4 m ρ d0 d1 d2 d3 d4 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (kPdats m ρ d0 d1 d2 d3 d4 4 c).owed (Fin.last _) = 0 from K.ho4 (kU13 m ρ d0 d1 d2 d3) c _]
    icases HO with ⟨%W, -, HO⟩; iexists W; iexact HO

abbrev kSegs :
    List (Pipeline.Seg (pcfgs (F := F)) adm (kPdats m ρ d0 d1 d2 d3 d4) () defs₀ k𝒱₀ kL klv) :=
  [ .host (kHseg hostOps0 hostOps0_sub hostOps0_fresh (kW0 m ρ)),
    .region (kReg0 m ρ d0 d1 d2 d3 d4 K),
    .host (kHseg hostOps1 hostOps1_sub hostOps1_fresh (kW2 m ρ d0)),
    .region (kReg1 m ρ d0 d1 d2 d3 d4 K),
    .host (kHseg hostOps2 hostOps2_sub hostOps2_fresh (kW4 m ρ d0 d1)),
    .region (kReg2 m ρ d0 d1 d2 d3 d4 K),
    .host (kHseg hostOps3 hostOps3_sub hostOps3_fresh (kW6 m ρ d0 d1 d2)),
    .region (kReg3 m ρ d0 d1 d2 d3 d4 K),
    .host (kHseg hostOps4 hostOps4_sub hostOps4_fresh (kW8 m ρ d0 d1 d2 d3)),
    .host (kHseg hostOps4_1 hostOps4_1_sub hostOps4_1_fresh (kW9 m ρ d0 d1 d2 d3)),
    .host (kHseg hostOps4_2 hostOps4_2_sub hostOps4_2_fresh (kW10 m ρ d0 d1 d2 d3)),
    .host (kHseg hostOps4_3 hostOps4_3_sub hostOps4_3_fresh (kW11 m ρ d0 d1 d2 d3)),
    .host (kHseg hostOps4_4 hostOps4_4_sub hostOps4_4_fresh (kW12 m ρ d0 d1 d2 d3)),
    .region (kReg4 m ρ d0 d1 d2 d3 d4 K) ]

theorem kMain_run (c : Dev nD) :
    main (F := F) c = Pipeline.Seg.run (kSegs m ρ d0 d1 d2 d3 d4 K) := (main_chain c).trans (by chain_rfl)

include K
set_option backward.isDefEq.respectTransparency.types false in
theorem run_all :
    θ_run defs (onTc (τ := τ) (main (F := F))) ⟨m, fun _ => 0, ρ⟩ (fun r => ∀ c : Dev nD,
      ∀ b ∈ Pipeline.ucRefs τ sig, r.2.mem (((c : Thread nD τ)).1, b) = kW14 m ρ d0 d1 d2 d3 d4 c b) :=
  Pipeline.θ_run_regions_kit (pcfgs (F := F)) adm (kPdats m ρ d0 d1 d2 d3 d4) () cellOf_inj emb₁ defs₀ k𝒱₀ kL klv m ρ main (kSegs m ρ d0 d1 d2 d3 d4 K)
    (fun c Q => by rw [kMain_run m ρ d0 d1 d2 d3 d4 K c])
    (by simp only [kSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (kW0 m ρ c) ∗ kR c)) (Tₙ := kTₙ m ρ d0 d1 d2 d3 d4)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach kL klv fun c => ?_
      rw [show unscopedBufs c (fun b => m ((c : Thread nD τ).loc b)) = StableHlo.held (c : Thread nD τ) (Pipeline.ucRefs τ sig) (kW0 m ρ c)
        from Pipeline.unscopedBufs_held c (kW0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = kW14 m ρ d0 d1 d2 d3 d4 c b)
    (hfin := fun c s' => by
      iintro ⟨⟨Hh, -⟩, HSI⟩
      unfold StableHlo.held
      imodintro
      iapply (pointsTo_read_all (Pipeline.ucRefs τ sig) (fun b => (((c : Thread nD τ)).1, b)) (kW14 m ρ d0 d1 d2 d3 d4 c) s')
      isplitl [Hh] <;> iassumption)
    (hQ := fun s h c => h c)

end Run

end Cert.KernelIdeal.Hand

end
-- ==== Proof.RunArgs.lean ====
import proofs.«412881_j60095182405865_1_alg».proof.Proof.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- Across a region a buffer changes only if it is the array of one of the region's windows, and then only as that array does.
theorem withArrays_in {gr W : ℕ} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16]

section RunArgs

variable (m : (ℓ : Loc nD τ sig) → Buf (Elt F) ℓ) (ρ : Dev nD → PrngReg)

variable (d0 : Cont F → (c : Dev nD) → Dat τ (Elt F) Unit ℕ (UR sig nD τ) ℕ cfg0 c)
variable (d1 : Cont F → (c : Dev nD) → Dat τ (Elt F) Unit ℕ (UR sig nD τ) ℕ cfg1 c)
variable (d2 : Cont F → (c : Dev nD) → Dat τ (Elt F) Unit ℕ (UR sig nD τ) ℕ cfg2 c)
variable (d3 : Cont F → (c : Dev nD) → Dat τ (Elt F) Unit ℕ (UR sig nD τ) ℕ cfg3 c)
variable (d4 : Cont F → (c : Dev nD) → Dat τ (Elt F) Unit ℕ (UR sig nD τ) ℕ cfg4 c)
variable (hA0 : ∀ (V : Cont F) (c : Dev nD) (w : Fin cfg0.W), (d0 V c).A w = V c (Pipeline.arrRef spec0 w))
variable (hA2 : ∀ (V : Cont F) (c : Dev nD) (w : Fin cfg2.W), (d2 V c).A w = V c (Pipeline.arrRef spec2 w))
variable (hA4 : ∀ (V : Cont F) (c : Dev nD) (w : Fin cfg4.W), (d4 V c).A w = V c (Pipeline.arrRef spec4 w))

-- No host stretch writes an argument and no region has one as the array of an output window, so at every boundary
-- of @main an argument's buffer holds what the launch memory held.
theorem kW0_arg (c : Dev nD) (b : Ref sig .tc) (hb : b ∈ argRefs) :
    kW0 m ρ c (Proc.devRef .tc b) = m ((c : Thread nD τ).loc b) := rfl
theorem kW1_arg (c : Dev nD) (b : Ref sig .tc) (hb : b ∈ argRefs) :
    kW1 m ρ c (Proc.devRef .tc b) = m ((c : Thread nD τ).loc b) :=
  (StableHlo.after_of_writes_sub hostOps0 _ hostOps0_writes ((by decide : ∀ b ∈ argRefs, b ∉ hostOps0_W) b hb)).trans (kW0_arg m ρ c b hb)
include hA0
theorem kW2_arg (c : Dev nD) (b : Ref sig .tc) (hb : b ∈ argRefs) :
    kW2 m ρ d0 c (Proc.devRef .tc b) = m ((c : Thread nD τ).loc b) := by
  unfold kW2
  exact (withArrays_in spec0 launch0.win.arr_inj c _ _ b fun w e =>
    ((d0 (kU1 m ρ) c).arrAt_in w ((by decide : ∀ b ∈ argRefs, ∀ w, Pipeline.arrRef spec0 w = b → (cfg0.win w).isOut = false) b hb w e) _).trans
      (hA0 (kU1 m ρ) c w)).trans (kW1_arg m ρ c b hb)
theorem kW3_arg (c : Dev nD) (b : Ref sig .tc) (hb : b ∈ argRefs) :
    kW3 m ρ d0 c (Proc.devRef .tc b) = m ((c : Thread nD τ).loc b) :=
  (StableHlo.after_of_writes_sub hostOps1 _ hostOps1_writes ((by decide : ∀ b ∈ argRefs, b ∉ hostOps1_W) b hb)).trans (kW2_arg m ρ d0 hA0 c b hb)
theorem kW4_arg (c : Dev nD) (b : Ref sig .tc) (hb : b ∈ argRefs) :
    kW4 m ρ d0 d1 c (Proc.devRef .tc b) = m ((c : Thread nD τ).loc b) :=
  (kW4_of_ne m ρ d0 d1 c b ((by decide : ∀ b ∈ argRefs, ∀ w, Pipeline.arrRef spec1 w ≠ b) b hb)).trans (kW3_arg m ρ d0 hA0 c b hb)
theorem kW5_arg (c : Dev nD) (b : Ref sig .tc) (hb : b ∈ argRefs) :
    kW5 m ρ d0 d1 c (Proc.devRef .tc b) = m ((c : Thread nD τ).loc b) :=
  (StableHlo.after_of_writes_sub hostOps2 _ hostOps2_writes ((by decide : ∀ b ∈ argRefs, b ∉ hostOps2_W) b hb)).trans (kW4_arg m ρ d0 d1 hA0 c b hb)
include hA2
theorem kW6_arg (c : Dev nD) (b : Ref sig .tc) (hb : b ∈ argRefs) :
    kW6 m ρ d0 d1 d2 c (Proc.devRef .tc b) = m ((c : Thread nD τ).loc b) := by
  unfold kW6
  exact (withArrays_in spec2 launch2.win.arr_inj c _ _ b fun w e =>
    ((d2 (kU5 m ρ d0 d1) c).arrAt_in w ((by decide : ∀ b ∈ argRefs, ∀ w, Pipeline.arrRef spec2 w = b → (cfg2.win w).isOut = false) b hb w e) _).trans
      (hA2 (kU5 m ρ d0 d1) c w)).trans (kW5_arg m ρ d0 d1 hA0 c b hb)
theorem kW7_arg (c : Dev nD) (b : Ref sig .tc) (hb : b ∈ argRefs) :
    kW7 m ρ d0 d1 d2 c (Proc.devRef .tc b) = m ((c : Thread nD τ).loc b) :=
  (StableHlo.after_of_writes_sub hostOps3 _ hostOps3_writes ((by decide : ∀ b ∈ argRefs, b ∉ hostOps3_W) b hb)).trans (kW6_arg m ρ d0 d1 d2 hA0 hA2 c b hb)
theorem kW8_arg (c : Dev nD) (b : Ref sig .tc) (hb : b ∈ argRefs) :
    kW8 m ρ d0 d1 d2 d3 c (Proc.devRef .tc b) = m ((c : Thread nD τ).loc b) :=
  (kW8_of_ne m ρ d0 d1 d2 d3 c b ((by decide : ∀ b ∈ argRefs, ∀ w, Pipeline.arrRef spec3 w ≠ b) b hb)).trans (kW7_arg m ρ d0 d1 d2 hA0 hA2 c b hb)
theorem kW9_arg (c : Dev nD) (b : Ref sig .tc) (hb : b ∈ argRefs) :
    kW9 m ρ d0 d1 d2 d3 c (Proc.devRef .tc b) = m ((c : Thread nD τ).loc b) :=
  (StableHlo.after_of_writes_sub hostOps4 _ hostOps4_writes ((by decide : ∀ b ∈ argRefs, b ∉ hostOps4_W) b hb)).trans (kW8_arg m ρ d0 d1 d2 d3 hA0 hA2 c b hb)
theorem kW10_arg (c : Dev nD) (b : Ref sig .tc) (hb : b ∈ argRefs) :
    kW10 m ρ d0 d1 d2 d3 c (Proc.devRef .tc b) = m ((c : Thread nD τ).loc b) :=
  (StableHlo.after_of_writes_sub hostOps4_1 _ hostOps4_1_writes ((by decide : ∀ b ∈ argRefs, b ∉ hostOps4_1_W) b hb)).trans (kW9_arg m ρ d0 d1 d2 d3 hA0 hA2 c b hb)
theorem kW11_arg (c : Dev nD) (b : Ref sig .tc) (hb : b ∈ argRefs) :
    kW11 m ρ d0 d1 d2 d3 c (Proc.devRef .tc b) = m ((c : Thread nD τ).loc b) :=
  (StableHlo.after_of_writes_sub hostOps4_2 _ hostOps4_2_writes ((by decide : ∀ b ∈ argRefs, b ∉ hostOps4_2_W) b hb)).trans (kW10_arg m ρ d0 d1 d2 d3 hA0 hA2 c b hb)
theorem kW12_arg (c : Dev nD) (b : Ref sig .tc) (hb : b ∈ argRefs) :
    kW12 m ρ d0 d1 d2 d3 c (Proc.devRef .tc b) = m ((c : Thread nD τ).loc b) :=
  (StableHlo.after_of_writes_sub hostOps4_3 _ hostOps4_3_writes ((by decide : ∀ b ∈ argRefs, b ∉ hostOps4_3_W) b hb)).trans (kW11_arg m ρ d0 d1 d2 d3 hA0 hA2 c b hb)
theorem kW13_arg (c : Dev nD) (b : Ref sig .tc) (hb : b ∈ argRefs) :
    kW13 m ρ d0 d1 d2 d3 c (Proc.devRef .tc b) = m ((c : Thread nD τ).loc b) :=
  (StableHlo.after_of_writes_sub hostOps4_4 _ hostOps4_4_writes ((by decide : ∀ b ∈ argRefs, b ∉ hostOps4_4_W) b hb)).trans (kW12_arg m ρ d0 d1 d2 d3 hA0 hA2 c b hb)
include hA4
theorem kW14_arg (c : Dev nD) (b : Ref sig .tc) (hb : b ∈ argRefs) :
    kW14 m ρ d0 d1 d2 d3 d4 c (Proc.devRef .tc b) = m ((c : Thread nD τ).loc b) := by
  unfold kW14
  exact (withArrays_in spec4 launch4.win.arr_inj c _ _ b fun w e =>
    ((d4 (kU13 m ρ d0 d1 d2 d3) c).arrAt_in w ((by decide : ∀ b ∈ argRefs, ∀ w, Pipeline.arrRef spec4 w = b → (cfg4.win w).isOut = false) b hb w e) _).trans
      (hA4 (kU13 m ρ d0 d1 d2 d3) c w)).trans (kW13_arg m ρ d0 d1 d2 d3 hA0 hA2 c b hb)

end RunArgs

end Cert.KernelIdeal.Hand

end
-- ==== Proof.Reg0.lean ====
import proofs.«412881_j60095182405865_1_alg».proof.Proof.Gen.KernelIdeal.Launch
import proofs.«412881_j60095182405865_1_alg».proof.Proof.Gen.KernelIdeal.Skeleton
import proofs.«412881_j60095182405865_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem offZ : (![0, 0] : Fin 2 → ℕ) = fun _ => 0 := funext fun a => by fin_cases a <;> rfl

abbrev isFirst0 (i : grid0.Coords) : Prop := (Scalar.cmpi .ne (Scalar.extui (Scalar.cmpi .eq (BitVec.ofNat 32 (i 0).val) 0#32)) 0#32) = 1#1

abbrev isLast0 (i : grid0.Coords) : Prop := k0_cond2 i = 1#1

theorem store_last {sp : Space} {S : Shape} {e : EltTy} (v : View sig .tc sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

theorem storeRow_last {sp : Space} (v : View sig .tc sp S1x128 .f32) (f : v.ty.Contents (Elt F)) (inb : ∀ a, (![0, 0] : Fin 2 → ℕ) a + S1x128.size a ≤ S1x128.size a)
    (w : S1x128.Idx → Elt F .f32) (L : List (View.Piece (Elt F) S1x128 .f32)) :
    v.read (Elt F) (v.writes (Elt F) f (⟨Rect.unit ![0, 0] S1x128.size inb, w⟩ :: L)) = w :=
  store_last v f offZ inb w L

theorem storeBlk_last {sp : Space} (v : View sig .tc sp S5000x128 .f32) (f : v.ty.Contents (Elt F)) (inb : ∀ a, (![0, 0] : Fin 2 → ℕ) a + S5000x128.size a ≤ S5000x128.size a)
    (w : S5000x128.Idx → Elt F .f32) (L : List (View.Piece (Elt F) S5000x128 .f32)) :
    v.read (Elt F) (v.writes (Elt F) f (⟨Rect.unit ![0, 0] S5000x128.size inb, w⟩ :: L)) = w :=
  store_last v f offZ inb w L

theorem loadRow_after {sp : Space} (v : View sig .tc sp S1x128 .f32) (inb : ∀ a, (![0, 0] : Fin 2 → ℕ) a + S1x128.size a ≤ S1x128.size a) (w : S1x128.Idx → Elt F .f32) :
    v.readCov [(⟨Rect.unit ![0, 0] S1x128.size inb, w⟩ : View.Piece (Elt F) S1x128 .f32)] (Rect.unit ![0, 0] S1x128.size inb).toLoadRect = w :=
  View.readCov_unit_zero v offZ inb w

def mlpBlk0 (x0 x1 : Vec F S5000x128 .f32) (w1 : Vec F S128x128 .f32) (b1 : Vec F S1x128 .f32) (w2 : Vec F S128x128 .f32) (b2 : Vec F S1x128 .f32) : Vec F S5000x128 .f32 :=
  k0_pay4 x0 x1 w1 w2 b1 b2

def sumStep0 (x0 x1 : Vec F S5000x128 .f32) (w1 : Vec F S128x128 .f32) (b1 : Vec F S1x128 .f32) (w2 : Vec F S128x128 .f32) (b2 : Vec F S1x128 .f32) (s : Vec F S1x128 .f32) : Vec F S1x128 .f32 :=
  k0_pay5 x0 x1 w1 w2 b1 b2 s

def sqStep0 (h : Vec F S5000x128 .f32) (q : Vec F S1x128 .f32) : Vec F S1x128 .f32 :=
  k0_pay1 h q

def zeroSum0 : Vec F S1x128 .f32 := k0_pay2
def zeroSq0 : Vec F S1x128 .f32 := k0_pay3

set_option maxHeartbeats 4000000 in
theorem run0_mid (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬isFirst0 i) (hc2 : ¬isLast0 i)
    (x0 x1 : Vec F S5000x128 .f32) (w1 : Vec F S128x128 .f32) (b1 : Vec F S1x128 .f32) (w2 : Vec F S128x128 .f32) (b2 : Vec F S1x128 .f32)
    (y7 y8 s q : Vec F S1x128 .f32) (K : PUnit → sProp 𝕄) :
    iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ (∃ d, owns (c : Thread nD τ) arg7 fullShare d) ∗ owns (c : Thread nD τ) arg8 fullShare y7 ∗ owns (c : Thread nD τ) arg9 fullShare y8 ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare (mlpBlk0 x0 x1 w1 b1 w2 b2) ∗ owns (c : Thread nD τ) arg8 fullShare y7 ∗ owns (c : Thread nD τ) arg9 fullShare y8 ∗ owns (c : Thread nD τ) arg10 fullShare (sumStep0 x0 x1 w1 b1 w2 b2 s) ∗ owns (c : Thread nD τ) arg11 fullShare (sqStep0 (mlpBlk0 x0 x1 w1 b1 w2 b2) q)) -∗ K ⟨⟩))
      ⊢ wp frame (wpE (defs₀ (F := F)) Variants.none c none) E (cc0__mlp_reduce_kernel i arg1 harg1 arg2 harg2 arg3 harg3 arg4 harg4 arg5 harg5 arg6 harg6 arg7 harg7 arg8 harg8 arg9 harg9 arg10 harg10 arg11 harg11) K := by
  simp only [cc0__mlp_reduce_kernel_eq_skeleton]; unfold cc0__mlp_reduce_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  subst hf1 hf2 hf3 hf4 hf5 hf6 hf8 hf9 hf10 hf11
  sl_exec (disch := first | exact hc1 | exact hc2)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H8]; · iexists _; isplitr; · ipureintro; rfl
                  iexact H8
  isplitl [H9]; · iexists _; isplitr; · ipureintro; rfl
                  iexact H9
  isplitl [H10]
  · iexists _; isplitr
    swap; · iexact H10
    ipureintro
    refine (storeRow_last _ _ _ _ _).trans ?_
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    simp only [View.readAt_eq_ld, View.ld_unit_zero (S := S1x128) offZ, View.ld_unit_zero (S := S5000x128) offZ, View.ld_unit_zero (S := S128x128) offZ]
    rfl

set_option maxHeartbeats 4000000 in
theorem run0_first (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : isFirst0 i) (hc2 : ¬isLast0 i)
    (x0 x1 : Vec F S5000x128 .f32) (w1 : Vec F S128x128 .f32) (b1 : Vec F S1x128 .f32) (w2 : Vec F S128x128 .f32) (b2 : Vec F S1x128 .f32)
    (y7 y8 : Vec F S1x128 .f32) (K : PUnit → sProp 𝕄) :
    iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ (∃ d, owns (c : Thread nD τ) arg7 fullShare d) ∗ owns (c : Thread nD τ) arg8 fullShare y7 ∗ owns (c : Thread nD τ) arg9 fullShare y8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare (mlpBlk0 x0 x1 w1 b1 w2 b2) ∗ owns (c : Thread nD τ) arg8 fullShare y7 ∗ owns (c : Thread nD τ) arg9 fullShare y8 ∗ owns (c : Thread nD τ) arg10 fullShare (sumStep0 x0 x1 w1 b1 w2 b2 zeroSum0) ∗ owns (c : Thread nD τ) arg11 fullShare (sqStep0 (mlpBlk0 x0 x1 w1 b1 w2 b2) zeroSq0)) -∗ K ⟨⟩))
      ⊢ wp frame (wpE (defs₀ (F := F)) Variants.none c none) E (cc0__mlp_reduce_kernel i arg1 harg1 arg2 harg2 arg3 harg3 arg4 harg4 arg5 harg5 arg6 harg6 arg7 harg7 arg8 harg8 arg9 harg9 arg10 harg10 arg11 harg11) K := by
  simp only [cc0__mlp_reduce_kernel_eq_skeleton]; unfold cc0__mlp_reduce_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, Hk⟩
  subst hf1 hf2 hf3 hf4 hf5 hf6 hf8 hf9
  sl_exec (disch := first | exact hc1 | exact hc2)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H8]; · iexists _; isplitr; · ipureintro; rfl
                  iexact H8
  isplitl [H9]; · iexists _; isplitr; · ipureintro; rfl
                  iexact H9
  isplitl [H10]
  · iexists _; isplitr
    swap; · iexact H10
    ipureintro
    refine (storeRow_last _ _ _ _ _).trans ?_
    unfold run0_first.sl.v26 run0_first.sl.H10_1
    rw [loadRow_after]
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    unfold run0_first.sl.v33 run0_first.sl.H11_1
    rw [loadRow_after]
    simp only [View.readAt_eq_ld, View.ld_unit_zero (S := S1x128) offZ, View.ld_unit_zero (S := S5000x128) offZ, View.ld_unit_zero (S := S128x128) offZ]
    rfl

set_option maxHeartbeats 4000000 in
theorem run0_last (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc1 : ¬isFirst0 i) (hc2 : isLast0 i)
    (x0 x1 : Vec F S5000x128 .f32) (w1 : Vec F S128x128 .f32) (b1 : Vec F S1x128 .f32) (w2 : Vec F S128x128 .f32) (b2 : Vec F S1x128 .f32)
    (s q : Vec F S1x128 .f32) (K : PUnit → sProp 𝕄) :
    iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare (mlpBlk0 x0 x1 w1 b1 w2 b2) ∗ owns (c : Thread nD τ) arg8 fullShare (sumStep0 x0 x1 w1 b1 w2 b2 s) ∗ owns (c : Thread nD τ) arg9 fullShare (sqStep0 (mlpBlk0 x0 x1 w1 b1 w2 b2) q) ∗ owns (c : Thread nD τ) arg10 fullShare (sumStep0 x0 x1 w1 b1 w2 b2 s) ∗ owns (c : Thread nD τ) arg11 fullShare (sqStep0 (mlpBlk0 x0 x1 w1 b1 w2 b2) q)) -∗ K ⟨⟩))
      ⊢ wp frame (wpE (defs₀ (F := F)) Variants.none c none) E (cc0__mlp_reduce_kernel i arg1 harg1 arg2 harg2 arg3 harg3 arg4 harg4 arg5 harg5 arg6 harg6 arg7 harg7 arg8 harg8 arg9 harg9 arg10 harg10 arg11 harg11) K := by
  simp only [cc0__mlp_reduce_kernel_eq_skeleton]; unfold cc0__mlp_reduce_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  subst hf1 hf2 hf3 hf4 hf5 hf6 hf10 hf11
  sl_exec (disch := first | exact hc1 | exact hc2)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H8]
  · iexists _; isplitr
    swap; · iexact H8
    ipureintro
    refine (storeRow_last _ _ _ _ _).trans ?_
    unfold run0_last.sl.v44 run0_last.sl.H10_1
    rw [loadRow_after]
    simp only [View.readAt_eq_ld, View.ld_unit_zero (S := S1x128) offZ, View.ld_unit_zero (S := S5000x128) offZ, View.ld_unit_zero (S := S128x128) offZ]
    rfl
  isplitl [H9]
  · iexists _; isplitr
    swap; · iexact H9
    ipureintro
    refine (storeRow_last _ _ _ _ _).trans ?_
    unfold run0_last.sl.v46 run0_last.sl.H11_1
    rw [loadRow_after]
    simp only [View.readAt_eq_ld, View.ld_unit_zero (S := S1x128) offZ, View.ld_unit_zero (S := S5000x128) offZ, View.ld_unit_zero (S := S128x128) offZ]
    rfl
  isplitl [H10]
  · iexists _; isplitr
    swap; · iexact H10
    ipureintro
    refine (storeRow_last _ _ _ _ _).trans ?_
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    simp only [View.readAt_eq_ld, View.ld_unit_zero (S := S1x128) offZ, View.ld_unit_zero (S := S5000x128) offZ, View.ld_unit_zero (S := S128x128) offZ]
    rfl

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem first_iff0 : ∀ t : Fin cfg0.N, isFirst0 (grid0.coords t) ↔ t.val = 0 :=
  (by decide +kernel : ∀ t : Fin grid0.N, isFirst0 (grid0.coords t) ↔ t.val = 0)
theorem last_iff0 : ∀ t : Fin cfg0.N, isLast0 (grid0.coords t) ↔ t.val = 19 :=
  (by decide +kernel : ∀ t : Fin grid0.N, isLast0 (grid0.coords t) ↔ t.val = 19)

theorem idle0_7 : ∀ t : Fin cfg0.N, ¬isLast0 (grid0.coords t) → cfg0.idle 7 (grid0.coords t) = true := by decide +kernel
theorem idle0_8 : ∀ t : Fin cfg0.N, ¬isLast0 (grid0.coords t) → cfg0.idle 8 (grid0.coords t) = true := by decide +kernel
theorem noFlush0_7 : ∀ t : Fin cfg0.N, ¬isLast0 (grid0.coords t) → (cfg0.win 7).flush t = false := by decide +kernel
theorem noFlush0_8 : ∀ t : Fin cfg0.N, ¬isLast0 (grid0.coords t) → (cfg0.win 8).flush t = false := by decide +kernel
theorem live0_7 : ∀ t : Fin cfg0.N, isLast0 (grid0.coords t) → cfg0.idle 7 (grid0.coords t) = false := by decide +kernel
theorem live0_8 : ∀ t : Fin cfg0.N, isLast0 (grid0.coords t) → cfg0.idle 8 (grid0.coords t) = false := by decide +kernel

def hidAt0 (c : Dev nD) (t : Fin cfg0.N) : Vec F S5000x128 .f32 :=
  mlpBlk0 (iblk0 V c 0 t) (iblk0 V c 1 t) (iblk0 V c 2 t) (iblk0 V c 3 t) (iblk0 V c 4 t) (iblk0 V c 5 t)

def sumAt0 (c : Dev nD) (t : Fin cfg0.N) (s : Vec F S1x128 .f32) : Vec F S1x128 .f32 :=
  sumStep0 (iblk0 V c 0 t) (iblk0 V c 1 t) (iblk0 V c 2 t) (iblk0 V c 3 t) (iblk0 V c 4 t) (iblk0 V c 5 t) s

def accAt0 (c : Dev nD) : (n : ℕ) → n < cfg0.N → Vec F S1x128 .f32 × Vec F S1x128 .f32
  | 0, hn => (sumAt0 V c ⟨0, hn⟩ zeroSum0, sqStep0 (hidAt0 V c ⟨0, hn⟩) zeroSq0)
  | n + 1, hn => (sumAt0 V c ⟨n + 1, hn⟩ (accAt0 c n (Nat.lt_of_succ_lt hn)).1,
      sqStep0 (hidAt0 V c ⟨n + 1, hn⟩) (accAt0 c n (Nat.lt_of_succ_lt hn)).2)

theorem accAt0_first (c : Dev nD) (t : Fin cfg0.N) (h : t.val = 0) :
    accAt0 V c t.val t.isLt = (sumAt0 V c t zeroSum0, sqStep0 (hidAt0 V c t) zeroSq0) := by
  obtain ⟨n, hn⟩ := t
  cases n with
  | zero => rfl
  | succ n => exact absurd h (Nat.succ_ne_zero n)

theorem accAt0_later (c : Dev nD) (t : Fin cfg0.N) (h : t.val ≠ 0) :
    accAt0 V c t.val t.isLt = (sumAt0 V c t (accAt0 V c (t.val - 1) (Nat.lt_of_le_of_lt (Nat.sub_le _ _) t.isLt)).1,
      sqStep0 (hidAt0 V c t) (accAt0 V c (t.val - 1) (Nat.lt_of_le_of_lt (Nat.sub_le _ _) t.isLt)).2) := by
  obtain ⟨n, hn⟩ := t
  cases n with
  | zero => exact absurd rfl h
  | succ n => rfl

abbrev scSum0 : Memref sig .tc .vmem S1x128 .f32 := Memref.whole cc0_scratch0
abbrev scSq0 : Memref sig .tc .vmem S1x128 .f32 := Memref.whole cc0_scratch1

abbrev restBut0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scSum0 fullShare d) ∗ (∃ d, owns (c : Thread nD τ) scSq0 fullShare d)) ∗ restBut0 c) ∗ (∃ r, prngReg c r)) := by
  unfold Pipeline.ΦA; rw [scopedRest0_split]; simp only [scSum0, scSq0, owns_whole]; try rfl

def PhiS0 (c : Dev nD) : (n : ℕ) → n ≤ cfg0.N → sProp 𝕄
  | 0, _ => Pipeline.ΦA spec0 c
  | n + 1, hn => iprop(iprop(iprop(owns (c : Thread nD τ) scSum0 fullShare (accAt0 V c n hn).1 ∗ owns (c : Thread nD τ) scSq0 fullShare (accAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scSum0 fullShare (accAt0 V c n hn).1 ∗ owns (c : Thread nD τ) scSq0 fullShare (accAt0 V c n hn).2) ∗ restBut0 c) ∗ (∃ r, prngReg c r)) := rfl

theorem PhiS0_pos (c : Dev nD) (n : ℕ) (h : n ≤ cfg0.N) (hz : n ≠ 0) :
    PhiS0 V c n h = iprop(iprop(iprop(owns (c : Thread nD τ) scSum0 fullShare (accAt0 V c (n - 1) (by omega)).1 ∗ owns (c : Thread nD τ) scSq0 fullShare (accAt0 V c (n - 1) (by omega)).2) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => hidAt0 V c t
    | ⟨7, _⟩ => (accAt0 V c t.val t.isLt).1
    | ⟨8, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = hidAt0 V c t := by dsimp only [dat0]
theorem after0_7 (c : Dev nD) (t : Fin cfg0.N) : (dat0 V c).after 7 t = (accAt0 V c t.val t.isLt).1 := by dsimp only [dat0]
theorem after0_8 (c : Dev nD) (t : Fin cfg0.N) : (dat0 V c).after 8 t = (accAt0 V c t.val t.isLt).2 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (dat0 V c).leavesExact 7 t
    ∗ (dat0 V c).leavesExact 8 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6]
  have hN : t.val < 20 := lt_of_lt_of_eq t.isLt (show cfg0.N = 20 from N_0)
  by_cases hz : t.val = 0
  ·
    have hF : isFirst0 (grid0.coords t) := (first_iff0 t).mpr hz
    have hL : ¬isLast0 (grid0.coords t) := fun h => by have := (last_iff0 t).mp h; omega
    rw [Dat.leavesExact_idle (dat0 V c) 7 t (idle0_7 t hL) (noFlush0_7 t hL), Dat.leavesExact_idle (dat0 V c) 8 t (idle0_8 t hL) (noFlush0_8 t hL)]
    rw [accAt0_first V c t hz]
    rw [PhiS0_castSucc V c t, PhiS0_zero V c _ _ hz, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_first c Set.univ (grid0.coords t) _ _ _ _ _ _ _ _ _ _ _ _ _ _ _ _ _ _ _ _ _ _ hF hL (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · by_cases hl : t.val = 19
    ·
      have hF : ¬isFirst0 (grid0.coords t) := fun h => hz ((first_iff0 t).mp h)
      have hL : isLast0 (grid0.coords t) := (last_iff0 t).mpr hl
      rw [show (dat0 V c).leavesExact 7 t = owns (c : Thread nD τ) (st0_7 t) fullShare ((dat0 V c).after 7 t) from by
        unfold Dat.leavesExact; rw [live0_7 t hL], after0_7]
      rw [show (dat0 V c).leavesExact 8 t = owns (c : Thread nD τ) (st0_8 t) fullShare ((dat0 V c).after 8 t) from by
        unfold Dat.leavesExact; rw [live0_8 t hL], after0_8]
      rw [accAt0_later V c t hz]
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_last c Set.univ (grid0.coords t) _ _ _ _ _ _ _ _ _ _ _ _ _ _ _ _ _ _ _ _ _ _ hF hL (iblk0 V c 0 t) (iblk0 V c 1 t) (iblk0 V c 2 t) (iblk0 V c 3 t) (iblk0 V c 4 t) (iblk0 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    ·
      have hF : ¬isFirst0 (grid0.coords t) := fun h => hz ((first_iff0 t).mp h)
      have hL : ¬isLast0 (grid0.coords t) := fun h => hl ((last_iff0 t).mp h)
      rw [Dat.leavesExact_idle (dat0 V c) 7 t (idle0_7 t hL) (noFlush0_7 t hL), Dat.leavesExact_idle (dat0 V c) 8 t (idle0_8 t hL) (noFlush0_8 t hL)]
      rw [accAt0_later V c t hz]
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_mid c Set.univ (grid0.coords t) _ _ _ _ _ _ _ _ _ _ _ _ _ _ _ _ _ _ _ _ _ _ hF hL (iblk0 V c 0 t) (iblk0 V c 1 t) (iblk0 V c 2 t) (iblk0 V c 3 t) (iblk0 V c 4 t) (iblk0 V c 5 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 20 := N_0; omega)

end

end Cert.KernelIdeal.Hand

end
-- ==== Proof.Reg1.lean ====
import proofs.«412881_j60095182405865_1_alg».proof.Proof.Gen.KernelIdeal.Launch
import proofs.«412881_j60095182405865_1_alg».proof.Proof.Gen.KernelIdeal.Skeleton
import proofs.«412881_j60095182405865_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem holds1_h_of {c : Dev nD} (dat : Dat τ (Elt F) Unit ℕ (UR sig nD τ) ℕ cfg1 c)
    (hA : dat.A 0 = V c (Pipeline.arrRef spec1 0)) (hafter : ∀ t, dat.after 0 t = blk1 V c 0 t)
    (t : Fin cfg1.N) (d) : dat.before 0 t d = blk1 V c 0 t :=
  (dat.before_in_eq_fetched 0 rfl (fun _ => rfl) (fun _ _ _ => rfl)
    (fun t => by rw [hafter]; unfold Dat.blockOf blk1; rw [hA]; try rfl) t d).trans
    (by unfold Dat.fetched Dat.blockOf blk1; rw [hA]; try rfl)

theorem holds1_scale_of {c : Dev nD} (dat : Dat τ (Elt F) Unit ℕ (UR sig nD τ) ℕ cfg1 c)
    (hA : dat.A 1 = V c (Pipeline.arrRef spec1 1)) (hafter : ∀ t, dat.after 1 t = blk1 V c 1 t)
    (t : Fin cfg1.N) (d) : dat.before 1 t d = blk1 V c 1 t :=
  (dat.before_in_eq_fetched 1 rfl (fun _ => rfl) (fun _ _ _ => rfl)
    (fun t => by rw [hafter]; unfold Dat.blockOf blk1; rw [hA]; try rfl) t d).trans
    (by unfold Dat.fetched Dat.blockOf blk1; rw [hA]; try rfl)

theorem holds1_shift_of {c : Dev nD} (dat : Dat τ (Elt F) Unit ℕ (UR sig nD τ) ℕ cfg1 c)
    (hA : dat.A 2 = V c (Pipeline.arrRef spec1 2)) (hafter : ∀ t, dat.after 2 t = blk1 V c 2 t)
    (t : Fin cfg1.N) (d) : dat.before 2 t d = blk1 V c 2 t :=
  (dat.before_in_eq_fetched 2 rfl (fun _ => rfl) (fun _ _ _ => rfl)
    (fun t => by rw [hafter]; unfold Dat.blockOf blk1; rw [hA]; try rfl) t d).trans
    (by unfold Dat.fetched Dat.blockOf blk1; rw [hA]; try rfl)

abbrev whole1 : Rect S5000x128 := Rect.unit (s := S5000x128) ![0, 0] S5000x128.size inb_S5000x128_S5000x128_0_0

abbrev wholeRow1 : Rect S1x128 := Rect.unit (s := S1x128) ![0, 0] S1x128.size inb_S1x128_S1x128_0_0

def bnBlock1 (h : Vec F S5000x128 .f32) (scale shift : Vec F S1x128 .f32) : Vec F S5000x128 .f32 :=
  View.canon [⟨whole1, k1_pay1 (View.ld h whole1) (View.ld scale wholeRow1) (View.ld shift wholeRow1)⟩]

theorem bnBlock1_cover (p : Vec F S5000x128 .f32) (y : S5000x128.Idx) :
    ∃ pc ∈ ([⟨whole1, p⟩] : List (View.Piece (Elt F) S5000x128 .f32)), y ∈ pc.1.set :=
  View.cover_of_tiled [⟨whole1, p⟩] S5000x128.size (by rfl) y

set_option maxHeartbeats 1000000 in

theorem bn_body1 (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S5000x128 .f32) (harg4 : arg4.IsWhole)
    (h : Vec F S5000x128 .f32) (scale shift : Vec F S1x128 .f32) (K : PUnit → sProp 𝕄) :
    iprop(owns (c : Thread nD τ) arg1 fullShare h ∗ owns (c : Thread nD τ) arg2 fullShare scale
        ∗ owns (c : Thread nD τ) arg3 fullShare shift ∗ (∃ d, owns (c : Thread nD τ) arg4 fullShare d)
        ∗ (iprop(owns (c : Thread nD τ) arg1 fullShare h ∗ owns (c : Thread nD τ) arg2 fullShare scale
            ∗ owns (c : Thread nD τ) arg3 fullShare shift
            ∗ owns (c : Thread nD τ) arg4 fullShare (bnBlock1 h scale shift)) -∗ K ⟨⟩))
      ⊢ wp frame (wpE (defs₀ (F := F)) Variants.none c none) E
          (cc1__bn_kernel i arg1 harg1 arg2 harg2 arg3 harg3 arg4 harg4) K := by
  simp only [cc1__bn_kernel_eq_skeleton]; unfold cc1__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (bnBlock1_cover _)

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => bnBlock1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_h (c : Dev nD) (t : Fin cfg1.N) : (dat1 V c).after 0 t = blk1 V c 0 t := by dsimp only [dat1]
theorem after1_scale (c : Dev nD) (t : Fin cfg1.N) : (dat1 V c).after 1 t = blk1 V c 1 t := by dsimp only [dat1]
theorem after1_shift (c : Dev nD) (t : Fin cfg1.N) : (dat1 V c).after 2 t = blk1 V c 2 t := by dsimp only [dat1]
theorem after1_out (c : Dev nD) (t : Fin cfg1.N) :
    (dat1 V c).after 3 t = bnBlock1 (blk1 V c 0 t) (blk1 V c 1 t) (blk1 V c 2 t) := by dsimp only [dat1]

theorem holds1_h (c : Dev nD) (t : Fin cfg1.N) (d) : (dat1 V c).before 0 t d = blk1 V c 0 t :=
  holds1_h_of V (dat1 V c) (A_eq1 V c 0) (after1_h V c) t d
theorem holds1_scale (c : Dev nD) (t : Fin cfg1.N) (d) : (dat1 V c).before 1 t d = blk1 V c 1 t :=
  holds1_scale_of V (dat1 V c) (A_eq1 V c 1) (after1_scale V c) t d
theorem holds1_shift (c : Dev nD) (t : Fin cfg1.N) (d) : (dat1 V c).before 2 t d = blk1 V c 2 t :=
  holds1_shift_of V (dat1 V c) (A_eq1 V c 2) (after1_shift V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem bn_point1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [holds1_h, holds1_scale, holds1_shift]
  rw [show (dat1 V c).Φ t.succ = (dat1 V c).Φ t.castSucc from rfl,
    show (dat1 V c).owesAt () t.succ = (dat1 V c).owesAt () t.castSucc from rfl,
    after1_h, after1_scale, after1_shift, after1_out]
  iintro ⟨HΦ, Ho, ⟨%d0, H0⟩, ⟨%d1, H1⟩, ⟨%d2, H2⟩, ⟨%d3, H3⟩⟩
  iapply (bn_body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact bn_point1 V c t

theorem hin1 (c : Dev nD) : (Pipeline.ΦA spec1 c : sProp 𝕄) ⊢ (dat1 V c).Φ 0 := BI.Entails.refl _
theorem hout1 (c : Dev nD) : (dat1 V c).Φ (Fin.last cfg1.N) ⊢ (Pipeline.ΦA spec1 c : sProp 𝕄) := BI.Entails.refl _

end

end Cert.KernelIdeal.Hand

end
-- ==== Proof.Reg2Body.lean ====
import proofs.«412881_j60095182405865_1_alg».proof.Proof.Reg0
import proofs.«412881_j60095182405865_1_alg».proof.Proof.Gen.KernelIdeal.Launch
import proofs.«412881_j60095182405865_1_alg».proof.Proof.Gen.KernelIdeal.Skeleton
import proofs.«412881_j60095182405865_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev atFirst2 (i : grid2.Coords) : Prop :=
  (Scalar.cmpi .ne (Scalar.extui (Scalar.cmpi .eq (BitVec.ofNat 32 (i 0).val) 0#32)) 0#32) = 1#1

theorem atFirst2_iff : ∀ t : Fin cfg2.N, atFirst2 (grid2.coords t) ↔ t.val % 20 = 0 :=
  (by decide +kernel : ∀ t : Fin grid2.N, atFirst2 (grid2.coords t) ↔ t.val % 20 = 0)

abbrev atLast2 (i : grid2.Coords) : Prop := k2_cond2 i = 1#1

theorem atLast2_iff : ∀ t : Fin cfg2.N, atLast2 (grid2.coords t) ↔ t.val % 20 = 19 :=
  (by decide +kernel : ∀ t : Fin grid2.N, atLast2 (grid2.coords t) ↔ t.val % 20 = 19)

theorem colSum_idle2 : ∀ t : Fin cfg2.N, ¬atLast2 (grid2.coords t) → cfg2.idle 7 (grid2.coords t) = true := by decide +kernel
theorem colSq_idle2 : ∀ t : Fin cfg2.N, ¬atLast2 (grid2.coords t) → cfg2.idle 8 (grid2.coords t) = true := by decide +kernel

theorem colSum_noFlush2 : ∀ t : Fin cfg2.N, ¬atLast2 (grid2.coords t) → (cfg2.win 7).flush t = false := by decide +kernel
theorem colSq_noFlush2 : ∀ t : Fin cfg2.N, ¬atLast2 (grid2.coords t) → (cfg2.win 8).flush t = false := by decide +kernel

theorem colSum_live2 : ∀ t : Fin cfg2.N, atLast2 (grid2.coords t) → cfg2.idle 7 (grid2.coords t) = false := by decide +kernel
theorem colSq_live2 : ∀ t : Fin cfg2.N, atLast2 (grid2.coords t) → cfg2.idle 8 (grid2.coords t) = false := by decide +kernel

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)

abbrev sumM2 : Memref sig .tc .vmem S1x128 .f32 := Memref.whole cc2_scratch0
abbrev sqM2 : Memref sig .tc .vmem S1x128 .f32 := Memref.whole cc2_scratch1

abbrev rowV2 : View sig .tc .vmem S1x128 .f32 := sumM2.view
abbrev blockV2 : View sig .tc .vmem S5000x128 .f32 := (Memref.whole cc2_stg6_0 : Memref sig .tc .vmem S5000x128 .f32).view

abbrev otherScoped2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) sumM2 fullShare d) ∗ (∃ d, owns (c : Thread nD τ) sqM2 fullShare d)) ∗ otherScoped2 (F := F) c) ∗ (∃ r, prngReg c r)) := by
  unfold Pipeline.ΦA; rw [scopedRest2_split]; simp only [sumM2, sqM2, owns_whole]; try rfl

def mlpBlock2 (x0 x1 : Vec F S5000x128 .f32) (x2 : Vec F S128x128 .f32) (x3 : Vec F S1x128 .f32) (x4 : Vec F S128x128 .f32) (x5 : Vec F S1x128 .f32) : Vec F S5000x128 .f32 :=
  k2_pay5 x0 x1 x2 x4 x3 x5

def sumStep2 (x0 x1 : Vec F S5000x128 .f32) (x2 : Vec F S128x128 .f32) (x3 : Vec F S1x128 .f32) (x4 : Vec F S128x128 .f32) (x5 : Vec F S1x128 .f32) (s : Vec F S1x128 .f32) : Vec F S1x128 .f32 :=
  k2_pay1 (k2_pay6 x0 x1 x2 x4 x3 x5 s)

def sqStep2 (h : Vec F S5000x128 .f32) (q : Vec F S1x128 .f32) : Vec F S1x128 .f32 :=
  k2_pay2 h q

def zeroSum2 : Vec F S1x128 .f32 := k2_pay3
def zeroSq2 : Vec F S1x128 .f32 := k2_pay4

set_option maxHeartbeats 4000000 in

theorem mlp_first2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : atFirst2 i) (hc1 : ¬atLast2 i) (x0 x1 : Vec F S5000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (mlpBlock2 x0 x1 x2 x3 x4 x5) ∗ owns (c : Thread nD τ) arg10 fullShare (sumStep2 x0 x1 x2 x3 x4 x5 zeroSum2) ∗ owns (c : Thread nD τ) arg11 fullShare (sqStep2 (mlpBlock2 x0 x1 x2 x3 x4 x5) zeroSq2)) -∗ K ⟨⟩))
      ⊢ wp frame (wpE (defs₀ (F := F)) Variants.none c none) E (cc2__mlp_reduce_kernel i arg1 harg1 arg2 harg2 arg3 harg3 arg4 harg4 arg5 harg5 arg6 harg6 arg7 harg7 arg8 harg8 arg9 harg9 arg10 harg10 arg11 harg11) K := by
  simp only [cc2__mlp_reduce_kernel_eq_skeleton]; unfold cc2__mlp_reduce_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d10, %f10, -, H10⟩, ⟨%d11, %f11, -, H11⟩, Hk⟩
  subst hf1 hf2 hf3 hf4 hf5 hf6
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H10]
  · iexists _; isplitr
    swap; · iexact H10
    ipureintro
    refine (storeRow_last _ _ _ _ _).trans ?_
    sl_unfold_run_names
    rw [loadRow_after]
    try rw [loadRow_after]
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    sl_unfold_run_names
    rw [loadRow_after]
    try rw [loadRow_after]
    simp only [View.readAt_eq_ld, View.ld_unit_zero (S := S1x128) offZ, View.ld_unit_zero (S := S5000x128) offZ, View.ld_unit_zero (S := S128x128) offZ]
    rfl

set_option maxHeartbeats 4000000 in

theorem mlp_mid2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬atFirst2 i) (hc1 : ¬atLast2 i) (x0 x1 : Vec F S5000x128 .f32) (x2 : Vec F S128x128 .f32) (x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (mlpBlock2 x0 x1 x2 x3 x4 x5) ∗ owns (c : Thread nD τ) arg10 fullShare (sumStep2 x0 x1 x2 x3 x4 x5 s) ∗ owns (c : Thread nD τ) arg11 fullShare (sqStep2 (mlpBlock2 x0 x1 x2 x3 x4 x5) q)) -∗ K ⟨⟩))
      ⊢ wp frame (wpE (defs₀ (F := F)) Variants.none c none) E (cc2__mlp_reduce_kernel i arg1 harg1 arg2 harg2 arg3 harg3 arg4 harg4 arg5 harg5 arg6 harg6 arg7 harg7 arg8 harg8 arg9 harg9 arg10 harg10 arg11 harg11) K := by
  simp only [cc2__mlp_reduce_kernel_eq_skeleton]; unfold cc2__mlp_reduce_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f10, %hf10, H10⟩, ⟨%f11, %hf11, H11⟩, Hk⟩
  subst hf1 hf2 hf3 hf4 hf5 hf6 hf10 hf11
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H10]
  · iexists _; isplitr
    swap; · iexact H10
    ipureintro
    refine (storeRow_last _ _ _ _ _).trans ?_
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    simp only [View.readAt_eq_ld, View.ld_unit_zero (S := S1x128) offZ, View.ld_unit_zero (S := S5000x128) offZ, View.ld_unit_zero (S := S128x128) offZ]
    rfl

set_option maxHeartbeats 4000000 in

theorem mlp_last2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
    (hc0 : ¬atFirst2 i) (hc1 : atLast2 i) (x0 x1 : Vec F S5000x128 .f32) (x2 : Vec F S128x128 .f32) (x3 : Vec F S1x128 .f32) (x4 : Vec F S128x128 .f32) (x5 : Vec F S1x128 .f32) (s q : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (mlpBlock2 x0 x1 x2 x3 x4 x5) ∗ owns (c : Thread nD τ) arg8 fullShare (sumStep2 x0 x1 x2 x3 x4 x5 s) ∗ owns (c : Thread nD τ) arg9 fullShare (sqStep2 (mlpBlock2 x0 x1 x2 x3 x4 x5) q)
            ∗ owns (c : Thread nD τ) arg10 fullShare (sumStep2 x0 x1 x2 x3 x4 x5 s) ∗ owns (c : Thread nD τ) arg11 fullShare (sqStep2 (mlpBlock2 x0 x1 x2 x3 x4 x5) q)) -∗ K ⟨⟩))
      ⊢ wp frame (wpE (defs₀ (F := F)) Variants.none c none) E (cc2__mlp_reduce_kernel i arg1 harg1 arg2 harg2 arg3 harg3 arg4 harg4 arg5 harg5 arg6 harg6 arg7 harg7 arg8 harg8 arg9 harg9 arg10 harg10 arg11 harg11) K := by
  simp only [cc2__mlp_reduce_kernel_eq_skeleton]; unfold cc2__mlp_reduce_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  subst hf1 hf2 hf3 hf4 hf5 hf6 hf10 hf11
  sl_exec (disch := first | exact hc0 | exact hc1)
  sl_step
  iapply Hk
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  isplitl [H7]
  · iexists _; isplitr
    swap; · iexact H7
    ipureintro
    refine (storeBlk_last _ _ _ _ _).trans ?_
    simp only [View.readAt_eq_ld, View.ld_unit_zero (S := S1x128) offZ, View.ld_unit_zero (S := S5000x128) offZ, View.ld_unit_zero (S := S128x128) offZ]
    rfl
  isplitl [H8]
  · iexists _; isplitr
    swap; · iexact H8
    ipureintro
    refine (storeRow_last _ _ _ _ _).trans ?_
    sl_unfold_run_names
    rw [loadRow_after]
    try rw [loadRow_after]
    simp only [View.readAt_eq_ld, View.ld_unit_zero (S := S1x128) offZ, View.ld_unit_zero (S := S5000x128) offZ, View.ld_unit_zero (S := S128x128) offZ]
    rfl
  isplitl [H9]
  · iexists _; isplitr
    swap; · iexact H9
    ipureintro
    refine (storeRow_last _ _ _ _ _).trans ?_
    sl_unfold_run_names
    rw [loadRow_after]
    try rw [loadRow_after]
    simp only [View.readAt_eq_ld, View.ld_unit_zero (S := S1x128) offZ, View.ld_unit_zero (S := S5000x128) offZ, View.ld_unit_zero (S := S128x128) offZ]
    rfl
  isplitl [H10]
  · iexists _; isplitr
    swap; · iexact H10
    ipureintro
    refine (storeRow_last _ _ _ _ _).trans ?_
    simp only [View.readAt_eq_ld, View.ld_unit_zero (S := S1x128) offZ, View.ld_unit_zero (S := S5000x128) offZ, View.ld_unit_zero (S := S128x128) offZ]
    rfl
  · iexists _; isplitr
    swap; · iexact H11
    ipureintro
    refine (storeRow_last _ _ _ _ _).trans ?_
    simp only [View.readAt_eq_ld, View.ld_unit_zero (S := S1x128) offZ, View.ld_unit_zero (S := S5000x128) offZ, View.ld_unit_zero (S := S128x128) offZ]
    rfl

end Cert.KernelIdeal.Hand

end
-- ==== Proof.Reg2.lean ====
import proofs.«412881_j60095182405865_1_alg».proof.Proof.Reg2Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)

def outAt2 (c : Dev nD) (t : Fin cfg2.N) : Vec F S5000x128 .f32 :=
  mlpBlock2 (blk2 V c 0 t) (blk2 V c 1 t) (blk2 V c 2 t) (blk2 V c 3 t) (blk2 V c 4 t) (blk2 V c 5 t)

def scrAt2 (c : Dev nD) : (n : ℕ) → n < cfg2.N → Vec F S1x128 .f32 × Vec F S1x128 .f32
  | 0, hn => (sumStep2 (blk2 V c 0 ⟨0, hn⟩) (blk2 V c 1 ⟨0, hn⟩) (blk2 V c 2 ⟨0, hn⟩) (blk2 V c 3 ⟨0, hn⟩) (blk2 V c 4 ⟨0, hn⟩) (blk2 V c 5 ⟨0, hn⟩) zeroSum2, sqStep2 (outAt2 V c ⟨0, hn⟩) zeroSq2)
  | n + 1, hn => (sumStep2 (blk2 V c 0 ⟨n + 1, hn⟩) (blk2 V c 1 ⟨n + 1, hn⟩) (blk2 V c 2 ⟨n + 1, hn⟩) (blk2 V c 3 ⟨n + 1, hn⟩) (blk2 V c 4 ⟨n + 1, hn⟩) (blk2 V c 5 ⟨n + 1, hn⟩) (scrAt2 c n (Nat.lt_of_succ_lt hn)).1, sqStep2 (outAt2 V c ⟨n + 1, hn⟩) (scrAt2 c n (Nat.lt_of_succ_lt hn)).2)

theorem scrAt2_first (c : Dev nD) (t : Fin cfg2.N) (hz : t.val = 0) :
    scrAt2 V c t.val t.isLt = (sumStep2 (blk2 V c 0 t) (blk2 V c 1 t) (blk2 V c 2 t) (blk2 V c 3 t) (blk2 V c 4 t) (blk2 V c 5 t) zeroSum2, sqStep2 (outAt2 V c t) zeroSq2) := by
  obtain ⟨n, hn⟩ := t
  cases n with
  | zero => rfl
  | succ n => exact absurd hz (Nat.succ_ne_zero n)

theorem scrAt2_later (c : Dev nD) (t : Fin cfg2.N) (hz : t.val ≠ 0) :
    scrAt2 V c t.val t.isLt = (sumStep2 (blk2 V c 0 t) (blk2 V c 1 t) (blk2 V c 2 t) (blk2 V c 3 t) (blk2 V c 4 t) (blk2 V c 5 t) (scrAt2 V c (t.val - 1) (Nat.lt_of_le_of_lt (Nat.sub_le _ _) t.isLt)).1, sqStep2 (outAt2 V c t) (scrAt2 V c (t.val - 1) (Nat.lt_of_le_of_lt (Nat.sub_le _ _) t.isLt)).2) := by
  obtain ⟨n, hn⟩ := t
  cases n with
  | zero => exact absurd rfl hz
  | succ n => rfl

def PhiS2 (c : Dev nD) : (n : ℕ) → n ≤ cfg2.N → sProp 𝕄
  | 0, _ => Pipeline.ΦA spec2 c
  | n + 1, hn => iprop(iprop(iprop(owns (c : Thread nD τ) sumM2 fullShare (scrAt2 V c n hn).1 ∗ owns (c : Thread nD τ) sqM2 fullShare (scrAt2 V c n hn).2) ∗ otherScoped2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) sumM2 fullShare (scrAt2 V c n hn).1 ∗ owns (c : Thread nD τ) sqM2 fullShare (scrAt2 V c n hn).2) ∗ otherScoped2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) sumM2 fullShare (scrAt2 V c (n - 1) (by omega)).1 ∗ owns (c : Thread nD τ) sqM2 fullShare (scrAt2 V c (n - 1) (by omega)).2) ∗ otherScoped2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => outAt2 V c t
    | ⟨7, _⟩ => (scrAt2 V c t.val t.isLt).1
    | ⟨8, _⟩ => (scrAt2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = outAt2 V c t := by dsimp only [dat2]
theorem after2_7 (c : Dev nD) (t : Fin cfg2.N) : (dat2 V c).after 7 t = (scrAt2 V c t.val t.isLt).1 := by dsimp only [dat2]
theorem after2_8 (c : Dev nD) (t : Fin cfg2.N) : (dat2 V c).after 8 t = (scrAt2 V c t.val t.isLt).2 := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d
theorem before2_5 (c : Dev nD) (t : Fin cfg2.N) (d) : (dat2 V c).before 5 t d = blk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

theorem leaves2_0 (c : Dev nD) (t : Fin cfg2.N) : (dat2 V c).leavesExact 0 t = owns (c : Thread nD τ) (ms2_0 t) fullShare (blk2 V c 0 t) := by
  rw [← after2_0 V c t]
theorem leaves2_1 (c : Dev nD) (t : Fin cfg2.N) : (dat2 V c).leavesExact 1 t = owns (c : Thread nD τ) (ms2_1 t) fullShare (blk2 V c 1 t) := by
  rw [← after2_1 V c t]
theorem leaves2_2 (c : Dev nD) (t : Fin cfg2.N) : (dat2 V c).leavesExact 2 t = owns (c : Thread nD τ) (ms2_2 t) fullShare (blk2 V c 2 t) := by
  rw [← after2_2 V c t]
theorem leaves2_3 (c : Dev nD) (t : Fin cfg2.N) : (dat2 V c).leavesExact 3 t = owns (c : Thread nD τ) (ms2_3 t) fullShare (blk2 V c 3 t) := by
  rw [← after2_3 V c t]
theorem leaves2_4 (c : Dev nD) (t : Fin cfg2.N) : (dat2 V c).leavesExact 4 t = owns (c : Thread nD τ) (ms2_4 t) fullShare (blk2 V c 4 t) := by
  rw [← after2_4 V c t]
theorem leaves2_5 (c : Dev nD) (t : Fin cfg2.N) : (dat2 V c).leavesExact 5 t = owns (c : Thread nD τ) (ms2_5 t) fullShare (blk2 V c 5 t) := by
  rw [← after2_5 V c t]
theorem leaves2_6 (c : Dev nD) (t : Fin cfg2.N) : (dat2 V c).leavesExact 6 t = owns (c : Thread nD τ) (ms2_6 t) fullShare (outAt2 V c t) := by
  rw [← after2_6 V c t]

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6]
  have hN : t.val < 20 := lt_of_lt_of_eq t.isLt (show cfg2.N = 20 from N_2)
  by_cases h0 : t.val % 20 = 0
  · have h2 : ¬t.val % 20 = 19 := by omega
    have hz : t.val = 0 := by omega
    have hnl : ¬atLast2 (grid2.coords t) := fun h => h2 ((atLast2_iff t).mp h)
    rw [Dat.leavesExact_idle (dat2 V c) 7 t (colSum_idle2 t hnl) (colSum_noFlush2 t hnl),
      Dat.leavesExact_idle (dat2 V c) 8 t (colSq_idle2 t hnl) (colSq_noFlush2 t hnl)]
    rw [scrAt2_first V c t hz]; (try dsimp only)
    unfold outAt2
    rw [PhiS2_castSucc V c t, PhiS2_zero V c _ _ hz, PhiA2_eq]
    iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (mlp_first2 c Set.univ (grid2.coords t) _ _ _ _ _ _ _ _ _ _ _ _ _ _ _ _ _ _ _ _ _ _ ((atFirst2_iff t).mpr h0) hnl (blk2 V c 0 t) (blk2 V c 1 t) (blk2 V c 2 t) (blk2 V c 3 t) (blk2 V c 4 t) (blk2 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    isplitl [HQ]; · iexact HQ
    iintro ⟨H0, H1, H2, H3, H4, H5, H6, HS, HQ⟩
    isplitl [HS HQ HR Hg]
    · isplitl [HS HQ HR]
      · isplitl [HS HQ]
        · isplitl [HS]; · iexact HS
          iexact HQ
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := by omega
    have hnf : ¬atFirst2 (grid2.coords t) := fun h => h0 ((atFirst2_iff t).mp h)
    by_cases h2 : t.val % 20 = 19
    · have hl : atLast2 (grid2.coords t) := (atLast2_iff t).mpr h2
      rw [show (dat2 V c).leavesExact 7 t = owns (c : Thread nD τ) (ms2_7 t) fullShare ((dat2 V c).after 7 t) from by
        unfold Dat.leavesExact; rw [colSum_live2 t hl], after2_7]
      rw [show (dat2 V c).leavesExact 8 t = owns (c : Thread nD τ) (ms2_8 t) fullShare ((dat2 V c).after 8 t) from by
        unfold Dat.leavesExact; rw [colSq_live2 t hl], after2_8]
      rw [scrAt2_later V c t hz]; (try dsimp only)
      unfold outAt2
      rw [PhiS2_castSucc V c t, PhiS2_pos V c _ _ hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (mlp_last2 c Set.univ (grid2.coords t) _ _ _ _ _ _ _ _ _ _ _ _ _ _ _ _ _ _ _ _ _ _ hnf hl (blk2 V c 0 t) (blk2 V c 1 t) (blk2 V c 2 t) (blk2 V c 3 t) (blk2 V c 4 t) (blk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS]; · iexact HS
      isplitl [HQ]; · iexact HQ
      iintro ⟨H0, H1, H2, H3, H4, H5, H6, H7, H8, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hnl : ¬atLast2 (grid2.coords t) := fun h => h2 ((atLast2_iff t).mp h)
      rw [Dat.leavesExact_idle (dat2 V c) 7 t (colSum_idle2 t hnl) (colSum_noFlush2 t hnl),
        Dat.leavesExact_idle (dat2 V c) 8 t (colSq_idle2 t hnl) (colSq_noFlush2 t hnl)]
      rw [scrAt2_later V c t hz]; (try dsimp only)
      unfold outAt2
      rw [PhiS2_castSucc V c t, PhiS2_pos V c _ _ hz]
      iintro ⟨⟨⟨⟨HS, HQ⟩, HR⟩, Hg⟩, Ho, ⟨%d0, H0⟩, ⟨%d1, H1⟩, ⟨%d2, H2⟩, ⟨%d3, H3⟩, ⟨%d4, H4⟩, ⟨%d5, H5⟩, ⟨%d6, H6⟩, H7, H8⟩
      iapply (mlp_mid2 c Set.univ (grid2.coords t) _ _ _ _ _ _ _ _ _ _ _ _ _ _ _ _ _ _ _ _ _ _ hnf hnl (blk2 V c 0 t) (blk2 V c 1 t) (blk2 V c 2 t) (blk2 V c 3 t) (blk2 V c 4 t) (blk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      isplitl [HQ]; · iexact HQ
      iintro ⟨H0, H1, H2, H3, H4, H5, H6, HS, HQ⟩
      isplitl [HS HQ HR Hg]
      · isplitl [HS HQ HR]
        · isplitl [HS HQ]
          · isplitl [HS]; · iexact HS
            iexact HQ
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨⟨HS, HQ⟩, HR⟩, Hg⟩
  isplitl [HS HQ HR]
  · isplitl [HS HQ]
    · isplitl [HS]
      · iexists _; iexact HS
      iexists _; iexact HQ
    iexact HR
  iexact Hg

theorem hout2 (c : Dev nD) : (dat2 V c).Φ (Fin.last cfg2.N) ⊢ (Pipeline.ΦA spec2 c : sProp 𝕄) :=
  Phi_out2 V c _ (by rw [Fin.val_last]; have : cfg2.N = 20 := N_2; omega)

end

end Cert.KernelIdeal.Hand

end
-- ==== Proof.Reg3.lean ====
import proofs.«412881_j60095182405865_1_alg».proof.Proof.Gen.KernelIdeal.Launch
import proofs.«412881_j60095182405865_1_alg».proof.Proof.Gen.KernelIdeal.Skeleton
import proofs.«412881_j60095182405865_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def blk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

theorem holds3_h_of {c : Dev nD} (dat : Dat τ (Elt F) Unit ℕ (UR sig nD τ) ℕ cfg3 c)
    (hA : dat.A 0 = V c (Pipeline.arrRef spec3 0)) (hafter : ∀ t, dat.after 0 t = blk3 V c 0 t)
    (t : Fin cfg3.N) (d) : dat.before 0 t d = blk3 V c 0 t :=
  (dat.before_in_eq_fetched 0 rfl (fun _ => rfl) (fun _ _ _ => rfl)
    (fun t => by rw [hafter]; unfold Dat.blockOf blk3; rw [hA]; try rfl) t d).trans
    (by unfold Dat.fetched Dat.blockOf blk3; rw [hA]; try rfl)

theorem holds3_scale_of {c : Dev nD} (dat : Dat τ (Elt F) Unit ℕ (UR sig nD τ) ℕ cfg3 c)
    (hA : dat.A 1 = V c (Pipeline.arrRef spec3 1)) (hafter : ∀ t, dat.after 1 t = blk3 V c 1 t)
    (t : Fin cfg3.N) (d) : dat.before 1 t d = blk3 V c 1 t :=
  (dat.before_in_eq_fetched 1 rfl (fun _ => rfl) (fun _ _ _ => rfl)
    (fun t => by rw [hafter]; unfold Dat.blockOf blk3; rw [hA]; try rfl) t d).trans
    (by unfold Dat.fetched Dat.blockOf blk3; rw [hA]; try rfl)

theorem holds3_shift_of {c : Dev nD} (dat : Dat τ (Elt F) Unit ℕ (UR sig nD τ) ℕ cfg3 c)
    (hA : dat.A 2 = V c (Pipeline.arrRef spec3 2)) (hafter : ∀ t, dat.after 2 t = blk3 V c 2 t)
    (t : Fin cfg3.N) (d) : dat.before 2 t d = blk3 V c 2 t :=
  (dat.before_in_eq_fetched 2 rfl (fun _ => rfl) (fun _ _ _ => rfl)
    (fun t => by rw [hafter]; unfold Dat.blockOf blk3; rw [hA]; try rfl) t d).trans
    (by unfold Dat.fetched Dat.blockOf blk3; rw [hA]; try rfl)

abbrev whole3 : Rect S5000x128 := Rect.unit (s := S5000x128) ![0, 0] S5000x128.size inb_S5000x128_S5000x128_0_0

abbrev wholeRow3 : Rect S1x128 := Rect.unit (s := S1x128) ![0, 0] S1x128.size inb_S1x128_S1x128_0_0

def bnBlock3 (h : Vec F S5000x128 .f32) (scale shift : Vec F S1x128 .f32) : Vec F S5000x128 .f32 :=
  View.canon [⟨whole3, k3_pay1 (View.ld h whole3) (View.ld scale wholeRow3) (View.ld shift wholeRow3)⟩]

theorem bnBlock3_cover (p : Vec F S5000x128 .f32) (y : S5000x128.Idx) :
    ∃ pc ∈ ([⟨whole3, p⟩] : List (View.Piece (Elt F) S5000x128 .f32)), y ∈ pc.1.set :=
  View.cover_of_tiled [⟨whole3, p⟩] S5000x128.size (by rfl) y

set_option maxHeartbeats 1000000 in

theorem bn_body3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S5000x128 .f32) (harg4 : arg4.IsWhole)
    (h : Vec F S5000x128 .f32) (scale shift : Vec F S1x128 .f32) (K : PUnit → sProp 𝕄) :
    iprop(owns (c : Thread nD τ) arg1 fullShare h ∗ owns (c : Thread nD τ) arg2 fullShare scale
        ∗ owns (c : Thread nD τ) arg3 fullShare shift ∗ (∃ d, owns (c : Thread nD τ) arg4 fullShare d)
        ∗ (iprop(owns (c : Thread nD τ) arg1 fullShare h ∗ owns (c : Thread nD τ) arg2 fullShare scale
            ∗ owns (c : Thread nD τ) arg3 fullShare shift
            ∗ owns (c : Thread nD τ) arg4 fullShare (bnBlock3 h scale shift)) -∗ K ⟨⟩))
      ⊢ wp frame (wpE (defs₀ (F := F)) Variants.none c none) E
          (cc3__bn_kernel i arg1 harg1 arg2 harg2 arg3 harg3 arg4 harg4) K := by
  simp only [cc3__bn_kernel_eq_skeleton]; unfold cc3__bn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (bnBlock3_cover _)

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => bnBlock3 (blk3 V c 0 t) (blk3 V c 1 t) (blk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_h (c : Dev nD) (t : Fin cfg3.N) : (dat3 V c).after 0 t = blk3 V c 0 t := by dsimp only [dat3]
theorem after3_scale (c : Dev nD) (t : Fin cfg3.N) : (dat3 V c).after 1 t = blk3 V c 1 t := by dsimp only [dat3]
theorem after3_shift (c : Dev nD) (t : Fin cfg3.N) : (dat3 V c).after 2 t = blk3 V c 2 t := by dsimp only [dat3]
theorem after3_out (c : Dev nD) (t : Fin cfg3.N) :
    (dat3 V c).after 3 t = bnBlock3 (blk3 V c 0 t) (blk3 V c 1 t) (blk3 V c 2 t) := by dsimp only [dat3]

theorem holds3_h (c : Dev nD) (t : Fin cfg3.N) (d) : (dat3 V c).before 0 t d = blk3 V c 0 t :=
  holds3_h_of V (dat3 V c) (A_eq3 V c 0) (after3_h V c) t d
theorem holds3_scale (c : Dev nD) (t : Fin cfg3.N) (d) : (dat3 V c).before 1 t d = blk3 V c 1 t :=
  holds3_scale_of V (dat3 V c) (A_eq3 V c 1) (after3_scale V c) t d
theorem holds3_shift (c : Dev nD) (t : Fin cfg3.N) (d) : (dat3 V c).before 2 t d = blk3 V c 2 t :=
  holds3_shift_of V (dat3 V c) (A_eq3 V c 2) (after3_shift V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem bn_point3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [holds3_h, holds3_scale, holds3_shift]
  rw [show (dat3 V c).Φ t.succ = (dat3 V c).Φ t.castSucc from rfl,
    show (dat3 V c).owesAt () t.succ = (dat3 V c).owesAt () t.castSucc from rfl,
    after3_h, after3_scale, after3_shift, after3_out]
  iintro ⟨HΦ, Ho, ⟨%d0, H0⟩, ⟨%d1, H1⟩, ⟨%d2, H2⟩, ⟨%d3, H3⟩⟩
  iapply (bn_body3 c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact bn_point3 V c t

theorem hin3 (c : Dev nD) : (Pipeline.ΦA spec3 c : sProp 𝕄) ⊢ (dat3 V c).Φ 0 := BI.Entails.refl _
theorem hout3 (c : Dev nD) : (dat3 V c).Φ (Fin.last cfg3.N) ⊢ (Pipeline.ΦA spec3 c : sProp 𝕄) := BI.Entails.refl _

end

end Cert.KernelIdeal.Hand

end
-- ==== Proof.Reg4Runs.lean ====
import proofs.«412881_j60095182405865_1_alg».proof.Proof.Gen.KernelIdeal.Launch
import proofs.«412881_j60095182405865_1_alg».proof.Proof.Gen.KernelIdeal.Skeleton
import proofs.«412881_j60095182405865_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev isFirstBlock (i : grid4.Coords) : Prop :=
  (Scalar.cmpi .ne (Scalar.extui (Scalar.cmpi .eq (BitVec.ofNat 32 (i 0).val) 0#32)) 0#32) = 1#1

theorem isFirstBlock_iff : ∀ t : Fin cfg4.N, isFirstBlock (grid4.coords t) ↔ t.val % 49 = 0 :=
  (by decide +kernel : ∀ t : Fin grid4.N, isFirstBlock (grid4.coords t) ↔ t.val % 49 = 0)

abbrev isLastBlock (i : grid4.Coords) : Prop := k4_cond2 i = 1#1

theorem isLastBlock_iff : ∀ t : Fin cfg4.N, isLastBlock (grid4.coords t) ↔ t.val % 49 = 48 :=
  (by decide +kernel : ∀ t : Fin grid4.N, isLastBlock (grid4.coords t) ↔ t.val % 49 = 48)

theorem logits_idle : ∀ t : Fin cfg4.N, ¬isLastBlock (grid4.coords t) → cfg4.idle 4 (grid4.coords t) = true := by decide +kernel

theorem logits_noFlush : ∀ t : Fin cfg4.N, ¬isLastBlock (grid4.coords t) → (cfg4.win 4).flush t = false := by decide +kernel

theorem logits_live : ∀ t : Fin cfg4.N, isLastBlock (grid4.coords t) → cfg4.idle 4 (grid4.coords t) = false := by decide +kernel

abbrev ms4_0 (t : Fin cfg4.N) : Memref sig .tc .vmem S2048x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x10 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x10 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S512x10 .f32 := win4_4.stage (cfg4.slots t 4)
abbrev hs4_4 (t : Fin cfg4.N) : (ms4_4 t).IsWhole := hstage4_4 ((cfg4.slots t 4).cast nbuf4_4)

abbrev accM : Memref sig .tc .vmem S512x128 .f32 := Memref.whole cc4_scratch0

abbrev accV : View sig .tc .vmem S512x128 .f32 := accM.view
abbrev logitsV : View sig .tc .vmem S512x10 .f32 := (Memref.whole cc4_stg4_0 : Memref sig .tc .vmem S512x10 .f32).view

abbrev otherScoped (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns (c : Thread nD τ) accM fullShare d)) ∗ otherScoped (F := F) c) ∗ (∃ r, prngReg c r)) := by
  unfold Pipeline.ΦA; rw [scopedRest4_split]; simp only [accM, owns_whole]; try rfl

set_option maxHeartbeats 1000000 in

noncomputable def poolRunFirst (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : isFirstBlock i) (hc1 : ¬isLastBlock i) (x0 : Vec F S2048x128 .f32) (x1 : Vec F S2048x1 .i32) :
    { LS : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg6 fullShare d)
            ∗ (iprop(owns (c : Thread nD τ) arg1 fullShare x0 ∗ owns (c : Thread nD τ) arg2 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc4__pool_kernel i arg1 harg1 arg2 harg2 arg3 harg3 arg4 harg4 arg5 harg5 arg6 harg6) K } := by
  refine ⟨?_, fun E K => ?run⟩
  case run =>
    simp only [cc4__pool_kernel_eq_skeleton]; unfold cc4__pool_kernel_skel
    unfold owns
    iintro ⟨⟨%f0, %hf0, H0⟩, ⟨%f1, %hf1, H1⟩, ⟨%ds, %fs, -, HS⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in

noncomputable def poolRunMid (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : ¬isLastBlock i) (x0 : Vec F S2048x128 .f32) (x1 : Vec F S2048x1 .i32) (xs : Vec F S512x128 .f32) :
    { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg6 fullShare xs
            ∗ (iprop(owns (c : Thread nD τ) arg1 fullShare x0 ∗ owns (c : Thread nD τ) arg2 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc4__pool_kernel i arg1 harg1 arg2 harg2 arg3 harg3 arg4 harg4 arg5 harg5 arg6 harg6) K } := by
  refine ⟨?_, fun E K => ?run⟩
  case run =>
    simp only [cc4__pool_kernel_eq_skeleton]; unfold cc4__pool_kernel_skel
    unfold owns
    iintro ⟨⟨%f0, %hf0, H0⟩, ⟨%f1, %hf1, H1⟩, ⟨%fs, %hfs, HS⟩, Hk⟩
    obtain rfl := harg1.eq_unread hf0; obtain rfl := harg2.eq_unread hf1; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS

set_option maxHeartbeats 1000000 in

noncomputable def poolRunLast (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) :
    Σ' (LO : List (View.Piece (Elt F) S512x10 .f32)), { LS : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc4__pool_kernel i arg1 harg1 arg2 harg2 arg3 harg3 arg4 harg4 arg5 harg5 arg6 harg6) K } := by
  refine ⟨?_, ?_, fun E K => ?run⟩
  case run =>
    simp only [cc4__pool_kernel_eq_skeleton]; unfold cc4__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Hand

end
-- ==== Proof.Reg4.lean ====
import proofs.«412881_j60095182405865_1_alg».proof.Proof.Reg4Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem accFirst_cover (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : isFirstBlock i) (hc1 : ¬isLastBlock i) (x0 : Vec F S2048x128 .f32) (x1 : Vec F S2048x1 .i32) (y : S512x128.Idx) :
    ∃ pc ∈ (poolRunFirst c i arg1 harg1 arg2 harg2 arg3 harg3 arg4 harg4 arg5 harg5 arg6 harg6 hc0 hc1 x0 x1).1, y ∈ pc.1.set :=
  View.cover_of_tiledL (poolRunFirst c i arg1 harg1 arg2 harg2 arg3 harg3 arg4 harg4 arg5 harg5 arg6 harg6 hc0 hc1 x0 x1).1 S512x128.size (by sl_kernel_rfl) y

def accFirst (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : isFirstBlock i) (hc1 : ¬isLastBlock i) (x0 : Vec F S2048x128 .f32) (x1 : Vec F S2048x1 .i32) : Vec F S512x128 .f32 :=
  accV.read (Elt F) (accV.writes (Elt F) accV.junk (poolRunFirst c i arg1 harg1 arg2 harg2 arg3 harg3 arg4 harg4 arg5 harg5 arg6 harg6 hc0 hc1 x0 x1).1)

theorem accMid_cover (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : ¬isLastBlock i) (x0 : Vec F S2048x128 .f32) (x1 : Vec F S2048x1 .i32) (xs : Vec F S512x128 .f32) (y : S512x128.Idx) :
    ∃ pc ∈ (poolRunMid c i arg1 harg1 arg2 harg2 arg3 harg3 arg4 harg4 arg5 harg5 arg6 harg6 hc0 hc1 x0 x1 xs).1, y ∈ pc.1.set :=
  View.cover_of_tiledL (poolRunMid c i arg1 harg1 arg2 harg2 arg3 harg3 arg4 harg4 arg5 harg5 arg6 harg6 hc0 hc1 x0 x1 xs).1 S512x128.size (by sl_kernel_rfl) y

def accMid (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : ¬isLastBlock i) (x0 : Vec F S2048x128 .f32) (x1 : Vec F S2048x1 .i32) (xs : Vec F S512x128 .f32) : Vec F S512x128 .f32 :=
  accV.read (Elt F) (accV.writes (Elt F) accV.junk (poolRunMid c i arg1 harg1 arg2 harg2 arg3 harg3 arg4 harg4 arg5 harg5 arg6 harg6 hc0 hc1 x0 x1 xs).1)

theorem accLast_cover (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) (y : S512x128.Idx) :
    ∃ pc ∈ (poolRunLast c i arg1 harg1 arg2 harg2 arg3 harg3 arg4 harg4 arg5 harg5 arg6 harg6 hc0 hc1 x0 x1 x2 x3 xs).2.1, y ∈ pc.1.set :=
  View.cover_of_tiledL (poolRunLast c i arg1 harg1 arg2 harg2 arg3 harg3 arg4 harg4 arg5 harg5 arg6 harg6 hc0 hc1 x0 x1 x2 x3 xs).2.1 S512x128.size (by sl_kernel_rfl) y

def accLast (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) : Vec F S512x128 .f32 :=
  accV.read (Elt F) (accV.writes (Elt F) accV.junk (poolRunLast c i arg1 harg1 arg2 harg2 arg3 harg3 arg4 harg4 arg5 harg5 arg6 harg6 hc0 hc1 x0 x1 x2 x3 xs).2.1)

theorem logitsLast_cover (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) (y : S512x10.Idx) :
    ∃ pc ∈ (poolRunLast c i arg1 harg1 arg2 harg2 arg3 harg3 arg4 harg4 arg5 harg5 arg6 harg6 hc0 hc1 x0 x1 x2 x3 xs).1, y ∈ pc.1.set :=
  View.cover_of_tiledL (poolRunLast c i arg1 harg1 arg2 harg2 arg3 harg3 arg4 harg4 arg5 harg5 arg6 harg6 hc0 hc1 x0 x1 x2 x3 xs).1 S512x10.size (by sl_kernel_rfl) y

def logitsLast (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) : Vec F S512x10 .f32 :=
  logitsV.read (Elt F) (logitsV.writes (Elt F) logitsV.junk (poolRunLast c i arg1 harg1 arg2 harg2 arg3 harg3 arg4 harg4 arg5 harg5 arg6 harg6 hc0 hc1 x0 x1 x2 x3 xs).1)

section

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

def accAt (c : Dev nD) : (n : ℕ) → n < cfg4.N → Vec F S512x128 .f32
  | 0, hn => accFirst c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) accM (Memref.isWhole_whole _)
      ((isFirstBlock_iff ⟨0, hn⟩).mpr (Nat.zero_mod _)) (fun h => (fun h => by (try dsimp only at h); omega) ((isLastBlock_iff ⟨0, hn⟩).mp h))
      (iblk4 V c 0 ⟨0, hn⟩) (iblk4 V c 1 ⟨0, hn⟩)
  | n + 1, hn =>
    if h2 : (n + 1) % 49 = 48 then
      accLast c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) accM (Memref.isWhole_whole _)
        (fun h => (fun h => by have hN : n + 1 < 49 := lt_of_lt_of_eq hn (show cfg4.N = 49 from N_4); (try dsimp only at h); omega) ((isFirstBlock_iff ⟨n + 1, hn⟩).mp h)) ((isLastBlock_iff ⟨n + 1, hn⟩).mpr h2)
        (iblk4 V c 0 ⟨n + 1, hn⟩) (iblk4 V c 1 ⟨n + 1, hn⟩) (iblk4 V c 2 ⟨n + 1, hn⟩) (iblk4 V c 3 ⟨n + 1, hn⟩) (accAt c n (Nat.lt_of_succ_lt hn))
    else
      accMid c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) accM (Memref.isWhole_whole _)
        (fun h => (fun h => by have hN : n + 1 < 49 := lt_of_lt_of_eq hn (show cfg4.N = 49 from N_4); (try dsimp only at h); omega) ((isFirstBlock_iff ⟨n + 1, hn⟩).mp h)) (fun h => h2 ((isLastBlock_iff ⟨n + 1, hn⟩).mp h))
        (iblk4 V c 0 ⟨n + 1, hn⟩) (iblk4 V c 1 ⟨n + 1, hn⟩) (accAt c n (Nat.lt_of_succ_lt hn))

theorem accAt_first (c : Dev nD) (t : Fin cfg4.N) (h0 : t.val % 49 = 0) (h2 : ¬t.val % 49 = 48) :
    accAt V c t.val t.isLt = accFirst c (grid4.coords t) (ms4_0 t) (hs4_0 t) (ms4_1 t) (hs4_1 t) (ms4_2 t) (hs4_2 t) (ms4_3 t) (hs4_3 t) (ms4_4 t) (hs4_4 t) accM (Memref.isWhole_whole _)
      ((isFirstBlock_iff t).mpr h0) (fun h => h2 ((isLastBlock_iff t).mp h)) (iblk4 V c 0 t) (iblk4 V c 1 t) := by
  obtain ⟨n, hn⟩ := t
  cases n with
  | zero => exact rfl
  | succ n => exact (by exfalso; have hN : n + 1 < 49 := lt_of_lt_of_eq hn (show cfg4.N = 49 from N_4); (try dsimp only at h0); omega)

theorem accAt_mid (c : Dev nD) (t : Fin cfg4.N) (h0 : ¬t.val % 49 = 0) (h2 : ¬t.val % 49 = 48) :
    accAt V c t.val t.isLt = accMid c (grid4.coords t) (ms4_0 t) (hs4_0 t) (ms4_1 t) (hs4_1 t) (ms4_2 t) (hs4_2 t) (ms4_3 t) (hs4_3 t) (ms4_4 t) (hs4_4 t) accM (Memref.isWhole_whole _)
      (fun h => h0 ((isFirstBlock_iff t).mp h)) (fun h => h2 ((isLastBlock_iff t).mp h)) (iblk4 V c 0 t) (iblk4 V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h2).trans rfl

theorem accAt_last (c : Dev nD) (t : Fin cfg4.N) (h0 : ¬t.val % 49 = 0) (h2 : t.val % 49 = 48) :
    accAt V c t.val t.isLt = accLast c (grid4.coords t) (ms4_0 t) (hs4_0 t) (ms4_1 t) (hs4_1 t) (ms4_2 t) (hs4_2 t) (ms4_3 t) (hs4_3 t) (ms4_4 t) (hs4_4 t) accM (Memref.isWhole_whole _)
      (fun h => h0 ((isFirstBlock_iff t).mp h)) ((isLastBlock_iff t).mpr h2) (iblk4 V c 0 t) (iblk4 V c 1 t) (iblk4 V c 2 t) (iblk4 V c 3 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h2).trans rfl

def logitsAt (c : Dev nD) (n : ℕ) (hn : n < cfg4.N) : Vec F S512x10 .f32 :=
  if h2 : n % 49 = 48 then
    logitsLast c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) (ms4_4 ⟨n, hn⟩) (hs4_4 ⟨n, hn⟩) accM (Memref.isWhole_whole _)
      (fun h => (fun h => by (try dsimp only at h); omega) ((isFirstBlock_iff ⟨n, hn⟩).mp h)) ((isLastBlock_iff ⟨n, hn⟩).mpr h2)
      (iblk4 V c 0 ⟨n, hn⟩) (iblk4 V c 1 ⟨n, hn⟩) (iblk4 V c 2 ⟨n, hn⟩) (iblk4 V c 3 ⟨n, hn⟩) (accAt V c (n - 1) (Nat.lt_of_le_of_lt (Nat.sub_le _ _) hn))
  else logitsV.read (Elt F) logitsV.junk

theorem logitsAt_last (c : Dev nD) (t : Fin cfg4.N) (h0 : ¬t.val % 49 = 0) (h2 : t.val % 49 = 48) :
    logitsAt V c t.val t.isLt = logitsLast c (grid4.coords t) (ms4_0 t) (hs4_0 t) (ms4_1 t) (hs4_1 t) (ms4_2 t) (hs4_2 t) (ms4_3 t) (hs4_3 t) (ms4_4 t) (hs4_4 t) accM (Memref.isWhole_whole _)
      (fun h => h0 ((isFirstBlock_iff t).mp h)) ((isLastBlock_iff t).mpr h2) (iblk4 V c 0 t) (iblk4 V c 1 t) (iblk4 V c 2 t) (iblk4 V c 3 t)
      (accAt V c (t.val - 1) (Nat.lt_of_le_of_lt (Nat.sub_le _ _) t.isLt)) := by
  unfold logitsAt; exact (dif_pos h2).trans rfl

def PhiS (c : Dev nD) : (n : ℕ) → n ≤ cfg4.N → sProp 𝕄
  | 0, _ => Pipeline.ΦA spec4 c
  | n + 1, hn => iprop(iprop(owns (c : Thread nD τ) accM fullShare (accAt V c n hn) ∗ otherScoped (F := F) c) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop(owns (c : Thread nD τ) accM fullShare (accAt V c n hn) ∗ otherScoped (F := F) c) ∗ (∃ r, prngReg c r)) := rfl

theorem PhiS_pos (c : Dev nD) (n : ℕ) (h : n ≤ cfg4.N) (hz : n ≠ 0) :
    PhiS V c n h = iprop(iprop(owns (c : Thread nD τ) accM fullShare (accAt V c (n - 1) (by omega)) ∗ otherScoped (F := F) c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => logitsAt V c t.val t.isLt
  Φ t := PhiS V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS_castSucc (c : Dev nD) (t : Fin cfg4.N) :
    (dat4 V c).Φ t.castSucc = PhiS V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = logitsAt V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

theorem leaves4_0 (c : Dev nD) (t : Fin cfg4.N) : (dat4 V c).leavesExact 0 t = owns (c : Thread nD τ) (ms4_0 t) fullShare (iblk4 V c 0 t) := by
  rw [← after4_0 V c t]
theorem leaves4_1 (c : Dev nD) (t : Fin cfg4.N) : (dat4 V c).leavesExact 1 t = owns (c : Thread nD τ) (ms4_1 t) fullShare (iblk4 V c 1 t) := by
  rw [← after4_1 V c t]
theorem leaves4_2 (c : Dev nD) (t : Fin cfg4.N) : (dat4 V c).leavesExact 2 t = owns (c : Thread nD τ) (ms4_2 t) fullShare (iblk4 V c 2 t) := by
  rw [← after4_2 V c t]
theorem leaves4_3 (c : Dev nD) (t : Fin cfg4.N) : (dat4 V c).leavesExact 3 t = owns (c : Thread nD τ) (ms4_3 t) fullShare (iblk4 V c 3 t) := by
  rw [← after4_3 V c t]

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS V c (t.val + 1) t.isLt from rfl, PhiS_succ]
  rw [leaves4_0, leaves4_1, leaves4_2, leaves4_3]
  have hN : t.val < 49 := lt_of_lt_of_eq t.isLt (show cfg4.N = 49 from N_4)
  by_cases h0 : t.val % 49 = 0
  · have h2 : ¬t.val % 49 = 48 := by omega
    have hz : t.val = 0 := by omega
    rw [Dat.leavesExact_idle (dat4 V c) 4 t (logits_idle t (fun h => h2 ((isLastBlock_iff t).mp h))) (logits_noFlush t (fun h => h2 ((isLastBlock_iff t).mp h)))]
    rw [accAt_first V c t h0 h2]
    unfold accFirst; (try dsimp only)
    rw [PhiS_castSucc V c t, PhiS_zero V c _ _ hz, PhiA4_eq]
    iintro ⟨⟨⟨HS, HR⟩, Hg⟩, Ho, ⟨%d0, H0⟩, ⟨%d1, H1⟩, ⟨%d2, H2⟩, ⟨%d3, H3⟩, H4⟩
    iapply ((poolRunFirst c (grid4.coords t) _ _ _ _ _ _ _ _ _ _ _ _ ((isFirstBlock_iff t).mpr h0) (fun h => h2 ((isLastBlock_iff t).mp h)) (iblk4 V c 0 t) (iblk4 V c 1 t)).2 Set.univ _)
    isplitl [H0]; · iexact H0
    isplitl [H1]; · iexact H1
    isplitl [HS]; · iexact HS
    iintro ⟨H0, H1, ⟨%es, HS⟩⟩
    isplitl [HS HR Hg]
    · isplitl [HS HR]
      · isplitl [HS]
        · unfold owns; iexists _; isplitr
          swap; · iexact HS
          ipureintro; exact View.read_writes_of_cover _ _ _ _ _ (accFirst_cover c _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    iexact H4
  · have hz : t.val ≠ 0 := by omega
    by_cases h2 : t.val % 49 = 48
    · rw [show (dat4 V c).leavesExact 4 t = owns (c : Thread nD τ) (ms4_4 t) fullShare ((dat4 V c).after 4 t) from by
        unfold Dat.leavesExact; rw [logits_live t ((isLastBlock_iff t).mpr h2)], after4_4]
      rw [accAt_last V c t h0 h2, logitsAt_last V c t h0 h2]
      unfold accLast logitsLast; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((poolRunLast c (grid4.coords t) _ _ _ _ _ _ _ _ _ _ _ _ (fun h => h0 ((isFirstBlock_iff t).mp h)) ((isLastBlock_iff t).mpr h2) (iblk4 V c 0 t) (iblk4 V c 1 t) (iblk4 V c 2 t) (iblk4 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (accLast_cover c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (logitsLast_cover c _ _ _ _ _ _ _ _ _ _ _ _ _ _ _ _ _ _ _ _)
    · rw [Dat.leavesExact_idle (dat4 V c) 4 t (logits_idle t (fun h => h2 ((isLastBlock_iff t).mp h))) (logits_noFlush t (fun h => h2 ((isLastBlock_iff t).mp h)))]
      rw [accAt_mid V c t h0 h2]
      unfold accMid; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, H4⟩
      iapply ((poolRunMid c (grid4.coords t) _ _ _ _ _ _ _ _ _ _ _ _ (fun h => h0 ((isFirstBlock_iff t).mp h)) (fun h => h2 ((isLastBlock_iff t).mp h)) (iblk4 V c 0 t) (iblk4 V c 1 t) _).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (accMid_cover c _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS V c 0 (Nat.zero_le _) from rfl, PhiS_zero V c 0 _ rfl]
  try exact Idealize.SL.BI.Entails.refl _

theorem Phi_out4 (c : Dev nD) (t : Fin (cfg4.N + 1)) (ht : t.val ≠ 0) : (dat4 V c).Φ t ⊢ (Pipeline.ΦA spec4 c : sProp 𝕄) := by
  rw [show (dat4 V c).Φ t = PhiS V c t.val (Nat.le_of_lt_succ t.isLt) from rfl, PhiS_pos V c _ _ ht, PhiA4_eq]
  iintro ⟨⟨HS, HR⟩, Hg⟩
  isplitl [HS HR]
  · isplitl [HS]
    · iexists _; iexact HS
    iexact HR
  iexact Hg

theorem hout4 (c : Dev nD) : (dat4 V c).Φ (Fin.last cfg4.N) ⊢ (Pipeline.ΦA spec4 c : sProp 𝕄) :=
  Phi_out4 V c _ (by rw [Fin.val_last]; have : cfg4.N = 49 := N_4; omega)

end

end Cert.KernelIdeal.Hand

end
-- ==== Proof.Assemble.lean ====
import proofs.«412881_j60095182405865_1_alg».proof.Proof.Run
import proofs.«412881_j60095182405865_1_alg».proof.Proof.RunArgs
import proofs.«412881_j60095182405865_1_alg».proof.Proof.Reg0
import proofs.«412881_j60095182405865_1_alg».proof.Proof.Reg1
import proofs.«412881_j60095182405865_1_alg».proof.Proof.Reg2
import proofs.«412881_j60095182405865_1_alg».proof.Proof.Reg3
import proofs.«412881_j60095182405865_1_alg».proof.Proof.Reg4

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem regFacts : RegFacts (F := F) dat0 dat1 dat2 dat3 dat4 :=
  ⟨fun V c w => A_eq0 V c w, fun _ _ _ => rfl, fun _ _ _ => rfl, fun _ _ _ => rfl, fun V c => body_obligation0 V c, fun V c => hin0 V c, fun V c => hout0 V c,
   fun V c w => A_eq1 V c w, fun _ _ _ => rfl, fun _ _ _ => rfl, fun _ _ _ => rfl, fun V c => body_obligation1 V c, fun V c => hin1 V c, fun V c => hout1 V c,
   fun V c w => A_eq2 V c w, fun _ _ _ => rfl, fun _ _ _ => rfl, fun _ _ _ => rfl, fun V c => body_obligation2 V c, fun V c => hin2 V c, fun V c => hout2 V c,
   fun V c w => A_eq3 V c w, fun _ _ _ => rfl, fun _ _ _ => rfl, fun _ _ _ => rfl, fun V c => body_obligation3 V c, fun V c => hin3 V c, fun V c => hout3 V c,
   fun V c w => A_eq4 V c w, fun _ _ _ => rfl, fun _ _ _ => rfl, fun _ _ _ => rfl, fun V c => body_obligation4 V c, fun V c => hin4 V c, fun V c => hout4 V c⟩

abbrev poolEntry : Cont F := kU13 m ρ dat0 dat1 dat2 dat3

-- Every weakly fair execution of @main ends, nothing faulting, every argument as launched, the result array being the
-- last region's output array after its last grid point.
theorem run_result : θ_run defs (onTc (τ := τ) (main (F := F))) ⟨m, fun _ => 0, ρ⟩ (fun r => ∀ c : Dev nD,
      r.2.mem ((c.tc : Thread nD τ).loc main_v70) = (dat4 (poolEntry m ρ) c).arrAt 4 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (Q := fun r => ∀ c : Dev nD, ∀ b ∈ Pipeline.ucRefs τ sig, r.2.mem (((c : Thread nD τ)).1, b) = kW14 m ρ dat0 dat1 dat2 dat3 dat4 c b)
    (fun r h c =>
      have key : ∀ b ∈ argRefs, r.2.mem ((c.tc : Thread nD τ).loc b) = m ((c.tc : Thread nD τ).loc b) := fun b hb =>
        (h c _ (mem_uc b ((by decide : ∀ b ∈ argRefs, ¬ (Proc.devRef .tc b : DevRef τ sig).isScoped) b hb))).trans
          (kW14_arg m ρ dat0 dat1 dat2 dat3 dat4 regFacts.hA0 regFacts.hA2 regFacts.hA4 c b hb)
      ⟨(h c _ (mem_uc main_v70 (by decide))).trans (kW14_arr m ρ dat0 dat1 dat2 dat3 dat4 c 4),
        key main_arg0 (by decide), key main_arg1 (by decide), key main_arg2 (by decide), key main_arg3 (by decide), key main_arg4 (by decide), key main_arg5 (by decide), key main_arg6 (by decide), key main_arg7 (by decide), key main_arg8 (by decide), key main_arg9 (by decide), key main_arg10 (by decide), key main_arg11 (by decide), key main_arg12 (by decide), key main_arg13 (by decide), key main_arg14 (by decide), key main_arg15 (by decide), key main_arg16 (by decide)⟩)
    (run_all m ρ dat0 dat1 dat2 dat3 dat4 regFacts)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_result m ρ)

end Cert.KernelIdeal.Hand

end
-- ==== Proof.RefRun.lean ====
import proofs.«412881_j60095182405865_1_alg».proof.Proof.Gen.ReferenceIdeal
import Idealize.ShloMosaic.Lib.StableHlo.Run
import Idealize.ShloMosaic.PureOps.Ideal
import Idealize.ShloMosaic.Lib.Pipeline.Frame

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

def refSrc (e : IVec S2x1600000 32) : IVec S1600000 32 :=
  shapeCast S1600000 (extractStridedSlice S1x1600000 ![0, 0] e slices_S2x1600000_S1x1600000_0_0) shapeCasts_S1x1600000_S1600000

def refDst (e : IVec S2x1600000 32) : IVec S1600000 32 :=
  shapeCast S1600000 (extractStridedSlice S1x1600000 ![1, 0] e slices_S2x1600000_S1x1600000_1_0) shapeCasts_S1x1600000_S1600000

def refRow (b : FVec F S128 .f32) : FVec F S100000x128 .f32 :=
  broadcastInDim S100000x128 ![0, 1] bcast_S1x128_S100000x128_0_1 (broadcastInDim S1x128 ![1] bcast_S128_S1x128_1 b)

def refAgg (x : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

def refMlp (x agg : FVec F S100000x128 .f32) (w1 : FVec F S128x128 .f32) (b1 : FVec F S128 .f32)
    (w2 : FVec F S128x128 .f32) (b2 : FVec F S128 .f32) : FVec F S100000x128 .f32 :=
  addf (Host.dotGeneral dot_S100000x128_S128x128_S100000x128_1_0_0_1_n_n none
      (maximumf (addf (Host.dotGeneral dot_S100000x128_S128x128_S100000x128_1_0_0_1_n_n none (addf agg x) w1) (refRow b1))
        (broadcastInDim S100000x128 ![] bcast_S_S100000x128 (constant S_ .f32 0x00000000#32)))
      w2) (refRow b2)

def refMean (h : FVec F S100000x128 .f32) : FVec F S128 .f32 :=
  Host.divf (Host.reduceAdd h (constant S_ .f32 0x00000000#32) reducesTo_S100000x128_S128_d0 h_S_)
    (broadcastInDim S128 ![] bcast_S_S128 (constant S_ .f32 0x47C35000#32))

def refCount : FVec F S_ .f32 :=
  subf (constant S_ .f32 0x47C35000#32) (sitofp .f32 (constantI S_ 32 0#32))

def refDev (h : FVec F S100000x128 .f32) : FVec F S100000x128 .f32 :=
  subf h (broadcastInDim S100000x128 ![0, 1] bcast_S1x128_S100000x128_0_1
    (Host.divf
      (broadcastInDim S1x128 ![1] bcast_S128_S1x128_1
        (Host.reduceAdd h (constant S_ .f32 0x00000000#32) reducesTo_S100000x128_S128_d0 h_S_))
      (broadcastInDim S1x128 ![] bcast_S_S1x128 (constant S_ .f32 0x47C35000#32))))

def refSqDev (h : FVec F S100000x128 .f32) : FVec F S128 .f32 :=
  Host.reduceAdd (mulf (refDev h) (refDev h)) (constant S_ .f32 0x00000000#32) reducesTo_S100000x128_S128_d0 h_S_

def refVar (h : FVec F S100000x128 .f32) : FVec F S128 .f32 :=
  select (broadcastInDim S128 ![] bcast_S_S128 (cmpf .ogt (refCount (F := F)) (constant S_ .f32 0x00000000#32)))
    (Host.divf (refSqDev h) (broadcastInDim S128 ![] bcast_S_S128 refCount))
    (broadcastInDim S128 ![] bcast_S_S128 (constant S_ .f32 0x7FC00000#32))

def refNorm (h : FVec F S100000x128 .f32) (mean var g be : FVec F S128 .f32) : FVec F S100000x128 .f32 :=
  addf (mulf (mulf (subf h (refRow mean))
      (refRow (Host.rsqrt (addf var (broadcastInDim S128 ![] bcast_S_S128 (constant S_ .f32 0x3727C5AC#32))))))
    (refRow g)) (refRow be)

def refRelu (x : FVec F S100000x128 .f32) : FVec F S100000x128 .f32 :=
  maximumf x (broadcastInDim S100000x128 ![] bcast_S_S100000x128 (constant S_ .f32 0x00000000#32))

def refPool (h : FVec F S100000x128 .f32) (batch : IVec S100000 32) : FVec F S512x128 .f32 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 batch) h

def refLogits (p : FVec F S512x128 .f32) (lw : FVec F S128x10 .f32) (lb : FVec F S10 .f32) : FVec F S512x10 .f32 :=
  addf (Host.dotGeneral dot_S512x128_S128x10_S512x10_1_0_0_1_n_n none p lw)
    (broadcastInDim S512x10 ![0, 1] bcast_S1x10_S512x10_0_1 (broadcastInDim S1x10 ![1] bcast_S10_S1x10_1 lb))

def refOut (a0 : FVec Ideal S100000x128 .f32) (a1 : IVec S2x1600000 32) (a2 : IVec S100000 32)
    (a3 : FVec Ideal S128x128 .f32) (a4 : FVec Ideal S128 .f32) (a5 : FVec Ideal S128x128 .f32)
    (a6 a7 a8 : FVec Ideal S128 .f32) (a9 : FVec Ideal S128x128 .f32) (a10 : FVec Ideal S128 .f32)
    (a11 : FVec Ideal S128x128 .f32) (a12 a13 a14 : FVec Ideal S128 .f32) (a15 : FVec Ideal S128x10 .f32)
    (a16 : FVec Ideal S10 .f32) : FVec Ideal S512x10 .f32 :=
  let src := refSrc a1
  let dst := refDst a1
  let h0 := refMlp a0 (refAgg a0 src dst) a3 a4 a5 a6
  let x1 := refRelu (refNorm h0 (refMean h0) (refVar h0) a7 a8)
  let h1 := refMlp x1 (refAgg x1 src dst) a9 a10 a11 a12
  refLogits (refPool (refNorm h1 (refMean h1) (refVar h1) a13 a14) a2) a15 a16

def wIdx : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

abbrev wIdx_W : List (Ref sig .tc) := [main_v0, main_v1, main_v2, main_v3]

theorem wIdx_writes : (wIdx : List (HloOp τ sig (Elt F))).Forall fun op => op.writes ⊆ (wIdx_W.map (Proc.devRef (τ := τ) .tc)).toFinset := by
  unfold wIdx; simp only [List.Forall]; repeat' constructor
  all_goals exact Finset.singleton_subset_iff.mpr (List.mem_toFinset.mpr (List.mem_map_of_mem (by decide)))

theorem wIdx_keep (V : Valuation τ sig (Elt F)) {r : Ref sig .tc} (h : r ∉ wIdx_W) :
    after wIdx V (no_index (Proc.devRef .tc r)) = V (Proc.devRef .tc r) :=
  after_of_writes_sub wIdx V wIdx_writes h

theorem wIdx_main_v1 (V : Valuation τ sig (Elt F)) :
    after wIdx V (no_index (Proc.devRef .tc main_v1)) = refSrc (V (Proc.devRef .tc main_arg1)) := by
  unfold wIdx
  after_results_simp <;> rfl

theorem wIdx_main_v3 (V : Valuation τ sig (Elt F)) :
    after wIdx V (no_index (Proc.devRef .tc main_v3)) = refDst (V (Proc.devRef .tc main_arg1)) := by
  unfold wIdx
  after_results_simp <;> rfl

def wAgg0 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

abbrev wAgg0_W : List (Ref sig .tc) := [main_c, main_v4, main_v5, main_c_0, main_v6, main_v7, main_v8, main_v9, main_v10, main_cst, main_v11, main_v12, main_v13]

theorem wAgg0_writes : (wAgg0 : List (HloOp τ sig (Elt F))).Forall fun op => op.writes ⊆ (wAgg0_W.map (Proc.devRef (τ := τ) .tc)).toFinset := by
  unfold wAgg0; simp only [List.Forall]; repeat' constructor
  all_goals exact Finset.singleton_subset_iff.mpr (List.mem_toFinset.mpr (List.mem_map_of_mem (by decide)))

theorem wAgg0_keep (V : Valuation τ sig (Elt F)) {r : Ref sig .tc} (h : r ∉ wAgg0_W) :
    after wAgg0 V (no_index (Proc.devRef .tc r)) = V (Proc.devRef .tc r) :=
  after_of_writes_sub wAgg0 V wAgg0_writes h

theorem wAgg0_main_v13 (V : Valuation τ sig (Elt F)) :
    after wAgg0 V (no_index (Proc.devRef .tc main_v13)) = refAgg (V (Proc.devRef .tc main_arg0)) (V (Proc.devRef .tc main_v1)) (V (Proc.devRef .tc main_v3)) := by
  unfold wAgg0
  after_results_simp <;> rfl

def wMlp0 : List (HloOp τ sig (Elt F)) :=
  [ binary main_v13 main_arg0 main_v14 (addf : (⟨S100000x128, .f32⟩ : BufTy).Contents (Elt F) → (⟨S100000x128, .f32⟩ : BufTy).Contents (Elt F) → (⟨S100000x128, .f32⟩ : BufTy).Contents (Elt F)),
    binary main_v14 main_arg3 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    unary main_cst_1 main_v19 (broadcastInDim S100000x128 ![] bcast_S_S100000x128 : (⟨S_, .f32⟩ : BufTy).Contents (Elt F) → (⟨S100000x128, .f32⟩ : BufTy).Contents (Elt F)),
    binary main_v18 main_v19 main_v20 (maximumf : (⟨S100000x128, .f32⟩ : BufTy).Contents (Elt F) → (⟨S100000x128, .f32⟩ : BufTy).Contents (Elt F) → (⟨S100000x128, .f32⟩ : BufTy).Contents (Elt F)),
    binary main_v20 main_arg5 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v21 main_v23 main_v24 (addf : (⟨S100000x128, .f32⟩ : BufTy).Contents (Elt F) → (⟨S100000x128, .f32⟩ : BufTy).Contents (Elt F) → (⟨S100000x128, .f32⟩ : BufTy).Contents (Elt F)) ]

abbrev wMlp0_W : List (Ref sig .tc) := [main_v14, main_v15, main_v16, main_v17, main_v18, main_cst_1, main_v19, main_v20, main_v21, main_v22, main_v23, main_v24]

theorem wMlp0_writes : (wMlp0 : List (HloOp τ sig (Elt F))).Forall fun op => op.writes ⊆ (wMlp0_W.map (Proc.devRef (τ := τ) .tc)).toFinset := by
  unfold wMlp0; simp only [List.Forall]; repeat' constructor
  all_goals exact Finset.singleton_subset_iff.mpr (List.mem_toFinset.mpr (List.mem_map_of_mem (by decide)))

theorem wMlp0_keep (V : Valuation τ sig (Elt F)) {r : Ref sig .tc} (h : r ∉ wMlp0_W) :
    after wMlp0 V (no_index (Proc.devRef .tc r)) = V (Proc.devRef .tc r) :=
  after_of_writes_sub wMlp0 V wMlp0_writes h

theorem wMlp0_main_v24 (V : Valuation τ sig (Elt F)) :
    after wMlp0 V (no_index (Proc.devRef .tc main_v24)) = refMlp (V (Proc.devRef .tc main_arg0)) (V (Proc.devRef .tc main_v13)) (V (Proc.devRef .tc main_arg3)) (V (Proc.devRef .tc main_arg4)) (V (Proc.devRef .tc main_arg5)) (V (Proc.devRef .tc main_arg6)) := by
  unfold wMlp0
  after_results_simp <;> rfl

def wMean0 : List (HloOp τ sig (Elt F)) :=
  [ nullary main_cst_2 (constant S_ .f32 0x00000000#32),
    binary main_v24 main_cst_2 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_3 (constant S_ .f32 0x47C35000#32),
    unary main_cst_3 main_v26 (broadcastInDim S128 ![] bcast_S_S128 : (⟨S_, .f32⟩ : BufTy).Contents (Elt F) → (⟨S128, .f32⟩ : BufTy).Contents (Elt F)),
    binary main_v25 main_v26 main_v27 (Host.divf : (⟨S128, .f32⟩ : BufTy).Contents (Elt F) → (⟨S128, .f32⟩ : BufTy).Contents (Elt F) → (⟨S128, .f32⟩ : BufTy).Contents (Elt F)) ]

abbrev wMean0_W : List (Ref sig .tc) := [main_cst_2, main_v25, main_cst_3, main_v26, main_v27]

theorem wMean0_writes : (wMean0 : List (HloOp τ sig (Elt F))).Forall fun op => op.writes ⊆ (wMean0_W.map (Proc.devRef (τ := τ) .tc)).toFinset := by
  unfold wMean0; simp only [List.Forall]; repeat' constructor
  all_goals exact Finset.singleton_subset_iff.mpr (List.mem_toFinset.mpr (List.mem_map_of_mem (by decide)))

theorem wMean0_keep (V : Valuation τ sig (Elt F)) {r : Ref sig .tc} (h : r ∉ wMean0_W) :
    after wMean0 V (no_index (Proc.devRef .tc r)) = V (Proc.devRef .tc r) :=
  after_of_writes_sub wMean0 V wMean0_writes h

theorem wMean0_main_v27 (V : Valuation τ sig (Elt F)) :
    after wMean0 V (no_index (Proc.devRef .tc main_v27)) = refMean (V (Proc.devRef .tc main_v24)) := by
  unfold wMean0
  after_results_simp <;> rfl

def wVar0 : List (HloOp τ sig (Elt F)) :=
  [ nullary main_c_4 (constantI S_ 32 0#32),
    TRef.nullary main_call0.cst (constant S_ .f32 0x00000000#32),
    TRef.binary (.of main_v24) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v24) main_call0.v4 main_call0.v5 subf,
    TRef.binary main_call0.v5 main_call0.v5 main_call0.v6 mulf,
    TRef.unary (.of main_c_4) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

abbrev wVar0_W : List (Ref sig .tc) := [main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v28]

theorem wVar0_writes : (wVar0 : List (HloOp τ sig (Elt F))).Forall fun op => op.writes ⊆ (wVar0_W.map (Proc.devRef (τ := τ) .tc)).toFinset := by
  unfold wVar0; simp only [List.Forall]; repeat' constructor
  all_goals exact Finset.singleton_subset_iff.mpr (List.mem_toFinset.mpr (List.mem_map_of_mem (by decide)))

theorem wVar0_keep (V : Valuation τ sig (Elt F)) {r : Ref sig .tc} (h : r ∉ wVar0_W) :
    after wVar0 V (no_index (Proc.devRef .tc r)) = V (Proc.devRef .tc r) :=
  after_of_writes_sub wVar0 V wVar0_writes h

theorem wVar0_main_v28 (V : Valuation τ sig (Elt F)) :
    after wVar0 V (no_index (Proc.devRef .tc main_v28)) = refVar (V (Proc.devRef .tc main_v24)) := by
  unfold wVar0
  after_results_simp <;> rfl

def wNorm0 : List (HloOp τ sig (Elt F)) :=
  [ unary main_v27 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v24 main_v30 main_v31 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v32 (broadcastInDim S128 ![] bcast_S_S128 : (⟨S_, .f32⟩ : BufTy).Contents (Elt F) → (⟨S128, .f32⟩ : BufTy).Contents (Elt F)),
    binary main_v28 main_v32 main_v33 (addf : (⟨S128, .f32⟩ : BufTy).Contents (Elt F) → (⟨S128, .f32⟩ : BufTy).Contents (Elt F) → (⟨S128, .f32⟩ : BufTy).Contents (Elt F)),
    unary main_v33 main_v34 (Host.rsqrt : (⟨S128, .f32⟩ : BufTy).Contents (Elt F) → (⟨S128, .f32⟩ : BufTy).Contents (Elt F)),
    unary main_v34 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v31 main_v36 main_v37 (mulf : (⟨S100000x128, .f32⟩ : BufTy).Contents (Elt F) → (⟨S100000x128, .f32⟩ : BufTy).Contents (Elt F) → (⟨S100000x128, .f32⟩ : BufTy).Contents (Elt F)),
    unary main_arg7 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (mulf : (⟨S100000x128, .f32⟩ : BufTy).Contents (Elt F) → (⟨S100000x128, .f32⟩ : BufTy).Contents (Elt F) → (⟨S100000x128, .f32⟩ : BufTy).Contents (Elt F)),
    unary main_arg8 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)) ]

abbrev wNorm0_W : List (Ref sig .tc) := [main_v29, main_v30, main_v31, main_cst_5, main_v32, main_v33, main_v34, main_v35, main_v36, main_v37, main_v38, main_v39, main_v40, main_v41, main_v42, main_v43]

theorem wNorm0_writes : (wNorm0 : List (HloOp τ sig (Elt F))).Forall fun op => op.writes ⊆ (wNorm0_W.map (Proc.devRef (τ := τ) .tc)).toFinset := by
  unfold wNorm0; simp only [List.Forall]; repeat' constructor
  all_goals exact Finset.singleton_subset_iff.mpr (List.mem_toFinset.mpr (List.mem_map_of_mem (by decide)))

theorem wNorm0_keep (V : Valuation τ sig (Elt F)) {r : Ref sig .tc} (h : r ∉ wNorm0_W) :
    after wNorm0 V (no_index (Proc.devRef .tc r)) = V (Proc.devRef .tc r) :=
  after_of_writes_sub wNorm0 V wNorm0_writes h

theorem wNorm0_main_v43 (V : Valuation τ sig (Elt F)) :
    after wNorm0 V (no_index (Proc.devRef .tc main_v43)) = refNorm (V (Proc.devRef .tc main_v24)) (V (Proc.devRef .tc main_v27)) (V (Proc.devRef .tc main_v28)) (V (Proc.devRef .tc main_arg7)) (V (Proc.devRef .tc main_arg8)) := by
  unfold wNorm0
  after_results_simp <;> rfl

def wRelu : List (HloOp τ sig (Elt F)) :=
  [ nullary main_cst_6 (constant S_ .f32 0x00000000#32),
    unary main_cst_6 main_v44 (broadcastInDim S100000x128 ![] bcast_S_S100000x128 : (⟨S_, .f32⟩ : BufTy).Contents (Elt F) → (⟨S100000x128, .f32⟩ : BufTy).Contents (Elt F)),
    binary main_v43 main_v44 main_v45 (maximumf : (⟨S100000x128, .f32⟩ : BufTy).Contents (Elt F) → (⟨S100000x128, .f32⟩ : BufTy).Contents (Elt F) → (⟨S100000x128, .f32⟩ : BufTy).Contents (Elt F)) ]

abbrev wRelu_W : List (Ref sig .tc) := [main_cst_6, main_v44, main_v45]

theorem wRelu_writes : (wRelu : List (HloOp τ sig (Elt F))).Forall fun op => op.writes ⊆ (wRelu_W.map (Proc.devRef (τ := τ) .tc)).toFinset := by
  unfold wRelu; simp only [List.Forall]; repeat' constructor
  all_goals exact Finset.singleton_subset_iff.mpr (List.mem_toFinset.mpr (List.mem_map_of_mem (by decide)))

theorem wRelu_keep (V : Valuation τ sig (Elt F)) {r : Ref sig .tc} (h : r ∉ wRelu_W) :
    after wRelu V (no_index (Proc.devRef .tc r)) = V (Proc.devRef .tc r) :=
  after_of_writes_sub wRelu V wRelu_writes h

theorem wRelu_main_v45 (V : Valuation τ sig (Elt F)) :
    after wRelu V (no_index (Proc.devRef .tc main_v45)) = refRelu (V (Proc.devRef .tc main_v43)) := by
  unfold wRelu
  after_results_simp <;> rfl

def wAgg1 : List (HloOp τ sig (Elt F)) :=
  [ nullary main_c_7 (constantI S_ 32 0#32),
    unary main_c_7 main_v46 (broadcastInDim S1600000 ![] bcast_S_S1600000 : (⟨S_, .i32⟩ : BufTy).Contents (Elt F) → (⟨S1600000, .i32⟩ : BufTy).Contents (Elt F)),
    binary main_v1 main_v46 main_v47 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v48 (broadcastInDim S1600000 ![] bcast_S_S1600000 : (⟨S_, .i32⟩ : BufTy).Contents (Elt F) → (⟨S1600000, .i32⟩ : BufTy).Contents (Elt F)),
    binary main_v1 main_v48 main_v49 (addi : (⟨S1600000, .i32⟩ : BufTy).Contents (Elt F) → (⟨S1600000, .i32⟩ : BufTy).Contents (Elt F) → (⟨S1600000, .i32⟩ : BufTy).Contents (Elt F)),
    ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v50 main_v51 (broadcastInDim S1600000x1 ![0] bcast_S1600000_S1600000x1_0 : (⟨S1600000, .i32⟩ : BufTy).Contents (Elt F) → (⟨S1600000x1, .i32⟩ : BufTy).Contents (Elt F)),
    binary main_v45 main_v51 main_v52 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v53 (broadcastInDim S100000x128 ![] bcast_S_S100000x128 : (⟨S_, .f32⟩ : BufTy).Contents (Elt F) → (⟨S100000x128, .f32⟩ : BufTy).Contents (Elt F)),
    unary main_v3 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

abbrev wAgg1_W : List (Ref sig .tc) := [main_c_7, main_v46, main_v47, main_c_8, main_v48, main_v49, main_v50, main_v51, main_v52, main_cst_9, main_v53, main_v54, main_v55]

theorem wAgg1_writes : (wAgg1 : List (HloOp τ sig (Elt F))).Forall fun op => op.writes ⊆ (wAgg1_W.map (Proc.devRef (τ := τ) .tc)).toFinset := by
  unfold wAgg1; simp only [List.Forall]; repeat' constructor
  all_goals exact Finset.singleton_subset_iff.mpr (List.mem_toFinset.mpr (List.mem_map_of_mem (by decide)))

theorem wAgg1_keep (V : Valuation τ sig (Elt F)) {r : Ref sig .tc} (h : r ∉ wAgg1_W) :
    after wAgg1 V (no_index (Proc.devRef .tc r)) = V (Proc.devRef .tc r) :=
  after_of_writes_sub wAgg1 V wAgg1_writes h

theorem wAgg1_main_v55 (V : Valuation τ sig (Elt F)) :
    after wAgg1 V (no_index (Proc.devRef .tc main_v55)) = refAgg (V (Proc.devRef .tc main_v45)) (V (Proc.devRef .tc main_v1)) (V (Proc.devRef .tc main_v3)) := by
  unfold wAgg1
  after_results_simp <;> rfl

def wMlp1 : List (HloOp τ sig (Elt F)) :=
  [ binary main_v55 main_v45 main_v56 (addf : (⟨S100000x128, .f32⟩ : BufTy).Contents (Elt F) → (⟨S100000x128, .f32⟩ : BufTy).Contents (Elt F) → (⟨S100000x128, .f32⟩ : BufTy).Contents (Elt F)),
    binary main_v56 main_arg9 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    unary main_cst_10 main_v61 (broadcastInDim S100000x128 ![] bcast_S_S100000x128 : (⟨S_, .f32⟩ : BufTy).Contents (Elt F) → (⟨S100000x128, .f32⟩ : BufTy).Contents (Elt F)),
    binary main_v60 main_v61 main_v62 (maximumf : (⟨S100000x128, .f32⟩ : BufTy).Contents (Elt F) → (⟨S100000x128, .f32⟩ : BufTy).Contents (Elt F) → (⟨S100000x128, .f32⟩ : BufTy).Contents (Elt F)),
    binary main_v62 main_arg11 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)) ]

abbrev wMlp1_W : List (Ref sig .tc) := [main_v56, main_v57, main_v58, main_v59, main_v60, main_cst_10, main_v61, main_v62, main_v63, main_v64, main_v65, main_v66]

theorem wMlp1_writes : (wMlp1 : List (HloOp τ sig (Elt F))).Forall fun op => op.writes ⊆ (wMlp1_W.map (Proc.devRef (τ := τ) .tc)).toFinset := by
  unfold wMlp1; simp only [List.Forall]; repeat' constructor
  all_goals exact Finset.singleton_subset_iff.mpr (List.mem_toFinset.mpr (List.mem_map_of_mem (by decide)))

theorem wMlp1_keep (V : Valuation τ sig (Elt F)) {r : Ref sig .tc} (h : r ∉ wMlp1_W) :
    after wMlp1 V (no_index (Proc.devRef .tc r)) = V (Proc.devRef .tc r) :=
  after_of_writes_sub wMlp1 V wMlp1_writes h

theorem wMlp1_main_v66 (V : Valuation τ sig (Elt F)) :
    after wMlp1 V (no_index (Proc.devRef .tc main_v66)) = refMlp (V (Proc.devRef .tc main_v45)) (V (Proc.devRef .tc main_v55)) (V (Proc.devRef .tc main_arg9)) (V (Proc.devRef .tc main_arg10)) (V (Proc.devRef .tc main_arg11)) (V (Proc.devRef .tc main_arg12)) := by
  unfold wMlp1
  after_results_simp <;> rfl

def wMean1 : List (HloOp τ sig (Elt F)) :=
  [ nullary main_cst_11 (constant S_ .f32 0x00000000#32),
    binary main_v66 main_cst_11 main_v67 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v68 (broadcastInDim S128 ![] bcast_S_S128 : (⟨S_, .f32⟩ : BufTy).Contents (Elt F) → (⟨S128, .f32⟩ : BufTy).Contents (Elt F)),
    binary main_v67 main_v68 main_v69 (Host.divf : (⟨S128, .f32⟩ : BufTy).Contents (Elt F) → (⟨S128, .f32⟩ : BufTy).Contents (Elt F) → (⟨S128, .f32⟩ : BufTy).Contents (Elt F)) ]

abbrev wMean1_W : List (Ref sig .tc) := [main_cst_11, main_v67, main_cst_12, main_v68, main_v69]

theorem wMean1_writes : (wMean1 : List (HloOp τ sig (Elt F))).Forall fun op => op.writes ⊆ (wMean1_W.map (Proc.devRef (τ := τ) .tc)).toFinset := by
  unfold wMean1; simp only [List.Forall]; repeat' constructor
  all_goals exact Finset.singleton_subset_iff.mpr (List.mem_toFinset.mpr (List.mem_map_of_mem (by decide)))

theorem wMean1_keep (V : Valuation τ sig (Elt F)) {r : Ref sig .tc} (h : r ∉ wMean1_W) :
    after wMean1 V (no_index (Proc.devRef .tc r)) = V (Proc.devRef .tc r) :=
  after_of_writes_sub wMean1 V wMean1_writes h

theorem wMean1_main_v69 (V : Valuation τ sig (Elt F)) :
    after wMean1 V (no_index (Proc.devRef .tc main_v69)) = refMean (V (Proc.devRef .tc main_v66)) := by
  unfold wMean1
  after_results_simp <;> rfl

def wVar1 : List (HloOp τ sig (Elt F)) :=
  [ nullary main_c_13 (constantI S_ 32 0#32),
    TRef.nullary main_call1.cst (constant S_ .f32 0x00000000#32),
    TRef.binary (.of main_v66) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v66) main_call1.v4 main_call1.v5 subf,
    TRef.binary main_call1.v5 main_call1.v5 main_call1.v6 mulf,
    TRef.unary (.of main_c_13) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

abbrev wVar1_W : List (Ref sig .tc) := [main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v70]

theorem wVar1_writes : (wVar1 : List (HloOp τ sig (Elt F))).Forall fun op => op.writes ⊆ (wVar1_W.map (Proc.devRef (τ := τ) .tc)).toFinset := by
  unfold wVar1; simp only [List.Forall]; repeat' constructor
  all_goals exact Finset.singleton_subset_iff.mpr (List.mem_toFinset.mpr (List.mem_map_of_mem (by decide)))

theorem wVar1_keep (V : Valuation τ sig (Elt F)) {r : Ref sig .tc} (h : r ∉ wVar1_W) :
    after wVar1 V (no_index (Proc.devRef .tc r)) = V (Proc.devRef .tc r) :=
  after_of_writes_sub wVar1 V wVar1_writes h

theorem wVar1_main_v70 (V : Valuation τ sig (Elt F)) :
    after wVar1 V (no_index (Proc.devRef .tc main_v70)) = refVar (V (Proc.devRef .tc main_v66)) := by
  unfold wVar1
  after_results_simp <;> rfl

def wNorm1 : List (HloOp τ sig (Elt F)) :=
  [ unary main_v69 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v66 main_v72 main_v73 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v74 (broadcastInDim S128 ![] bcast_S_S128 : (⟨S_, .f32⟩ : BufTy).Contents (Elt F) → (⟨S128, .f32⟩ : BufTy).Contents (Elt F)),
    binary main_v70 main_v74 main_v75 (addf : (⟨S128, .f32⟩ : BufTy).Contents (Elt F) → (⟨S128, .f32⟩ : BufTy).Contents (Elt F) → (⟨S128, .f32⟩ : BufTy).Contents (Elt F)),
    unary main_v75 main_v76 (Host.rsqrt : (⟨S128, .f32⟩ : BufTy).Contents (Elt F) → (⟨S128, .f32⟩ : BufTy).Contents (Elt F)),
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v73 main_v78 main_v79 (mulf : (⟨S100000x128, .f32⟩ : BufTy).Contents (Elt F) → (⟨S100000x128, .f32⟩ : BufTy).Contents (Elt F) → (⟨S100000x128, .f32⟩ : BufTy).Contents (Elt F)),
    unary main_arg13 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (mulf : (⟨S100000x128, .f32⟩ : BufTy).Contents (Elt F) → (⟨S100000x128, .f32⟩ : BufTy).Contents (Elt F) → (⟨S100000x128, .f32⟩ : BufTy).Contents (Elt F)),
    unary main_arg14 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (addf : (⟨S100000x128, .f32⟩ : BufTy).Contents (Elt F) → (⟨S100000x128, .f32⟩ : BufTy).Contents (Elt F) → (⟨S100000x128, .f32⟩ : BufTy).Contents (Elt F)) ]

abbrev wNorm1_W : List (Ref sig .tc) := [main_v71, main_v72, main_v73, main_cst_14, main_v74, main_v75, main_v76, main_v77, main_v78, main_v79, main_v80, main_v81, main_v82, main_v83, main_v84, main_v85]

theorem wNorm1_writes : (wNorm1 : List (HloOp τ sig (Elt F))).Forall fun op => op.writes ⊆ (wNorm1_W.map (Proc.devRef (τ := τ) .tc)).toFinset := by
  unfold wNorm1; simp only [List.Forall]; repeat' constructor
  all_goals exact Finset.singleton_subset_iff.mpr (List.mem_toFinset.mpr (List.mem_map_of_mem (by decide)))

theorem wNorm1_keep (V : Valuation τ sig (Elt F)) {r : Ref sig .tc} (h : r ∉ wNorm1_W) :
    after wNorm1 V (no_index (Proc.devRef .tc r)) = V (Proc.devRef .tc r) :=
  after_of_writes_sub wNorm1 V wNorm1_writes h

theorem wNorm1_main_v85 (V : Valuation τ sig (Elt F)) :
    after wNorm1 V (no_index (Proc.devRef .tc main_v85)) = refNorm (V (Proc.devRef .tc main_v66)) (V (Proc.devRef .tc main_v69)) (V (Proc.devRef .tc main_v70)) (V (Proc.devRef .tc main_arg13)) (V (Proc.devRef .tc main_arg14)) := by
  unfold wNorm1
  after_results_simp <;> rfl

def wPool : List (HloOp τ sig (Elt F)) :=
  [ nullary main_cst_15 (constant S_ .f32 0x00000000#32),
    unary main_cst_15 main_v86 (broadcastInDim S512x128 ![] bcast_S_S512x128 : (⟨S_, .f32⟩ : BufTy).Contents (Elt F) → (⟨S512x128, .f32⟩ : BufTy).Contents (Elt F)),
    unary main_arg2 main_v87 (broadcastInDim S100000x1 ![0] bcast_S100000_S100000x1_0 : (⟨S100000, .i32⟩ : BufTy).Contents (Elt F) → (⟨S100000x1, .i32⟩ : BufTy).Contents (Elt F)),
    ternary main_v86 main_v87 main_v85 main_v88 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)) ]

abbrev wPool_W : List (Ref sig .tc) := [main_cst_15, main_v86, main_v87, main_v88]

theorem wPool_writes : (wPool : List (HloOp τ sig (Elt F))).Forall fun op => op.writes ⊆ (wPool_W.map (Proc.devRef (τ := τ) .tc)).toFinset := by
  unfold wPool; simp only [List.Forall]; repeat' constructor
  all_goals exact Finset.singleton_subset_iff.mpr (List.mem_toFinset.mpr (List.mem_map_of_mem (by decide)))

theorem wPool_keep (V : Valuation τ sig (Elt F)) {r : Ref sig .tc} (h : r ∉ wPool_W) :
    after wPool V (no_index (Proc.devRef .tc r)) = V (Proc.devRef .tc r) :=
  after_of_writes_sub wPool V wPool_writes h

theorem wPool_main_v88 (V : Valuation τ sig (Elt F)) :
    after wPool V (no_index (Proc.devRef .tc main_v88)) = refPool (V (Proc.devRef .tc main_v85)) (V (Proc.devRef .tc main_arg2)) := by
  unfold wPool
  after_results_simp <;> rfl

def wLogits : List (HloOp τ sig (Elt F)) :=
  [ binary main_v88 main_arg15 main_v89 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    unary main_arg16 main_v90 (broadcastInDim S1x10 ![1] bcast_S10_S1x10_1 : (⟨S10, .f32⟩ : BufTy).Contents (Elt F) → (⟨S1x10, .f32⟩ : BufTy).Contents (Elt F)),
    unary main_v90 main_v91 (broadcastInDim S512x10 ![0, 1] bcast_S1x10_S512x10_0_1 : (⟨S1x10, .f32⟩ : BufTy).Contents (Elt F) → (⟨S512x10, .f32⟩ : BufTy).Contents (Elt F)),
    binary main_v89 main_v91 main_v92 (addf : (⟨S512x10, .f32⟩ : BufTy).Contents (Elt F) → (⟨S512x10, .f32⟩ : BufTy).Contents (Elt F) → (⟨S512x10, .f32⟩ : BufTy).Contents (Elt F)) ]

abbrev wLogits_W : List (Ref sig .tc) := [main_v89, main_v90, main_v91, main_v92]

theorem wLogits_writes : (wLogits : List (HloOp τ sig (Elt F))).Forall fun op => op.writes ⊆ (wLogits_W.map (Proc.devRef (τ := τ) .tc)).toFinset := by
  unfold wLogits; simp only [List.Forall]; repeat' constructor
  all_goals exact Finset.singleton_subset_iff.mpr (List.mem_toFinset.mpr (List.mem_map_of_mem (by decide)))

theorem wLogits_keep (V : Valuation τ sig (Elt F)) {r : Ref sig .tc} (h : r ∉ wLogits_W) :
    after wLogits V (no_index (Proc.devRef .tc r)) = V (Proc.devRef .tc r) :=
  after_of_writes_sub wLogits V wLogits_writes h

theorem wLogits_main_v92 (V : Valuation τ sig (Elt F)) :
    after wLogits V (no_index (Proc.devRef .tc main_v92)) = refLogits (V (Proc.devRef .tc main_v88)) (V (Proc.devRef .tc main_arg15)) (V (Proc.devRef .tc main_arg16)) := by
  unfold wLogits
  after_results_simp <;> rfl

-- @main's operations in order, each call of the variance function unfolded at its place: the stages one after another.
abbrev ops : List (HloOp τ sig (Elt F)) := wIdx ++ (wAgg0 ++ (wMlp0 ++ (wMean0 ++ (wVar0 ++ (wNorm0 ++ (wRelu ++ (wAgg1 ++ (wMlp1 ++ (wMean1 ++ (wVar1 ++ (wNorm1 ++ (wPool ++ (wLogits)))))))))))))

theorem main_eq (c : Dev nD) : main (F := F) c = seq ops := by
  simp only [ops, wIdx, wAgg0, wMlp0, wMean0, wVar0, wNorm0, wRelu, wAgg1, wMlp1, wMean1, wVar1, wNorm1, wPool, wLogits, List.cons_append, List.nil_append, main, main_part0, main_part1, fn_var.body, fn_where.body, seq, bind_assoc, pure_bind]

theorem ops_sub : (ops : List (HloOp τ sig (Elt F))).Forall fun op => op.bufs ⊆ tcRefs τ sig := by
  simp only [ops, wIdx, wAgg0, wMlp0, wMean0, wVar0, wNorm0, wRelu, wAgg1, wMlp1, wMean1, wVar1, wNorm1, wPool, wLogits, List.cons_append, List.nil_append]
  exact ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

abbrev ops_W : List (Ref sig .tc) := wIdx_W ++ (wAgg0_W ++ (wMlp0_W ++ (wMean0_W ++ (wVar0_W ++ (wNorm0_W ++ (wRelu_W ++ (wAgg1_W ++ (wMlp1_W ++ (wMean1_W ++ (wVar1_W ++ (wNorm1_W ++ (wPool_W ++ (wLogits_W)))))))))))))

-- What two lists of operations write, one after the other, is what each of them writes.
theorem writes_append {a b : List (HloOp τ sig (Elt F))} {Wa Wb : List (Ref sig .tc)}
    (ha : a.Forall fun op => op.writes ⊆ (Wa.map (Proc.devRef (τ := τ) .tc)).toFinset)
    (hb : b.Forall fun op => op.writes ⊆ (Wb.map (Proc.devRef (τ := τ) .tc)).toFinset) :
    (a ++ b).Forall fun op => op.writes ⊆ ((Wa ++ Wb).map (Proc.devRef (τ := τ) .tc)).toFinset := by
  rw [List.forall_iff_forall_mem] at ha hb ⊢
  intro op hop
  rw [List.map_append, List.toFinset_append]
  rcases List.mem_append.mp hop with h | h
  · exact (ha op h).trans Finset.subset_union_left
  · exact (hb op h).trans Finset.subset_union_right

theorem ops_keep (V : Valuation τ sig (Elt F)) {r : Ref sig .tc} (h : r ∉ ops_W) :
    after ops V (Proc.devRef .tc r) = V (Proc.devRef .tc r) :=
  after_of_writes_sub ops V (writes_append wIdx_writes (writes_append wAgg0_writes (writes_append wMlp0_writes (writes_append wMean0_writes (writes_append wVar0_writes (writes_append wNorm0_writes (writes_append wRelu_writes (writes_append wAgg1_writes (writes_append wMlp1_writes (writes_append wMean1_writes (writes_append wVar1_writes (writes_append wNorm1_writes (writes_append wPool_writes (wLogits_writes)))))))))))))) h

theorem out_eq (V : Valuation τ sig (Elt Ideal)) :
    after (ops (F := Ideal)) V (Proc.devRef .tc main_v92) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [ops, after_append]
  simp (disch := decide) only [wIdx_main_v1, wIdx_main_v3, wIdx_keep, wAgg0_main_v13, wAgg0_keep, wMlp0_main_v24, wMlp0_keep, wMean0_main_v27, wMean0_keep, wVar0_main_v28, wVar0_keep, wNorm0_main_v43, wNorm0_keep, wRelu_main_v45, wRelu_keep, wAgg1_main_v55, wAgg1_keep, wMlp1_main_v66, wMlp1_keep, wMean1_main_v69, wMean1_keep, wVar1_main_v70, wVar1_keep, wNorm1_main_v85, wNorm1_keep, wPool_main_v88, wPool_keep, wLogits_main_v92, wLogits_keep]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v92) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v92).trans (out_eq _),
      (h c main_arg0).trans (ops_keep _ (by decide)),
      (h c main_arg1).trans (ops_keep _ (by decide)),
      (h c main_arg2).trans (ops_keep _ (by decide)),
      (h c main_arg3).trans (ops_keep _ (by decide)),
      (h c main_arg4).trans (ops_keep _ (by decide)),
      (h c main_arg5).trans (ops_keep _ (by decide)),
      (h c main_arg6).trans (ops_keep _ (by decide)),
      (h c main_arg7).trans (ops_keep _ (by decide)),
      (h c main_arg8).trans (ops_keep _ (by decide)),
      (h c main_arg9).trans (ops_keep _ (by decide)),
      (h c main_arg10).trans (ops_keep _ (by decide)),
      (h c main_arg11).trans (ops_keep _ (by decide)),
      (h c main_arg12).trans (ops_keep _ (by decide)),
      (h c main_arg13).trans (ops_keep _ (by decide)),
      (h c main_arg14).trans (ops_keep _ (by decide)),
      (h c main_arg15).trans (ops_keep _ (by decide)),
      (h c main_arg16).trans (ops_keep _ (by decide))⟩)
    (run_seq scopedRefs_eq scopedSems_eq defs main (fun _ => ops) main_eq (fun _ => ops_sub) m ρ)

theorem ofBits_1e5 : Ideal.ofBits .f32 0x47C35000#32 = ((100000 : ℝ) : EReal) := by
  simp [Ideal.ofBits, Ideal.ieee, -EReal.coe_mul]; norm_num

theorem ofBits_zero : Ideal.ofBits .f32 0x00000000#32 = 0 := by
  simp [Ideal.ofBits, Ideal.ieee]

theorem refCount_eq : (refCount : FVec Ideal S_ .f32) = constant S_ .f32 0x47C35000#32 := by
  funext i
  show Ideal.ofBits .f32 0x47C35000#32 - (((0#32 : BitVec 32).toInt : ℝ) : EReal) = Ideal.ofBits .f32 0x47C35000#32
  simp

theorem refCount_pos (i : S_.Idx) :
    cmpf .ogt (refCount : FVec Ideal S_ .f32) (constant S_ .f32 0x00000000#32) i = 1 := by
  rw [refCount_eq]
  show Ideal.cmp .ogt (Ideal.ofBits .f32 0x47C35000#32) (Ideal.ofBits .f32 0x00000000#32) = 1
  rw [ofBits_1e5, ofBits_zero]
  simp [Ideal.cmp]

theorem refVar_eq (h : FVec Ideal S100000x128 .f32) :
    refVar h = Host.divf (refSqDev h) (broadcastInDim S128 ![] bcast_S_S128 refCount) := by
  funext i
  show Scalar.select (cmpf .ogt (refCount : FVec Ideal S_ .f32) (constant S_ .f32 0x00000000#32) _) _ _ = _
  rw [refCount_pos]
  rfl

theorem refVar_eq' (h : FVec Ideal S100000x128 .f32) :
    refVar h = Host.divf (refSqDev h) (broadcastInDim S128 ![] bcast_S_S128 (constant S_ .f32 0x47C35000#32)) := by
  rw [refVar_eq, refCount_eq]

end Cert.ReferenceIdeal.Hand

end
-- ==== Proof.Spec.lean ====
import Idealize.ShloMosaic.PureOps.Ideal
import Idealize.ShloMosaic.Lib.ValueIdx

noncomputable section

namespace Cert.GinSpec

open Idealize.ShloMosaic Idealize.ShloMosaic.ValueIdx

abbrev Mat (n d : Nat) : Type := (⟨2, ![n, d]⟩ : Shape).Idx → EReal

abbrev Row (d : Nat) : Type := (⟨1, ![d]⟩ : Shape).Idx → EReal

def rowOf {d : Nat} (b : Mat 1 d) : Row d := fun j => b (ix2 0 (j 0))
def matOf {d : Nat} (r : Row d) : Mat 1 d := fun i => r (ix1 (i 1))

def dense {n a b : Nat} (h : Mat n a) (w : Mat a b) (bias : Row b) : Mat n b :=
  fun i => (∑ k : Fin a, h (ix2 (i 0) k) * w (ix2 k (i 1))) + bias (ix1 (i 1))

def relu {n d : Nat} (h : Mat n d) : Mat n d := fun i => max (h i) 0

def mlp {n : Nat} (agg x : Mat n 128) (w1 : Mat 128 128) (b1 : Row 128) (w2 : Mat 128 128) (b2 : Row 128) : Mat n 128 :=
  dense (relu (dense (fun i => agg i + x i) w1 b1)) w2 b2

def colSum {n d : Nat} (h : Mat n d) : Row d := fun j => ∑ r : Fin n, h (ix2 r (j 0))
def colSumSq {n d : Nat} (h : Mat n d) : Row d := fun j => ∑ r : Fin n, h (ix2 r (j 0)) * h (ix2 r (j 0))

def kMean {d : Nat} (cN : EReal) (s : Row d) : Row d := fun j => Ideal.div (s j) cN

def kVar {d : Nat} (cN : EReal) (s q : Row d) : Row d := fun j => Ideal.div (q j) cN - kMean cN s j * kMean cN s j

def kInv {d : Nat} (cN eps : EReal) (s q : Row d) : Row d := fun j => Ideal.rsqrt (kVar cN s q j + eps)

def kScale {d : Nat} (cN eps : EReal) (g s q : Row d) : Row d := fun j => g j * kInv cN eps s q j
def kShift {d : Nat} (cN eps : EReal) (g be s q : Row d) : Row d := fun j => be j - kMean cN s j * g j * kInv cN eps s q j

def affine {n d : Nat} (h : Mat n d) (sc sh : Row d) : Mat n d := fun i => h i * sc (ix1 (i 1)) + sh (ix1 (i 1))

def rMean {n d : Nat} (cN : EReal) (h : Mat n d) : Row d := fun j => Ideal.div (colSum h j) cN

def rVar {n d : Nat} (cN cN' : EReal) (h : Mat n d) : Row d :=
  fun j => Ideal.div (∑ r : Fin n, (h (ix2 r (j 0)) - rMean cN h j) * (h (ix2 r (j 0)) - rMean cN h j)) cN'

def rNorm {n d : Nat} (cN cN' eps : EReal) (g be : Row d) (h : Mat n d) : Mat n d :=
  fun i => (h i - rMean cN h (ix1 (i 1))) * Ideal.rsqrt (rVar cN cN' h (ix1 (i 1)) + eps) * g (ix1 (i 1)) + be (ix1 (i 1))

def pool {n d : Nat} (G : Nat) (h : Mat n d) (b : Fin n → BitVec 32) : Mat G d :=
  fun i => ∑ r : Fin n, if b r = BitVec.ofNat 32 (i 0).val then h (ix2 r (i 1)) else 0

def padRows {n d : Nat} (n' : Nat) (h : Mat n d) : Mat n' d :=
  fun i => if hlt : (i 0).val < n then h (ix2 ⟨(i 0).val, hlt⟩ (i 1)) else 0
def padIds {n : Nat} (n' : Nat) (b : Fin n → BitVec 32) : Fin n' → BitVec 32 :=
  fun r => if hlt : r.val < n then b ⟨r.val, hlt⟩ else 4294967295#32

def RealMat {n d : Nat} (h : Mat n d) : Prop := ∀ i, ∃ r : ℝ, h i = (r : EReal)
def RealRow {d : Nat} (v : Row d) : Prop := ∀ j, ∃ r : ℝ, v j = (r : EReal)

end Cert.GinSpec

end
-- ==== Proof.BlockSums.lean ====
import proofs.«412881_j60095182405865_1_alg».proof.Proof.Spec
import Idealize.ShloMosaic.PureOps.Ideal
import Idealize.ShloMosaic.Lib.ValueIdx
import Mathlib.Logic.Equiv.Fin.Basic
import Mathlib.Data.Fintype.BigOperators
import Mathlib.Algebra.BigOperators.Group.Finset.Basic

noncomputable section

namespace Cert.GinAlgebra

open Idealize.ShloMosaic Idealize.ShloMosaic.ValueIdx Cert.GinSpec

theorem blk_lt {T B : Nat} (t : Fin T) (r : Fin B) : B * t.val + r.val < T * B := by
  have h1 : B * t.val + r.val < B * t.val + B := Nat.add_lt_add_left r.isLt _
  have h2 : B * t.val + B = B * (t.val + 1) := (Nat.mul_succ B t.val).symm
  have h3 : B * (t.val + 1) ≤ B * T := Nat.mul_le_mul_left B t.isLt
  calc B * t.val + r.val < B * t.val + B := h1
    _ = B * (t.val + 1) := h2
    _ ≤ B * T := h3
    _ = T * B := Nat.mul_comm B T

def blockRows {N d : Nat} (T B : Nat) (hN : N = T * B) (t : Fin T) (h : Mat N d) : Mat B d :=
  fun i => h (ix2 ⟨B * t.val + (i 0).val, by rw [hN]; exact blk_lt t ⟨(i 0).val, idx2_lt0 i⟩⟩ (i 1))

def blockIds {N : Nat} (T B : Nat) (hN : N = T * B) (t : Fin T) (b : Fin N → BitVec 32) : Fin B → BitVec 32 :=
  fun r => b ⟨B * t.val + r.val, by rw [hN]; exact blk_lt t r⟩

theorem sum_blocks {M : Type*} [AddCommMonoid M] {N T B : Nat} (hN : N = T * B) (f : Fin N → M) :
    ∑ r : Fin N, f r = ∑ t : Fin T, ∑ r : Fin B, f ⟨B * t.val + r.val, by rw [hN]; exact blk_lt t r⟩ := by
  subst hN
  rw [← Equiv.sum_comp finProdFinEquiv f, Fintype.sum_prod_type]
  refine Finset.sum_congr rfl fun t _ => Finset.sum_congr rfl fun r _ => ?_
  congr 1
  exact Fin.ext (Nat.add_comm _ _)

theorem colSum_blocks {N d : Nat} (T B : Nat) (hN : N = T * B) (h : Mat N d) :
    colSum h = fun j => ∑ t : Fin T, colSum (blockRows T B hN t h) j := by
  funext j
  exact sum_blocks hN (fun r => h (ix2 r (j 0)))

theorem colSumSq_blocks {N d : Nat} (T B : Nat) (hN : N = T * B) (h : Mat N d) :
    colSumSq h = fun j => ∑ t : Fin T, colSumSq (blockRows T B hN t h) j := by
  funext j
  exact sum_blocks hN (fun r => h (ix2 r (j 0)) * h (ix2 r (j 0)))

theorem pool_blocks {N d : Nat} (T B : Nat) (hN : N = T * B) (h : Mat N d) (b : Fin N → BitVec 32) (G : Nat) :
    pool G h b = fun i => ∑ t : Fin T, pool G (blockRows T B hN t h) (blockIds T B hN t b) i := by
  funext i
  exact sum_blocks hN (fun r => if b r = BitVec.ofNat 32 (i 0).val then h (ix2 r (i 1)) else 0)

section RowWise
variable {N : Nat} (T B : Nat) (hN : N = T * B) (t : Fin T)

theorem add_blockRows {d : Nat} (a x : Mat N d) :
    (fun i => blockRows T B hN t a i + blockRows T B hN t x i) = blockRows T B hN t (fun i => a i + x i) := rfl

theorem dense_blockRows {a b : Nat} (h : Mat N a) (w : Mat a b) (bias : Row b) :
    dense (blockRows T B hN t h) w bias = blockRows T B hN t (dense h w bias) := rfl

theorem relu_blockRows {d : Nat} (h : Mat N d) : relu (blockRows T B hN t h) = blockRows T B hN t (relu h) := rfl

theorem affine_blockRows {d : Nat} (h : Mat N d) (sc sh : Row d) :
    affine (blockRows T B hN t h) sc sh = blockRows T B hN t (affine h sc sh) := rfl

theorem mlp_blockRows (agg x : Mat N 128) (w1 : Mat 128 128) (b1 : Row 128) (w2 : Mat 128 128) (b2 : Row 128) :
    mlp (blockRows T B hN t agg) (blockRows T B hN t x) w1 b1 w2 b2 = blockRows T B hN t (mlp agg x w1 b1 w2 b2) := by
  unfold mlp
  rw [add_blockRows, dense_blockRows, relu_blockRows, dense_blockRows]

end RowWise

def accTo {M : Type*} [AddCommMonoid M] (f : ℕ → M) (k : ℕ) : M := ∑ t ∈ Finset.range (k + 1), f t

theorem accTo_zero {M : Type*} [AddCommMonoid M] (f : ℕ → M) : accTo f 0 = f 0 := by
  unfold accTo
  rw [Nat.zero_add, Finset.sum_range_one]

theorem accTo_succ {M : Type*} [AddCommMonoid M] (f : ℕ → M) (k : ℕ) : accTo f (k + 1) = accTo f k + f (k + 1) :=
  Finset.sum_range_succ f (k + 1)

theorem accTo_last {M : Type*} [AddCommMonoid M] (f : ℕ → M) {T : ℕ} (hT : 0 < T) :
    accTo f (T - 1) = ∑ t : Fin T, f t.val := by
  unfold accTo
  rw [Nat.sub_add_cancel hT, Fin.sum_univ_eq_sum_range]

end Cert.GinAlgebra

end
-- ==== Proof.PaySpec.lean ====
import proofs.«412881_j60095182405865_1_alg».proof.Proof.Gen.KernelIdeal.Skeleton
import proofs.«412881_j60095182405865_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic
open Cert.KernelIdeal Cert.KernelIdeal.Gen Cert.GinSpec Idealize.ShloMosaic.ValueIdx

section Plain
variable {m k n : Nat}
  (wf : DotDims.WF (⟨2, ![m, k]⟩ : Shape) (⟨2, ![k, n]⟩ : Shape) (⟨2, ![m, n]⟩ : Shape) [1] [0] [0] [1] [] [])

abbrev plainOf : DotDims (⟨2, ![m, k]⟩ : Shape) (⟨2, ![k, n]⟩ : Shape) (⟨2, ![m, n]⟩ : Shape) :=
  ⟨[1], [0], [0], [1], [], [], wf⟩

theorem plain_lhs_0 (i : (⟨2, ![m, n]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

theorem plain_lhs_1 (i : (⟨2, ![m, n]⟩ : Shape).Idx) (q : (plainOf wf).contr.Idx) :
    ((plainOf wf).lhsIdx i q 1).val = (q ⟨0, Nat.one_pos⟩).val :=
  (plainOf wf).lhsIdx_val_of_single rfl i q

theorem plain_rhs_0 (i : (⟨2, ![m, n]⟩ : Shape).Idx) (q : (plainOf wf).contr.Idx) :
    ((plainOf wf).rhsIdx i q 0).val = (q ⟨0, Nat.one_pos⟩).val :=
  (plainOf wf).rhsIdx_val_of_single rfl i q

theorem plain_rhs_1 (i : (⟨2, ![m, n]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

theorem matmul_plain_apply {φ₁ φ₂ : FTy} (prec : Option ContractPrecision) (lhs : FVec Ideal (⟨2, ![m, k]⟩ : Shape) φ₁)
    (rhs : FVec Ideal (⟨2, ![k, n]⟩ : Shape) φ₂) (p : Fin m) (c : Fin n) :
    FloatOps.matmul (plainOf wf) prec lhs rhs (constant (F := Ideal) (⟨2, ![m, n]⟩ : Shape) .f32 0x00000000#32) (ix2 p c)
      = ∑ x : Fin k, lhs (ix2 p x) * rhs (ix2 x c) := by
  rw [Ideal.matmul_constant_zero_apply, ← Equiv.sum_comp (contrEquiv1 (plainOf wf) k rfl rfl).symm]
  refine Finset.sum_congr rfl fun x _ => ?_
  have hk := contrEquiv1_symm_val (plainOf wf) k rfl rfl x
  have el : (plainOf wf).lhsIdx (ix2 p c) ((contrEquiv1 (plainOf wf) k rfl rfl).symm x) = ix2 p x :=
    funext fun a => Fin.ext (by
      match a with
      | ⟨0, _⟩ => exact plain_lhs_0 wf _ _
      | ⟨1, _⟩ => exact (plain_lhs_1 wf _ _).trans hk)
  have er : (plainOf wf).rhsIdx (ix2 p c) ((contrEquiv1 (plainOf wf) k rfl rfl).symm x) = ix2 x c :=
    funext fun a => Fin.ext (by
      match a with
      | ⟨0, _⟩ => exact (plain_rhs_0 wf _ _).trans hk
      | ⟨1, _⟩ => exact plain_rhs_1 wf _ _)
  rw [el, er]

end Plain

theorem dot_5000_eq : dot_S5000x128_S128x128_S5000x128_1_0_0_1_n_n
    = plainOf (m := 5000) (k := 128) (n := 128) Facts₀.dot_S5000x128_S128x128_S5000x128_1_0_0_1_n_n_wf := rfl

theorem pay_mlp0 (a x : Vec Ideal S5000x128 .f32) (w1 w2 : Vec Ideal S128x128 .f32) (b1 b2 : Vec Ideal S1x128 .f32) :
    (k0_pay4 a x w1 w2 b1 b2 : Mat 5000 128) = mlp a x w1 (rowOf b1) w2 (rowOf b2) := by
  funext j
  obtain ⟨p, q, rfl⟩ : ∃ (p : Fin 5000) (q : Fin 128), j = ix2 p q := ⟨j 0, j 1, eq_ix2 j⟩
  unfold k0_pay4
  simp only [shapeCast_self, matmul, dot_5000_eq, addf_apply, matmul_plain_apply, broadcastTo_1b_ab_apply, truncf_apply,
    maximumf_apply, broadcast_apply]
  have hz : (FloatOps.ofBits FTy.f32 0#32 : Idealize.ShloMosaic.Ideal .f32) = (0 : EReal) := Ideal.ofBits_zero_f32
  rw [hz]
  rfl

theorem pay_zero0a : (k0_pay2 (F := Idealize.ShloMosaic.Ideal) : Mat 1 128) = fun _ => 0 := by
  funext j
  unfold k0_pay2
  simp only [shapeCast_self, broadcast_apply]
  exact Ideal.ofBits_zero_f32

theorem pay_zero0b : (k0_pay3 (F := Idealize.ShloMosaic.Ideal) : Mat 1 128) = fun _ => 0 := by
  funext j
  unfold k0_pay3
  simp only [shapeCast_self, broadcast_apply]
  exact Ideal.ofBits_zero_f32

theorem rowsum_5000_apply (v : FVec Idealize.ShloMosaic.Ideal S5000x128 .f32) (hφ : FKind.Formats .f32)
    (hacc : (0x00000000#32 : BitVec 32) = FKind.add.neutral .f32 hφ) (u : Fin 1) (q : Fin 128) :
    shapeCast S1x128 (multiReduction .add [0] S128 v 0x00000000#32 reduces_S5000x128_S128 hφ hacc)
        shapeCasts_S128_S1x128 (ix2 u q) = ∑ r : Fin 5000, v (ix2 r q) :=
  (shapeCast_a_1a_apply _ _ u q).trans
    ((Ideal.multiReduction_add_single v _ reduces_S5000x128_S128 hφ hacc (ix1 q)).trans
      (Finset.sum_congr rfl fun r _ => congrArg v (funext fun a => Fin.ext (by
        match a with
        | ⟨0, _⟩ => rfl
        | ⟨1, _⟩ => rfl))))

theorem pay_sum0 (a x : Vec Ideal S5000x128 .f32) (w1 w2 : Vec Ideal S128x128 .f32) (b1 b2 acc : Vec Ideal S1x128 .f32) :
    (k0_pay5 a x w1 w2 b1 b2 acc : Mat 1 128)
      = fun i => acc i + matOf (colSum (mlp a x w1 (rowOf b1) w2 (rowOf b2))) i := by
  funext j
  obtain ⟨u, q, rfl⟩ : ∃ (u : Fin 1) (q : Fin 128), j = ix2 u q := ⟨j 0, j 1, eq_ix2 j⟩
  unfold k0_pay5
  simp only [shapeCast_self, addf_apply]
  rw [pay_mlp0]
  refine congrArg (acc (ix2 u q) + ·) ?_
  exact (rowsum_5000_apply _ _ _ u q).trans rfl

theorem pay_sumsq0 (h : FVec Ideal S5000x128 .f32) (acc : Vec Ideal S1x128 .f32) :
    (k0_pay1 h acc : Mat 1 128) = fun i => acc i + matOf (colSumSq h) i := by
  funext j
  obtain ⟨u, q, rfl⟩ : ∃ (u : Fin 1) (q : Fin 128), j = ix2 u q := ⟨j 0, j 1, eq_ix2 j⟩
  unfold k0_pay1
  simp only [shapeCast_self, addf_apply]
  refine congrArg (acc (ix2 u q) + ·) ?_
  exact (rowsum_5000_apply _ _ _ u q).trans rfl

section Cols
variable {m k n : Nat}
  (wf : DotDims.WF (⟨2, ![k, m]⟩ : Shape) (⟨2, ![k, n]⟩ : Shape) (⟨2, ![m, n]⟩ : Shape) [0] [0] [1] [1] [] [])

abbrev colsOf : DotDims (⟨2, ![k, m]⟩ : Shape) (⟨2, ![k, n]⟩ : Shape) (⟨2, ![m, n]⟩ : Shape) :=
  ⟨[0], [0], [1], [1], [], [], wf⟩

theorem cols_lhs_0 (i : (⟨2, ![m, n]⟩ : Shape).Idx) (q : (colsOf wf).contr.Idx) :
    ((colsOf wf).lhsIdx i q 0).val = (q ⟨0, Nat.one_pos⟩).val :=
  (colsOf wf).lhsIdx_val_of_single rfl i q

theorem cols_lhs_1 (i : (⟨2, ![m, n]⟩ : Shape).Idx) (q : (colsOf wf).contr.Idx) :
    ((colsOf wf).lhsIdx i q 1).val = (i 0).val := by
  unfold DotDims.lhsIdx
  rw [dif_neg (show ¬(1 : Fin 2) ∈ (colsOf wf).lhsBatch from List.not_mem_nil),
    dif_pos (show (1 : Fin 2) ∈ (colsOf wf).lhsNonContracting from List.mem_singleton.mpr rfl)]
  rfl

theorem cols_rhs_0 (i : (⟨2, ![m, n]⟩ : Shape).Idx) (q : (colsOf wf).contr.Idx) :
    ((colsOf wf).rhsIdx i q 0).val = (q ⟨0, Nat.one_pos⟩).val :=
  (colsOf wf).rhsIdx_val_of_single rfl i q

theorem cols_rhs_1 (i : (⟨2, ![m, n]⟩ : Shape).Idx) (q : (colsOf wf).contr.Idx) :
    ((colsOf wf).rhsIdx i q 1).val = (i 1).val := by
  unfold DotDims.rhsIdx
  rw [dif_neg (show ¬(1 : Fin 2) ∈ (colsOf wf).rhsBatch from List.not_mem_nil),
    dif_pos (show (1 : Fin 2) ∈ (colsOf wf).rhsNonContracting from List.mem_singleton.mpr rfl)]
  rfl

theorem matmul_cols_apply {φ₁ φ₂ : FTy} (prec : Option ContractPrecision) (lhs : FVec Ideal (⟨2, ![k, m]⟩ : Shape) φ₁)
    (rhs : FVec Ideal (⟨2, ![k, n]⟩ : Shape) φ₂) (g : Fin m) (c : Fin n) :
    FloatOps.matmul (colsOf wf) prec lhs rhs (constant (F := Ideal) (⟨2, ![m, n]⟩ : Shape) .f32 0x00000000#32) (ix2 g c)
      = ∑ r : Fin k, lhs (ix2 r g) * rhs (ix2 r c) := by
  rw [Ideal.matmul_constant_zero_apply, ← Equiv.sum_comp (contrEquiv1 (colsOf wf) k rfl rfl).symm]
  refine Finset.sum_congr rfl fun r _ => ?_
  have hk := contrEquiv1_symm_val (colsOf wf) k rfl rfl r
  have el : (colsOf wf).lhsIdx (ix2 g c) ((contrEquiv1 (colsOf wf) k rfl rfl).symm r) = ix2 r g :=
    funext fun a => Fin.ext (by
      match a with
      | ⟨0, _⟩ => exact (cols_lhs_0 wf _ _).trans hk
      | ⟨1, _⟩ => exact cols_lhs_1 wf _ _)
  have er : (colsOf wf).rhsIdx (ix2 g c) ((contrEquiv1 (colsOf wf) k rfl rfl).symm r) = ix2 r c :=
    funext fun a => Fin.ext (by
      match a with
      | ⟨0, _⟩ => exact (cols_rhs_0 wf _ _).trans hk
      | ⟨1, _⟩ => exact cols_rhs_1 wf _ _)
  rw [el, er]

end Cols

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem cmpi_apply {s : Shape} {w : Nat} (pr : CmpIPredicate) (x y : IVec s w) (i : s.Idx) :
    cmpi pr x y i = IntOp.cmpi pr (x i) (y i) := rfl

theorem onehot_entry (a b : BitVec 32) :
    (FloatOps.sitofp .f32 ((IntOp.cmpi .eq a b).setWidth 32) : Idealize.ShloMosaic.Ideal .f32)
      = if a = b then (1 : EReal) else 0 := by
  show ((((BitVec.ofBool (a == b)).setWidth 32).toInt : ℝ) : EReal) = _
  by_cases h : a = b
  · subst h
    rw [if_pos rfl, beq_self_eq_true]
    have e : ((BitVec.ofBool true).setWidth 32).toInt = 1 := by decide
    rw [e]
    simp
  · have hb : (a == b) = false := by simpa using h
    rw [if_neg h, hb]
    have e : ((BitVec.ofBool false).setWidth 32).toInt = 0 := by decide
    rw [e]
    simp

theorem dot_2048_eq : dot_S2048x512_S2048x128_S512x128_0_0_1_1_n_n
    = colsOf (m := 512) (k := 2048) (n := 128) Facts₀.dot_S2048x512_S2048x128_S512x128_0_0_1_1_n_n_wf := rfl

theorem dot_512_eq : dot_S512x128_S128x10_S512x10_1_0_0_1_n_n
    = plainOf (m := 512) (k := 128) (n := 10) Facts₀.dot_S512x128_S128x10_S512x10_1_0_0_1_n_n_wf := rfl

theorem pay_pool4 (ids : Vec Ideal S2048x1 .i32) (h : Vec Ideal S2048x128 .f32) (acc : Vec Ideal S512x128 .f32) :
    (k4_pay2 ids h acc : Mat 512 128) = fun i => acc i + Cert.GinSpec.pool 512 h (fun r => ids (ix2 r 0)) i := by
  funext j
  obtain ⟨g, c, rfl⟩ : ∃ (g : Fin 512) (c : Fin 128), j = ix2 g c := ⟨j 0, j 1, eq_ix2 j⟩
  unfold k4_pay2
  simp only [shapeCast_self, matmul, dot_2048_eq, addf_apply, matmul_cols_apply, truncf_apply, sitofp_apply, extui_apply,
    cmpi_apply, broadcastTo_a1_ab_apply, iota_single_apply, onehot_entry]
  refine congrArg (acc (ix2 g c) + ·) ?_
  unfold Cert.GinSpec.pool
  refine Finset.sum_congr rfl fun r _ => ?_
  have hi : iota Kind.tc S2048x512 32 [1] iota_S2048x512_d1_w32 (ix2 r g) = BitVec.ofNat 32 g.val :=
    iota_single_apply Kind.tc S2048x512 32 1 iota_S2048x512_d1_w32 (ix2 r g)
  rw [hi]
  show (if ids (ix2 r 0) = BitVec.ofNat 32 g.val then (1 : EReal) else 0) * h (ix2 r c)
    = if ids (ix2 r 0) = BitVec.ofNat 32 g.val then h (ix2 r c) else 0
  by_cases hb : ids (ix2 r 0) = BitVec.ofNat 32 g.val
  · rw [if_pos hb, if_pos hb, one_mul]
  · rw [if_neg hb, if_neg hb, zero_mul]

theorem pay_logits4 (lw : Vec Ideal S128x10 .f32) (p : Vec Ideal S512x128 .f32) (lb : Vec Ideal S1x10 .f32) :
    (k4_pay3 lw p lb : Mat 512 10) = dense p lw (rowOf lb) := by
  funext j
  obtain ⟨g, c, rfl⟩ : ∃ (g : Fin 512) (c : Fin 10), j = ix2 g c := ⟨j 0, j 1, eq_ix2 j⟩
  unfold k4_pay3
  simp only [shapeCast_self, matmul, dot_512_eq, addf_apply, matmul_plain_apply, broadcastTo_1b_ab_apply, truncf_apply]
  rfl

theorem pay_zero4 : (k4_pay1 (F := Idealize.ShloMosaic.Ideal) : Mat 512 128) = fun _ => 0 := by
  funext j
  unfold k4_pay1
  simp only [shapeCast_self, broadcast_apply]
  exact Ideal.ofBits_zero_f32

theorem pay_mlp2 (a x : Vec Ideal S5000x128 .f32) (w1 w2 : Vec Ideal S128x128 .f32) (b1 b2 : Vec Ideal S1x128 .f32) :
    (k2_pay5 a x w1 w2 b1 b2 : Mat 5000 128) = mlp a x w1 (rowOf b1) w2 (rowOf b2) := by
  funext j
  obtain ⟨p, q, rfl⟩ : ∃ (p : Fin 5000) (q : Fin 128), j = ix2 p q := ⟨j 0, j 1, eq_ix2 j⟩
  unfold k2_pay5
  simp only [shapeCast_self, matmul, dot_5000_eq, addf_apply, matmul_plain_apply, broadcastTo_1b_ab_apply, truncf_apply,
    maximumf_apply, broadcast_apply]
  have hz : (FloatOps.ofBits FTy.f32 0#32 : Idealize.ShloMosaic.Ideal .f32) = (0 : EReal) := Ideal.ofBits_zero_f32
  rw [hz]
  rfl

theorem pay_sum2 (a x : Vec Ideal S5000x128 .f32) (w1 w2 : Vec Ideal S128x128 .f32) (b1 b2 acc : Vec Ideal S1x128 .f32) :
    (k2_pay6 a x w1 w2 b1 b2 acc : Mat 1 128)
      = fun i => acc i + matOf (colSum (mlp a x w1 (rowOf b1) w2 (rowOf b2))) i := by
  funext j
  obtain ⟨u, q, rfl⟩ : ∃ (u : Fin 1) (q : Fin 128), j = ix2 u q := ⟨j 0, j 1, eq_ix2 j⟩
  unfold k2_pay6
  simp only [addf_apply]
  rw [pay_mlp2]
  refine congrArg (acc (ix2 u q) + ·) ?_
  exact (rowsum_5000_apply _ _ _ u q).trans rfl

theorem pay_id2 (v : FVec Ideal S1x128 .f32) : k2_pay1 v = v := by
  unfold k2_pay1
  exact shapeCast_self _ _

theorem pay_sumsq2 (h : FVec Ideal S5000x128 .f32) (acc : Vec Ideal S1x128 .f32) :
    (k2_pay2 h acc : Mat 1 128) = fun i => acc i + matOf (colSumSq h) i := by
  funext j
  obtain ⟨u, q, rfl⟩ : ∃ (u : Fin 1) (q : Fin 128), j = ix2 u q := ⟨j 0, j 1, eq_ix2 j⟩
  unfold k2_pay2
  simp only [shapeCast_self, addf_apply]
  refine congrArg (acc (ix2 u q) + ·) ?_
  exact (rowsum_5000_apply _ _ _ u q).trans rfl

theorem pay_zero2a : (k2_pay3 (F := Idealize.ShloMosaic.Ideal) : Mat 1 128) = fun _ => 0 := by
  funext j
  unfold k2_pay3
  simp only [shapeCast_self, broadcast_apply]
  exact Ideal.ofBits_zero_f32

theorem pay_zero2b : (k2_pay4 (F := Idealize.ShloMosaic.Ideal) : Mat 1 128) = fun _ => 0 := by
  funext j
  unfold k2_pay4
  simp only [shapeCast_self, broadcast_apply]
  exact Ideal.ofBits_zero_f32

end Cert.KernelIdeal.Hand

end
-- ==== Proof.Val0.lean ====
import proofs.«412881_j60095182405865_1_alg».proof.Proof.Reg0
import proofs.«412881_j60095182405865_1_alg».proof.Proof.Spec
import proofs.«412881_j60095182405865_1_alg».proof.Proof.BlockSums
import proofs.«412881_j60095182405865_1_alg».proof.Proof.PaySpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.GinSpec Cert.GinAlgebra Idealize.ShloMosaic.ValueIdx

variable (V : (c : Dev nD) → (b : Ref sig .tc) → Buf (Elt Ideal) ((c : Thread nD τ).loc b))

def h0 (c : Dev nD) : Mat 100000 128 :=
  mlp (V c main_v13 : Mat 100000 128) (V c main_arg0 : Mat 100000 128) (V c main_arg3 : Mat 128 128) (rowOf (V c main_v14 : Mat 1 128))
    (V c main_arg5 : Mat 128 128) (rowOf (V c main_v15 : Mat 1 128))

theorem rows_split : (100000 : ℕ) = 20 * 5000 := by norm_num

def pt0 (t : Fin cfg0.N) : Fin 20 := ⟨t.val, lt_of_lt_of_eq t.isLt N_0⟩

theorem index0_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem blk0_0_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_v13 : Mat 100000 128) k := by
  obtain ⟨⟨e0, e1⟩, -⟩ := index0_facts t
  unfold iblk0
  rw [View.read_apply]
  show V c main_v13 (((cfg0.win 0).blk t).view.emb y) = V c main_v13 k
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

theorem blk0_0_eq (c : Dev nD) (t : Fin cfg0.N) :
    (iblk0 V c 0 t : Vec Ideal S5000x128 .f32) = blockRows 20 5000 rows_split (pt0 t) (V c main_v13 : Mat 100000 128) :=
  funext fun y => blk0_0_apply V c t y _ rfl rfl

theorem blk0_1_apply (c : Dev nD) (t : Fin cfg0.N) (y : S5000x128.Idx) (k : S100000x128.Idx)
    (hk0 : (k 0).val = 5000 * t.val + (y 0).val) (hk1 : (k 1).val = (y 1).val) :
    (iblk0 V c 1 t : Vec Ideal S5000x128 .f32) y = (V c main_arg0 : Mat 100000 128) k := by
  obtain ⟨-, ⟨e0, e1⟩, -⟩ := index0_facts t
  unfold iblk0
  rw [View.read_apply]
  show V c main_arg0 (((cfg0.win 1).blk t).view.emb y) = V c main_arg0 k
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 128 + 1 * (y 1).val = (k 1).val; rw [e1, hk1]; omega

theorem blk0_1_eq (c : Dev nD) (t : Fin cfg0.N) :
    (iblk0 V c 1 t : Vec Ideal S5000x128 .f32) = blockRows 20 5000 rows_split (pt0 t) (V c main_arg0 : Mat 100000 128) :=
  funext fun y => blk0_1_apply V c t y _ rfl rfl

theorem blk0_2_eq (c : Dev nD) (t : Fin cfg0.N) :
    (iblk0 V c 2 t : Vec Ideal S128x128 .f32) = (V c main_arg3 : Mat 128 128) := by
  obtain ⟨-, -, ⟨e0, e1⟩, -⟩ := index0_facts t
  funext y
  unfold iblk0
  rw [View.read_apply]
  show V c main_arg3 (((cfg0.win 2).blk t).view.emb y) = V c main_arg3 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk0_3_eq (c : Dev nD) (t : Fin cfg0.N) :
    (iblk0 V c 3 t : Vec Ideal S1x128 .f32) = (V c main_v14 : Mat 1 128) := by
  obtain ⟨-, -, -, ⟨e0, e1⟩, -⟩ := index0_facts t
  funext y
  unfold iblk0
  rw [View.read_apply]
  show V c main_v14 (((cfg0.win 3).blk t).view.emb y) = V c main_v14 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk0_4_eq (c : Dev nD) (t : Fin cfg0.N) :
    (iblk0 V c 4 t : Vec Ideal S128x128 .f32) = (V c main_arg5 : Mat 128 128) := by
  obtain ⟨-, -, -, -, ⟨e0, e1⟩, -⟩ := index0_facts t
  funext y
  unfold iblk0
  rw [View.read_apply]
  show V c main_arg5 (((cfg0.win 4).blk t).view.emb y) = V c main_arg5 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk0_5_eq (c : Dev nD) (t : Fin cfg0.N) :
    (iblk0 V c 5 t : Vec Ideal S1x128 .f32) = (V c main_v15 : Mat 1 128) := by
  obtain ⟨-, -, -, -, -, ⟨e0, e1⟩, -⟩ := index0_facts t
  funext y
  unfold iblk0
  rw [View.read_apply]
  show V c main_v15 (((cfg0.win 5).blk t).view.emb y) = V c main_v15 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem zeroSum0_apply (i : (⟨2, ![1, 128]⟩ : Shape).Idx) : (zeroSum0 (F := Ideal) : Mat 1 128) i = 0 := congrFun pay_zero0a i
theorem zeroSq0_apply (i : (⟨2, ![1, 128]⟩ : Shape).Idx) : (zeroSq0 (F := Ideal) : Mat 1 128) i = 0 := congrFun pay_zero0b i

theorem hidAt0_eq (c : Dev nD) (t : Fin cfg0.N) :
    (hidAt0 (F := Ideal) V c t : Mat 5000 128) = blockRows 20 5000 rows_split (pt0 t) (h0 V c) := by
  unfold hidAt0 mlpBlk0
  rw [pay_mlp0, blk0_0_eq, blk0_1_eq, blk0_2_eq, blk0_3_eq, blk0_4_eq, blk0_5_eq]
  exact mlp_blockRows 20 5000 rows_split (pt0 t) _ _ _ _ _ _

def blkSum0 (c : Dev nD) (t : ℕ) : Mat 1 128 :=
  if h : t < 20 then matOf (colSum (blockRows 20 5000 rows_split ⟨t, h⟩ (h0 V c))) else fun _ => 0
def blkSq0 (c : Dev nD) (t : ℕ) : Mat 1 128 :=
  if h : t < 20 then matOf (colSumSq (blockRows 20 5000 rows_split ⟨t, h⟩ (h0 V c))) else fun _ => 0

theorem sumAt0_eq (c : Dev nD) (t : Fin cfg0.N) (s : Mat 1 128) :
    (sumAt0 (F := Ideal) V c t s : Mat 1 128) = fun i => s i + blkSum0 V c t.val i := by
  unfold sumAt0 sumStep0
  rw [pay_sum0, blk0_0_eq, blk0_1_eq, blk0_2_eq, blk0_3_eq, blk0_4_eq, blk0_5_eq, mlp_blockRows 20 5000 rows_split (pt0 t)]
  unfold blkSum0
  rw [dif_pos (lt_of_lt_of_eq t.isLt N_0 : t.val < 20)]
  rfl

theorem sqAt0_eq (c : Dev nD) (t : Fin cfg0.N) (q : Mat 1 128) :
    (sqStep0 (F := Ideal) (hidAt0 V c t) q : Mat 1 128) = fun i => q i + blkSq0 V c t.val i := by
  unfold sqStep0
  rw [pay_sumsq0, hidAt0_eq]
  unfold blkSq0
  rw [dif_pos (lt_of_lt_of_eq t.isLt N_0 : t.val < 20)]
  rfl

theorem acc0_eq (c : Dev nD) : ∀ (n : ℕ) (hn : n < cfg0.N),
    ((accAt0 (F := Ideal) V c n hn).1 : Mat 1 128) = (fun i => ∑ s ∈ Finset.range (n + 1), blkSum0 V c s i)
    ∧ ((accAt0 (F := Ideal) V c n hn).2 : Mat 1 128) = (fun i => ∑ s ∈ Finset.range (n + 1), blkSq0 V c s i)
  | 0, hn => by
    show (sumAt0 (F := Ideal) V c ⟨0, hn⟩ zeroSum0 : Mat 1 128) = _ ∧ (sqStep0 (F := Ideal) (hidAt0 V c ⟨0, hn⟩) zeroSq0 : Mat 1 128) = _
    refine ⟨?_, ?_⟩
    · rw [sumAt0_eq]; funext i; rw [Finset.sum_range_one]
      show (zeroSum0 (F := Ideal) : Mat 1 128) i + _ = _
      rw [zeroSum0_apply]; exact zero_add _
    · rw [sqAt0_eq]; funext i; rw [Finset.sum_range_one]
      show (zeroSq0 (F := Ideal) : Mat 1 128) i + _ = _
      rw [zeroSq0_apply]; exact zero_add _
  | n + 1, hn => by
    obtain ⟨ih1, ih2⟩ := acc0_eq c n (Nat.lt_of_succ_lt hn)
    show (sumAt0 (F := Ideal) V c ⟨n + 1, hn⟩ (accAt0 V c n (Nat.lt_of_succ_lt hn)).1 : Mat 1 128) = _
      ∧ (sqStep0 (F := Ideal) (hidAt0 V c ⟨n + 1, hn⟩) (accAt0 V c n (Nat.lt_of_succ_lt hn)).2 : Mat 1 128) = _
    refine ⟨?_, ?_⟩
    · rw [sumAt0_eq, ih1]; funext i
      exact (Finset.sum_range_succ (fun s => blkSum0 V c s i) (n + 1)).symm
    · rw [sqAt0_eq, ih2]; funext i
      exact (Finset.sum_range_succ (fun s => blkSq0 V c s i) (n + 1)).symm

theorem sum_all0 (c : Dev nD) (i : (⟨2, ![1, 128]⟩ : Shape).Idx) :
    ∑ s ∈ Finset.range (19 + 1), blkSum0 V c s i = matOf (colSum (h0 V c)) i := by
  rw [← Fin.sum_univ_eq_sum_range (fun s => blkSum0 V c s i) 20, colSum_blocks 20 5000 rows_split (h0 V c)]
  show _ = ∑ t : Fin 20, colSum (blockRows 20 5000 rows_split t (h0 V c)) (ix1 (i 1))
  refine Finset.sum_congr rfl fun t _ => ?_
  unfold blkSum0
  rw [dif_pos t.isLt]
  rfl

theorem sq_all0 (c : Dev nD) (i : (⟨2, ![1, 128]⟩ : Shape).Idx) :
    ∑ s ∈ Finset.range (19 + 1), blkSq0 V c s i = matOf (colSumSq (h0 V c)) i := by
  rw [← Fin.sum_univ_eq_sum_range (fun s => blkSq0 V c s i) 20, colSumSq_blocks 20 5000 rows_split (h0 V c)]
  show _ = ∑ t : Fin 20, colSumSq (blockRows 20 5000 rows_split t (h0 V c)) (ix1 (i 1))
  refine Finset.sum_congr rfl fun t _ => ?_
  unfold blkSq0
  rw [dif_pos t.isLt]
  rfl

theorem flushed0_6_eq (c : Dev nD) (t : Fin cfg0.N) :
    (dat0 (F := Ideal) V c).flushed 6 t = ((cfg0.win 6).blk t).view.read (Elt Ideal) (h0 V c : Mat 100000 128) := by
  obtain ⟨-, -, -, -, -, -, ⟨e0, e1⟩, -⟩ := index0_facts t
  show (cfg0.win 6).cut (grid0.coords t) ((dat0 V c).after 6 t) = _
  rw [after0_6, hidAt0_eq]
  funext j
  show blockRows 20 5000 rows_split (pt0 t) (h0 V c) j = (h0 V c) (((cfg0.win 6).blk t).view.emb j)
  unfold blockRows
  congr 1
  funext a
  apply Fin.ext
  match a with
  | ⟨0, _⟩ => show 5000 * t.val + (j 0).val = win0_6.index t (0 : Fin 2) * 5000 + 1 * (j 0).val; rw [e0]; omega
  | ⟨1, _⟩ => show (j 1).val = win0_6.index t (1 : Fin 2) * 128 + 1 * (j 1).val; rw [e1]; omega

theorem mem_block0_6 (t : Fin cfg0.N) (i : S100000x128.Idx) :
    i ∈ ((cfg0.win 6).blk t).view.set
      ↔ ∀ a : Fin 2, win0_6.index t a * S5000x128.size a ≤ (i a).val
          ∧ (i a).val < win0_6.index t a * S5000x128.size a + S5000x128.size a := by
  show i ∈ ((View.whole main_v16_0).slice (win0_6.rect t)).set ↔ _
  rw [View.set_slice_whole, Rect.mem_set_unit]
  exact Iff.rfl

theorem cover0_6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, -, -, ⟨e0, e1⟩, -⟩ := index0_facts t
  refine ⟨t, flush0_6 t, ?_⟩
  rw [mem_block0_6]
  intro a
  match a with
  | ⟨0, _⟩ => show win0_6.index t (0 : Fin 2) * 5000 ≤ (i 0).val ∧ (i 0).val < win0_6.index t (0 : Fin 2) * 5000 + 5000
              rw [e0, ht]; omega
  | ⟨1, _⟩ => show win0_6.index t (1 : Fin 2) * 128 ≤ (i 1).val ∧ (i 1).val < win0_6.index t (1 : Fin 2) * 128 + 128
              rw [e1]; omega

theorem arrAt0_6 (c : Dev nD) : ((dat0 (F := Ideal) V c).arrAt 6 cfg0.N : Mat 100000 128) = h0 V c :=
  (dat0 (F := Ideal) V c).arrAt_eq_of_cover 6 _ (fun t _ => flushed0_6_eq V c t) cover0_6

theorem mem_block0_7 (t : Fin cfg0.N) (i : S1x128.Idx) :
    i ∈ ((cfg0.win 7).blk t).view.set
      ↔ ∀ a : Fin 2, win0_7.index t a * S1x128.size a ≤ (i a).val
          ∧ (i a).val < win0_7.index t a * S1x128.size a + S1x128.size a := by
  show i ∈ ((View.whole main_v16_1).slice (win0_7.rect t)).set ↔ _
  rw [View.set_slice_whole, Rect.mem_set_unit]
  exact Iff.rfl

theorem blkRead0_7 (t : Fin cfg0.N) (G : Mat 1 128) (j : S1x128.Idx) :
    ((cfg0.win 7).blk t).view.read (Elt Ideal) G j = G j := by
  obtain ⟨-, -, -, -, -, -, -, ⟨e0, e1⟩, -⟩ := index0_facts t
  show G (((cfg0.win 7).blk t).view.emb j) = G j
  congr 1
  funext a
  apply Fin.ext
  match a with
  | ⟨0, _⟩ => show win0_7.index t (0 : Fin 2) * 1 + 1 * (j 0).val = (j 0).val; rw [e0]; omega
  | ⟨1, _⟩ => show win0_7.index t (1 : Fin 2) * 128 + 1 * (j 1).val = (j 1).val; rw [e1]; omega

theorem flushed0_7_eq (c : Dev nD) (t : Fin cfg0.N) (hf : (cfg0.win 7).flush t = true) :
    (dat0 (F := Ideal) V c).flushed 7 t = ((cfg0.win 7).blk t).view.read (Elt Ideal) (matOf (colSum (h0 V c)) : Mat 1 128) := by
  have hN : cfg0.N = 20 := N_0
  have h19 : t.val = 19 := by have h1 := (flush0_7 t).mp hf; have h2 := t.isLt; omega
  obtain ⟨-, -, -, -, -, -, -, ⟨e0, e1⟩, -⟩ := index0_facts t
  show (dat0 (F := Ideal) V c).after 7 t = _
  rw [after0_7, (acc0_eq V c t.val t.isLt).1]
  have hs : ∀ n : ℕ, n = 19 → ∀ i : (⟨2, ![1, 128]⟩ : Shape).Idx, (∑ s ∈ Finset.range (n + 1), blkSum0 V c s i) = matOf (colSum (h0 V c)) i := by
    intro n hn i; subst hn; exact sum_all0 V c i
  funext j
  refine (hs t.val h19 _).trans ?_
  exact (blkRead0_7 t (matOf (colSum (h0 V c))) j).symm

theorem cover0_7 (i : S1x128.Idx) :
    ∃ t : Fin cfg0.N, (cfg0.win 7).flush t = true ∧ i ∈ ((cfg0.win 7).blk t).view.set := by
  have hN : cfg0.N = 20 := N_0
  have hi0 : (i 0).val < 1 := (i 0).isLt
  have hi1 : (i 1).val < 128 := (i 1).isLt
  let t : Fin cfg0.N := ⟨19, by rw [hN]; norm_num⟩
  obtain ⟨-, -, -, -, -, -, -, ⟨e0, e1⟩, -⟩ := index0_facts t
  refine ⟨t, (flush0_7 t).mpr (show (19 : ℕ) % 20 = 19 by norm_num), ?_⟩
  rw [mem_block0_7]
  intro a
  match a with
  | ⟨0, _⟩ => show win0_7.index t (0 : Fin 2) * 1 ≤ (i 0).val ∧ (i 0).val < win0_7.index t (0 : Fin 2) * 1 + 1
              rw [e0]; omega
  | ⟨1, _⟩ => show win0_7.index t (1 : Fin 2) * 128 ≤ (i 1).val ∧ (i 1).val < win0_7.index t (1 : Fin 2) * 128 + 128
              rw [e1]; omega

theorem arrAt0_7 (c : Dev nD) : ((dat0 (F := Ideal) V c).arrAt 7 cfg0.N : Mat 1 128) = matOf (colSum (h0 V c)) :=
  (dat0 (F := Ideal) V c).arrAt_eq_of_cover 7 _ (flushed0_7_eq V c) cover0_7

theorem mem_block0_8 (t : Fin cfg0.N) (i : S1x128.Idx) :
    i ∈ ((cfg0.win 8).blk t).view.set
      ↔ ∀ a : Fin 2, win0_8.index t a * S1x128.size a ≤ (i a).val
          ∧ (i a).val < win0_8.index t a * S1x128.size a + S1x128.size a := by
  show i ∈ ((View.whole main_v16_2).slice (win0_8.rect t)).set ↔ _
  rw [View.set_slice_whole, Rect.mem_set_unit]
  exact Iff.rfl

theorem blkRead0_8 (t : Fin cfg0.N) (G : Mat 1 128) (j : S1x128.Idx) :
    ((cfg0.win 8).blk t).view.read (Elt Ideal) G j = G j := by
  obtain ⟨-, -, -, -, -, -, -, -, ⟨e0, e1⟩⟩ := index0_facts t
  show G (((cfg0.win 8).blk t).view.emb j) = G j
  congr 1
  funext a
  apply Fin.ext
  match a with
  | ⟨0, _⟩ => show win0_8.index t (0 : Fin 2) * 1 + 1 * (j 0).val = (j 0).val; rw [e0]; omega
  | ⟨1, _⟩ => show win0_8.index t (1 : Fin 2) * 128 + 1 * (j 1).val = (j 1).val; rw [e1]; omega

theorem flushed0_8_eq (c : Dev nD) (t : Fin cfg0.N) (hf : (cfg0.win 8).flush t = true) :
    (dat0 (F := Ideal) V c).flushed 8 t = ((cfg0.win 8).blk t).view.read (Elt Ideal) (matOf (colSumSq (h0 V c)) : Mat 1 128) := by
  have hN : cfg0.N = 20 := N_0
  have h19 : t.val = 19 := by have h1 := (flush0_8 t).mp hf; have h2 := t.isLt; omega
  obtain ⟨-, -, -, -, -, -, -, -, ⟨e0, e1⟩⟩ := index0_facts t
  show (dat0 (F := Ideal) V c).after 8 t = _
  rw [after0_8, (acc0_eq V c t.val t.isLt).2]
  have hs : ∀ n : ℕ, n = 19 → ∀ i : (⟨2, ![1, 128]⟩ : Shape).Idx, (∑ s ∈ Finset.range (n + 1), blkSq0 V c s i) = matOf (colSumSq (h0 V c)) i := by
    intro n hn i; subst hn; exact sq_all0 V c i
  funext j
  refine (hs t.val h19 _).trans ?_
  exact (blkRead0_8 t (matOf (colSumSq (h0 V c))) j).symm

theorem cover0_8 (i : S1x128.Idx) :
    ∃ t : Fin cfg0.N, (cfg0.win 8).flush t = true ∧ i ∈ ((cfg0.win 8).blk t).view.set := by
  have hN : cfg0.N = 20 := N_0
  have hi0 : (i 0).val < 1 := (i 0).isLt
  have hi1 : (i 1).val < 128 := (i 1).isLt
  let t : Fin cfg0.N := ⟨19, by rw [hN]; norm_num⟩
  obtain ⟨-, -, -, -, -, -, -, -, ⟨e0, e1⟩⟩ := index0_facts t
  refine ⟨t, (flush0_8 t).mpr (show (19 : ℕ) % 20 = 19 by norm_num), ?_⟩
  rw [mem_block0_8]
  intro a
  match a with
  | ⟨0, _⟩ => show win0_8.index t (0 : Fin 2) * 1 ≤ (i 0).val ∧ (i 0).val < win0_8.index t (0 : Fin 2) * 1 + 1
              rw [e0]; omega
  | ⟨1, _⟩ => show win0_8.index t (1 : Fin 2) * 128 ≤ (i 1).val ∧ (i 1).val < win0_8.index t (1 : Fin 2) * 128 + 128
              rw [e1]; omega

theorem arrAt0_8 (c : Dev nD) : ((dat0 (F := Ideal) V c).arrAt 8 cfg0.N : Mat 1 128) = matOf (colSumSq (h0 V c)) :=
  (dat0 (F := Ideal) V c).arrAt_eq_of_cover 8 _ (flushed0_8_eq V c) cover0_8

end Cert.KernelIdeal.Hand

end
-- ==== Proof.Val1.lean ====
import proofs.«412881_j60095182405865_1_alg».proof.Proof.Reg1
import proofs.«412881_j60095182405865_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.GinSpec Idealize.ShloMosaic.ValueIdx

variable (V : (c : Dev nD) → (b : Ref sig .tc) → Buf (Elt Ideal) ((c : Thread nD τ).loc b))

theorem offsets1_zero : (![0, 0] : Fin 2 → Nat) = fun _ => 0 := funext fun a => by fin_cases a <;> rfl

theorem pay1_at (x0 : Vec Ideal S5000x128 .f32) (x1 x2 : Vec Ideal S1x128 .f32) (p : Fin 5000) (q : Fin 128) :
    k1_pay1 x0 x1 x2 (ix2 p q) = max (x0 (ix2 p q) * x1 (ix2 0 q) + x2 (ix2 0 q)) 0 := by
  unfold k1_pay1
  simp only [shapeCast_self, maximumf_apply, addf_apply, mulf_apply, broadcast_apply]
  rw [broadcastTo_apply x1 _ (ix2 p q) (ix2 0 q) (fun a => by match a with | ⟨0, _⟩ => rfl | ⟨1, _⟩ => rfl),
    broadcastTo_apply x2 _ (ix2 p q) (ix2 0 q) (fun a => by match a with | ⟨0, _⟩ => rfl | ⟨1, _⟩ => rfl)]
  show max _ (Ideal.ofBits .f32 0x00000000#32) = _
  rw [Ideal.ofBits_zero_f32]

theorem pay1_of_arrays (h : Mat 100000 128) (sc sh : Mat 1 128)
    (x0 : Vec Ideal S5000x128 .f32) (x1 x2 : Vec Ideal S1x128 .f32) (n : Nat)
    (j : S5000x128.Idx) (i : S100000x128.Idx)
    (hx0 : ∀ (y : S5000x128.Idx) (k : S100000x128.Idx), (k 0).val = 5000 * n + (y 0).val → (k 1).val = (y 1).val → x0 y = h k)
    (hx1 : x1 = sc) (hx2 : x2 = sh)
    (hi0 : (i 0).val = 5000 * n + (j 0).val) (hi1 : (i 1).val = (j 1).val) :
    k1_pay1 x0 x1 x2 j = (relu (affine h (rowOf sc) (rowOf sh))) i := by
  obtain ⟨p, q, rfl⟩ : ∃ (p : Fin 5000) (q : Fin 128), j = ix2 p q := ⟨j 0, j 1, eq_ix2 j⟩
  rw [pay1_at, hx0 (ix2 p q) i hi0 hi1, hx1, hx2]
  have hq : i 1 = q := Fin.ext hi1
  unfold relu affine rowOf
  show _ = max (h i * sc (ix2 0 (ix1 (i 1) 0)) + sh (ix2 0 (ix1 (i 1) 0))) 0
  rw [hq]

theorem index1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed1_eq (c : Dev nD) (t : Fin cfg1.N) :
    (dat1 (F := Ideal) V c).flushed 3 t
      = ((cfg1.win 3).blk t).view.read (Elt Ideal) (relu (affine (V c main_v16_0) (rowOf (V c main_v29)) (rowOf (V c main_v33))) : Mat 100000 128) := by
  show (cfg1.win 3).cut (grid1.coords t) ((dat1 V c).after 3 t) = _
  rw [after1_out]
  unfold bnBlock1
  rw [View.canon_unit_zero offsets1_zero]
  simp only [View.ld_unit_zero (S := S5000x128) offsets1_zero, View.ld_unit_zero (S := S1x128) offsets1_zero]
  obtain ⟨e0, e1, e2, e3, e4, e5, e6, e7⟩ := index1_facts t
  funext j
  show k1_pay1 (blk1 V c 0 t) (blk1 V c 1 t) (blk1 V c 2 t) j
    = (relu (affine (V c main_v16_0) (rowOf (V c main_v29)) (rowOf (V c main_v33))) : Mat 100000 128) (((cfg1.win 3).blk t).view.emb j)
  refine pay1_of_arrays (V c main_v16_0) (V c main_v29) (V c main_v33) _ _ _ t.val j _ ?_ ?_ ?_ ?_ ?_
  · intro y k hk0 hk1
    show V c main_v16_0 (((cfg1.win 0).blk t).view.emb y) = V c main_v16_0 k
    congr 1
    funext a
    apply Fin.ext
    match a with
    | ⟨0, _⟩ => show win1_0.index t (0 : Fin 2) * 5000 + 1 * (y 0).val = (k 0).val; rw [e0, hk0]; omega
    | ⟨1, _⟩ => show win1_0.index t (1 : Fin 2) * 128 + 1 * (y 1).val = (k 1).val; rw [e1, hk1]; omega
  · funext y
    show V c main_v29 (((cfg1.win 1).blk t).view.emb y) = V c main_v29 y
    congr 1
    funext a
    apply Fin.ext
    match a with
    | ⟨0, _⟩ => show win1_1.index t (0 : Fin 2) * 1 + 1 * (y 0).val = (y 0).val; rw [e2]; omega
    | ⟨1, _⟩ => show win1_1.index t (1 : Fin 2) * 128 + 1 * (y 1).val = (y 1).val; rw [e3]; omega
  · funext y
    show V c main_v33 (((cfg1.win 2).blk t).view.emb y) = V c main_v33 y
    congr 1
    funext a
    apply Fin.ext
    match a with
    | ⟨0, _⟩ => show win1_2.index t (0 : Fin 2) * 1 + 1 * (y 0).val = (y 0).val; rw [e4]; omega
    | ⟨1, _⟩ => show win1_2.index t (1 : Fin 2) * 128 + 1 * (y 1).val = (y 1).val; rw [e5]; omega
  · show win1_3.index t (0 : Fin 2) * 5000 + 1 * (j 0).val = 5000 * t.val + (j 0).val
    rw [e6]; omega
  · show win1_3.index t (1 : Fin 2) * 128 + 1 * (j 1).val = (j 1).val
    rw [e7]; omega

theorem mem_block1 (t : Fin cfg1.N) (i : S100000x128.Idx) :
    i ∈ ((cfg1.win 3).blk t).view.set
      ↔ ∀ a : Fin 2, win1_3.index t a * S5000x128.size a ≤ (i a).val
          ∧ (i a).val < win1_3.index t a * S5000x128.size a + S5000x128.size a := by
  show i ∈ ((View.whole main_v34).slice (win1_3.rect t)).set ↔ _
  rw [View.set_slice_whole, Rect.mem_set_unit]
  exact Iff.rfl

theorem blocks1_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨e0, e1, e2, e3, e4, e5, e6, e7⟩ := index1_facts t
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000
              rw [e6, ht]; omega
  | ⟨1, _⟩ => show win1_3.index t (1 : Fin 2) * 128 ≤ (i 1).val ∧ (i 1).val < win1_3.index t (1 : Fin 2) * 128 + 128
              rw [e7]; omega

theorem arrAt1_3 (c : Dev nD) :
    ((dat1 (F := Ideal) V c).arrAt 3 cfg1.N : Mat 100000 128) = relu (affine (V c main_v16_0) (rowOf (V c main_v29)) (rowOf (V c main_v33))) :=
  (dat1 (F := Ideal) V c).arrAt_eq_of_cover 3 _ (fun t _ => flushed1_eq V c t) (blocks1_cover)

end Cert.KernelIdeal.Hand

end
-- ==== Proof.Val2.lean ====
import proofs.«412881_j60095182405865_1_alg».proof.Proof.Reg2
import proofs.«412881_j60095182405865_1_alg».proof.Proof.BlockSums
import proofs.«412881_j60095182405865_1_alg».proof.Proof.PaySpec
import proofs.«412881_j60095182405865_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.GinSpec Cert.GinAlgebra Idealize.ShloMosaic.ValueIdx

variable (V : (c : Dev nD) → (b : Ref sig .tc) → Buf (Elt Ideal) ((c : Thread nD τ).loc b))

abbrev mlpOut2 (c : Dev nD) : Mat 100000 128 :=
  mlp (V c main_v44) (V c main_v34) (V c main_arg9) (rowOf (V c main_v45)) (V c main_arg11) (rowOf (V c main_v46))

theorem rows2 : (100000 : Nat) = 20 * 5000 := rfl

def rowBlock2 (t : Fin cfg2.N) : Fin 20 := ⟨t.val, lt_of_lt_of_eq t.isLt (show cfg2.N = 20 from N_2)⟩

theorem index2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem rows_of_block2 (h : Mat 100000 128) (x : Vec Ideal S5000x128 .f32) (n : Fin 20)
    (hx : ∀ (y : S5000x128.Idx) (k : S100000x128.Idx), (k 0).val = 5000 * n.val + (y 0).val → (k 1).val = (y 1).val → x y = h k) :
    (x : Mat 5000 128) = blockRows 20 5000 rows2 n h := by
  funext y
  unfold blockRows
  exact hx y _ rfl rfl

theorem blk2_0_eq (c : Dev nD) (t : Fin cfg2.N) :
    (blk2 V c 0 t : Mat 5000 128) = blockRows 20 5000 rows2 (rowBlock2 t) (V c main_v44) := by
  obtain ⟨e00, e01, e10, e11, e20, e21, e30, e31, e40, e41, e50, e51, e60, e61, e70, e71, e80, e81⟩ := index2_facts t
  refine rows_of_block2 (V c main_v44) _ (rowBlock2 t) fun y k hk0 hk1 => ?_
  show V c main_v44 (((cfg2.win 0).blk t).view.emb y) = V c main_v44 k
  congr 1
  funext a
  apply Fin.ext
  match a with
  | ⟨0, _⟩ => show win2_0.index t (0 : Fin 2) * 5000 + 1 * (y 0).val = (k 0).val; rw [e00, hk0]; show t.val * 5000 + 1 * (y 0).val = 5000 * t.val + (y 0).val; omega
  | ⟨1, _⟩ => show win2_0.index t (1 : Fin 2) * 128 + 1 * (y 1).val = (k 1).val; rw [e01, hk1]; omega

theorem blk2_1_eq (c : Dev nD) (t : Fin cfg2.N) :
    (blk2 V c 1 t : Mat 5000 128) = blockRows 20 5000 rows2 (rowBlock2 t) (V c main_v34) := by
  obtain ⟨e00, e01, e10, e11, e20, e21, e30, e31, e40, e41, e50, e51, e60, e61, e70, e71, e80, e81⟩ := index2_facts t
  refine rows_of_block2 (V c main_v34) _ (rowBlock2 t) fun y k hk0 hk1 => ?_
  show V c main_v34 (((cfg2.win 1).blk t).view.emb y) = V c main_v34 k
  congr 1
  funext a
  apply Fin.ext
  match a with
  | ⟨0, _⟩ => show win2_1.index t (0 : Fin 2) * 5000 + 1 * (y 0).val = (k 0).val; rw [e10, hk0]; show t.val * 5000 + 1 * (y 0).val = 5000 * t.val + (y 0).val; omega
  | ⟨1, _⟩ => show win2_1.index t (1 : Fin 2) * 128 + 1 * (y 1).val = (k 1).val; rw [e11, hk1]; omega

theorem blk2_2_eq (c : Dev nD) (t : Fin cfg2.N) : (blk2 V c 2 t : Mat 128 128) = V c main_arg9 := by
  obtain ⟨e00, e01, e10, e11, e20, e21, e30, e31, e40, e41, e50, e51, e60, e61, e70, e71, e80, e81⟩ := index2_facts t
  funext y
  show V c main_arg9 (((cfg2.win 2).blk t).view.emb y) = V c main_arg9 y
  congr 1
  funext a
  apply Fin.ext
  match a with
  | ⟨0, _⟩ => show win2_2.index t (0 : Fin 2) * 128 + 1 * (y 0).val = (y 0).val; rw [e20]; omega
  | ⟨1, _⟩ => show win2_2.index t (1 : Fin 2) * 128 + 1 * (y 1).val = (y 1).val; rw [e21]; omega

theorem blk2_3_eq (c : Dev nD) (t : Fin cfg2.N) : (blk2 V c 3 t : Mat 1 128) = V c main_v45 := by
  obtain ⟨e00, e01, e10, e11, e20, e21, e30, e31, e40, e41, e50, e51, e60, e61, e70, e71, e80, e81⟩ := index2_facts t
  funext y
  show V c main_v45 (((cfg2.win 3).blk t).view.emb y) = V c main_v45 y
  congr 1
  funext a
  apply Fin.ext
  match a with
  | ⟨0, _⟩ => show win2_3.index t (0 : Fin 2) * 1 + 1 * (y 0).val = (y 0).val; rw [e30]; omega
  | ⟨1, _⟩ => show win2_3.index t (1 : Fin 2) * 128 + 1 * (y 1).val = (y 1).val; rw [e31]; omega

theorem blk2_4_eq (c : Dev nD) (t : Fin cfg2.N) : (blk2 V c 4 t : Mat 128 128) = V c main_arg11 := by
  obtain ⟨e00, e01, e10, e11, e20, e21, e30, e31, e40, e41, e50, e51, e60, e61, e70, e71, e80, e81⟩ := index2_facts t
  funext y
  show V c main_arg11 (((cfg2.win 4).blk t).view.emb y) = V c main_arg11 y
  congr 1
  funext a
  apply Fin.ext
  match a with
  | ⟨0, _⟩ => show win2_4.index t (0 : Fin 2) * 128 + 1 * (y 0).val = (y 0).val; rw [e40]; omega
  | ⟨1, _⟩ => show win2_4.index t (1 : Fin 2) * 128 + 1 * (y 1).val = (y 1).val; rw [e41]; omega

theorem blk2_5_eq (c : Dev nD) (t : Fin cfg2.N) : (blk2 V c 5 t : Mat 1 128) = V c main_v46 := by
  obtain ⟨e00, e01, e10, e11, e20, e21, e30, e31, e40, e41, e50, e51, e60, e61, e70, e71, e80, e81⟩ := index2_facts t
  funext y
  show V c main_v46 (((cfg2.win 5).blk t).view.emb y) = V c main_v46 y
  congr 1
  funext a
  apply Fin.ext
  match a with
  | ⟨0, _⟩ => show win2_5.index t (0 : Fin 2) * 1 + 1 * (y 0).val = (y 0).val; rw [e50]; omega
  | ⟨1, _⟩ => show win2_5.index t (1 : Fin 2) * 128 + 1 * (y 1).val = (y 1).val; rw [e51]; omega

theorem mlp_blocks2 (c : Dev nD) (t : Fin cfg2.N) :
    mlp (blk2 V c 0 t : Mat 5000 128) (blk2 V c 1 t) (blk2 V c 2 t) (rowOf (blk2 V c 3 t)) (blk2 V c 4 t) (rowOf (blk2 V c 5 t))
      = blockRows 20 5000 rows2 (rowBlock2 t) (mlpOut2 V c) := by
  rw [blk2_0_eq V c t, blk2_1_eq V c t, blk2_2_eq V c t, blk2_3_eq V c t, blk2_4_eq V c t, blk2_5_eq V c t]
  exact mlp_blockRows 20 5000 rows2 (rowBlock2 t) _ _ _ _ _ _

theorem outAt2_eq (c : Dev nD) (t : Fin cfg2.N) :
    (outAt2 V c t : Mat 5000 128) = blockRows 20 5000 rows2 (rowBlock2 t) (mlpOut2 V c) := by
  unfold outAt2 mlpBlock2
  exact (pay_mlp2 _ _ _ _ _ _).trans (mlp_blocks2 V c t)

theorem sumStep2_eq (c : Dev nD) (t : Fin cfg2.N) (s : Mat 1 128) :
    (sumStep2 (blk2 V c 0 t) (blk2 V c 1 t) (blk2 V c 2 t) (blk2 V c 3 t) (blk2 V c 4 t) (blk2 V c 5 t) s : Mat 1 128)
      = fun i => s i + colSum (blockRows 20 5000 rows2 (rowBlock2 t) (mlpOut2 V c)) (ix1 (i 1)) := by
  unfold sumStep2
  rw [pay_id2]
  refine (pay_sum2 _ _ _ _ _ _ _).trans ?_
  rw [mlp_blocks2 V c t]
  rfl

theorem sqStep2_eq (c : Dev nD) (t : Fin cfg2.N) (q : Mat 1 128) :
    (sqStep2 (outAt2 V c t) q : Mat 1 128)
      = fun i => q i + colSumSq (blockRows 20 5000 rows2 (rowBlock2 t) (mlpOut2 V c)) (ix1 (i 1)) := by
  unfold sqStep2
  refine (pay_sumsq2 _ _).trans ?_
  rw [outAt2_eq V c t]
  rfl

def colPart2 (c : Dev nD) (j : Fin 128) (t : ℕ) : EReal :=
  if ht : t < 20 then colSum (blockRows 20 5000 rows2 ⟨t, ht⟩ (mlpOut2 V c)) (ix1 j) else 0

def sqPart2 (c : Dev nD) (j : Fin 128) (t : ℕ) : EReal :=
  if ht : t < 20 then colSumSq (blockRows 20 5000 rows2 ⟨t, ht⟩ (mlpOut2 V c)) (ix1 j) else 0

theorem scrAt2_eq (c : Dev nD) : ∀ (n : ℕ) (hn : n < cfg2.N),
    ((scrAt2 V c n hn).1 : Mat 1 128) = (fun i => accTo (colPart2 V c (i 1)) n)
    ∧ ((scrAt2 V c n hn).2 : Mat 1 128) = (fun i => accTo (sqPart2 V c (i 1)) n)
  | 0, hn => by
    constructor
    · show (sumStep2 (blk2 V c 0 ⟨0, hn⟩) (blk2 V c 1 ⟨0, hn⟩) (blk2 V c 2 ⟨0, hn⟩) (blk2 V c 3 ⟨0, hn⟩) (blk2 V c 4 ⟨0, hn⟩) (blk2 V c 5 ⟨0, hn⟩) (zeroSum2 (F := Ideal)) : Mat 1 128) = _
      refine (sumStep2_eq V c ⟨0, hn⟩ (zeroSum2 (F := Ideal))).trans ?_
      funext i
      have hz : (zeroSum2 (F := Ideal) : Mat 1 128) i = 0 := congrFun pay_zero2a i
      rw [accTo_zero]
      beta_reduce
      rw [hz, zero_add]
      unfold colPart2
      rw [dif_pos (by decide : 0 < 20)]
      rfl
    · show (sqStep2 (outAt2 V c ⟨0, hn⟩) (zeroSq2 (F := Ideal)) : Mat 1 128) = _
      refine (sqStep2_eq V c ⟨0, hn⟩ (zeroSq2 (F := Ideal))).trans ?_
      funext i
      have hz : (zeroSq2 (F := Ideal) : Mat 1 128) i = 0 := congrFun pay_zero2b i
      rw [accTo_zero]
      beta_reduce
      rw [hz, zero_add]
      unfold sqPart2
      rw [dif_pos (by decide : 0 < 20)]
      rfl
  | n + 1, hn => by
    obtain ⟨ih1, ih2⟩ := scrAt2_eq c n (Nat.lt_of_succ_lt hn)
    have hlt : n + 1 < 20 := lt_of_lt_of_eq hn (show cfg2.N = 20 from N_2)
    constructor
    · show (sumStep2 (blk2 V c 0 ⟨n + 1, hn⟩) (blk2 V c 1 ⟨n + 1, hn⟩) (blk2 V c 2 ⟨n + 1, hn⟩) (blk2 V c 3 ⟨n + 1, hn⟩) (blk2 V c 4 ⟨n + 1, hn⟩) (blk2 V c 5 ⟨n + 1, hn⟩) (scrAt2 V c n (Nat.lt_of_succ_lt hn)).1 : Mat 1 128) = _
      refine (sumStep2_eq V c ⟨n + 1, hn⟩ _).trans ?_
      funext i
      have e1 : ((scrAt2 V c n (Nat.lt_of_succ_lt hn)).1 : Mat 1 128) i = accTo (colPart2 V c (i 1)) n := congrFun ih1 i
      rw [accTo_succ]
      beta_reduce
      rw [e1]
      congr 1
      unfold colPart2
      rw [dif_pos hlt]
      rfl
    · show (sqStep2 (outAt2 V c ⟨n + 1, hn⟩) (scrAt2 V c n (Nat.lt_of_succ_lt hn)).2 : Mat 1 128) = _
      refine (sqStep2_eq V c ⟨n + 1, hn⟩ _).trans ?_
      funext i
      have e2 : ((scrAt2 V c n (Nat.lt_of_succ_lt hn)).2 : Mat 1 128) i = accTo (sqPart2 V c (i 1)) n := congrFun ih2 i
      rw [accTo_succ]
      beta_reduce
      rw [e2]
      congr 1
      unfold sqPart2
      rw [dif_pos hlt]
      rfl

theorem sum_last2 (c : Dev nD) (t : Fin cfg2.N) (ht : t.val = 19) :
    ((scrAt2 V c t.val t.isLt).1 : Mat 1 128) = matOf (colSum (mlpOut2 V c)) := by
  refine (scrAt2_eq V c t.val t.isLt).1.trans ?_
  funext i
  beta_reduce
  rw [ht, show (19 : ℕ) = 20 - 1 from rfl, accTo_last _ (by decide : 0 < 20), colSum_blocks 20 5000 rows2 (mlpOut2 V c)]
  show _ = ∑ t : Fin 20, colSum (blockRows 20 5000 rows2 t (mlpOut2 V c)) (ix1 (i 1))
  refine Finset.sum_congr rfl fun t _ => ?_
  unfold colPart2
  rw [dif_pos t.isLt]

theorem sq_last2 (c : Dev nD) (t : Fin cfg2.N) (ht : t.val = 19) :
    ((scrAt2 V c t.val t.isLt).2 : Mat 1 128) = matOf (colSumSq (mlpOut2 V c)) := by
  refine (scrAt2_eq V c t.val t.isLt).2.trans ?_
  funext i
  beta_reduce
  rw [ht, show (19 : ℕ) = 20 - 1 from rfl, accTo_last _ (by decide : 0 < 20), colSumSq_blocks 20 5000 rows2 (mlpOut2 V c)]
  show _ = ∑ t : Fin 20, colSumSq (blockRows 20 5000 rows2 t (mlpOut2 V c)) (ix1 (i 1))
  refine Finset.sum_congr rfl fun t _ => ?_
  unfold sqPart2
  rw [dif_pos t.isLt]

theorem flushed2_6_eq (c : Dev nD) (t : Fin cfg2.N) :
    (dat2 (F := Ideal) V c).flushed 6 t = ((cfg2.win 6).blk t).view.read (Elt Ideal) (mlpOut2 V c) := by
  obtain ⟨e00, e01, e10, e11, e20, e21, e30, e31, e40, e41, e50, e51, e60, e61, e70, e71, e80, e81⟩ := index2_facts t
  show (cfg2.win 6).cut (grid2.coords t) ((dat2 V c).after 6 t) = _
  rw [after2_6]
  funext j
  show (outAt2 V c t : Mat 5000 128) j = mlpOut2 V c (((cfg2.win 6).blk t).view.emb j)
  rw [outAt2_eq V c t]
  unfold blockRows
  congr 1
  funext a
  apply Fin.ext
  match a with
  | ⟨0, _⟩ => show 5000 * t.val + (j 0).val = win2_6.index t (0 : Fin 2) * 5000 + 1 * (j 0).val; rw [e60]; omega
  | ⟨1, _⟩ => show (j 1).val = win2_6.index t (1 : Fin 2) * 128 + 1 * (j 1).val; rw [e61]; omega

theorem mem_block2_6 (t : Fin cfg2.N) (i : S100000x128.Idx) :
    i ∈ ((cfg2.win 6).blk t).view.set
      ↔ ∀ a : Fin 2, win2_6.index t a * S5000x128.size a ≤ (i a).val
          ∧ (i a).val < win2_6.index t a * S5000x128.size a + S5000x128.size a := by
  show i ∈ ((View.whole main_v47_0).slice (win2_6.rect t)).set ↔ _
  rw [View.set_slice_whole, Rect.mem_set_unit]
  exact Iff.rfl

theorem blocks2_6_cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨e00, e01, e10, e11, e20, e21, e30, e31, e40, e41, e50, e51, e60, e61, e70, e71, e80, e81⟩ := index2_facts t
  refine ⟨t, flush2_6 t, ?_⟩
  rw [mem_block2_6]
  intro a
  match a with
  | ⟨0, _⟩ => show win2_6.index t (0 : Fin 2) * 5000 ≤ (i 0).val ∧ (i 0).val < win2_6.index t (0 : Fin 2) * 5000 + 5000
              rw [e60, ht]; omega
  | ⟨1, _⟩ => show win2_6.index t (1 : Fin 2) * 128 ≤ (i 1).val ∧ (i 1).val < win2_6.index t (1 : Fin 2) * 128 + 128
              rw [e61]; omega

theorem arrAt2_6 (c : Dev nD) :
    ((dat2 (F := Ideal) V c).arrAt 6 cfg2.N : Mat 100000 128) = mlpOut2 V c :=
  (dat2 (F := Ideal) V c).arrAt_eq_of_cover 6 _ (fun t _ => flushed2_6_eq V c t) (blocks2_6_cover)

theorem cut_row2_7 (t : Fin cfg2.N) (X : Vec Ideal S1x128 .f32) : (cfg2.win 7).cut (grid2.coords t) X = X := rfl

theorem read_row2_7 (t : Fin cfg2.N) (G : Mat 1 128) :
    (((cfg2.win 7).blk t).view.read (Elt Ideal) G : Mat 1 128) = G := by
  obtain ⟨e00, e01, e10, e11, e20, e21, e30, e31, e40, e41, e50, e51, e60, e61, e70, e71, e80, e81⟩ := index2_facts t
  funext j
  show G (((cfg2.win 7).blk t).view.emb j) = G j
  congr 1
  funext a
  apply Fin.ext
  match a with
  | ⟨0, _⟩ => show win2_7.index t (0 : Fin 2) * 1 + 1 * (j 0).val = (j 0).val; rw [e70]; omega
  | ⟨1, _⟩ => show win2_7.index t (1 : Fin 2) * 128 + 1 * (j 1).val = (j 1).val; rw [e71]; omega

theorem flushed2_7_eq (c : Dev nD) (t : Fin cfg2.N) (hf : (cfg2.win 7).flush t = true) :
    (dat2 (F := Ideal) V c).flushed 7 t
      = ((cfg2.win 7).blk t).view.read (Elt Ideal) (matOf (colSum (mlpOut2 V c)) : Mat 1 128) := by
  have hN : t.val < 20 := lt_of_lt_of_eq t.isLt (show cfg2.N = 20 from N_2)
  have h19 : t.val = 19 := by have := (flush2_7 t).mp hf; omega
  show (cfg2.win 7).cut (grid2.coords t) ((dat2 V c).after 7 t) = _
  refine (cut_row2_7 t _).trans ?_
  rw [after2_7]
  refine Eq.trans ?_ (read_row2_7 t _).symm
  exact sum_last2 V c t h19

theorem mem_block2_7 (t : Fin cfg2.N) (i : S1x128.Idx) :
    i ∈ ((cfg2.win 7).blk t).view.set
      ↔ ∀ a : Fin 2, win2_7.index t a * S1x128.size a ≤ (i a).val
          ∧ (i a).val < win2_7.index t a * S1x128.size a + S1x128.size a := by
  show i ∈ ((View.whole main_v47_1).slice (win2_7.rect t)).set ↔ _
  rw [View.set_slice_whole, Rect.mem_set_unit]
  exact Iff.rfl

theorem blocks2_7_cover (i : S1x128.Idx) :
    ∃ t : Fin cfg2.N, (cfg2.win 7).flush t = true ∧ i ∈ ((cfg2.win 7).blk t).view.set := by
  have hi0 : (i 0).val < 1 := (i 0).isLt
  have hi1 : (i 1).val < 128 := (i 1).isLt
  let t : Fin cfg2.N := ⟨19, lt_of_lt_of_eq (by decide : 19 < 20) (show cfg2.N = 20 from N_2).symm⟩
  obtain ⟨e00, e01, e10, e11, e20, e21, e30, e31, e40, e41, e50, e51, e60, e61, e70, e71, e80, e81⟩ := index2_facts t
  refine ⟨t, (flush2_7 t).mpr rfl, ?_⟩
  rw [mem_block2_7]
  intro a
  match a with
  | ⟨0, _⟩ => show win2_7.index t (0 : Fin 2) * 1 ≤ (i 0).val ∧ (i 0).val < win2_7.index t (0 : Fin 2) * 1 + 1
              rw [e70]; omega
  | ⟨1, _⟩ => show win2_7.index t (1 : Fin 2) * 128 ≤ (i 1).val ∧ (i 1).val < win2_7.index t (1 : Fin 2) * 128 + 128
              rw [e71]; omega

theorem arrAt2_7 (c : Dev nD) :
    ((dat2 (F := Ideal) V c).arrAt 7 cfg2.N : Mat 1 128) = matOf (colSum (mlpOut2 V c)) :=
  (dat2 (F := Ideal) V c).arrAt_eq_of_cover 7 _ (fun t hf => flushed2_7_eq V c t hf) (blocks2_7_cover)

theorem cut_row2_8 (t : Fin cfg2.N) (X : Vec Ideal S1x128 .f32) : (cfg2.win 8).cut (grid2.coords t) X = X := rfl

theorem read_row2_8 (t : Fin cfg2.N) (G : Mat 1 128) :
    (((cfg2.win 8).blk t).view.read (Elt Ideal) G : Mat 1 128) = G := by
  obtain ⟨e00, e01, e10, e11, e20, e21, e30, e31, e40, e41, e50, e51, e60, e61, e70, e71, e80, e81⟩ := index2_facts t
  funext j
  show G (((cfg2.win 8).blk t).view.emb j) = G j
  congr 1
  funext a
  apply Fin.ext
  match a with
  | ⟨0, _⟩ => show win2_8.index t (0 : Fin 2) * 1 + 1 * (j 0).val = (j 0).val; rw [e80]; omega
  | ⟨1, _⟩ => show win2_8.index t (1 : Fin 2) * 128 + 1 * (j 1).val = (j 1).val; rw [e81]; omega

theorem flushed2_8_eq (c : Dev nD) (t : Fin cfg2.N) (hf : (cfg2.win 8).flush t = true) :
    (dat2 (F := Ideal) V c).flushed 8 t
      = ((cfg2.win 8).blk t).view.read (Elt Ideal) (matOf (colSumSq (mlpOut2 V c)) : Mat 1 128) := by
  have hN : t.val < 20 := lt_of_lt_of_eq t.isLt (show cfg2.N = 20 from N_2)
  have h19 : t.val = 19 := by have := (flush2_8 t).mp hf; omega
  show (cfg2.win 8).cut (grid2.coords t) ((dat2 V c).after 8 t) = _
  refine (cut_row2_8 t _).trans ?_
  rw [after2_8]
  refine Eq.trans ?_ (read_row2_8 t _).symm
  exact sq_last2 V c t h19

theorem mem_block2_8 (t : Fin cfg2.N) (i : S1x128.Idx) :
    i ∈ ((cfg2.win 8).blk t).view.set
      ↔ ∀ a : Fin 2, win2_8.index t a * S1x128.size a ≤ (i a).val
          ∧ (i a).val < win2_8.index t a * S1x128.size a + S1x128.size a := by
  show i ∈ ((View.whole main_v47_2).slice (win2_8.rect t)).set ↔ _
  rw [View.set_slice_whole, Rect.mem_set_unit]
  exact Iff.rfl

theorem blocks2_8_cover (i : S1x128.Idx) :
    ∃ t : Fin cfg2.N, (cfg2.win 8).flush t = true ∧ i ∈ ((cfg2.win 8).blk t).view.set := by
  have hi0 : (i 0).val < 1 := (i 0).isLt
  have hi1 : (i 1).val < 128 := (i 1).isLt
  let t : Fin cfg2.N := ⟨19, lt_of_lt_of_eq (by decide : 19 < 20) (show cfg2.N = 20 from N_2).symm⟩
  obtain ⟨e00, e01, e10, e11, e20, e21, e30, e31, e40, e41, e50, e51, e60, e61, e70, e71, e80, e81⟩ := index2_facts t
  refine ⟨t, (flush2_8 t).mpr rfl, ?_⟩
  rw [mem_block2_8]
  intro a
  match a with
  | ⟨0, _⟩ => show win2_8.index t (0 : Fin 2) * 1 ≤ (i 0).val ∧ (i 0).val < win2_8.index t (0 : Fin 2) * 1 + 1
              rw [e80]; omega
  | ⟨1, _⟩ => show win2_8.index t (1 : Fin 2) * 128 ≤ (i 1).val ∧ (i 1).val < win2_8.index t (1 : Fin 2) * 128 + 128
              rw [e81]; omega

theorem arrAt2_8 (c : Dev nD) :
    ((dat2 (F := Ideal) V c).arrAt 8 cfg2.N : Mat 1 128) = matOf (colSumSq (mlpOut2 V c)) :=
  (dat2 (F := Ideal) V c).arrAt_eq_of_cover 8 _ (fun t hf => flushed2_8_eq V c t hf) (blocks2_8_cover)

end Cert.KernelIdeal.Hand

end
-- ==== Proof.Val3.lean ====
import proofs.«412881_j60095182405865_1_alg».proof.Proof.Reg3
import proofs.«412881_j60095182405865_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.GinSpec Idealize.ShloMosaic.ValueIdx

variable (V : (c : Dev nD) → (b : Ref sig .tc) → Buf (Elt Ideal) ((c : Thread nD τ).loc b))

theorem offsets3_zero : (![0, 0] : Fin 2 → Nat) = fun _ => 0 := funext fun a => by fin_cases a <;> rfl

theorem pay3_at (x0 : Vec Ideal S5000x128 .f32) (x1 x2 : Vec Ideal S1x128 .f32) (p : Fin 5000) (q : Fin 128) :
    k3_pay1 x0 x1 x2 (ix2 p q) = x0 (ix2 p q) * x1 (ix2 0 q) + x2 (ix2 0 q) := by
  unfold k3_pay1
  simp only [shapeCast_self, addf_apply, mulf_apply]
  rw [broadcastTo_apply x1 _ (ix2 p q) (ix2 0 q) (fun a => by match a with | ⟨0, _⟩ => rfl | ⟨1, _⟩ => rfl),
    broadcastTo_apply x2 _ (ix2 p q) (ix2 0 q) (fun a => by match a with | ⟨0, _⟩ => rfl | ⟨1, _⟩ => rfl)]

theorem pay3_of_arrays (h : Mat 100000 128) (sc sh : Mat 1 128)
    (x0 : Vec Ideal S5000x128 .f32) (x1 x2 : Vec Ideal S1x128 .f32) (n : Nat)
    (j : S5000x128.Idx) (i : S100000x128.Idx)
    (hx0 : ∀ (y : S5000x128.Idx) (k : S100000x128.Idx), (k 0).val = 5000 * n + (y 0).val → (k 1).val = (y 1).val → x0 y = h k)
    (hx1 : x1 = sc) (hx2 : x2 = sh)
    (hi0 : (i 0).val = 5000 * n + (j 0).val) (hi1 : (i 1).val = (j 1).val) :
    k3_pay1 x0 x1 x2 j = (affine h (rowOf sc) (rowOf sh)) i := by
  obtain ⟨p, q, rfl⟩ : ∃ (p : Fin 5000) (q : Fin 128), j = ix2 p q := ⟨j 0, j 1, eq_ix2 j⟩
  rw [pay3_at, hx0 (ix2 p q) i hi0 hi1, hx1, hx2]
  have hq : i 1 = q := Fin.ext hi1
  unfold affine rowOf
  show _ = h i * sc (ix2 0 (ix1 (i 1) 0)) + sh (ix2 0 (ix1 (i 1) 0))
  rw [hq]

theorem index3_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem flushed3_eq (c : Dev nD) (t : Fin cfg3.N) :
    (dat3 (F := Ideal) V c).flushed 3 t
      = ((cfg3.win 3).blk t).view.read (Elt Ideal) (affine (V c main_v47_0) (rowOf (V c main_v60)) (rowOf (V c main_v64)) : Mat 100000 128) := by
  show (cfg3.win 3).cut (grid3.coords t) ((dat3 V c).after 3 t) = _
  rw [after3_out]
  unfold bnBlock3
  rw [View.canon_unit_zero offsets3_zero]
  simp only [View.ld_unit_zero (S := S5000x128) offsets3_zero, View.ld_unit_zero (S := S1x128) offsets3_zero]
  obtain ⟨e0, e1, e2, e3, e4, e5, e6, e7⟩ := index3_facts t
  funext j
  show k3_pay1 (blk3 V c 0 t) (blk3 V c 1 t) (blk3 V c 2 t) j
    = (affine (V c main_v47_0) (rowOf (V c main_v60)) (rowOf (V c main_v64)) : Mat 100000 128) (((cfg3.win 3).blk t).view.emb j)
  refine pay3_of_arrays (V c main_v47_0) (V c main_v60) (V c main_v64) _ _ _ t.val j _ ?_ ?_ ?_ ?_ ?_
  · intro y k hk0 hk1
    show V c main_v47_0 (((cfg3.win 0).blk t).view.emb y) = V c main_v47_0 k
    congr 1
    funext a
    apply Fin.ext
    match a with
    | ⟨0, _⟩ => show win3_0.index t (0 : Fin 2) * 5000 + 1 * (y 0).val = (k 0).val; rw [e0, hk0]; omega
    | ⟨1, _⟩ => show win3_0.index t (1 : Fin 2) * 128 + 1 * (y 1).val = (k 1).val; rw [e1, hk1]; omega
  · funext y
    show V c main_v60 (((cfg3.win 1).blk t).view.emb y) = V c main_v60 y
    congr 1
    funext a
    apply Fin.ext
    match a with
    | ⟨0, _⟩ => show win3_1.index t (0 : Fin 2) * 1 + 1 * (y 0).val = (y 0).val; rw [e2]; omega
    | ⟨1, _⟩ => show win3_1.index t (1 : Fin 2) * 128 + 1 * (y 1).val = (y 1).val; rw [e3]; omega
  · funext y
    show V c main_v64 (((cfg3.win 2).blk t).view.emb y) = V c main_v64 y
    congr 1
    funext a
    apply Fin.ext
    match a with
    | ⟨0, _⟩ => show win3_2.index t (0 : Fin 2) * 1 + 1 * (y 0).val = (y 0).val; rw [e4]; omega
    | ⟨1, _⟩ => show win3_2.index t (1 : Fin 2) * 128 + 1 * (y 1).val = (y 1).val; rw [e5]; omega
  · show win3_3.index t (0 : Fin 2) * 5000 + 1 * (j 0).val = 5000 * t.val + (j 0).val
    rw [e6]; omega
  · show win3_3.index t (1 : Fin 2) * 128 + 1 * (j 1).val = (j 1).val
    rw [e7]; omega

theorem mem_block3 (t : Fin cfg3.N) (i : S100000x128.Idx) :
    i ∈ ((cfg3.win 3).blk t).view.set
      ↔ ∀ a : Fin 2, win3_3.index t a * S5000x128.size a ≤ (i a).val
          ∧ (i a).val < win3_3.index t a * S5000x128.size a + S5000x128.size a := by
  show i ∈ ((View.whole main_v65).slice (win3_3.rect t)).set ↔ _
  rw [View.set_slice_whole, Rect.mem_set_unit]
  exact Iff.rfl

theorem blocks3_cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨e0, e1, e2, e3, e4, e5, e6, e7⟩ := index3_facts t
  refine ⟨t, flush3_3 t, ?_⟩
  rw [mem_block3]
  intro a
  match a with
  | ⟨0, _⟩ => show win3_3.index t (0 : Fin 2) * 5000 ≤ (i 0).val ∧ (i 0).val < win3_3.index t (0 : Fin 2) * 5000 + 5000
              rw [e6, ht]; omega
  | ⟨1, _⟩ => show win3_3.index t (1 : Fin 2) * 128 ≤ (i 1).val ∧ (i 1).val < win3_3.index t (1 : Fin 2) * 128 + 128
              rw [e7]; omega

theorem arrAt3_3 (c : Dev nD) :
    ((dat3 (F := Ideal) V c).arrAt 3 cfg3.N : Mat 100000 128) = affine (V c main_v47_0) (rowOf (V c main_v60)) (rowOf (V c main_v64)) :=
  (dat3 (F := Ideal) V c).arrAt_eq_of_cover 3 _ (fun t _ => flushed3_eq V c t) (blocks3_cover)

end Cert.KernelIdeal.Hand

end
-- ==== Proof.Val4Cases.lean ====
import proofs.«412881_j60095182405865_1_alg».proof.Proof.Reg4
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zeroOff2 : (![0, 0] : Fin 2 → Nat) = fun _ => 0 := funext fun a => by fin_cases a <;> rfl

theorem accFirst_eq (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : isFirstBlock i) (hc1 : ¬isLastBlock i) (x0 : Vec F S2048x128 .f32) (x1 : Vec F S2048x1 .i32) :
    accFirst c i arg1 harg1 arg2 harg2 arg3 harg3 arg4 harg4 arg5 harg5 arg6 harg6 hc0 hc1 x0 x1 = k4_pay2 x1 x0 (k4_pay1 (F := F)) := by
  unfold accFirst
  rw [View.read_writes_eq_canon _ _ _ (accFirst_cover c i arg1 harg1 arg2 harg2 arg3 harg3 arg4 harg4 arg5 harg5 arg6 harg6 hc0 hc1 x0 x1)]
  unfold poolRunFirst
  dsimp only
  try sl_unfold_words
  rw [View.canon_cons_unit_zero zeroOff2]
  rw [View.readCov_unit_zero (S := S512x128) _ zeroOff2]
  simp only [View.readAt_eq_ld, harg1.read_unread, harg2.read_unread, View.ld_unit_zero (S := S2048x128) zeroOff2, View.ld_unit_zero (S := S2048x1) zeroOff2]

theorem accMid_eq (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : ¬isLastBlock i) (x0 : Vec F S2048x128 .f32) (x1 : Vec F S2048x1 .i32) (xs : Vec F S512x128 .f32) :
    accMid c i arg1 harg1 arg2 harg2 arg3 harg3 arg4 harg4 arg5 harg5 arg6 harg6 hc0 hc1 x0 x1 xs = k4_pay2 x1 x0 xs := by
  unfold accMid
  rw [View.read_writes_eq_canon _ _ _ (accMid_cover c i arg1 harg1 arg2 harg2 arg3 harg3 arg4 harg4 arg5 harg5 arg6 harg6 hc0 hc1 x0 x1 xs)]
  unfold poolRunMid
  dsimp only
  try sl_unfold_words
  rw [View.canon_unit_zero zeroOff2]
  simp only [View.readAt_eq_ld, harg1.read_unread, harg2.read_unread, harg6.read_unread, View.ld_unit_zero (S := S2048x128) zeroOff2, View.ld_unit_zero (S := S2048x1) zeroOff2, View.ld_unit_zero (S := S512x128) zeroOff2]

theorem accLast_eq (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) :
    accLast c i arg1 harg1 arg2 harg2 arg3 harg3 arg4 harg4 arg5 harg5 arg6 harg6 hc0 hc1 x0 x1 x2 x3 xs = k4_pay2 x1 x0 xs := by
  unfold accLast
  rw [View.read_writes_eq_canon _ _ _ (accLast_cover c i arg1 harg1 arg2 harg2 arg3 harg3 arg4 harg4 arg5 harg5 arg6 harg6 hc0 hc1 x0 x1 x2 x3 xs)]
  unfold poolRunLast
  dsimp only
  try sl_unfold_words
  rw [View.canon_unit_zero zeroOff2]
  simp only [View.readAt_eq_ld, harg1.read_unread, harg2.read_unread, harg6.read_unread, View.ld_unit_zero (S := S2048x128) zeroOff2, View.ld_unit_zero (S := S2048x1) zeroOff2, View.ld_unit_zero (S := S512x128) zeroOff2]

theorem logitsLast_eq (c : Dev nD) (i : grid4.Coords) (arg1 : Memref sig .tc .vmem S2048x128 .f32) (harg1 : arg1.IsWhole) (arg2 : Memref sig .tc .vmem S2048x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x128 .f32) (harg6 : arg6.IsWhole)
    (hc0 : ¬isFirstBlock i) (hc1 : isLastBlock i) (x0 : Vec F S2048x128 .f32) (x1 : Vec F S2048x1 .i32) (x2 : Vec F S128x10 .f32) (x3 : Vec F S1x10 .f32) (xs : Vec F S512x128 .f32) :
    logitsLast c i arg1 harg1 arg2 harg2 arg3 harg3 arg4 harg4 arg5 harg5 arg6 harg6 hc0 hc1 x0 x1 x2 x3 xs = k4_pay3 x2 (k4_pay2 x1 x0 xs) x3 := by
  unfold logitsLast
  rw [View.read_writes_eq_canon _ _ _ (logitsLast_cover c i arg1 harg1 arg2 harg2 arg3 harg3 arg4 harg4 arg5 harg5 arg6 harg6 hc0 hc1 x0 x1 x2 x3 xs)]
  unfold poolRunLast
  dsimp only
  try sl_unfold_words
  rw [View.canon_unit_zero zeroOff2]
  rw [View.readCov_unit_zero (S := S512x128) _ zeroOff2]
  simp only [View.readAt_eq_ld, harg1.read_unread, harg2.read_unread, harg3.read_unread, harg4.read_unread, harg6.read_unread, View.ld_unit_zero (S := S2048x128) zeroOff2, View.ld_unit_zero (S := S2048x1) zeroOff2, View.ld_unit_zero (S := S512x128) zeroOff2, View.ld_unit_zero (S := S128x10) zeroOff2, View.ld_unit_zero (S := S1x10) zeroOff2]

end Cert.KernelIdeal.Hand

end
-- ==== Proof.Val4.lean ====
import proofs.«412881_j60095182405865_1_alg».proof.Proof.Val4Cases
import proofs.«412881_j60095182405865_1_alg».proof.Proof.Spec
import proofs.«412881_j60095182405865_1_alg».proof.Proof.BlockSums
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.GinSpec Cert.GinAlgebra Idealize.ShloMosaic.ValueIdx

variable (V : (c : Dev nD) → (b : Ref sig .tc) → Buf (Elt Ideal) ((c : Thread nD τ).loc b))

theorem index4_facts : ∀ t : Fin cfg4.N,
    win4_0.index t (0 : Fin 2) = t.val ∧ win4_0.index t (1 : Fin 2) = 0 ∧ win4_1.index t (0 : Fin 2) = t.val ∧ win4_1.index t (1 : Fin 2) = 0
    ∧ win4_2.index t (0 : Fin 2) = 0 ∧ win4_2.index t (1 : Fin 2) = 0 ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

abbrev blkNo (t : Fin cfg4.N) : Fin 49 := ⟨t.val, lt_of_lt_of_eq t.isLt (show cfg4.N = 49 from N_4)⟩

abbrev feats (c : Dev nD) : Mat 100352 128 := V c main_v66
abbrev gids (c : Dev nD) : Fin 100352 → BitVec 32 := fun r => (V c main_v68 : S100352x1.Idx → BitVec 32) (ix2 r 0)

theorem featBlock_apply (c : Dev nD) (t : Fin cfg4.N) (x : S2048x128.Idx) (k : S100352x128.Idx)
    (hk0 : (k 0).val = 2048 * t.val + (x 0).val) (hk1 : (k 1).val = (x 1).val) :
    (iblk4 V c 0 t : Vec Ideal S2048x128 .f32) x = (V c main_v66 : S100352x128.Idx → Elt Ideal .f32) k := by
  obtain ⟨h0, h1, -⟩ := index4_facts t
  unfold iblk4
  rw [View.read_apply]
  show V c main_v66 _ = V c main_v66 _
  congr 1
  funext a
  apply Fin.ext
  match a with
  | ⟨0, _⟩ => show win4_0.index t 0 * 2048 + 1 * (x 0).val = (k 0).val; rw [h0, hk0]; omega
  | ⟨1, _⟩ => show win4_0.index t 1 * 128 + 1 * (x 1).val = (k 1).val; rw [h1, hk1]; omega

theorem idBlock_apply (c : Dev nD) (t : Fin cfg4.N) (x : S2048x1.Idx) (k : S100352x1.Idx)
    (hk0 : (k 0).val = 2048 * t.val + (x 0).val) (hk1 : (k 1).val = (x 1).val) :
    (iblk4 V c 1 t : Vec Ideal S2048x1 .i32) x = (V c main_v68 : S100352x1.Idx → Elt Ideal .i32) k := by
  obtain ⟨-, -, h0, h1, -⟩ := index4_facts t
  unfold iblk4
  rw [View.read_apply]
  show V c main_v68 _ = V c main_v68 _
  congr 1
  funext a
  apply Fin.ext
  match a with
  | ⟨0, _⟩ => show win4_1.index t 0 * 2048 + 1 * (x 0).val = (k 0).val; rw [h0, hk0]; omega
  | ⟨1, _⟩ => show win4_1.index t 1 * 1 + 1 * (x 1).val = (k 1).val; rw [h1, hk1]; omega

theorem featBlock_eq (c : Dev nD) (t : Fin cfg4.N) :
    (iblk4 V c 0 t : Vec Ideal S2048x128 .f32) = blockRows 49 2048 rfl (blkNo t) (feats V c) := by
  funext x
  exact featBlock_apply V c t x _ rfl rfl

theorem idBlock_eq (c : Dev nD) (t : Fin cfg4.N) :
    (fun r : Fin 2048 => (iblk4 V c 1 t : Vec Ideal S2048x1 .i32) (ix2 r 0)) = blockIds 49 2048 rfl (blkNo t) (gids V c) := by
  funext r
  exact idBlock_apply V c t (ix2 r 0) _ rfl rfl

theorem weightBlock_eq (c : Dev nD) (t : Fin cfg4.N) :
    (iblk4 V c 2 t : Vec Ideal S128x10 .f32) = (V c main_arg15 : S128x10.Idx → Elt Ideal .f32) := by
  obtain ⟨-, -, -, -, h0, h1, -⟩ := index4_facts t
  funext x
  unfold iblk4
  rw [View.read_apply]
  show V c main_arg15 _ = V c main_arg15 _
  congr 1
  funext a
  apply Fin.ext
  match a with
  | ⟨0, _⟩ => show win4_2.index t 0 * 128 + 1 * (x 0).val = (x 0).val; rw [h0]; omega
  | ⟨1, _⟩ => show win4_2.index t 1 * 10 + 1 * (x 1).val = (x 1).val; rw [h1]; omega

theorem biasBlock_eq (c : Dev nD) (t : Fin cfg4.N) :
    (iblk4 V c 3 t : Vec Ideal S1x10 .f32) = (V c main_v69 : S1x10.Idx → Elt Ideal .f32) := by
  obtain ⟨-, -, -, -, -, -, h0, h1, -⟩ := index4_facts t
  funext x
  unfold iblk4
  rw [View.read_apply]
  show V c main_v69 _ = V c main_v69 _
  congr 1
  funext a
  apply Fin.ext
  match a with
  | ⟨0, _⟩ => show win4_3.index t 0 * 1 + 1 * (x 0).val = (x 0).val; rw [h0]; omega
  | ⟨1, _⟩ => show win4_3.index t 1 * 10 + 1 * (x 1).val = (x 1).val; rw [h1]; omega

def blockPool (c : Dev nD) (t : ℕ) : Mat 512 128 :=
  if h : t < 49 then pool 512 (blockRows 49 2048 rfl ⟨t, h⟩ (feats V c)) (blockIds 49 2048 rfl ⟨t, h⟩ (gids V c)) else fun _ => 0

theorem blockPool_at (c : Dev nD) (t : Fin cfg4.N) :
    blockPool V c t.val = pool 512 (iblk4 V c 0 t : Vec Ideal S2048x128 .f32) (fun r : Fin 2048 => (iblk4 V c 1 t : Vec Ideal S2048x1 .i32) (ix2 r 0)) := by
  unfold blockPool
  rw [dif_pos (blkNo t).isLt, featBlock_eq V c t, idBlock_eq V c t]

section

variable (hzero : (k4_pay1 (F := Ideal) : S512x128.Idx → EReal) = fun _ => 0)
variable (hpool : ∀ (ids : Vec Ideal S2048x1 .i32) (h : Vec Ideal S2048x128 .f32) (acc : Vec Ideal S512x128 .f32),
    (k4_pay2 ids h acc : S512x128.Idx → EReal) = fun i => acc i + pool 512 h (fun r => ids (ix2 r 0)) i)
variable (hlogits : ∀ (lw : Vec Ideal S128x10 .f32) (p : Vec Ideal S512x128 .f32) (lb : Vec Ideal S1x10 .f32),
    (k4_pay3 lw p lb : S512x10.Idx → EReal) = dense p lw (rowOf lb))
include hzero hpool in

theorem accAt_eq (c : Dev nD) : ∀ (n : ℕ) (hn : n < cfg4.N) (i : S512x128.Idx),
    (accAt V c n hn : S512x128.Idx → EReal) i = ∑ t ∈ Finset.range (n + 1), blockPool V c t i
  | 0, hn, i => by
    have e : accAt V c 0 hn = _ := accAt_first V c ⟨0, hn⟩ (Nat.zero_mod _) (show ¬(0 % 49 = 48) by decide)
    rw [e, accFirst_eq, hpool, hzero, Finset.sum_range_one, blockPool_at V c ⟨0, hn⟩]
    exact zero_add _
  | n + 1, hn, i => by
    have hN : n + 1 < 49 := lt_of_lt_of_eq hn (show cfg4.N = 49 from N_4)
    have h0 : ¬(n + 1) % 49 = 0 := by omega
    have hprev := accAt_eq c n (Nat.lt_of_succ_lt hn) i
    rw [Finset.sum_range_succ, ← hprev, blockPool_at V c ⟨n + 1, hn⟩]
    by_cases h2 : (n + 1) % 49 = 48
    · have e : accAt V c (n + 1) hn = _ := accAt_last V c ⟨n + 1, hn⟩ h0 h2
      rw [e, accLast_eq, hpool]
      rfl
    · have e : accAt V c (n + 1) hn = _ := accAt_mid V c ⟨n + 1, hn⟩ h0 h2
      rw [e, accMid_eq, hpool]
      rfl

abbrev lastPt : Fin cfg4.N := ⟨48, by rw [show cfg4.N = 49 from N_4]; decide⟩

include hzero hpool in

theorem accAt_final (c : Dev nD) : (accAt V c lastPt.val lastPt.isLt : S512x128.Idx → EReal) = pool 512 (feats V c) (gids V c) := by
  funext i
  rw [accAt_eq V hzero hpool c 48 lastPt.isLt i, congrFun (pool_blocks 49 2048 rfl (feats V c) (gids V c) 512) i]
  show (∑ t ∈ Finset.range 49, blockPool V c t i) = _
  rw [← Fin.sum_univ_eq_sum_range (fun t => blockPool V c t i) 49]
  refine Finset.sum_congr rfl fun t _ => ?_
  unfold blockPool; rw [dif_pos t.isLt]

abbrev logitsResult (c : Dev nD) : Mat 512 10 :=
  dense (pool 512 (feats V c) (gids V c)) (V c main_arg15) (rowOf (V c main_v69))

include hzero hpool hlogits in

theorem logits_final (c : Dev nD) : (logitsAt V c lastPt.val lastPt.isLt : S512x10.Idx → EReal) = logitsResult V c := by
  have hacc : k4_pay2 (iblk4 V c 1 lastPt : Vec Ideal S2048x1 .i32) (iblk4 V c 0 lastPt : Vec Ideal S2048x128 .f32)
      (accAt V c (lastPt.val - 1) (Nat.lt_of_le_of_lt (Nat.sub_le _ _) lastPt.isLt)) = accAt V c lastPt.val lastPt.isLt := by
    rw [accAt_last V c lastPt (by decide) (by decide), accLast_eq]
  rw [logitsAt_last V c lastPt (by decide) (by decide), logitsLast_eq, hacc, hlogits, accAt_final V hzero hpool c,
    weightBlock_eq V c lastPt, biasBlock_eq V c lastPt]

include hzero hpool hlogits in

theorem flushed4_eq (c : Dev nD) (t : Fin cfg4.N) (hf : (cfg4.win 4).flush t = true) :
    (dat4 V c).flushed 4 t = ((cfg4.win 4).blk t).view.read (Elt Ideal) (logitsResult V c) := by
  have h1 : t.val = 48 := by have := (flush4_4 t).mp hf; have := lt_of_lt_of_eq t.isLt (show cfg4.N = 49 from N_4); omega
  obtain rfl : t = lastPt := Fin.ext h1
  show (cfg4.win 4).cut (grid4.coords lastPt) ((dat4 V c).after 4 lastPt) = _
  rw [after4_4, logits_final V hzero hpool hlogits c]
  have hz' : (fun a => win4_4.index lastPt a * main_v70.ty.shape.size a) = fun _ => 0 := funext fun a => by fin_cases a <;> decide +kernel
  exact (Memref.read_access_unit_zero (Elt Ideal) main_v70 hz' (fun a => by rw [congrFun hz' a]; simp) (logitsResult V c)).symm

include hzero hpool hlogits in

theorem arrAt4_4_of (c : Dev nD) : ((dat4 (F := Ideal) V c).arrAt 4 cfg4.N : Mat 512 10)
    = dense (pool 512 (V c main_v66) (fun r => V c main_v68 (ix2 r 0))) (V c main_arg15) (rowOf (V c main_v69)) :=
  (dat4 V c).arrAt_eq_of_cover 4 (logitsResult V c) (flushed4_eq V hzero hpool hlogits c) fun i =>
    ⟨lastPt, (flush4_4 lastPt).mpr rfl, by
      show i ∈ ((View.whole main_v70).slice (win4_4.rect lastPt)).set
      rw [View.set_slice_whole, Rect.mem_set_unit]
      intro a
      have h0 : (i 0 : Nat) < 512 := (i 0).isLt
      have h1 : (i 1 : Nat) < 10 := (i 1).isLt
      match a with
      | ⟨0, _⟩ => show win4_4.index lastPt 0 * win4_4.size 0 ≤ (i 0 : Nat) ∧ (i 0 : Nat) < win4_4.index lastPt 0 * win4_4.size 0 + win4_4.xsize (grid4.coords lastPt) 0
                  rw [show win4_4.index lastPt 0 * win4_4.size 0 = 0 from by decide +kernel, show win4_4.xsize (grid4.coords lastPt) 0 = 512 from by decide +kernel]; omega
      | ⟨1, _⟩ => show win4_4.index lastPt 1 * win4_4.size 1 ≤ (i 1 : Nat) ∧ (i 1 : Nat) < win4_4.index lastPt 1 * win4_4.size 1 + win4_4.xsize (grid4.coords lastPt) 1
                  rw [show win4_4.index lastPt 1 * win4_4.size 1 = 0 from by decide +kernel, show win4_4.xsize (grid4.coords lastPt) 1 = 10 from by decide +kernel]; omega⟩

end

end Cert.KernelIdeal.Hand

end
-- ==== Proof.Val4Final.lean ====
import proofs.«412881_j60095182405865_1_alg».proof.Proof.Val4
import proofs.«412881_j60095182405865_1_alg».proof.Proof.PaySpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.GinSpec Cert.GinAlgebra Idealize.ShloMosaic.ValueIdx

variable (V : (c : Dev nD) → (b : Ref sig .tc) → Buf (Elt Ideal) ((c : Thread nD τ).loc b))

theorem arrAt4_4 (c : Dev nD) : ((dat4 (F := Ideal) V c).arrAt 4 cfg4.N : Mat 512 10)
    = dense (pool 512 (V c main_v66) (fun r => V c main_v68 (ix2 r 0))) (V c main_arg15) (rowOf (V c main_v69)) :=
  arrAt4_4_of V pay_zero4 pay_pool4 pay_logits4 c

end Cert.KernelIdeal.Hand

end
-- ==== Proof.KGlue0.lean ====
import proofs.«412881_j60095182405865_1_alg».proof.Proof.Gen.KernelIdeal.Launch
import proofs.«412881_j60095182405865_1_alg».proof.Proof.Gen.KernelIdeal.Regions
import proofs.«412881_j60095182405865_1_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.TcCoe
open Cert.KernelIdeal Cert.KernelIdeal.Gen Cert.GinSpec Idealize.ShloMosaic.ValueIdx

private theorem rowOf_cast {d : Nat} (v : Row d) (h : (⟨1, ![d]⟩ : Shape).ShapeCasts ⟨2, ![1, d]⟩) :
    rowOf (shapeCast ⟨2, ![1, d]⟩ v h : Mat 1 d) = v :=
  funext fun j => (shapeCast_a_1a_apply v h 0 (j 0)).trans (congrArg v (eq_ix1 j).symm)

def edgeSrc (ei : IVec S2x1600000 32) : IVec S1600000 32 :=
  shapeCast S1600000 (extractStridedSlice S1x1600000 ![0, 0] ei slices_S2x1600000_S1x1600000_0_0) shapeCasts_S1x1600000_S1600000

def edgeDst (ei : IVec S2x1600000 32) : IVec S1600000 32 :=
  shapeCast S1600000 (extractStridedSlice S1x1600000 ![1, 0] ei slices_S2x1600000_S1x1600000_1_0) shapeCasts_S1x1600000_S1600000

def kAgg' (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

def kAgg (x : FVec Ideal S100000x128 .f32) (ei : IVec S2x1600000 32) : FVec Ideal S100000x128 .f32 :=
  kAgg' x (edgeSrc ei) (edgeDst ei)

theorem kAgg_eq (x : FVec Ideal S100000x128 .f32) (ei : IVec S2x1600000 32) :
    kAgg x ei = kAgg' x (edgeSrc ei) (edgeDst ei) := rfl

variable (W : Valuation τ sig (Elt Ideal))

theorem glue0_src :
    (StableHlo.after hostOps0 W (Proc.devRef .tc main_v1) : IVec S1600000 32) = edgeSrc (W (Proc.devRef .tc main_arg1)) := by
  dsimp only [hostOps0]; after_results; rfl

theorem glue0_dst :
    (StableHlo.after hostOps0 W (Proc.devRef .tc main_v3) : IVec S1600000 32) = edgeDst (W (Proc.devRef .tc main_arg1)) := by
  dsimp only [hostOps0]; after_results; rfl

theorem glue0_agg :
    (StableHlo.after hostOps0 W (Proc.devRef .tc main_v13) : FVec Ideal S100000x128 .f32)
      = kAgg (W (Proc.devRef .tc main_arg0)) (W (Proc.devRef .tc main_arg1)) := by
  dsimp only [hostOps0]; after_results_simp; rfl

theorem glue0_b1 :
    rowOf (StableHlo.after hostOps0 W (Proc.devRef .tc main_v14) : Mat 1 128) = (W (Proc.devRef .tc main_arg4) : Row 128) := by
  have e : (StableHlo.after hostOps0 W (Proc.devRef .tc main_v14) : FVec Ideal S1x128 .f32)
      = shapeCast S1x128 (W (Proc.devRef .tc main_arg4) : FVec Ideal S128 .f32) shapeCasts_S128_S1x128 := by
    dsimp only [hostOps0]; after_results_simp; rfl
  exact (congrArg rowOf e).trans (rowOf_cast _ _)

theorem glue0_b2 :
    rowOf (StableHlo.after hostOps0 W (Proc.devRef .tc main_v15) : Mat 1 128) = (W (Proc.devRef .tc main_arg6) : Row 128) := by
  have e : (StableHlo.after hostOps0 W (Proc.devRef .tc main_v15) : FVec Ideal S1x128 .f32)
      = shapeCast S1x128 (W (Proc.devRef .tc main_arg6) : FVec Ideal S128 .f32) shapeCasts_S128_S1x128 := by
    dsimp only [hostOps0]; after_results_simp; rfl
  exact (congrArg rowOf e).trans (rowOf_cast _ _)

theorem glue0_keep (r : Ref sig .tc) (h : r ∉ hostOps0_W) :
    StableHlo.after hostOps0 W (Proc.devRef .tc r) = W (Proc.devRef .tc r) :=
  StableHlo.after_of_writes_sub hostOps0 _ hostOps0_writes h

end Cert.KernelIdeal.Hand
-- ==== Proof.KGlue1.lean ====
import proofs.«412881_j60095182405865_1_alg».proof.Proof.Gen.KernelIdeal.Launch
import proofs.«412881_j60095182405865_1_alg».proof.Proof.Gen.KernelIdeal.Regions
import proofs.«412881_j60095182405865_1_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.TcCoe
open Cert.KernelIdeal Cert.KernelIdeal.Gen Cert.GinSpec Idealize.ShloMosaic.ValueIdx

private theorem rowOf_cast {d : Nat} (v : Row d) (h : (⟨1, ![d]⟩ : Shape).ShapeCasts ⟨2, ![1, d]⟩) :
    rowOf (shapeCast ⟨2, ![1, d]⟩ v h : Mat 1 d) = v :=
  funext fun j => (shapeCast_a_1a_apply v h 0 (j 0)).trans (congrArg v (eq_ix1 j).symm)

private theorem cast_row {d : Nat} (b : Mat 1 d) (h : (⟨2, ![1, d]⟩ : Shape).ShapeCasts ⟨1, ![d]⟩) :
    (shapeCast ⟨1, ![d]⟩ b h : Row d) = rowOf b :=
  funext fun j => (congrArg (shapeCast ⟨1, ![d]⟩ b h) (eq_ix1 j)).trans (shapeCast_1a_a_apply b h (j 0))

def hostN : FVec Ideal S128 .f32 := broadcastInDim S128 ![] bcast_S_S128 (constant (F := Ideal) S_ .f32 0x47C35000#32)

def hostEps : FVec Ideal S128 .f32 := broadcastInDim S128 ![] bcast_S_S128 (constant (F := Ideal) S_ .f32 0x3727C5AC#32)

def hostMean (s1 : FVec Ideal S1x128 .f32) : FVec Ideal S128 .f32 :=
  Host.divf (shapeCast S128 s1 shapeCasts_S1x128_S128) hostN

def hostInv (s1 s2 : FVec Ideal S1x128 .f32) : FVec Ideal S128 .f32 :=
  Host.rsqrt (addf (subf (Host.divf (shapeCast S128 s2 shapeCasts_S1x128_S128) hostN) (mulf (hostMean s1) (hostMean s1))) hostEps)

def hostScale (g : FVec Ideal S128 .f32) (s1 s2 : FVec Ideal S1x128 .f32) : FVec Ideal S1x128 .f32 :=
  shapeCast S1x128 (mulf g (hostInv s1 s2)) shapeCasts_S128_S1x128

def hostShift (g be : FVec Ideal S128 .f32) (s1 s2 : FVec Ideal S1x128 .f32) : FVec Ideal S1x128 .f32 :=
  shapeCast S1x128 (subf be (mulf (mulf (hostMean s1) g) (hostInv s1 s2))) shapeCasts_S128_S1x128

theorem hostMean_eq (s1 : FVec Ideal S1x128 .f32) :
    (hostMean s1 : Row 128) = kMean (Ideal.ofBits .f32 0x47C35000#32) (rowOf s1) := by
  funext j
  show Ideal.div ((shapeCast S128 s1 shapeCasts_S1x128_S128 : Row 128) j) (Ideal.ofBits .f32 0x47C35000#32)
    = Ideal.div (rowOf s1 j) (Ideal.ofBits .f32 0x47C35000#32)
  rw [cast_row]

theorem hostInv_eq (s1 s2 : FVec Ideal S1x128 .f32) :
    (hostInv s1 s2 : Row 128)
      = kInv (Ideal.ofBits .f32 0x47C35000#32) (Ideal.ofBits .f32 0x3727C5AC#32) (rowOf s1) (rowOf s2) := by
  funext j
  show Ideal.rsqrt (Ideal.div ((shapeCast S128 s2 shapeCasts_S1x128_S128 : Row 128) j) (Ideal.ofBits .f32 0x47C35000#32)
      - (hostMean s1 : Row 128) j * (hostMean s1 : Row 128) j + Ideal.ofBits .f32 0x3727C5AC#32)
    = Ideal.rsqrt (Ideal.div (rowOf s2 j) (Ideal.ofBits .f32 0x47C35000#32)
      - kMean (Ideal.ofBits .f32 0x47C35000#32) (rowOf s1) j * kMean (Ideal.ofBits .f32 0x47C35000#32) (rowOf s1) j
      + Ideal.ofBits .f32 0x3727C5AC#32)
  rw [cast_row, hostMean_eq]

theorem hostScale_row (g : FVec Ideal S128 .f32) (s1 s2 : FVec Ideal S1x128 .f32) :
    rowOf (hostScale g s1 s2 : Mat 1 128)
      = kScale (Ideal.ofBits .f32 0x47C35000#32) (Ideal.ofBits .f32 0x3727C5AC#32) g (rowOf s1) (rowOf s2) := by
  refine (rowOf_cast _ _).trans (funext fun j => ?_)
  show (g : Row 128) j * (hostInv s1 s2 : Row 128) j = (g : Row 128) j * kInv _ _ (rowOf s1) (rowOf s2) j
  rw [hostInv_eq]

theorem hostShift_row (g be : FVec Ideal S128 .f32) (s1 s2 : FVec Ideal S1x128 .f32) :
    rowOf (hostShift g be s1 s2 : Mat 1 128)
      = kShift (Ideal.ofBits .f32 0x47C35000#32) (Ideal.ofBits .f32 0x3727C5AC#32) g be (rowOf s1) (rowOf s2) := by
  refine (rowOf_cast _ _).trans (funext fun j => ?_)
  show (be : Row 128) j - (hostMean s1 : Row 128) j * (g : Row 128) j * (hostInv s1 s2 : Row 128) j
    = (be : Row 128) j - kMean _ (rowOf s1) j * (g : Row 128) j * kInv _ _ (rowOf s1) (rowOf s2) j
  rw [hostInv_eq, hostMean_eq]

variable (W : Valuation τ sig (Elt Ideal))

theorem glue1_scale :
    rowOf (StableHlo.after hostOps1 W (Proc.devRef .tc main_v29) : Mat 1 128)
      = kScale (Ideal.ofBits .f32 0x47C35000#32) (Ideal.ofBits .f32 0x3727C5AC#32) (W (Proc.devRef .tc main_arg7) : Row 128)
          (rowOf (W (Proc.devRef .tc main_v16_1) : Mat 1 128)) (rowOf (W (Proc.devRef .tc main_v16_2) : Mat 1 128)) := by
  have e : (StableHlo.after hostOps1 W (Proc.devRef .tc main_v29) : FVec Ideal S1x128 .f32)
      = hostScale (W (Proc.devRef .tc main_arg7)) (W (Proc.devRef .tc main_v16_1)) (W (Proc.devRef .tc main_v16_2)) := by
    dsimp only [hostOps1]; after_results_simp; rfl
  exact (congrArg rowOf e).trans (hostScale_row _ _ _)

theorem glue1_shift :
    rowOf (StableHlo.after hostOps1 W (Proc.devRef .tc main_v33) : Mat 1 128)
      = kShift (Ideal.ofBits .f32 0x47C35000#32) (Ideal.ofBits .f32 0x3727C5AC#32) (W (Proc.devRef .tc main_arg7) : Row 128)
          (W (Proc.devRef .tc main_arg8) : Row 128)
          (rowOf (W (Proc.devRef .tc main_v16_1) : Mat 1 128)) (rowOf (W (Proc.devRef .tc main_v16_2) : Mat 1 128)) := by
  have e : (StableHlo.after hostOps1 W (Proc.devRef .tc main_v33) : FVec Ideal S1x128 .f32)
      = hostShift (W (Proc.devRef .tc main_arg7)) (W (Proc.devRef .tc main_arg8)) (W (Proc.devRef .tc main_v16_1)) (W (Proc.devRef .tc main_v16_2)) := by
    dsimp only [hostOps1]; after_results_simp; rfl
  exact (congrArg rowOf e).trans (hostShift_row _ _ _ _)

theorem glue1_keep (r : Ref sig .tc) (h : r ∉ hostOps1_W) :
    StableHlo.after hostOps1 W (Proc.devRef .tc r) = W (Proc.devRef .tc r) :=
  StableHlo.after_of_writes_sub hostOps1 _ hostOps1_writes h

end Cert.KernelIdeal.Hand
-- ==== Proof.KGlue2.lean ====
import proofs.«412881_j60095182405865_1_alg».proof.Proof.Gen.KernelIdeal.Launch
import proofs.«412881_j60095182405865_1_alg».proof.Proof.Gen.KernelIdeal.Regions
import proofs.«412881_j60095182405865_1_alg».proof.Proof.Spec
import proofs.«412881_j60095182405865_1_alg».proof.Proof.KGlue0
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.TcCoe
open Cert.KernelIdeal Cert.KernelIdeal.Gen Cert.GinSpec Idealize.ShloMosaic.ValueIdx

private theorem rowOf_cast {d : Nat} (v : Row d) (h : (⟨1, ![d]⟩ : Shape).ShapeCasts ⟨2, ![1, d]⟩) :
    rowOf (shapeCast ⟨2, ![1, d]⟩ v h : Mat 1 d) = v :=
  funext fun j => (shapeCast_a_1a_apply v h 0 (j 0)).trans (congrArg v (eq_ix1 j).symm)

variable (W : Valuation τ sig (Elt Ideal))

theorem glue2_agg' :
    (StableHlo.after hostOps2 W (Proc.devRef .tc main_v44) : FVec Ideal S100000x128 .f32)
      = kAgg' (W (Proc.devRef .tc main_v34)) (W (Proc.devRef .tc main_v1)) (W (Proc.devRef .tc main_v3)) := by
  dsimp only [hostOps2]; after_results_simp; rfl

theorem glue2_agg (ei : IVec S2x1600000 32)
    (hs : (W (Proc.devRef .tc main_v1) : IVec S1600000 32) = edgeSrc ei)
    (hd : (W (Proc.devRef .tc main_v3) : IVec S1600000 32) = edgeDst ei) :
    (StableHlo.after hostOps2 W (Proc.devRef .tc main_v44) : FVec Ideal S100000x128 .f32)
      = kAgg (W (Proc.devRef .tc main_v34)) ei := by
  rw [glue2_agg', hs, hd, kAgg_eq]

theorem glue2_b1 :
    rowOf (StableHlo.after hostOps2 W (Proc.devRef .tc main_v45) : Mat 1 128) = (W (Proc.devRef .tc main_arg10) : Row 128) := by
  have e : (StableHlo.after hostOps2 W (Proc.devRef .tc main_v45) : FVec Ideal S1x128 .f32)
      = shapeCast S1x128 (W (Proc.devRef .tc main_arg10) : FVec Ideal S128 .f32) shapeCasts_S128_S1x128 := by
    dsimp only [hostOps2]; after_results_simp; rfl
  exact (congrArg rowOf e).trans (rowOf_cast _ _)

theorem glue2_b2 :
    rowOf (StableHlo.after hostOps2 W (Proc.devRef .tc main_v46) : Mat 1 128) = (W (Proc.devRef .tc main_arg12) : Row 128) := by
  have e : (StableHlo.after hostOps2 W (Proc.devRef .tc main_v46) : FVec Ideal S1x128 .f32)
      = shapeCast S1x128 (W (Proc.devRef .tc main_arg12) : FVec Ideal S128 .f32) shapeCasts_S128_S1x128 := by
    dsimp only [hostOps2]; after_results_simp; rfl
  exact (congrArg rowOf e).trans (rowOf_cast _ _)

theorem glue2_keep (r : Ref sig .tc) (h : r ∉ hostOps2_W) :
    StableHlo.after hostOps2 W (Proc.devRef .tc r) = W (Proc.devRef .tc r) :=
  StableHlo.after_of_writes_sub hostOps2 _ hostOps2_writes h

end Cert.KernelIdeal.Hand
-- ==== Proof.KGlue3.lean ====
import proofs.«412881_j60095182405865_1_alg».proof.Proof.Gen.KernelIdeal.Launch
import proofs.«412881_j60095182405865_1_alg».proof.Proof.Gen.KernelIdeal.Regions
import proofs.«412881_j60095182405865_1_alg».proof.Proof.Spec
import proofs.«412881_j60095182405865_1_alg».proof.Proof.KGlue1
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.TcCoe
open Cert.KernelIdeal Cert.KernelIdeal.Gen Cert.GinSpec Idealize.ShloMosaic.ValueIdx

variable (W : Valuation τ sig (Elt Ideal))

theorem glue3_scale :
    rowOf (StableHlo.after hostOps3 W (Proc.devRef .tc main_v60) : Mat 1 128)
      = kScale (Ideal.ofBits .f32 0x47C35000#32) (Ideal.ofBits .f32 0x3727C5AC#32) (W (Proc.devRef .tc main_arg13) : Row 128)
          (rowOf (W (Proc.devRef .tc main_v47_1) : Mat 1 128)) (rowOf (W (Proc.devRef .tc main_v47_2) : Mat 1 128)) := by
  have e : (StableHlo.after hostOps3 W (Proc.devRef .tc main_v60) : FVec Ideal S1x128 .f32)
      = hostScale (W (Proc.devRef .tc main_arg13)) (W (Proc.devRef .tc main_v47_1)) (W (Proc.devRef .tc main_v47_2)) := by
    dsimp only [hostOps3]; after_results_simp; rfl
  exact (congrArg rowOf e).trans (hostScale_row _ _ _)

theorem glue3_shift :
    rowOf (StableHlo.after hostOps3 W (Proc.devRef .tc main_v64) : Mat 1 128)
      = kShift (Ideal.ofBits .f32 0x47C35000#32) (Ideal.ofBits .f32 0x3727C5AC#32) (W (Proc.devRef .tc main_arg13) : Row 128)
          (W (Proc.devRef .tc main_arg14) : Row 128)
          (rowOf (W (Proc.devRef .tc main_v47_1) : Mat 1 128)) (rowOf (W (Proc.devRef .tc main_v47_2) : Mat 1 128)) := by
  have e : (StableHlo.after hostOps3 W (Proc.devRef .tc main_v64) : FVec Ideal S1x128 .f32)
      = hostShift (W (Proc.devRef .tc main_arg13)) (W (Proc.devRef .tc main_arg14)) (W (Proc.devRef .tc main_v47_1)) (W (Proc.devRef .tc main_v47_2)) := by
    dsimp only [hostOps3]; after_results_simp; rfl
  exact (congrArg rowOf e).trans (hostShift_row _ _ _ _)

theorem glue3_keep (r : Ref sig .tc) (h : r ∉ hostOps3_W) :
    StableHlo.after hostOps3 W (Proc.devRef .tc r) = W (Proc.devRef .tc r) :=
  StableHlo.after_of_writes_sub hostOps3 _ hostOps3_writes h

end Cert.KernelIdeal.Hand
-- ==== Proof.KGlue4.lean ====
import proofs.«412881_j60095182405865_1_alg».proof.Proof.Gen.KernelIdeal.Launch
import proofs.«412881_j60095182405865_1_alg».proof.Proof.Gen.KernelIdeal.Regions
import proofs.«412881_j60095182405865_1_alg».proof.Proof.Spec
import Idealize.ShloMosaic.Lib.KernelVsHost
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.TcCoe
open Cert.KernelIdeal Cert.KernelIdeal.Gen Cert.GinSpec Idealize.ShloMosaic.ValueIdx

private theorem rowOf_cast {d : Nat} (v : Row d) (h : (⟨1, ![d]⟩ : Shape).ShapeCasts ⟨2, ![1, d]⟩) :
    rowOf (shapeCast ⟨2, ![1, d]⟩ v h : Mat 1 d) = v :=
  funext fun j => (shapeCast_a_1a_apply v h 0 (j 0)).trans (congrArg v (eq_ix1 j).symm)

private theorem cast_col_apply {α : Type} {a : ℕ} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) :=
  shapeCast_apply x h _ _ (by
    rw [Shape.rowMajor_val_two, Shape.rowMajor_val_one]
    show r.val = r.val * 1 + 0
    omega)

private theorem pad_rows {n n' d : ℕ} (x : Mat n d) {u : Shape} (v : u.Idx → EReal) (hi : Fin 2 → ℕ)
    (hp : (⟨2, ![n, d]⟩ : Shape).Pads ![0, 0] hi ![0, 0] ⟨2, ![n', d]⟩) (hu : 0 < u.numel)
    (hv : v (Shape.Idx.first hu) = 0) :
    (pad ⟨2, ![n', d]⟩ ![0, 0] hi ![0, 0] x v hp hu : Mat n' d) = padRows n' x := by
  funext i
  unfold padRows
  by_cases hlt : (i 0).val < n
  · rw [dif_pos hlt]
    refine pad_apply_of_inside _ _ _ x v hp hu i (ix2 ⟨(i 0).val, hlt⟩ (i 1)) fun a => ?_
    match a with
    | ⟨0, _⟩ => show (i 0).val = 0 + (i 0).val * (0 + 1); omega
    | ⟨1, _⟩ => show (i 1).val = 0 + (i 1).val * (0 + 1); omega
  · rw [dif_neg hlt]
    refine (pad_apply_of_not_inside _ _ _ x v hp hu i (0 : Fin 2) fun hin => hlt ?_).trans hv
    have h3 : ((i 0).val - 0) / (0 + 1) < n := hin.2.2
    omega

private theorem pad_ids {n n' : ℕ} (x : (⟨1, ![n]⟩ : Shape).Idx → BitVec 32) {u : Shape} (v : u.Idx → BitVec 32) (hi : Fin 1 → ℕ)
    (hp : (⟨1, ![n]⟩ : Shape).Pads ![0] hi ![0] ⟨1, ![n']⟩) (hu : 0 < u.numel)
    (hv : v (Shape.Idx.first hu) = 4294967295#32) (r : Fin n') :
    pad ⟨1, ![n']⟩ ![0] hi ![0] x v hp hu (ix1 r) = padIds n' (fun r : Fin n => x (ix1 r)) r := by
  unfold padIds
  by_cases hlt : r.val < n
  · rw [dif_pos hlt]
    refine pad_apply_of_inside _ _ _ x v hp hu (ix1 r) (ix1 ⟨r.val, hlt⟩) fun a => ?_
    match a with
    | ⟨0, _⟩ => show r.val = 0 + r.val * (0 + 1); omega
  · rw [dif_neg hlt]
    refine (pad_apply_of_not_inside _ _ _ x v hp hu (ix1 r) (0 : Fin 1) fun hin => hlt ?_).trans hv
    have h3 : (r.val - 0) / (0 + 1) < n := hin.2.2
    omega

variable (W : Valuation τ sig (Elt Ideal))

theorem glue4_pad :
    (StableHlo.after hostOps4_1 (StableHlo.after hostOps4 W) (Proc.devRef .tc main_v66) : Mat 100352 128)
      = padRows 100352 (W (Proc.devRef .tc main_v65) : Mat 100000 128) := by
  have e : (StableHlo.after hostOps4_1 (StableHlo.after hostOps4 W) (Proc.devRef .tc main_v66) : FVec Ideal S100352x128 .f32)
      = pad S100352x128 ![0, 0] ![352, 0] ![0, 0] (W (Proc.devRef .tc main_v65) : FVec Ideal S100000x128 .f32)
          (sitofp (F := Ideal) .f32 (constantI S_ 32 0#32)) pads_S100000x128_S100352x128_03520_000 h_S_ := by
    dsimp only [hostOps4_1, hostOps4]; after_results; rfl
  refine e.trans (pad_rows _ _ _ _ _ ?_)
  show (((0#32 : BitVec 32).toInt : ℝ) : EReal) = 0
  simp

theorem glue4_ids :
    (fun r : Fin 100352 =>
        (StableHlo.after hostOps4_4 (StableHlo.after hostOps4_3 (StableHlo.after hostOps4_2 W)) (Proc.devRef .tc main_v68) : IVec S100352x1 32)
          (ix2 r (0 : Fin 1)))
      = padIds 100352 (fun r : Fin 100000 => (W (Proc.devRef .tc main_arg2) : IVec S100000 32) (ix1 r)) := by
  have e : (StableHlo.after hostOps4_4 (StableHlo.after hostOps4_3 (StableHlo.after hostOps4_2 W)) (Proc.devRef .tc main_v68) : IVec S100352x1 32)
      = shapeCast S100352x1 (pad S100352 ![0] ![352] ![0] (W (Proc.devRef .tc main_arg2) : IVec S100000 32)
          (constantI S_ 32 4294967295#32) pads_S100000_S100352_03520 h_S_) shapeCasts_S100352_S100352x1 := by
    dsimp only [hostOps4_4, hostOps4_3, hostOps4_2]; after_results; rfl
  funext r
  rw [e]
  exact (cast_col_apply _ _ r).trans (pad_ids _ _ _ _ _ rfl r)

theorem glue4_bias :
    rowOf (StableHlo.after hostOps4_4 W (Proc.devRef .tc main_v69) : Mat 1 10) = (W (Proc.devRef .tc main_arg16) : Row 10) := by
  have e : (StableHlo.after hostOps4_4 W (Proc.devRef .tc main_v69) : FVec Ideal S1x10 .f32)
      = shapeCast S1x10 (W (Proc.devRef .tc main_arg16) : FVec Ideal S10 .f32) shapeCasts_S10_S1x10 := by
    dsimp only [hostOps4_4]; after_results; rfl
  exact (congrArg rowOf e).trans (rowOf_cast _ _)

theorem glue4_keep (r : Ref sig .tc) (h : r ∉ hostOps4_W) :
    StableHlo.after hostOps4 W (Proc.devRef .tc r) = W (Proc.devRef .tc r) :=
  StableHlo.after_of_writes_sub hostOps4 _ hostOps4_writes h
theorem glue4_1_keep (r : Ref sig .tc) (h : r ∉ hostOps4_1_W) :
    StableHlo.after hostOps4_1 W (Proc.devRef .tc r) = W (Proc.devRef .tc r) :=
  StableHlo.after_of_writes_sub hostOps4_1 _ hostOps4_1_writes h
theorem glue4_2_keep (r : Ref sig .tc) (h : r ∉ hostOps4_2_W) :
    StableHlo.after hostOps4_2 W (Proc.devRef .tc r) = W (Proc.devRef .tc r) :=
  StableHlo.after_of_writes_sub hostOps4_2 _ hostOps4_2_writes h
theorem glue4_3_keep (r : Ref sig .tc) (h : r ∉ hostOps4_3_W) :
    StableHlo.after hostOps4_3 W (Proc.devRef .tc r) = W (Proc.devRef .tc r) :=
  StableHlo.after_of_writes_sub hostOps4_3 _ hostOps4_3_writes h
theorem glue4_4_keep (r : Ref sig .tc) (h : r ∉ hostOps4_4_W) :
    StableHlo.after hostOps4_4 W (Proc.devRef .tc r) = W (Proc.devRef .tc r) :=
  StableHlo.after_of_writes_sub hostOps4_4 _ hostOps4_4_writes h

end Cert.KernelIdeal.Hand
-- ==== Proof.BnAlgebra.lean ====
import proofs.«412881_j60095182405865_1_alg».proof.Proof.Spec
import Idealize.ShloMosaic.PureOps.Ideal
import Idealize.ShloMosaic.Lib.ValueIdx
import Mathlib.Data.EReal.Basic
import Mathlib.Data.EReal.Operations
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity

noncomputable section

namespace Cert.GinAlgebra

open Idealize.ShloMosaic Idealize.ShloMosaic.ValueIdx Cert.GinSpec

theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem var_real {n : Nat} (hn : 0 < n) (x : Fin n → ℝ) :
    (∑ r, x r * x r) * (1 / (n : ℝ)) - ((∑ r, x r) * (1 / (n : ℝ))) * ((∑ r, x r) * (1 / (n : ℝ)))
      = (∑ r, (x r - (∑ r, x r) * (1 / (n : ℝ))) * (x r - (∑ r, x r) * (1 / (n : ℝ)))) * (1 / (n : ℝ)) := by
  have hn0 : (n : ℝ) ≠ 0 := by exact_mod_cast hn.ne'
  generalize hm : (∑ r, x r) * (1 / (n : ℝ)) = m
  have hS : ∑ r, x r = n * m := by rw [← hm]; field_simp
  have key : ∑ r, (x r - m) * (x r - m) = (∑ r, x r * x r) - 2 * m * (∑ r, x r) + n * (m * m) := by
    have hexp : ∀ r, (x r - m) * (x r - m) = x r * x r - 2 * m * x r + m * m := fun r => by ring
    simp only [hexp, Finset.sum_add_distrib, Finset.sum_sub_distrib, ← Finset.mul_sum, Finset.sum_const,
      Finset.card_univ, Fintype.card_fin, nsmul_eq_mul]
    ring
  rw [key, hS]
  field_simp
  ring

theorem var_nonneg {n : Nat} (x : Fin n → ℝ) (m : ℝ) :
    0 ≤ (∑ r, (x r - m) * (x r - m)) * (1 / (n : ℝ)) := by
  apply mul_nonneg
  · exact Finset.sum_nonneg (fun r _ => mul_self_nonneg _)
  · positivity

theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

theorem col_stats {n d : Nat} (hn : 0 < n) (cN eps : EReal) (hcN : cN = (((n : ℕ) : ℝ) : EReal))
    (e : ℝ) (he : 0 < e) (heps : eps = (e : EReal)) (h : Mat n d) (hh : RealMat h)
    (j : (⟨1, ![d]⟩ : Shape).Idx) :
    ∃ m ρ : ℝ, kMean cN (colSum h) j = (m : EReal) ∧ rMean cN h j = (m : EReal) ∧
      kInv cN eps (colSum h) (colSumSq h) j = (ρ : EReal) ∧
      Ideal.rsqrt (rVar cN cN h j + eps) = (ρ : EReal) := by
  choose H hH using hh
  subst hcN heps
  have hn0 : ((n : ℕ) : ℝ) ≠ 0 := by exact_mod_cast hn.ne'

  let x : Fin n → ℝ := fun r => H (ix2 r (j 0))
  have hx : ∀ r, h (ix2 r (j 0)) = (x r : EReal) := fun r => hH _
  have hS : colSum h j = ((∑ r, x r : ℝ) : EReal) := by
    rw [coe_sum]; exact Finset.sum_congr rfl (fun r _ => hx r)
  have hQ : colSumSq h j = ((∑ r, x r * x r : ℝ) : EReal) := by
    rw [coe_sum]
    refine Finset.sum_congr rfl (fun r _ => ?_)
    rw [EReal.coe_mul]; exact congrArg₂ (· * ·) (hx r) (hx r)
  let m : ℝ := (∑ r, x r) * (1 / (n : ℝ))
  have hkm : kMean (((n : ℕ) : ℝ) : EReal) (colSum h) j = (m : EReal) := by
    show Ideal.div (colSum h j) _ = _
    rw [Ideal.div_coe hn0, hS, ← EReal.coe_mul]
  have hrm : rMean (((n : ℕ) : ℝ) : EReal) h j = (m : EReal) := by
    show Ideal.div (colSum h j) _ = _
    rw [Ideal.div_coe hn0, hS, ← EReal.coe_mul]

  have hkv : kVar (((n : ℕ) : ℝ) : EReal) (colSum h) (colSumSq h) j
      = (((∑ r, x r * x r) * (1 / (n : ℝ)) - m * m : ℝ) : EReal) := by
    show Ideal.div (colSumSq h j) _ - kMean _ (colSum h) j * kMean _ (colSum h) j = _
    rw [hkm, Ideal.div_coe hn0, hQ, ← EReal.coe_mul, ← EReal.coe_mul, ← EReal.coe_sub]
  have hrv : rVar (((n : ℕ) : ℝ) : EReal) (((n : ℕ) : ℝ) : EReal) h j
      = (((∑ r, (x r - m) * (x r - m)) * (1 / (n : ℝ)) : ℝ) : EReal) := by
    show Ideal.div (∑ r : Fin n, (h (ix2 r (j 0)) - rMean _ h j) * (h (ix2 r (j 0)) - rMean _ h j)) _ = _
    rw [Ideal.div_coe hn0, EReal.coe_mul, coe_sum]
    congr 1
    refine Finset.sum_congr rfl (fun r _ => ?_)
    rw [hrm, hx r, ← EReal.coe_sub, ← EReal.coe_mul]
  have hvar : (∑ r, x r * x r) * (1 / (n : ℝ)) - m * m = (∑ r, (x r - m) * (x r - m)) * (1 / (n : ℝ)) :=
    var_real hn x
  have hpos : 0 < (∑ r, (x r - m) * (x r - m)) * (1 / (n : ℝ)) + e :=
    add_pos_of_nonneg_of_pos (var_nonneg x m) he
  refine ⟨m, (Real.sqrt ((∑ r, (x r - m) * (x r - m)) * (1 / (n : ℝ)) + e))⁻¹, hkm, hrm, ?_, ?_⟩
  · show Ideal.rsqrt (kVar _ (colSum h) (colSumSq h) j + _) = _
    rw [hkv, hvar, ← EReal.coe_add, rsqrt_pos hpos]
  · rw [hrv, ← EReal.coe_add, rsqrt_pos hpos]

theorem norm_eq {n d : Nat} (hn : 0 < n) (cN eps : EReal) (hcN : cN = (((n : ℕ) : ℝ) : EReal))
    (e : ℝ) (he : 0 < e) (heps : eps = (e : EReal))
    (g be : Row d) (hg : RealRow g) (hbe : RealRow be) (h : Mat n d) (hh : RealMat h) :
    affine h (kScale cN eps g (colSum h) (colSumSq h)) (kShift cN eps g be (colSum h) (colSumSq h))
      = rNorm cN cN eps g be h := by
  funext i
  obtain ⟨m, ρ, hkm, hrm, hki, hri⟩ := col_stats hn cN eps hcN e he heps h hh (ix1 (i 1))
  obtain ⟨a, ha⟩ := hh i
  obtain ⟨γ, hγ⟩ := hg (ix1 (i 1))
  obtain ⟨β, hβ⟩ := hbe (ix1 (i 1))
  show h i * (g (ix1 (i 1)) * kInv cN eps (colSum h) (colSumSq h) (ix1 (i 1)))
        + (be (ix1 (i 1)) - kMean cN (colSum h) (ix1 (i 1)) * g (ix1 (i 1))
            * kInv cN eps (colSum h) (colSumSq h) (ix1 (i 1)))
      = (h i - rMean cN h (ix1 (i 1))) * Ideal.rsqrt (rVar cN cN h (ix1 (i 1)) + eps) * g (ix1 (i 1))
        + be (ix1 (i 1))
  rw [hkm, hrm, hki, hri, ha, hγ, hβ]
  simp only [← EReal.coe_mul, ← EReal.coe_sub, ← EReal.coe_add]
  congr 1
  ring

theorem real_norm {n d : Nat} (hn : 0 < n) (cN eps : EReal) (hcN : cN = (((n : ℕ) : ℝ) : EReal))
    (e : ℝ) (he : 0 < e) (heps : eps = (e : EReal))
    (g be : Row d) (hg : RealRow g) (hbe : RealRow be) (h : Mat n d) (hh : RealMat h) :
    RealMat (rNorm cN cN eps g be h) := by
  intro i
  obtain ⟨m, ρ, hkm, hrm, hki, hri⟩ := col_stats hn cN eps hcN e he heps h hh (ix1 (i 1))
  obtain ⟨a, ha⟩ := hh i
  obtain ⟨γ, hγ⟩ := hg (ix1 (i 1))
  obtain ⟨β, hβ⟩ := hbe (ix1 (i 1))
  refine ⟨(a - m) * ρ * γ + β, ?_⟩
  show (h i - rMean cN h (ix1 (i 1))) * Ideal.rsqrt (rVar cN cN h (ix1 (i 1)) + eps) * g (ix1 (i 1))
        + be (ix1 (i 1)) = _
  rw [hrm, hri, ha, hγ, hβ]
  simp only [← EReal.coe_mul, ← EReal.coe_sub, ← EReal.coe_add]

end Cert.GinAlgebra

end
-- ==== Proof.RealLemmas.lean ====
import proofs.«412881_j60095182405865_1_alg».proof.Proof.Spec
import Idealize.ShloMosaic.PureOps.Ideal
import Idealize.ShloMosaic.Lib.ValueIdx
import Mathlib.Data.EReal.Basic
import Mathlib.Data.EReal.Operations
import Mathlib.Algebra.BigOperators.Group.Finset.Basic
import Mathlib.Tactic.NormNum

noncomputable section

namespace Cert.GinAlgebra

open Idealize.ShloMosaic Idealize.ShloMosaic.ValueIdx Cert.GinSpec

theorem real_sum {ι : Type} (s : Finset ι) (f : ι → EReal) (hf : ∀ i ∈ s, ∃ r : ℝ, f i = (r : EReal)) :
    ∃ r : ℝ, ∑ i ∈ s, f i = (r : EReal) := by
  classical
  revert hf
  refine Finset.induction_on s ?_ ?_
  · intro _; exact ⟨0, by simp⟩
  · intro a s ha ih hf
    obtain ⟨r, hr⟩ := ih (fun i hi => hf i (Finset.mem_insert_of_mem hi))
    obtain ⟨t, ht⟩ := hf a (Finset.mem_insert_self a s)
    exact ⟨t + r, by rw [Finset.sum_insert ha, hr, ht, EReal.coe_add]⟩

theorem real_relu {n d : Nat} (h : Mat n d) (hh : RealMat h) : RealMat (relu h) := by
  intro i
  obtain ⟨r, hr⟩ := hh i
  show ∃ t : ℝ, max (h i) 0 = (t : EReal)
  rw [hr]
  rcases le_total r 0 with hle | hle
  · exact ⟨0, by rw [max_eq_right (by exact_mod_cast hle)]; rfl⟩
  · exact ⟨r, max_eq_left (by exact_mod_cast hle)⟩

theorem real_dense {n a b : Nat} (h : Mat n a) (w : Mat a b) (bias : Row b) :
    RealMat h → RealMat w → RealRow bias → RealMat (dense h w bias) := by
  intro hh hw hb i
  obtain ⟨s, hs⟩ := real_sum Finset.univ (fun k : Fin a => h (ix2 (i 0) k) * w (ix2 k (i 1)))
    (fun k _ => by
      obtain ⟨p, hp⟩ := hh (ix2 (i 0) k)
      obtain ⟨q, hq⟩ := hw (ix2 k (i 1))
      exact ⟨p * q, by rw [hp, hq, EReal.coe_mul]⟩)
  obtain ⟨c, hc⟩ := hb (ix1 (i 1))
  refine ⟨s + c, ?_⟩
  show (∑ k : Fin a, h (ix2 (i 0) k) * w (ix2 k (i 1))) + bias (ix1 (i 1)) = _
  rw [hs, hc, EReal.coe_add]

theorem real_mlp {n : Nat} (agg x : Mat n 128) (w1 : Mat 128 128) (b1 : Row 128) (w2 : Mat 128 128) (b2 : Row 128) :
    RealMat agg → RealMat x → RealMat w1 → RealRow b1 → RealMat w2 → RealRow b2 →
      RealMat (mlp agg x w1 b1 w2 b2) := by
  intro hagg hx hw1 hb1 hw2 hb2
  have hsum : RealMat (fun i => agg i + x i) := fun i => by
    obtain ⟨p, hp⟩ := hagg i
    obtain ⟨q, hq⟩ := hx i
    exact ⟨p + q, by show agg i + x i = _; rw [hp, hq, EReal.coe_add]⟩
  exact real_dense _ w2 b2 (real_relu _ (real_dense _ w1 b1 hsum hw1 hb1)) hw2 hb2

theorem real_rowOf {d : Nat} (b : Mat 1 d) (hb : RealMat b) : RealRow (rowOf b) :=
  fun j => hb (ix2 0 (j 0))

theorem real_matOf {d : Nat} (r : Row d) (hr : RealRow r) : RealMat (matOf r) :=
  fun i => hr (ix1 (i 1))

theorem lit_N : Ideal.ofBits .f32 0x47C35000#32 = (((100000 : ℕ) : ℝ) : EReal) := by
  simp [Ideal.ofBits, Ideal.ieee, -EReal.coe_mul]; norm_num

theorem lit_eps : ∃ e : ℝ, 0 < e ∧ Ideal.ofBits .f32 0x3727C5AC#32 = (e : EReal) := by
  refine ⟨((2 ^ 23 + 2606508 : ℕ) : ℝ) * (2 : ℝ) ^ ((110 : ℤ) - 127 - 23), by positivity, ?_⟩
  simp [Ideal.ofBits, Ideal.ieee, -EReal.coe_mul]

end Cert.GinAlgebra

end
-- ==== Proof.Final.lean ====
import proofs.«412881_j60095182405865_1_alg».proof.Proof.Spec
import proofs.«412881_j60095182405865_1_alg».proof.Proof.BnAlgebra
import proofs.«412881_j60095182405865_1_alg».proof.Proof.RealLemmas
import Idealize.ShloMosaic.PureOps.Ideal
import Idealize.ShloMosaic.Lib.ValueIdx
import Mathlib.Algebra.BigOperators.Fin
import Mathlib.Tactic.NormNum

noncomputable section

namespace Cert.GinAlgebra

open Idealize.ShloMosaic Idealize.ShloMosaic.ValueIdx Cert.GinSpec

def layerK {n : Nat} (cN eps : EReal) (agg x : Mat n 128) (w1 : Mat 128 128) (b1 : Row 128)
    (w2 : Mat 128 128) (b2 g be : Row 128) : Mat n 128 :=
  affine (mlp agg x w1 b1 w2 b2)
    (kScale cN eps g (colSum (mlp agg x w1 b1 w2 b2)) (colSumSq (mlp agg x w1 b1 w2 b2)))
    (kShift cN eps g be (colSum (mlp agg x w1 b1 w2 b2)) (colSumSq (mlp agg x w1 b1 w2 b2)))

def layerR {n : Nat} (cN eps : EReal) (agg x : Mat n 128) (w1 : Mat 128 128) (b1 : Row 128)
    (w2 : Mat 128 128) (b2 g be : Row 128) : Mat n 128 :=
  rNorm cN cN eps g be (mlp agg x w1 b1 w2 b2)

theorem layer_eq {n : Nat} (hn : 0 < n) (cN eps : EReal) (hcN : cN = (((n : ℕ) : ℝ) : EReal))
    (e : ℝ) (he : 0 < e) (heps : eps = (e : EReal))
    (agg x : Mat n 128) (w1 : Mat 128 128) (b1 : Row 128) (w2 : Mat 128 128) (b2 g be : Row 128)
    (hagg : RealMat agg) (hx : RealMat x) (hw1 : RealMat w1) (hb1 : RealRow b1) (hw2 : RealMat w2)
    (hb2 : RealRow b2) (hg : RealRow g) (hbe : RealRow be) :
    layerK cN eps agg x w1 b1 w2 b2 g be = layerR cN eps agg x w1 b1 w2 b2 g be :=
  norm_eq hn cN eps hcN e he heps g be hg hbe _ (real_mlp agg x w1 b1 w2 b2 hagg hx hw1 hb1 hw2 hb2)

theorem real_layerR {n : Nat} (hn : 0 < n) (cN eps : EReal) (hcN : cN = (((n : ℕ) : ℝ) : EReal))
    (e : ℝ) (he : 0 < e) (heps : eps = (e : EReal))
    (agg x : Mat n 128) (w1 : Mat 128 128) (b1 : Row 128) (w2 : Mat 128 128) (b2 g be : Row 128)
    (hagg : RealMat agg) (hx : RealMat x) (hw1 : RealMat w1) (hb1 : RealRow b1) (hw2 : RealMat w2)
    (hb2 : RealRow b2) (hg : RealRow g) (hbe : RealRow be) :
    RealMat (layerR cN eps agg x w1 b1 w2 b2 g be) :=
  real_norm hn cN eps hcN e he heps g be hg hbe _ (real_mlp agg x w1 b1 w2 b2 hagg hx hw1 hb1 hw2 hb2)

theorem padRows_lt {n d : Nat} (n' : Nat) (h : Mat n d) (j : (⟨2, ![n', d]⟩ : Shape).Idx)
    (hj : (j 0).val < n) : padRows n' h j = h (ix2 ⟨(j 0).val, hj⟩ (j 1)) := dif_pos hj

theorem padRows_ge {n d : Nat} (n' : Nat) (h : Mat n d) (j : (⟨2, ![n', d]⟩ : Shape).Idx)
    (hj : ¬ (j 0).val < n) : padRows n' h j = 0 := dif_neg hj

theorem padIds_lt {n : Nat} (n' : Nat) (b : Fin n → BitVec 32) (r : Fin n') (hr : r.val < n) :
    padIds n' b r = b ⟨r.val, hr⟩ := dif_pos hr

theorem pool_padded {n n' d G : Nat} (hn : n ≤ n') (h : Mat n d) (b : Fin n → BitVec 32) :
    pool G (padRows n' h) (padIds n' b) = pool G h b := by
  obtain ⟨k, rfl⟩ := Nat.exists_eq_add_of_le hn
  funext i
  show (∑ r : Fin (n + k), if padIds (n + k) b r = BitVec.ofNat 32 (i 0).val
          then padRows (n + k) h (ix2 r (i 1)) else 0)
      = ∑ r : Fin n, if b r = BitVec.ofNat 32 (i 0).val then h (ix2 r (i 1)) else 0
  rw [Fin.sum_univ_add]
  have hz : (∑ r : Fin k, if padIds (n + k) b (Fin.natAdd n r) = BitVec.ofNat 32 (i 0).val
      then padRows (n + k) h (ix2 (Fin.natAdd n r) (i 1)) else 0) = 0 := by
    refine Finset.sum_eq_zero (fun r _ => ?_)
    rw [padRows_ge (n + k) h (ix2 (Fin.natAdd n r) (i 1)) (by show ¬ (n + r.val < n); omega), ite_self]
  rw [hz, add_zero]
  refine Finset.sum_congr rfl (fun r _ => ?_)
  have h1 : padIds (n + k) b (Fin.castAdd k r) = b r := padIds_lt (n + k) b (Fin.castAdd k r) r.isLt
  have h2 : padRows (n + k) h (ix2 (Fin.castAdd k r) (i 1)) = h (ix2 r (i 1)) :=
    padRows_lt (n + k) h (ix2 (Fin.castAdd k r) (i 1)) r.isLt
  rw [h1, h2]

def netK (AGG : Mat 100000 128 → Mat 100000 128) (cN eps : EReal) (x : Mat 100000 128)
    (w1_0 : Mat 128 128) (b1_0 : Row 128) (w2_0 : Mat 128 128) (b2_0 g0 be0 : Row 128)
    (w1_1 : Mat 128 128) (b1_1 : Row 128) (w2_1 : Mat 128 128) (b2_1 g1 be1 : Row 128)
    (lw : Mat 128 10) (lb : Row 10) (ids : Fin 100000 → BitVec 32) : Mat 512 10 :=
  dense (pool 512 (padRows 100352 (layerK cN eps (AGG (relu (layerK cN eps (AGG x) x w1_0 b1_0 w2_0 b2_0 g0 be0))) (relu (layerK cN eps (AGG x) x w1_0 b1_0 w2_0 b2_0 g0 be0)) w1_1 b1_1 w2_1 b2_1 g1 be1)) (padIds 100352 ids)) lw lb

def netR (AGG : Mat 100000 128 → Mat 100000 128) (cN eps : EReal) (x : Mat 100000 128)
    (w1_0 : Mat 128 128) (b1_0 : Row 128) (w2_0 : Mat 128 128) (b2_0 g0 be0 : Row 128)
    (w1_1 : Mat 128 128) (b1_1 : Row 128) (w2_1 : Mat 128 128) (b2_1 g1 be1 : Row 128)
    (lw : Mat 128 10) (lb : Row 10) (ids : Fin 100000 → BitVec 32) : Mat 512 10 :=
  dense (pool 512 (layerR cN eps (AGG (relu (layerR cN eps (AGG x) x w1_0 b1_0 w2_0 b2_0 g0 be0))) (relu (layerR cN eps (AGG x) x w1_0 b1_0 w2_0 b2_0 g0 be0)) w1_1 b1_1 w2_1 b2_1 g1 be1) ids) lw lb

theorem net_eq (AGG : Mat 100000 128 → Mat 100000 128) (hAGG : ∀ y, RealMat y → RealMat (AGG y))
    (cN eps : EReal) (hcN : cN = (((100000 : ℕ) : ℝ) : EReal)) (e : ℝ) (he : 0 < e) (heps : eps = (e : EReal))
    (x : Mat 100000 128) (hx : RealMat x)
    (w1_0 : Mat 128 128) (b1_0 : Row 128) (w2_0 : Mat 128 128) (b2_0 g0 be0 : Row 128)
    (hw1_0 : RealMat w1_0) (hb1_0 : RealRow b1_0) (hw2_0 : RealMat w2_0) (hb2_0 : RealRow b2_0)
    (hg0 : RealRow g0) (hbe0 : RealRow be0)
    (w1_1 : Mat 128 128) (b1_1 : Row 128) (w2_1 : Mat 128 128) (b2_1 g1 be1 : Row 128)
    (hw1_1 : RealMat w1_1) (hb1_1 : RealRow b1_1) (hw2_1 : RealMat w2_1) (hb2_1 : RealRow b2_1)
    (hg1 : RealRow g1) (hbe1 : RealRow be1)
    (lw : Mat 128 10) (lb : Row 10) (ids : Fin 100000 → BitVec 32) :
    netK AGG cN eps x w1_0 b1_0 w2_0 b2_0 g0 be0 w1_1 b1_1 w2_1 b2_1 g1 be1 lw lb ids
      = netR AGG cN eps x w1_0 b1_0 w2_0 b2_0 g0 be0 w1_1 b1_1 w2_1 b2_1 g1 be1 lw lb ids := by
  have hn : 0 < 100000 := by norm_num

  have h0 : layerK cN eps (AGG x) x w1_0 b1_0 w2_0 b2_0 g0 be0
      = layerR cN eps (AGG x) x w1_0 b1_0 w2_0 b2_0 g0 be0 :=
    layer_eq hn cN eps hcN e he heps _ _ _ _ _ _ _ _ (hAGG x hx) hx hw1_0 hb1_0 hw2_0 hb2_0 hg0 hbe0

  have hr0 : RealMat (relu (layerR cN eps (AGG x) x w1_0 b1_0 w2_0 b2_0 g0 be0)) :=
    real_relu _ (real_layerR hn cN eps hcN e he heps _ _ _ _ _ _ _ _ (hAGG x hx) hx hw1_0 hb1_0 hw2_0 hb2_0 hg0 hbe0)

  have h1 := layer_eq hn cN eps hcN e he heps _ _ w1_1 b1_1 w2_1 b2_1 g1 be1 (hAGG _ hr0) hr0
    hw1_1 hb1_1 hw2_1 hb2_1 hg1 hbe1
  unfold netK netR
  rw [h0, h1, pool_padded (by norm_num)]

end Cert.GinAlgebra

end
-- ==== Proof.KValue.lean ====
import proofs.«412881_j60095182405865_1_alg».proof.Proof.Run
import proofs.«412881_j60095182405865_1_alg».proof.Proof.RunArgs
import proofs.«412881_j60095182405865_1_alg».proof.Proof.KGlue0
import proofs.«412881_j60095182405865_1_alg».proof.Proof.KGlue1
import proofs.«412881_j60095182405865_1_alg».proof.Proof.KGlue2
import proofs.«412881_j60095182405865_1_alg».proof.Proof.KGlue3
import proofs.«412881_j60095182405865_1_alg».proof.Proof.KGlue4
import proofs.«412881_j60095182405865_1_alg».proof.Proof.Spec
import proofs.«412881_j60095182405865_1_alg».proof.Proof.Final

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.GinSpec Cert.GinAlgebra Idealize.ShloMosaic.ValueIdx

local notation "bnN" => Ideal.ofBits FTy.f32 0x47C35000#32
local notation "bnE" => Ideal.ofBits FTy.f32 0x3727C5AC#32

theorem rowOf_matOf {d : Nat} (r : Row d) : rowOf (matOf r) = r :=
  funext fun j => congrArg r (eq_ix1 j).symm

private theorem mlp_congr {n : Nat} {agg agg' x x' : Mat n 128} {w1 w1' w2 w2' : Mat 128 128} {b1 b1' b2 b2' : Row 128}
    (h1 : agg = agg') (h2 : x = x') (h3 : w1 = w1') (h4 : b1 = b1') (h5 : w2 = w2') (h6 : b2 = b2') :
    mlp agg x w1 b1 w2 b2 = mlp agg' x' w1' b1' w2' b2' := by subst h1 h2 h3 h4 h5 h6; rfl
private theorem kScale_congr {d : Nat} (cN eps : EReal) {g g' s s' q q' : Row d} (h1 : g = g') (h2 : s = s') (h3 : q = q') :
    kScale cN eps g s q = kScale cN eps g' s' q' := by subst h1 h2 h3; rfl
private theorem kShift_congr {d : Nat} (cN eps : EReal) {g g' be be' s s' q q' : Row d} (h1 : g = g') (h2 : be = be')
    (h3 : s = s') (h4 : q = q') : kShift cN eps g be s q = kShift cN eps g' be' s' q' := by subst h1 h2 h3 h4; rfl
private theorem affine_congr {n d : Nat} {h h' : Mat n d} {sc sc' sh sh' : Row d} (h1 : h = h') (h2 : sc = sc') (h3 : sh = sh') :
    affine h sc sh = affine h' sc' sh' := by subst h1 h2 h3; rfl
private theorem dense_pool_congr {n d e G : Nat} {h h' : Mat n d} {b b' : Fin n → BitVec 32} {w w' : Mat d e} {bias bias' : Row e}
    (h1 : h = h') (h2 : b = b') (h3 : w = w') (h4 : bias = bias') :
    dense (pool G h b) w bias = dense (pool G h' b') w' bias' := by subst h1 h2 h3 h4; rfl

def kvH0 (m : (ℓ : Loc nD τ sig) → Buf (Elt Ideal) ℓ) (c : Dev nD) : Mat 100000 128 :=
  mlp (kAgg (m ((c : Thread nD τ).loc main_arg0)) (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6))

def kvX1 (m : (ℓ : Loc nD τ sig) → Buf (Elt Ideal) ℓ) (c : Dev nD) : Mat 100000 128 :=
  relu (layerK bnN bnE (kAgg (m ((c : Thread nD τ).loc main_arg0)) (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))

def kvH1 (m : (ℓ : Loc nD τ sig) → Buf (Elt Ideal) ℓ) (c : Dev nD) : Mat 100000 128 :=
  mlp (kAgg (kvX1 m c) (m ((c : Thread nD τ).loc main_arg1))) (kvX1 m c) (m ((c : Thread nD τ).loc main_arg9)) (m ((c : Thread nD τ).loc main_arg10)) (m ((c : Thread nD τ).loc main_arg11)) (m ((c : Thread nD τ).loc main_arg12))

def kvN3 (m : (ℓ : Loc nD τ sig) → Buf (Elt Ideal) ℓ) (c : Dev nD) : Mat 100000 128 :=
  layerK bnN bnE (kAgg (kvX1 m c) (m ((c : Thread nD τ).loc main_arg1))) (kvX1 m c) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

section Value

variable (m : (ℓ : Loc nD τ sig) → Buf (Elt Ideal) ℓ) (ρ : Dev nD → PrngReg)
variable (d0 : Cont Ideal → (c : Dev nD) → Dat τ (Elt Ideal) Unit ℕ (UR sig nD τ) ℕ cfg0 c)
variable (d1 : Cont Ideal → (c : Dev nD) → Dat τ (Elt Ideal) Unit ℕ (UR sig nD τ) ℕ cfg1 c)
variable (d2 : Cont Ideal → (c : Dev nD) → Dat τ (Elt Ideal) Unit ℕ (UR sig nD τ) ℕ cfg2 c)
variable (d3 : Cont Ideal → (c : Dev nD) → Dat τ (Elt Ideal) Unit ℕ (UR sig nD τ) ℕ cfg3 c)
variable (d4 : Cont Ideal → (c : Dev nD) → Dat τ (Elt Ideal) Unit ℕ (UR sig nD τ) ℕ cfg4 c)

set_option maxHeartbeats 1600000 in

structure RegionValues : Prop where
  hA0 : ∀ (V : Cont Ideal) (c : Dev nD) (w : Fin cfg0.W), (d0 V c).A w = V c (Pipeline.arrRef spec0 w)
  hA2 : ∀ (V : Cont Ideal) (c : Dev nD) (w : Fin cfg2.W), (d2 V c).A w = V c (Pipeline.arrRef spec2 w)
  hA4 : ∀ (V : Cont Ideal) (c : Dev nD) (w : Fin cfg4.W), (d4 V c).A w = V c (Pipeline.arrRef spec4 w)
  hv06 : ∀ (V : Cont Ideal) (c : Dev nD), ((d0 V c).arrAt 6 cfg0.N : Mat 100000 128)
    = mlp (V c main_v13) (V c main_arg0) (V c main_arg3) (rowOf (V c main_v14)) (V c main_arg5) (rowOf (V c main_v15))
  hv07 : ∀ (V : Cont Ideal) (c : Dev nD), ((d0 V c).arrAt 7 cfg0.N : Mat 1 128)
    = matOf (colSum (mlp (V c main_v13) (V c main_arg0) (V c main_arg3) (rowOf (V c main_v14)) (V c main_arg5) (rowOf (V c main_v15))))
  hv08 : ∀ (V : Cont Ideal) (c : Dev nD), ((d0 V c).arrAt 8 cfg0.N : Mat 1 128)
    = matOf (colSumSq (mlp (V c main_v13) (V c main_arg0) (V c main_arg3) (rowOf (V c main_v14)) (V c main_arg5) (rowOf (V c main_v15))))
  hv13 : ∀ (V : Cont Ideal) (c : Dev nD), ((d1 V c).arrAt 3 cfg1.N : Mat 100000 128)
    = relu (affine (V c main_v16_0) (rowOf (V c main_v29)) (rowOf (V c main_v33)))
  hv26 : ∀ (V : Cont Ideal) (c : Dev nD), ((d2 V c).arrAt 6 cfg2.N : Mat 100000 128)
    = mlp (V c main_v44) (V c main_v34) (V c main_arg9) (rowOf (V c main_v45)) (V c main_arg11) (rowOf (V c main_v46))
  hv27 : ∀ (V : Cont Ideal) (c : Dev nD), ((d2 V c).arrAt 7 cfg2.N : Mat 1 128)
    = matOf (colSum (mlp (V c main_v44) (V c main_v34) (V c main_arg9) (rowOf (V c main_v45)) (V c main_arg11) (rowOf (V c main_v46))))
  hv28 : ∀ (V : Cont Ideal) (c : Dev nD), ((d2 V c).arrAt 8 cfg2.N : Mat 1 128)
    = matOf (colSumSq (mlp (V c main_v44) (V c main_v34) (V c main_arg9) (rowOf (V c main_v45)) (V c main_arg11) (rowOf (V c main_v46))))
  hv33 : ∀ (V : Cont Ideal) (c : Dev nD), ((d3 V c).arrAt 3 cfg3.N : Mat 100000 128)
    = affine (V c main_v47_0) (rowOf (V c main_v60)) (rowOf (V c main_v64))
  hv44 : ∀ (V : Cont Ideal) (c : Dev nD), ((d4 V c).arrAt 4 cfg4.N : Mat 512 10)
    = dense (pool 512 (V c main_v66) (fun r => V c main_v68 (ix2 r 0))) (V c main_arg15) (rowOf (V c main_v69))

variable (H : RegionValues d0 d1 d2 d3 d4)
include d0 d1 d2 d3 d4 H

theorem kv_mlp0 (c : Dev nD) :
    mlp (kU1 m ρ c main_v13) (kU1 m ρ c main_arg0) (kU1 m ρ c main_arg3) (rowOf (kU1 m ρ c main_v14)) (kU1 m ρ c main_arg5) (rowOf (kU1 m ρ c main_v15)) = kvH0 m c := by
  unfold kvH0
  exact mlp_congr (glue0_agg (kW0 m ρ c)) (kW1_arg m ρ c main_arg0 (by decide)) (kW1_arg m ρ c main_arg3 (by decide)) (glue0_b1 (kW0 m ρ c)) (kW1_arg m ρ c main_arg5 (by decide))
    (glue0_b2 (kW0 m ρ c))

theorem kv_h0 (c : Dev nD) : (kW2 m ρ d0 c (Proc.devRef .tc main_v16_0) : Mat 100000 128) = kvH0 m c :=
  (kW2_arr m ρ d0 c 6).trans ((H.hv06 (kU1 m ρ) c).trans (kv_mlp0 m ρ d0 d1 d2 d3 d4 H c))
theorem kv_s0 (c : Dev nD) : (kW2 m ρ d0 c (Proc.devRef .tc main_v16_1) : Mat 1 128) = matOf (colSum (kvH0 m c)) :=
  (kW2_arr m ρ d0 c 7).trans ((H.hv07 (kU1 m ρ) c).trans (congrArg (fun h => matOf (colSum h)) (kv_mlp0 m ρ d0 d1 d2 d3 d4 H c)))
theorem kv_q0 (c : Dev nD) : (kW2 m ρ d0 c (Proc.devRef .tc main_v16_2) : Mat 1 128) = matOf (colSumSq (kvH0 m c)) :=
  (kW2_arr m ρ d0 c 8).trans ((H.hv08 (kU1 m ρ) c).trans (congrArg (fun h => matOf (colSumSq h)) (kv_mlp0 m ρ d0 d1 d2 d3 d4 H c)))

theorem kv_h0' (c : Dev nD) : (kW3 m ρ d0 c (Proc.devRef .tc main_v16_0) : Mat 100000 128) = kvH0 m c :=
  (glue1_keep (kW2 m ρ d0 c) main_v16_0 (by decide)).trans (kv_h0 m ρ d0 d1 d2 d3 d4 H c)
theorem kv_scale0 (c : Dev nD) : rowOf (kW3 m ρ d0 c (Proc.devRef .tc main_v29) : Mat 1 128)
    = kScale bnN bnE (m ((c : Thread nD τ).loc main_arg7)) (colSum (kvH0 m c)) (colSumSq (kvH0 m c)) :=
  (glue1_scale (kW2 m ρ d0 c)).trans (kScale_congr _ _ (kW2_arg m ρ d0 H.hA0 c main_arg7 (by decide))
    ((congrArg rowOf (kv_s0 m ρ d0 d1 d2 d3 d4 H c)).trans (rowOf_matOf _)) ((congrArg rowOf (kv_q0 m ρ d0 d1 d2 d3 d4 H c)).trans (rowOf_matOf _)))
theorem kv_shift0 (c : Dev nD) : rowOf (kW3 m ρ d0 c (Proc.devRef .tc main_v33) : Mat 1 128)
    = kShift bnN bnE (m ((c : Thread nD τ).loc main_arg7)) (m ((c : Thread nD τ).loc main_arg8)) (colSum (kvH0 m c)) (colSumSq (kvH0 m c)) :=
  (glue1_shift (kW2 m ρ d0 c)).trans (kShift_congr _ _ (kW2_arg m ρ d0 H.hA0 c main_arg7 (by decide)) (kW2_arg m ρ d0 H.hA0 c main_arg8 (by decide))
    ((congrArg rowOf (kv_s0 m ρ d0 d1 d2 d3 d4 H c)).trans (rowOf_matOf _)) ((congrArg rowOf (kv_q0 m ρ d0 d1 d2 d3 d4 H c)).trans (rowOf_matOf _)))

theorem kv_x1 (c : Dev nD) : (kW4 m ρ d0 d1 c (Proc.devRef .tc main_v34) : Mat 100000 128) = kvX1 m c :=
  (kW4_arr m ρ d0 d1 c 3).trans ((H.hv13 (kU3 m ρ d0) c).trans
    (congrArg relu (affine_congr (kv_h0' m ρ d0 d1 d2 d3 d4 H c) (kv_scale0 m ρ d0 d1 d2 d3 d4 H c) (kv_shift0 m ρ d0 d1 d2 d3 d4 H c))))

theorem kv_src4 (c : Dev nD) : (kW4 m ρ d0 d1 c (Proc.devRef .tc main_v1) : IVec S1600000 32) = edgeSrc (m ((c : Thread nD τ).loc main_arg1)) :=
  (kW4_of_ne m ρ d0 d1 c main_v1 (by decide)).trans <| (glue1_keep (kW2 m ρ d0 c) main_v1 (by decide)).trans <|
    (kW2_of_ne m ρ d0 c main_v1 (by decide)).trans <| glue0_src (kW0 m ρ c)
theorem kv_dst4 (c : Dev nD) : (kW4 m ρ d0 d1 c (Proc.devRef .tc main_v3) : IVec S1600000 32) = edgeDst (m ((c : Thread nD τ).loc main_arg1)) :=
  (kW4_of_ne m ρ d0 d1 c main_v3 (by decide)).trans <| (glue1_keep (kW2 m ρ d0 c) main_v3 (by decide)).trans <|
    (kW2_of_ne m ρ d0 c main_v3 (by decide)).trans <| glue0_dst (kW0 m ρ c)
theorem kv_agg1 (c : Dev nD) : (kW5 m ρ d0 d1 c (Proc.devRef .tc main_v44) : Mat 100000 128) = kAgg (kvX1 m c) (m ((c : Thread nD τ).loc main_arg1)) :=
  (glue2_agg (kW4 m ρ d0 d1 c) (m ((c : Thread nD τ).loc main_arg1)) (kv_src4 m ρ d0 d1 d2 d3 d4 H c) (kv_dst4 m ρ d0 d1 d2 d3 d4 H c)).trans
    (congrArg (fun y => kAgg y (m ((c : Thread nD τ).loc main_arg1))) (kv_x1 m ρ d0 d1 d2 d3 d4 H c))
theorem kv_x1' (c : Dev nD) : (kW5 m ρ d0 d1 c (Proc.devRef .tc main_v34) : Mat 100000 128) = kvX1 m c :=
  (glue2_keep (kW4 m ρ d0 d1 c) main_v34 (by decide)).trans (kv_x1 m ρ d0 d1 d2 d3 d4 H c)
theorem kv_b1_1 (c : Dev nD) : rowOf (kW5 m ρ d0 d1 c (Proc.devRef .tc main_v45) : Mat 1 128) = ((m ((c : Thread nD τ).loc main_arg10)) : Row 128) :=
  (glue2_b1 (kW4 m ρ d0 d1 c)).trans (kW4_arg m ρ d0 d1 H.hA0 c main_arg10 (by decide))
theorem kv_b2_1 (c : Dev nD) : rowOf (kW5 m ρ d0 d1 c (Proc.devRef .tc main_v46) : Mat 1 128) = ((m ((c : Thread nD τ).loc main_arg12)) : Row 128) :=
  (glue2_b2 (kW4 m ρ d0 d1 c)).trans (kW4_arg m ρ d0 d1 H.hA0 c main_arg12 (by decide))

theorem kv_mlp1 (c : Dev nD) :
    mlp (kU5 m ρ d0 d1 c main_v44) (kU5 m ρ d0 d1 c main_v34) (kU5 m ρ d0 d1 c main_arg9) (rowOf (kU5 m ρ d0 d1 c main_v45)) (kU5 m ρ d0 d1 c main_arg11) (rowOf (kU5 m ρ d0 d1 c main_v46)) = kvH1 m c := by
  unfold kvH1
  exact mlp_congr (kv_agg1 m ρ d0 d1 d2 d3 d4 H c) (kv_x1' m ρ d0 d1 d2 d3 d4 H c) (kW5_arg m ρ d0 d1 H.hA0 c main_arg9 (by decide)) (kv_b1_1 m ρ d0 d1 d2 d3 d4 H c)
    (kW5_arg m ρ d0 d1 H.hA0 c main_arg11 (by decide)) (kv_b2_1 m ρ d0 d1 d2 d3 d4 H c)
theorem kv_h1 (c : Dev nD) : (kW6 m ρ d0 d1 d2 c (Proc.devRef .tc main_v47_0) : Mat 100000 128) = kvH1 m c :=
  (kW6_arr m ρ d0 d1 d2 c 6).trans ((H.hv26 (kU5 m ρ d0 d1) c).trans (kv_mlp1 m ρ d0 d1 d2 d3 d4 H c))
theorem kv_s1 (c : Dev nD) : (kW6 m ρ d0 d1 d2 c (Proc.devRef .tc main_v47_1) : Mat 1 128) = matOf (colSum (kvH1 m c)) :=
  (kW6_arr m ρ d0 d1 d2 c 7).trans ((H.hv27 (kU5 m ρ d0 d1) c).trans (congrArg (fun h => matOf (colSum h)) (kv_mlp1 m ρ d0 d1 d2 d3 d4 H c)))
theorem kv_q1 (c : Dev nD) : (kW6 m ρ d0 d1 d2 c (Proc.devRef .tc main_v47_2) : Mat 1 128) = matOf (colSumSq (kvH1 m c)) :=
  (kW6_arr m ρ d0 d1 d2 c 8).trans ((H.hv28 (kU5 m ρ d0 d1) c).trans (congrArg (fun h => matOf (colSumSq h)) (kv_mlp1 m ρ d0 d1 d2 d3 d4 H c)))

theorem kv_h1' (c : Dev nD) : (kW7 m ρ d0 d1 d2 c (Proc.devRef .tc main_v47_0) : Mat 100000 128) = kvH1 m c :=
  (glue3_keep (kW6 m ρ d0 d1 d2 c) main_v47_0 (by decide)).trans (kv_h1 m ρ d0 d1 d2 d3 d4 H c)
theorem kv_scale1 (c : Dev nD) : rowOf (kW7 m ρ d0 d1 d2 c (Proc.devRef .tc main_v60) : Mat 1 128)
    = kScale bnN bnE (m ((c : Thread nD τ).loc main_arg13)) (colSum (kvH1 m c)) (colSumSq (kvH1 m c)) :=
  (glue3_scale (kW6 m ρ d0 d1 d2 c)).trans (kScale_congr _ _ (kW6_arg m ρ d0 d1 d2 H.hA0 H.hA2 c main_arg13 (by decide))
    ((congrArg rowOf (kv_s1 m ρ d0 d1 d2 d3 d4 H c)).trans (rowOf_matOf _)) ((congrArg rowOf (kv_q1 m ρ d0 d1 d2 d3 d4 H c)).trans (rowOf_matOf _)))
theorem kv_shift1 (c : Dev nD) : rowOf (kW7 m ρ d0 d1 d2 c (Proc.devRef .tc main_v64) : Mat 1 128)
    = kShift bnN bnE (m ((c : Thread nD τ).loc main_arg13)) (m ((c : Thread nD τ).loc main_arg14)) (colSum (kvH1 m c)) (colSumSq (kvH1 m c)) :=
  (glue3_shift (kW6 m ρ d0 d1 d2 c)).trans (kShift_congr _ _ (kW6_arg m ρ d0 d1 d2 H.hA0 H.hA2 c main_arg13 (by decide)) (kW6_arg m ρ d0 d1 d2 H.hA0 H.hA2 c main_arg14 (by decide))
    ((congrArg rowOf (kv_s1 m ρ d0 d1 d2 d3 d4 H c)).trans (rowOf_matOf _)) ((congrArg rowOf (kv_q1 m ρ d0 d1 d2 d3 d4 H c)).trans (rowOf_matOf _)))
theorem kv_n3 (c : Dev nD) : (kW8 m ρ d0 d1 d2 d3 c (Proc.devRef .tc main_v65) : Mat 100000 128) = kvN3 m c :=
  (kW8_arr m ρ d0 d1 d2 d3 c 3).trans ((H.hv33 (kU7 m ρ d0 d1 d2) c).trans
    (affine_congr (kv_h1' m ρ d0 d1 d2 d3 d4 H c) (kv_scale1 m ρ d0 d1 d2 d3 d4 H c) (kv_shift1 m ρ d0 d1 d2 d3 d4 H c)))

theorem kv_padded (c : Dev nD) : (kW13 m ρ d0 d1 d2 d3 c (Proc.devRef .tc main_v66) : Mat 100352 128) = padRows 100352 (kvN3 m c) :=
  (glue4_4_keep (kW12 m ρ d0 d1 d2 d3 c) main_v66 (by decide)).trans <| (glue4_3_keep (kW11 m ρ d0 d1 d2 d3 c) main_v66 (by decide)).trans <|
    (glue4_2_keep (kW10 m ρ d0 d1 d2 d3 c) main_v66 (by decide)).trans <|
      (glue4_pad (kW8 m ρ d0 d1 d2 d3 c)).trans (congrArg (padRows 100352) (kv_n3 m ρ d0 d1 d2 d3 d4 H c))
theorem kv_ids (c : Dev nD) : (fun r : Fin 100352 => (kW13 m ρ d0 d1 d2 d3 c (Proc.devRef .tc main_v68) : IVec S100352x1 32) (ix2 r (0 : Fin 1)))
    = padIds 100352 (fun r : Fin 100000 => ((m ((c : Thread nD τ).loc main_arg2)) : IVec S100000 32) (ix1 r)) :=
  (glue4_ids (kW10 m ρ d0 d1 d2 d3 c)).trans
    (congrArg (fun a : IVec S100000 32 => padIds 100352 (fun r : Fin 100000 => a (ix1 r))) (kW10_arg m ρ d0 d1 d2 d3 H.hA0 H.hA2 c main_arg2 (by decide)))
theorem kv_bias (c : Dev nD) : rowOf (kW13 m ρ d0 d1 d2 d3 c (Proc.devRef .tc main_v69) : Mat 1 10) = ((m ((c : Thread nD τ).loc main_arg16)) : Row 10) :=
  (glue4_bias (kW12 m ρ d0 d1 d2 d3 c)).trans (kW12_arg m ρ d0 d1 d2 d3 H.hA0 H.hA2 c main_arg16 (by decide))

theorem kernel_value' (c : Dev nD) : ((d4 (kU13 m ρ d0 d1 d2 d3) c).arrAt 4 cfg4.N : Mat 512 10)
    = netK (fun y => kAgg y (m ((c : Thread nD τ).loc main_arg1))) bnN bnE (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
        (fun r : Fin 100000 => ((m ((c : Thread nD τ).loc main_arg2)) : IVec S100000 32) (ix1 r)) := by
  exact (H.hv44 (kU13 m ρ d0 d1 d2 d3) c).trans (dense_pool_congr (kv_padded m ρ d0 d1 d2 d3 d4 H c) (kv_ids m ρ d0 d1 d2 d3 d4 H c) (kW13_arg m ρ d0 d1 d2 d3 H.hA0 H.hA2 c main_arg15 (by decide)) (kv_bias m ρ d0 d1 d2 d3 d4 H c))

end Value

set_option maxHeartbeats 1600000 in

theorem kernel_value (m : (ℓ : Loc nD τ sig) → Buf (Elt Ideal) ℓ) (ρ : Dev nD → PrngReg)
    (d0 : Cont Ideal → (c : Dev nD) → Dat τ (Elt Ideal) Unit ℕ (UR sig nD τ) ℕ cfg0 c) (d1 : Cont Ideal → (c : Dev nD) → Dat τ (Elt Ideal) Unit ℕ (UR sig nD τ) ℕ cfg1 c) (d2 : Cont Ideal → (c : Dev nD) → Dat τ (Elt Ideal) Unit ℕ (UR sig nD τ) ℕ cfg2 c) (d3 : Cont Ideal → (c : Dev nD) → Dat τ (Elt Ideal) Unit ℕ (UR sig nD τ) ℕ cfg3 c) (d4 : Cont Ideal → (c : Dev nD) → Dat τ (Elt Ideal) Unit ℕ (UR sig nD τ) ℕ cfg4 c)
    (hA0 : ∀ (V : Cont Ideal) (c : Dev nD) (w : Fin cfg0.W), (d0 V c).A w = V c (Pipeline.arrRef spec0 w))
    (hA2 : ∀ (V : Cont Ideal) (c : Dev nD) (w : Fin cfg2.W), (d2 V c).A w = V c (Pipeline.arrRef spec2 w))
    (hA4 : ∀ (V : Cont Ideal) (c : Dev nD) (w : Fin cfg4.W), (d4 V c).A w = V c (Pipeline.arrRef spec4 w))
    (hv06 : ∀ (V : Cont Ideal) (c : Dev nD), ((d0 V c).arrAt 6 cfg0.N : Mat 100000 128)
      = mlp (V c main_v13) (V c main_arg0) (V c main_arg3) (rowOf (V c main_v14)) (V c main_arg5) (rowOf (V c main_v15)))
    (hv07 : ∀ (V : Cont Ideal) (c : Dev nD), ((d0 V c).arrAt 7 cfg0.N : Mat 1 128)
      = matOf (colSum (mlp (V c main_v13) (V c main_arg0) (V c main_arg3) (rowOf (V c main_v14)) (V c main_arg5) (rowOf (V c main_v15)))))
    (hv08 : ∀ (V : Cont Ideal) (c : Dev nD), ((d0 V c).arrAt 8 cfg0.N : Mat 1 128)
      = matOf (colSumSq (mlp (V c main_v13) (V c main_arg0) (V c main_arg3) (rowOf (V c main_v14)) (V c main_arg5) (rowOf (V c main_v15)))))
    (hv13 : ∀ (V : Cont Ideal) (c : Dev nD), ((d1 V c).arrAt 3 cfg1.N : Mat 100000 128)
      = relu (affine (V c main_v16_0) (rowOf (V c main_v29)) (rowOf (V c main_v33))))
    (hv26 : ∀ (V : Cont Ideal) (c : Dev nD), ((d2 V c).arrAt 6 cfg2.N : Mat 100000 128)
      = mlp (V c main_v44) (V c main_v34) (V c main_arg9) (rowOf (V c main_v45)) (V c main_arg11) (rowOf (V c main_v46)))
    (hv27 : ∀ (V : Cont Ideal) (c : Dev nD), ((d2 V c).arrAt 7 cfg2.N : Mat 1 128)
      = matOf (colSum (mlp (V c main_v44) (V c main_v34) (V c main_arg9) (rowOf (V c main_v45)) (V c main_arg11) (rowOf (V c main_v46)))))
    (hv28 : ∀ (V : Cont Ideal) (c : Dev nD), ((d2 V c).arrAt 8 cfg2.N : Mat 1 128)
      = matOf (colSumSq (mlp (V c main_v44) (V c main_v34) (V c main_arg9) (rowOf (V c main_v45)) (V c main_arg11) (rowOf (V c main_v46)))))
    (hv33 : ∀ (V : Cont Ideal) (c : Dev nD), ((d3 V c).arrAt 3 cfg3.N : Mat 100000 128)
      = affine (V c main_v47_0) (rowOf (V c main_v60)) (rowOf (V c main_v64)))
    (hv44 : ∀ (V : Cont Ideal) (c : Dev nD), ((d4 V c).arrAt 4 cfg4.N : Mat 512 10)
      = dense (pool 512 (V c main_v66) (fun r => V c main_v68 (ix2 r 0))) (V c main_arg15) (rowOf (V c main_v69)))
    (c : Dev nD) : ((d4 (kU13 m ρ d0 d1 d2 d3) c).arrAt 4 cfg4.N : Mat 512 10)
    = netK (fun y => kAgg y (m ((c : Thread nD τ).loc main_arg1))) bnN bnE (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
        (fun r : Fin 100000 => ((m ((c : Thread nD τ).loc main_arg2)) : IVec S100000 32) (ix1 r)) :=
  kernel_value' m ρ d0 d1 d2 d3 d4 ⟨hA0, hA2, hA4, hv06, hv07, hv08, hv13, hv26, hv27, hv28, hv33, hv44⟩ c

end Cert.KernelIdeal.Hand
-- ==== Proof.RefRead.lean ====
import proofs.«412881_j60095182405865_1_alg».proof.Proof.Gen.ReferenceIdeal
import proofs.«412881_j60095182405865_1_alg».proof.Proof.Spec
import proofs.«412881_j60095182405865_1_alg».proof.Proof.RefRun
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.ReferenceIdeal.Hand

open Idealize.ShloMosaic Idealize.ShloMosaic.ValueIdx
open Cert.ReferenceIdeal Cert.ReferenceIdeal.Gen Cert.GinSpec

namespace Printed

theorem rowCopies_apply {α : Type} {n d : Nat}
    (h₁ : (⟨1, ![d]⟩ : Shape).BroadcastsInDim ⟨2, ![1, d]⟩ ![1])
    (h₂ : (⟨2, ![1, d]⟩ : Shape).BroadcastsInDim ⟨2, ![n, d]⟩ ![0, 1])
    (v : (⟨1, ![d]⟩ : Shape).Idx → α) (i : (⟨2, ![n, d]⟩ : Shape).Idx) :
    broadcastInDim ⟨2, ![n, d]⟩ ![0, 1] h₂ (broadcastInDim ⟨2, ![1, d]⟩ ![1] h₁ v) i = v (ix1 (i 1)) := by
  unfold broadcastInDim
  refine congrArg v (funext fun a => ?_)
  obtain rfl : a = 0 := Subsingleton.elim _ _
  apply Fin.ext
  have hlt : (i 1).val < d := (i 1).isLt
  dsimp only
  split
  · next h1 => change d = 1 at h1; show (0 : Nat) = (i 1).val; omega
  · split
    · next h1 h2 => change d = 1 at h2; exact absurd h2 h1
    · rfl

theorem scalarCopies_apply {α : Type} {t : Shape} (hb : S_.BroadcastsInDim t (![] : Fin 0 → Fin t.rank))
    (v : S_.Idx → α) (i : t.Idx) : broadcastInDim t ![] hb v i = v ix0 := by
  unfold broadcastInDim
  exact congrArg v (funext fun a => a.elim0)

theorem rows_val : Ideal.ofBits .f32 0x47C35000#32 = ((100000 : ℝ) : EReal) := by
  simp [Ideal.ofBits, Ideal.ieee, -EReal.coe_mul]; norm_num

theorem normaliser_eq :
    Ideal.ofBits .f32 0x47C35000#32 - FloatOps.sitofp (F := Ideal) .f32 (0#32 : BitVec 32) = Ideal.ofBits .f32 0x47C35000#32 := by
  have h0 : FloatOps.sitofp (F := Ideal) .f32 (0#32 : BitVec 32) = 0 := by
    show (((0#32 : BitVec 32).toInt : ℝ) : EReal) = 0
    simp
  rw [h0, sub_zero]

theorem dot128_apply (h : FVec Ideal S100000x128 .f32) (w : FVec Ideal S128x128 .f32) (r : Fin 100000) (j : Fin 128) :
    Host.dotGeneral dot_S100000x128_S128x128_S100000x128_1_0_0_1_n_n none h w (ix2 r j) = ∑ k : Fin 128, h (ix2 r k) * w (ix2 k j) :=
  StackMember.dotGeneral_plain_apply none h w r j

theorem dot10_apply (p : FVec Ideal S512x128 .f32) (w : FVec Ideal S128x10 .f32) (g : Fin 512) (j : Fin 10) :
    Host.dotGeneral dot_S512x128_S128x10_S512x10_1_0_0_1_n_n none p w (ix2 g j) = ∑ k : Fin 128, p (ix2 g k) * w (ix2 k j) :=
  StackMember.dotGeneral_plain_apply none p w g j

theorem dense128_read (h : FVec Ideal S100000x128 .f32) (w : FVec Ideal S128x128 .f32) (b : FVec Ideal S128 .f32) :
    addf (Host.dotGeneral dot_S100000x128_S128x128_S100000x128_1_0_0_1_n_n none h w) (broadcastInDim S100000x128 ![0, 1] bcast_S1x128_S100000x128_0_1 (broadcastInDim S1x128 ![1] bcast_S128_S1x128_1 b)) = dense h w b := by
  funext i
  obtain ⟨r, j, rfl⟩ : ∃ (r : Fin 100000) (j : Fin 128), i = ix2 r j := ⟨i 0, i 1, eq_ix2 i⟩
  show Host.dotGeneral dot_S100000x128_S128x128_S100000x128_1_0_0_1_n_n none h w (ix2 r j) + (broadcastInDim S100000x128 ![0, 1] bcast_S1x128_S100000x128_0_1 (broadcastInDim S1x128 ![1] bcast_S128_S1x128_1 b)) (ix2 r j) = _
  rw [dot128_apply, rowCopies_apply]
  rfl

theorem dense10_read (p : FVec Ideal S512x128 .f32) (w : FVec Ideal S128x10 .f32) (b : FVec Ideal S10 .f32) :
    addf (Host.dotGeneral dot_S512x128_S128x10_S512x10_1_0_0_1_n_n none p w)
      (broadcastInDim S512x10 ![0, 1] bcast_S1x10_S512x10_0_1 (broadcastInDim S1x10 ![1] bcast_S10_S1x10_1 b)) = dense p w b := by
  funext i
  obtain ⟨g, j, rfl⟩ : ∃ (g : Fin 512) (j : Fin 10), i = ix2 g j := ⟨i 0, i 1, eq_ix2 i⟩
  show Host.dotGeneral dot_S512x128_S128x10_S512x10_1_0_0_1_n_n none p w (ix2 g j)
    + (broadcastInDim S512x10 ![0, 1] bcast_S1x10_S512x10_0_1 (broadcastInDim S1x10 ![1] bcast_S10_S1x10_1 b)) (ix2 g j) = _
  rw [dot10_apply, rowCopies_apply]
  rfl

theorem relu_read (h : FVec Ideal S100000x128 .f32) :
    maximumf h (broadcastInDim S100000x128 ![] bcast_S_S100000x128 (constant (F := Ideal) S_ .f32 0x00000000#32)) = relu h := by
  funext i
  show max (h i) (Ideal.ofBits .f32 0x00000000#32) = max (h i) 0
  rw [Ideal.ofBits_zero_f32]

theorem mlp_read (agg x : FVec Ideal S100000x128 .f32) (w1 : FVec Ideal S128x128 .f32) (b1 : FVec Ideal S128 .f32)
    (w2 : FVec Ideal S128x128 .f32) (b2 : FVec Ideal S128 .f32) :
    addf (Host.dotGeneral dot_S100000x128_S128x128_S100000x128_1_0_0_1_n_n none
        (maximumf (addf (Host.dotGeneral dot_S100000x128_S128x128_S100000x128_1_0_0_1_n_n none (addf agg x) w1) (broadcastInDim S100000x128 ![0, 1] bcast_S1x128_S100000x128_0_1 (broadcastInDim S1x128 ![1] bcast_S128_S1x128_1 b1)))
          (broadcastInDim S100000x128 ![] bcast_S_S100000x128 (constant (F := Ideal) S_ .f32 0x00000000#32))) w2) (broadcastInDim S100000x128 ![0, 1] bcast_S1x128_S100000x128_0_1 (broadcastInDim S1x128 ![1] bcast_S128_S1x128_1 b2))
      = mlp agg x w1 b1 w2 b2 := by
  rw [dense128_read (addf agg x) w1 b1, relu_read, dense128_read]
  rfl

theorem rowsReduce : S100000x128.Reduces [0] S128 := by decide

theorem colSum_apply (h : FVec Ideal S100000x128 .f32) (j : S128.Idx) :
    (Host.reduceAdd h (constant (F := Ideal) S_ .f32 0x00000000#32) reducesTo_S100000x128_S128_d0 h_S_) j = ∑ r : Fin 100000, h (ix2 r (j 0)) := by
  show Ideal.hostReduceAdd reducesTo_S100000x128_S128_d0 h (Ideal.ofBits .f32 0x00000000#32) j = _
  rw [Ideal.hostReduceAdd_single reducesTo_S100000x128_S128_d0 rowsReduce, Ideal.ofBits_zero_f32, zero_add]
  refine Finset.sum_congr rfl fun r _ => congrArg h (funext fun a => Fin.ext ?_)
  match a with
  | ⟨0, _⟩ => rfl
  | ⟨1, _⟩ => rfl

theorem colSum_read (h : FVec Ideal S100000x128 .f32) : (Host.reduceAdd h (constant (F := Ideal) S_ .f32 0x00000000#32) reducesTo_S100000x128_S128_d0 h_S_) = colSum h :=
  funext fun j => colSum_apply h j

theorem mean_read (h : FVec Ideal S100000x128 .f32) :
    Host.divf (Host.reduceAdd h (constant (F := Ideal) S_ .f32 0x00000000#32) reducesTo_S100000x128_S128_d0 h_S_) (broadcastInDim S128 ![] bcast_S_S128 (constant (F := Ideal) S_ .f32 0x47C35000#32)) = rMean (Ideal.ofBits .f32 0x47C35000#32) h := by
  rw [colSum_read]
  rfl

theorem meanLayout_apply (h : FVec Ideal S100000x128 .f32) (i : S100000x128.Idx) :
    (broadcastInDim S100000x128 ![0, 1] bcast_S1x128_S100000x128_0_1
          (Host.divf (broadcastInDim S1x128 ![1] bcast_S128_S1x128_1 (Host.reduceAdd h (constant (F := Ideal) S_ .f32 0x00000000#32) reducesTo_S100000x128_S128_d0 h_S_))
            (broadcastInDim S1x128 ![] bcast_S_S1x128 (constant (F := Ideal) S_ .f32 0x47C35000#32)))) i = rMean (Ideal.ofBits .f32 0x47C35000#32) h (ix1 (i 1)) := by
  unfold broadcastInDim
  show Ideal.div ((Host.reduceAdd h (constant (F := Ideal) S_ .f32 0x00000000#32) reducesTo_S100000x128_S128_d0 h_S_) _) (Ideal.ofBits .f32 0x47C35000#32) = Ideal.div (colSum h (ix1 (i 1))) (Ideal.ofBits .f32 0x47C35000#32)
  rw [colSum_read]
  refine congrArg (fun j => Ideal.div (colSum h j) (Ideal.ofBits .f32 0x47C35000#32)) (funext fun a => ?_)
  obtain rfl : a = 0 := Subsingleton.elim _ _
  rfl

theorem sqDev_eq (h : FVec Ideal S100000x128 .f32) :
    mulf (subf h (broadcastInDim S100000x128 ![0, 1] bcast_S1x128_S100000x128_0_1
          (Host.divf (broadcastInDim S1x128 ![1] bcast_S128_S1x128_1 (Host.reduceAdd h (constant (F := Ideal) S_ .f32 0x00000000#32) reducesTo_S100000x128_S128_d0 h_S_))
            (broadcastInDim S1x128 ![] bcast_S_S1x128 (constant (F := Ideal) S_ .f32 0x47C35000#32))))) (subf h (broadcastInDim S100000x128 ![0, 1] bcast_S1x128_S100000x128_0_1
          (Host.divf (broadcastInDim S1x128 ![1] bcast_S128_S1x128_1 (Host.reduceAdd h (constant (F := Ideal) S_ .f32 0x00000000#32) reducesTo_S100000x128_S128_d0 h_S_))
            (broadcastInDim S1x128 ![] bcast_S_S1x128 (constant (F := Ideal) S_ .f32 0x47C35000#32)))))
      = fun i => (h i - rMean (Ideal.ofBits .f32 0x47C35000#32) h (ix1 (i 1))) * (h i - rMean (Ideal.ofBits .f32 0x47C35000#32) h (ix1 (i 1))) := by
  funext i
  show (h i - (broadcastInDim S100000x128 ![0, 1] bcast_S1x128_S100000x128_0_1
          (Host.divf (broadcastInDim S1x128 ![1] bcast_S128_S1x128_1 (Host.reduceAdd h (constant (F := Ideal) S_ .f32 0x00000000#32) reducesTo_S100000x128_S128_d0 h_S_))
            (broadcastInDim S1x128 ![] bcast_S_S1x128 (constant (F := Ideal) S_ .f32 0x47C35000#32)))) i) * (h i - (broadcastInDim S100000x128 ![0, 1] bcast_S1x128_S100000x128_0_1
          (Host.divf (broadcastInDim S1x128 ![1] bcast_S128_S1x128_1 (Host.reduceAdd h (constant (F := Ideal) S_ .f32 0x00000000#32) reducesTo_S100000x128_S128_d0 h_S_))
            (broadcastInDim S1x128 ![] bcast_S_S1x128 (constant (F := Ideal) S_ .f32 0x47C35000#32)))) i) = _
  rw [meanLayout_apply]

theorem var_read (h : FVec Ideal S100000x128 .f32) :
    Host.divf (Host.reduceAdd (mulf (subf h (broadcastInDim S100000x128 ![0, 1] bcast_S1x128_S100000x128_0_1
          (Host.divf (broadcastInDim S1x128 ![1] bcast_S128_S1x128_1 (Host.reduceAdd h (constant (F := Ideal) S_ .f32 0x00000000#32) reducesTo_S100000x128_S128_d0 h_S_))
            (broadcastInDim S1x128 ![] bcast_S_S1x128 (constant (F := Ideal) S_ .f32 0x47C35000#32))))) (subf h (broadcastInDim S100000x128 ![0, 1] bcast_S1x128_S100000x128_0_1
          (Host.divf (broadcastInDim S1x128 ![1] bcast_S128_S1x128_1 (Host.reduceAdd h (constant (F := Ideal) S_ .f32 0x00000000#32) reducesTo_S100000x128_S128_d0 h_S_))
            (broadcastInDim S1x128 ![] bcast_S_S1x128 (constant (F := Ideal) S_ .f32 0x47C35000#32)))))) (constant (F := Ideal) S_ .f32 0x00000000#32) reducesTo_S100000x128_S128_d0 h_S_)
      (broadcastInDim S128 ![] bcast_S_S128 (subf (constant (F := Ideal) S_ .f32 0x47C35000#32) (sitofp .f32 (constantI S_ 32 0#32))))
      = rVar (Ideal.ofBits .f32 0x47C35000#32) (Ideal.ofBits .f32 0x47C35000#32 - FloatOps.sitofp (F := Ideal) .f32 (0#32 : BitVec 32)) h := by
  funext j
  obtain ⟨q, rfl⟩ : ∃ q : Fin 128, j = ix1 q := ⟨j 0, eq_ix1 j⟩
  show Ideal.div (Host.reduceAdd (mulf (subf h (broadcastInDim S100000x128 ![0, 1] bcast_S1x128_S100000x128_0_1
          (Host.divf (broadcastInDim S1x128 ![1] bcast_S128_S1x128_1 (Host.reduceAdd h (constant (F := Ideal) S_ .f32 0x00000000#32) reducesTo_S100000x128_S128_d0 h_S_))
            (broadcastInDim S1x128 ![] bcast_S_S1x128 (constant (F := Ideal) S_ .f32 0x47C35000#32))))) (subf h (broadcastInDim S100000x128 ![0, 1] bcast_S1x128_S100000x128_0_1
          (Host.divf (broadcastInDim S1x128 ![1] bcast_S128_S1x128_1 (Host.reduceAdd h (constant (F := Ideal) S_ .f32 0x00000000#32) reducesTo_S100000x128_S128_d0 h_S_))
            (broadcastInDim S1x128 ![] bcast_S_S1x128 (constant (F := Ideal) S_ .f32 0x47C35000#32)))))) (constant (F := Ideal) S_ .f32 0x00000000#32) reducesTo_S100000x128_S128_d0 h_S_ (ix1 q))
      (Ideal.ofBits .f32 0x47C35000#32 - FloatOps.sitofp (F := Ideal) .f32 (0#32 : BitVec 32)) = _
  rw [sqDev_eq, colSum_apply]
  rfl

theorem selectVar_read (v e : FVec Ideal S128 .f32) :
    select (broadcastInDim S128 ![] bcast_S_S128 (cmpf .ogt (subf (constant (F := Ideal) S_ .f32 0x47C35000#32) (sitofp .f32 (constantI S_ 32 0#32))) (constant (F := Ideal) S_ .f32 0x00000000#32))) v e = v := by
  funext j
  have hc : (broadcastInDim S128 ![] bcast_S_S128 (cmpf .ogt (subf (constant (F := Ideal) S_ .f32 0x47C35000#32) (sitofp .f32 (constantI S_ 32 0#32))) (constant (F := Ideal) S_ .f32 0x00000000#32))) j = 1#1 := by
    rw [scalarCopies_apply]
    show Ideal.cmp .ogt (Ideal.ofBits .f32 0x47C35000#32 - FloatOps.sitofp (F := Ideal) .f32 (0#32 : BitVec 32)) (Ideal.ofBits .f32 0x00000000#32) = 1#1
    rw [normaliser_eq, rows_val, Ideal.ofBits_zero_f32]
    have hpos : (0 : EReal) < ((100000 : ℝ) : EReal) := by exact_mod_cast (by norm_num : (0 : ℝ) < 100000)
    show BitVec.ofBool (decide ((0 : EReal) < ((100000 : ℝ) : EReal))) = 1#1
    rw [decide_eq_true hpos]; rfl
  show Scalar.select _ (v j) (e j) = v j
  rw [hc]
  exact select_one _ _

theorem norm_read (h : FVec Ideal S100000x128 .f32) (mean var g be : FVec Ideal S128 .f32) :
    addf (mulf (mulf (subf h (broadcastInDim S100000x128 ![0, 1] bcast_S1x128_S100000x128_0_1 (broadcastInDim S1x128 ![1] bcast_S128_S1x128_1 mean)))
        (broadcastInDim S100000x128 ![0, 1] bcast_S1x128_S100000x128_0_1 (broadcastInDim S1x128 ![1] bcast_S128_S1x128_1 (Host.rsqrt (addf var (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be))
      = fun i => (h i - mean (ix1 (i 1))) * Ideal.rsqrt (var (ix1 (i 1)) + Ideal.ofBits .f32 0x3727C5AC#32) * g (ix1 (i 1)) + be (ix1 (i 1)) := by
  funext i
  show (h i - (broadcastInDim S100000x128 ![0, 1] bcast_S1x128_S100000x128_0_1 (broadcastInDim S1x128 ![1] bcast_S128_S1x128_1 mean)) i)
      * (broadcastInDim S100000x128 ![0, 1] bcast_S1x128_S100000x128_0_1 (broadcastInDim S1x128 ![1] bcast_S128_S1x128_1 (Host.rsqrt (addf var (broadcastInDim S128 ![] bcast_S_S128 (constant (F := Ideal) S_ .f32 0x3727C5AC#32)))))) i
      * (broadcastInDim S100000x128 ![0, 1] bcast_S1x128_S100000x128_0_1 (broadcastInDim S1x128 ![1] bcast_S128_S1x128_1 g)) i + (broadcastInDim S100000x128 ![0, 1] bcast_S1x128_S100000x128_0_1 (broadcastInDim S1x128 ![1] bcast_S128_S1x128_1 be)) i = _
  rw [rowCopies_apply, rowCopies_apply, rowCopies_apply, rowCopies_apply]
  rfl

end Printed

theorem ref_mlp (x agg : FVec Ideal S100000x128 .f32) (w1 : FVec Ideal S128x128 .f32) (b1 : FVec Ideal S128 .f32)
    (w2 : FVec Ideal S128x128 .f32) (b2 : FVec Ideal S128 .f32) :
    refMlp x agg w1 b1 w2 b2 = mlp agg x w1 b1 w2 b2 := by
  unfold refMlp refRow
  exact Printed.mlp_read agg x w1 b1 w2 b2

theorem ref_relu (h : FVec Ideal S100000x128 .f32) : refRelu h = relu h := by
  unfold refRelu
  exact Printed.relu_read h

theorem ref_mean (h : FVec Ideal S100000x128 .f32) : refMean h = rMean (Ideal.ofBits .f32 0x47C35000#32) h := by
  unfold refMean
  exact Printed.mean_read h

end Cert.ReferenceIdeal.Hand

end
-- ==== Proof.PoolAlgebra.lean ====
import proofs.«412881_j60095182405865_1_alg».proof.Proof.Spec
import Idealize.ShloMosaic.PureOps.Ideal
import Idealize.ShloMosaic.Lib.ValueIdx
import Mathlib.Data.Fintype.BigOperators
import Mathlib.Algebra.BigOperators.Group.Finset.Basic
import Mathlib.Data.EReal.Basic

noncomputable section

namespace Cert.GinAlgebra

open Idealize.ShloMosaic Idealize.ShloMosaic.ValueIdx Cert.GinSpec

theorem toInt_eq_iff (w : BitVec 32) (g : Nat) (hg : g < 2 ^ 31) : w.toInt = (g : Int) ↔ w = BitVec.ofNat 32 g := by
  constructor
  · intro h
    apply BitVec.eq_of_toNat_eq
    rw [BitVec.toNat_ofNat]
    rw [BitVec.toInt_eq_toNat_cond] at h
    have := w.isLt
    split at h <;> omega
  · rintro rfl
    rw [BitVec.toInt_eq_toNat_cond, BitVec.toNat_ofNat]
    split <;> omega

section Rows
variable {G D n : Nat}
  (wf : ScatterDims.WF (⟨2, ![G, D]⟩ : Shape) (⟨2, ![n, 1]⟩ : Shape) (⟨2, ![n, D]⟩ : Shape) [1] [0] [0] 1)

abbrev rowsDims : ScatterDims (⟨2, ![G, D]⟩ : Shape) (⟨2, ![n, 1]⟩ : Shape) (⟨2, ![n, D]⟩ : Shape) :=
  ⟨[1], [0], [0], 1, wf⟩

theorem rows_start0 (idx : IVec (⟨2, ![n, 1]⟩ : Shape) 32) (j : (⟨2, ![n, D]⟩ : Shape).Idx) :
    (rowsDims wf).start j idx 0 = (idx (ix2 (j 0) 0)).toInt := by
  unfold ScatterDims.start
  rw [dif_pos (show (0 : Fin 2) ∈ (rowsDims wf).scatterDimsToOperandDims from List.mem_singleton.mpr rfl)]
  congr 2
  funext b
  refine Fin.ext ?_
  match b with
  | ⟨0, _⟩ => rfl
  | ⟨1, _⟩ => rfl

theorem rows_start1 (idx : IVec (⟨2, ![n, 1]⟩ : Shape) 32) (j : (⟨2, ![n, D]⟩ : Shape).Idx) :
    (rowsDims wf).start j idx 1 = 0 := by
  unfold ScatterDims.start
  rw [dif_neg (show (1 : Fin 2) ∉ (rowsDims wf).scatterDimsToOperandDims from
    (by decide : (1 : Fin 2) ∉ ([0] : List (Fin 2))))]

theorem rows_window0 (j : (⟨2, ![n, D]⟩ : Shape).Idx) : (rowsDims wf).window j 0 = 0 := by
  unfold ScatterDims.window
  rw [dif_neg (show (0 : Fin 2) ∉ (rowsDims wf).sKept from (by decide : (0 : Fin 2) ∉ ([1] : List (Fin 2))))]

theorem rows_window1 (j : (⟨2, ![n, D]⟩ : Shape).Idx) : (rowsDims wf).window j 1 = (j 1).val := by
  unfold ScatterDims.window
  rw [dif_pos (show (1 : Fin 2) ∈ (rowsDims wf).sKept from (by decide : (1 : Fin 2) ∈ ([1] : List (Fin 2))))]
  rfl

theorem rows_resultIdx_iff (idx : IVec (⟨2, ![n, 1]⟩ : Shape) 32) (j : (⟨2, ![n, D]⟩ : Shape).Idx)
    (i : (⟨2, ![G, D]⟩ : Shape).Idx) :
    (rowsDims wf).resultIdx? j idx = some i ↔
      (idx (ix2 (j 0) 0)).toInt = ((i 0).val : Int) ∧ (j 1).val = (i 1).val := by
  unfold ScatterDims.resultIdx?
  have hi0 := idx2_lt0 i
  have hi1 := idx2_lt1 i
  have hj1 := idx2_lt1 j
  constructor
  · intro h
    split at h
    · rename_i hall
      have e := Option.some.inj h
      have e0 := congrArg (fun f => (f 0).val) e
      have e1 := congrArg (fun f => (f 1).val) e
      simp only at e0 e1
      rw [rows_start0, rows_window0] at e0
      rw [rows_start1, rows_window1] at e1
      have h0 := hall 0
      rw [rows_start0, rows_window0] at h0
      constructor
      · omega
      · omega
    · exact absurd h (by simp)
  · rintro ⟨h0, h1⟩
    have hall : ∀ a, 0 ≤ (rowsDims wf).start j idx a + (rowsDims wf).window j a ∧
        (rowsDims wf).start j idx a + (rowsDims wf).window j a < ((⟨2, ![G, D]⟩ : Shape).size a : Int) := by
      intro a
      match a with
      | ⟨0, _⟩ =>
        show 0 ≤ (rowsDims wf).start j idx 0 + (rowsDims wf).window j 0 ∧
          (rowsDims wf).start j idx 0 + (rowsDims wf).window j 0 < (G : Int)
        rw [rows_start0, rows_window0]; omega
      | ⟨1, _⟩ =>
        show 0 ≤ (rowsDims wf).start j idx 1 + (rowsDims wf).window j 1 ∧
          (rowsDims wf).start j idx 1 + (rowsDims wf).window j 1 < (D : Int)
        rw [rows_start1, rows_window1]; omega
    rw [dif_pos hall]
    congr 1
    funext a
    refine Fin.ext ?_
    match a with
    | ⟨0, _⟩ =>
      show ((rowsDims wf).start j idx 0 + (rowsDims wf).window j 0).toNat = (i 0).val
      rw [rows_start0, rows_window0]; omega
    | ⟨1, _⟩ =>
      show ((rowsDims wf).start j idx 1 + (rowsDims wf).window j 1).toNat = (i 1).val
      rw [rows_start1, rows_window1]; omega

theorem scatter_rows_eq_pool_of_wf (hG : G < 2 ^ 31) (idx : IVec (⟨2, ![n, 1]⟩ : Shape) 32) (upd : Mat n D) :
    Ideal.hostScatterAdd (rowsDims wf) (fun _ => (0 : EReal)) idx upd = pool G upd (fun r => idx (ix2 r 0)) := by
  funext i
  unfold Ideal.hostScatterAdd pool
  rw [zero_add, Finset.sum_filter, sum_idx2]
  refine Finset.sum_congr rfl fun r _ => ?_
  have hg : (i 0).val < 2 ^ 31 := lt_trans (idx2_lt0 i) hG
  have key : ∀ c : Fin D, ((rowsDims wf).resultIdx? (ix2 r c) idx = some i) ↔
      (idx (ix2 r 0) = BitVec.ofNat 32 (i 0).val ∧ c = i 1) := by
    intro c
    rw [rows_resultIdx_iff, toInt_eq_iff _ _ hg]
    exact and_congr Iff.rfl Fin.val_inj
  beta_reduce
  by_cases hr : idx (ix2 r 0) = BitVec.ofNat 32 (i 0).val
  · rw [if_pos hr]
    refine (Finset.sum_eq_single (show Fin D from i 1) ?_ ?_).trans ?_
    · intro c _ hc
      exact if_neg fun h => hc ((key c).1 h).2
    · intro h
      exact absurd (Finset.mem_univ _) h
    · exact if_pos ((key _).2 ⟨hr, rfl⟩)
  · rw [if_neg hr]
    exact Finset.sum_eq_zero fun c _ => if_neg fun h => hr ((key c).1 h).1

end Rows

theorem scatter_rows_eq_pool {G D n : Nat} (hG : G < 2 ^ 31)
    (d : ScatterDims (⟨2, ![G, D]⟩ : Shape) (⟨2, ![n, 1]⟩ : Shape) (⟨2, ![n, D]⟩ : Shape))
    (hu : d.updateWindowDims = [1]) (hi : d.insertedWindowDims = [0]) (hs : d.scatterDimsToOperandDims = [0])
    (hv : d.indexVectorDim = 1) (idx : IVec (⟨2, ![n, 1]⟩ : Shape) 32) (upd : Mat n D) :
    Ideal.hostScatterAdd d (fun _ => (0 : EReal)) idx upd = pool G upd (fun r => idx (ix2 r 0)) := by
  obtain ⟨uw, iw, sd, iv, wf⟩ := d
  simp only at hu hi hs hv
  subst hu hi hs hv
  exact scatter_rows_eq_pool_of_wf wf hG idx upd

theorem sum_extend_zero {M : Type*} [AddCommMonoid M] {n n' : Nat} (hn : n ≤ n') (f : Fin n → M) :
    (∑ r : Fin n', if hlt : r.val < n then f ⟨r.val, hlt⟩ else 0) = ∑ r : Fin n, f r := by
  have h1 := Fin.sum_univ_eq_sum_range (fun k => if hlt : k < n then f ⟨k, hlt⟩ else 0) n'
  have h2 := Fin.sum_univ_eq_sum_range (fun k => if hlt : k < n then f ⟨k, hlt⟩ else 0) n
  obtain ⟨m, rfl⟩ := Nat.exists_eq_add_of_le hn
  rw [h1, Finset.sum_range_add, ← h2]
  have hz : (∑ x ∈ Finset.range m, if hlt : n + x < n then f ⟨n + x, hlt⟩ else 0) = 0 :=
    Finset.sum_eq_zero fun x _ => dif_neg (by omega)
  rw [hz, add_zero]
  exact Finset.sum_congr rfl fun r _ => dif_pos r.isLt

theorem pool_pad {n n' d G : Nat} (hn : n ≤ n') (hG : G < 2 ^ 32 - 1) (h : Mat n d) (b : Fin n → BitVec 32) :
    pool G (padRows n' h) (padIds n' b) = pool G h b := by
  funext i
  unfold pool
  rw [← sum_extend_zero hn (fun r => if b r = BitVec.ofNat 32 (i 0).val then h (ix2 r (i 1)) else 0)]
  refine Finset.sum_congr rfl fun r _ => ?_
  unfold padRows padIds
  by_cases hlt : r.val < n
  · rw [dif_pos hlt, dif_pos hlt, dif_pos (show ((ix2 r (i 1) : (⟨2, ![n', d]⟩ : Shape).Idx) 0).val < n from hlt)]
    rfl
  · rw [dif_neg hlt, dif_neg hlt, dif_neg (show ¬ ((ix2 r (i 1) : (⟨2, ![n', d]⟩ : Shape).Idx) 0).val < n from hlt)]
    exact ite_self 0

theorem pool_coe_sum {ι : Type*} (s : Finset ι) (g : ι → ℝ) :
    (∑ i ∈ s, (g i : EReal)) = ((∑ i ∈ s, g i : ℝ) : EReal) := by
  classical
  refine Finset.induction_on s ?_ ?_
  · simp
  · intro a s ha ih
    rw [Finset.sum_insert ha, Finset.sum_insert ha, ih, EReal.coe_add]

theorem pool_real_sum {ι : Type*} (s : Finset ι) (f : ι → EReal) (hf : ∀ i, ∃ r : ℝ, f i = r) :
    ∃ r : ℝ, ∑ i ∈ s, f i = r := by
  choose g hg using hf
  exact ⟨∑ i ∈ s, g i, by rw [← pool_coe_sum]; exact Finset.sum_congr rfl fun i _ => hg i⟩

theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

theorem real_pool {n d G : Nat} (h : Mat n d) (b : Fin n → BitVec 32) : RealMat h → RealMat (pool G h b) := by
  intro hh i
  unfold pool
  refine pool_real_sum _ _ fun r => ?_
  by_cases hb : b r = BitVec.ofNat 32 (i 0).val
  · rw [if_pos hb]; exact hh _
  · rw [if_neg hb]; exact ⟨0, rfl⟩

theorem real_scatterAdd {s si su : Shape} (d : ScatterDims s si su) {w : Nat} (x : s.Idx → EReal) (idx : IVec si w)
    (upd : su.Idx → EReal) : (∀ i, ∃ r : ℝ, x i = r) → (∀ j, ∃ r : ℝ, upd j = r) →
    ∀ i, ∃ r : ℝ, Ideal.hostScatterAdd d x idx upd i = r :=
  fun hx hu i => real_add (hx i) (pool_real_sum _ upd hu)

theorem gather_entry {s si t : Shape} {w : Nat} (d : GatherDims s si t) (x : s.Idx → EReal) (idx : IVec si w)
    (j : t.Idx) : ∃ i, Host.gather d x idx j = x i := ⟨_, rfl⟩

theorem real_gather {s si t : Shape} {w : Nat} (d : GatherDims s si t) (x : s.Idx → EReal) (idx : IVec si w) :
    (∀ i, ∃ r : ℝ, x i = r) → ∀ j, ∃ r : ℝ, Host.gather d x idx j = r :=
  fun hx _ => hx _

end Cert.GinAlgebra

end
-- ==== Proof.RefValue.lean ====
import proofs.«412881_j60095182405865_1_alg».proof.Proof.RefRun
import proofs.«412881_j60095182405865_1_alg».proof.Proof.RefRead
import proofs.«412881_j60095182405865_1_alg».proof.Proof.Spec
import proofs.«412881_j60095182405865_1_alg».proof.Proof.Final
import proofs.«412881_j60095182405865_1_alg».proof.Proof.PoolAlgebra
import Idealize.ShloMosaic.PureOps.Ideal.Laws
import Idealize.ShloMosaic.Lib.ValueIdx

set_option maxRecDepth 16384

noncomputable section

namespace Cert.ReferenceIdeal.Hand

open Idealize.ShloMosaic Idealize.ShloMosaic.ValueIdx
open Cert.ReferenceIdeal Cert.ReferenceIdeal.Gen Cert.GinSpec

local notation "N₀" => Ideal.ofBits FTy.f32 0x47C35000#32
local notation "ε₀" => Ideal.ofBits FTy.f32 0x3727C5AC#32

theorem refDev_eq {F : FTy → Type} [FloatOps F] (h : FVec F S100000x128 .f32) : refDev h = subf h (refRow (refMean h)) := by
  funext i
  rfl

theorem ref_var (h : FVec Ideal S100000x128 .f32) : refVar h = rVar N₀ N₀ h := by
  unfold refVar refSqDev refDev refCount
  rw [Printed.selectVar_read, Printed.var_read, Printed.normaliser_eq]

theorem ref_norm (h : FVec Ideal S100000x128 .f32) (g be : FVec Ideal S128 .f32) :
    refNorm h (refMean h) (refVar h) g be = rNorm N₀ N₀ ε₀ g be h := by
  rw [ref_mean, ref_var]
  unfold refNorm refRow
  exact (Printed.norm_read h _ _ g be).trans rfl

theorem ref_pool (h : Mat 100000 128) (ids : IVec S100000 32) :
    refPool (F := Ideal) h ids = pool 512 h (fun r => ids (ix1 r)) := by
  have hz : (broadcastInDim S512x128 ![] bcast_S_S512x128 (constant (F := Ideal) S_ .f32 0x00000000#32) : FVec Ideal S512x128 .f32)
      = fun _ => (0 : EReal) := by
    funext i
    exact Ideal.ofBits_zero_f32
  have hi : (fun r : Fin 100000 => broadcastInDim S100000x1 ![0] bcast_S100000_S100000x1_0 ids (ix2 r 0))
      = fun r => ids (ix1 r) := by
    funext r
    unfold broadcastInDim
    refine congrArg ids (funext fun a => ?_)
    obtain rfl : a = 0 := Subsingleton.elim _ _
    rfl
  have key : Ideal.hostScatterAdd scatter_S512x128_S100000x1_S100000x128_1_0_0_1 (fun _ => (0 : EReal))
        (broadcastInDim S100000x1 ![0] bcast_S100000_S100000x1_0 ids) h
      = pool 512 h (fun r => broadcastInDim S100000x1 ![0] bcast_S100000_S100000x1_0 ids (ix2 r 0)) :=
    Cert.GinAlgebra.scatter_rows_eq_pool (by norm_num) _ rfl rfl rfl rfl _ _
  unfold refPool Host.scatterAdd
  rw [Ideal.hostScatterAdd_def, hz, key, hi]

theorem ref_logits (p : FVec Ideal S512x128 .f32) (lw : FVec Ideal S128x10 .f32) (lb : FVec Ideal S10 .f32) :
    refLogits p lw lb = dense p lw lb := by
  unfold refLogits
  exact Printed.dense10_read p lw lb

theorem refOut_eq (a0 : FVec Ideal S100000x128 .f32) (a1 : IVec S2x1600000 32) (a2 : IVec S100000 32)
    (a3 : FVec Ideal S128x128 .f32) (a4 : FVec Ideal S128 .f32) (a5 : FVec Ideal S128x128 .f32)
    (a6 a7 a8 : FVec Ideal S128 .f32) (a9 : FVec Ideal S128x128 .f32) (a10 : FVec Ideal S128 .f32)
    (a11 : FVec Ideal S128x128 .f32) (a12 a13 a14 : FVec Ideal S128 .f32) (a15 : FVec Ideal S128x10 .f32)
    (a16 : FVec Ideal S10 .f32) :
    refOut a0 a1 a2 a3 a4 a5 a6 a7 a8 a9 a10 a11 a12 a13 a14 a15 a16
      = Cert.GinAlgebra.netR (fun y => refAgg (F := Ideal) y (refSrc a1) (refDst a1)) N₀ ε₀ a0 a3 a4 a5 a6 a7 a8 a9 a10 a11 a12 a13 a14 a15 a16
          (fun r => a2 (ix1 r)) := by
  unfold refOut Cert.GinAlgebra.netR Cert.GinAlgebra.layerR
  simp only [ref_logits, ref_pool, ref_norm, ref_mlp, ref_relu]

theorem real_refAgg (y : Mat 100000 128) (src dst : IVec S1600000 32) :
    RealMat y → RealMat (refAgg (F := Ideal) y src dst) := by
  intro hy
  unfold refAgg Host.scatterAdd
  rw [Ideal.hostScatterAdd_def]
  intro i
  exact Cert.GinAlgebra.real_scatterAdd _ _ _ _
    (fun _ => ⟨0, Ideal.ofBits_zero_f32.trans EReal.coe_zero.symm⟩)
    (Cert.GinAlgebra.real_gather _ _ _ hy) i

end Cert.ReferenceIdeal.Hand

end
-- ==== Proof.FiniteArgs.lean ====
import proofs.«412881_j60095182405865_1_alg».proof.Pre_finite_inputs
import proofs.«412881_j60095182405865_1_alg».proof.Proof.Gen.Pre_finite_inputs
import proofs.«412881_j60095182405865_1_alg».proof.Proof.Spec
import Idealize.ShloMosaic.PureOps.Ideal
import Idealize.ShloMosaic.Lib.ValueIdx
import Idealize.ShloMosaic.Lib.ReduceAll

noncomputable section

namespace Cert.GinAlgebra

open Idealize.ShloMosaic Idealize.ShloMosaic.ValueIdx Cert.GinSpec

instance scalarIdx_subsingleton : Subsingleton Cert.Pre_finite_inputs.S_.Idx :=
  ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem posInf_pattern : Ideal.ofBits .f32 0x7F800000#32 = ⊤ := by simp [Ideal.ofBits, Ideal.ieee]

theorem bit_true {b : Bool} (h : BitVec.ofBool b = 1#1) : b = true := by
  revert h; cases b <;> decide

theorem real_of_entry (x : Ideal .f32)
    (h : FloatOps.cmpf (F := Ideal) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [posInf_pattern] at h'
  have hb : BitVec.ofBool (decide (max x (-x) < ⊤)) = 1#1 := h'
  exact real_of_abs_lt_top x (of_decide_eq_true (bit_true hb))

theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
          (cmpf .olt (Host.absf a) (broadcastInDim s ![] hb (constant Cert.Pre_finite_inputs.S_ .f32 0x7F800000#32)))
          (constantI Cert.Pre_finite_inputs.S_ 1 1#1) hr hu ix0 = 1#1)
    (i : s.Idx) : ∃ r : ℝ, a i = (r : EReal) :=
  real_of_entry (a i) (Host.reduce_andi_all _ _ hr hu ix0 e i)

theorem real_args (a0 : FVec Ideal Cert.Pre_finite_inputs.S100000x128 .f32)
    (a1 : IVec Cert.Pre_finite_inputs.S2x1600000 32)
    (a2 : IVec Cert.Pre_finite_inputs.S100000 32)
    (a3 : FVec Ideal Cert.Pre_finite_inputs.S128x128 .f32)
    (a4 : FVec Ideal Cert.Pre_finite_inputs.S128 .f32)
    (a5 : FVec Ideal Cert.Pre_finite_inputs.S128x128 .f32)
    (a6 : FVec Ideal Cert.Pre_finite_inputs.S128 .f32)
    (a7 : FVec Ideal Cert.Pre_finite_inputs.S128 .f32)
    (a8 : FVec Ideal Cert.Pre_finite_inputs.S128 .f32)
    (a9 : FVec Ideal Cert.Pre_finite_inputs.S128x128 .f32)
    (a10 : FVec Ideal Cert.Pre_finite_inputs.S128 .f32)
    (a11 : FVec Ideal Cert.Pre_finite_inputs.S128x128 .f32)
    (a12 : FVec Ideal Cert.Pre_finite_inputs.S128 .f32)
    (a13 : FVec Ideal Cert.Pre_finite_inputs.S128 .f32)
    (a14 : FVec Ideal Cert.Pre_finite_inputs.S128 .f32)
    (a15 : FVec Ideal Cert.Pre_finite_inputs.S128x10 .f32)
    (a16 : FVec Ideal Cert.Pre_finite_inputs.S10 .f32)
    [Cert.Pre_finite_inputs.Facts]
    (h : Cert.Pre_finite_inputs.fn (F := Ideal) a0 a1 a2 a3 a4 a5 a6 a7 a8 a9 a10 a11 a12 a13 a14 a15 a16 = fun _ => 1#1) :
    RealMat a0 ∧ RealMat a3 ∧ RealRow a4 ∧ RealMat a5 ∧ RealRow a6 ∧ RealRow a7 ∧ RealRow a8 ∧ RealMat a9 ∧ RealRow a10 ∧ RealMat a11 ∧ RealRow a12 ∧ RealRow a13 ∧ RealRow a14 ∧ RealMat a15 ∧ RealRow a16 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at h0
  simp only [IntOp.andi_eq_one] at h0
  obtain ⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩ := h0
  exact ⟨real_of_all _ _ _ a0 e0,
    real_of_all _ _ _ a3 e3,
    real_of_all _ _ _ a4 e4,
    real_of_all _ _ _ a5 e5,
    real_of_all _ _ _ a6 e6,
    real_of_all _ _ _ a7 e7,
    real_of_all _ _ _ a8 e8,
    real_of_all _ _ _ a9 e9,
    real_of_all _ _ _ a10 e10,
    real_of_all _ _ _ a11 e11,
    real_of_all _ _ _ a12 e12,
    real_of_all _ _ _ a13 e13,
    real_of_all _ _ _ a14 e14,
    real_of_all _ _ _ a15 e15,
    real_of_all _ _ _ a16 e16⟩

end Cert.GinAlgebra

end
-- ==== Proof.Algebraic.lean ====
import proofs.«412881_j60095182405865_1_alg».proof.Defs
import proofs.«412881_j60095182405865_1_alg».proof.Proof.Gen.Kernel
import proofs.«412881_j60095182405865_1_alg».proof.Proof.Gen.KernelIdeal
import proofs.«412881_j60095182405865_1_alg».proof.Proof.Gen.ReferenceIdeal
import proofs.«412881_j60095182405865_1_alg».proof.Proof.Gen.Pre_finite_inputs
import proofs.«412881_j60095182405865_1_alg».proof.Proof.Assemble
import proofs.«412881_j60095182405865_1_alg».proof.Proof.Val0
import proofs.«412881_j60095182405865_1_alg».proof.Proof.Val1
import proofs.«412881_j60095182405865_1_alg».proof.Proof.Val2
import proofs.«412881_j60095182405865_1_alg».proof.Proof.Val3
import proofs.«412881_j60095182405865_1_alg».proof.Proof.Val4Final
import proofs.«412881_j60095182405865_1_alg».proof.Proof.KValue
import proofs.«412881_j60095182405865_1_alg».proof.Proof.RefRun
import proofs.«412881_j60095182405865_1_alg».proof.Proof.RefValue
import proofs.«412881_j60095182405865_1_alg».proof.Proof.Final
import proofs.«412881_j60095182405865_1_alg».proof.Proof.RealLemmas
import proofs.«412881_j60095182405865_1_alg».proof.Proof.FiniteArgs

set_option maxRecDepth 16384

noncomputable section

namespace Cert.Proof

open Idealize.ShloMosaic Idealize.ShloMosaic.TcCoe Idealize.SL.Sem
open Cert.GinSpec Cert.GinAlgebra Idealize.ShloMosaic.ValueIdx

theorem agg_same (ei : IVec Cert.KernelIdeal.S2x1600000 32) (y : Mat 100000 128) :
    Cert.KernelIdeal.Hand.kAgg y ei
      = Cert.ReferenceIdeal.Hand.refAgg (F := Ideal) y (Cert.ReferenceIdeal.Hand.refSrc ei) (Cert.ReferenceIdeal.Hand.refDst ei) := by
  have hs : Cert.KernelIdeal.scatter_S100000x128_S1600000x1_S1600000x128_1_0_0_1
      = Cert.ReferenceIdeal.scatter_S100000x128_S1600000x1_S1600000x128_1_0_0_1 := rfl
  have hg : Cert.KernelIdeal.gather_S100000x128_S1600000x1_S1600000x128_1_0_n_n_0_1_1128
      = Cert.ReferenceIdeal.gather_S100000x128_S1600000x1_S1600000x128_1_0_n_n_0_1_1128 := rfl
  have h1 : Cert.KernelIdeal.Hand.edgeSrc ei = Cert.ReferenceIdeal.Hand.refSrc ei := rfl
  have h2 : Cert.KernelIdeal.Hand.edgeDst ei = Cert.ReferenceIdeal.Hand.refDst ei := rfl
  unfold Cert.KernelIdeal.Hand.kAgg Cert.KernelIdeal.Hand.kAgg' Cert.ReferenceIdeal.Hand.refAgg
  rw [hs, hg, h1, h2]

theorem refOut_congr {a0 b0 : FVec Ideal Cert.ReferenceIdeal.S100000x128 .f32} {a1 b1 : IVec Cert.ReferenceIdeal.S2x1600000 32} {a2 b2 : IVec Cert.ReferenceIdeal.S100000 32} {a3 b3 : FVec Ideal Cert.ReferenceIdeal.S128x128 .f32} {a4 b4 : FVec Ideal Cert.ReferenceIdeal.S128 .f32} {a5 b5 : FVec Ideal Cert.ReferenceIdeal.S128x128 .f32} {a6 b6 : FVec Ideal Cert.ReferenceIdeal.S128 .f32} {a7 b7 : FVec Ideal Cert.ReferenceIdeal.S128 .f32} {a8 b8 : FVec Ideal Cert.ReferenceIdeal.S128 .f32} {a9 b9 : FVec Ideal Cert.ReferenceIdeal.S128x128 .f32} {a10 b10 : FVec Ideal Cert.ReferenceIdeal.S128 .f32} {a11 b11 : FVec Ideal Cert.ReferenceIdeal.S128x128 .f32} {a12 b12 : FVec Ideal Cert.ReferenceIdeal.S128 .f32} {a13 b13 : FVec Ideal Cert.ReferenceIdeal.S128 .f32} {a14 b14 : FVec Ideal Cert.ReferenceIdeal.S128 .f32} {a15 b15 : FVec Ideal Cert.ReferenceIdeal.S128x10 .f32} {a16 b16 : FVec Ideal Cert.ReferenceIdeal.S10 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) :
    Cert.ReferenceIdeal.Hand.refOut a0 a1 a2 a3 a4 a5 a6 a7 a8 a9 a10 a11 a12 a13 a14 a15 a16 = Cert.ReferenceIdeal.Hand.refOut b0 b1 b2 b3 b4 b5 b6 b7 b8 b9 b10 b11 b12 b13 b14 b15 b16 := by
  subst h0 h1 h2 h3 h4 h5 h6 h7 h8 h9 h10 h11 h12 h13 h14 h15 h16
  rfl

theorem nets_agree (A0 : Mat 100000 128) (A1 : IVec Cert.KernelIdeal.S2x1600000 32) (A2 : Fin 100000 → BitVec 32)
    (A3 : Mat 128 128) (A4 : Row 128) (A5 : Mat 128 128) (A6 : Row 128) (A7 : Row 128) (A8 : Row 128) (A9 : Mat 128 128) (A10 : Row 128) (A11 : Mat 128 128) (A12 : Row 128) (A13 : Row 128) (A14 : Row 128) (A15 : Mat 128 10) (A16 : Row 10)
    (hr0 : RealMat A0) (hr3 : RealMat A3) (hr4 : RealRow A4) (hr5 : RealMat A5) (hr6 : RealRow A6) (hr7 : RealRow A7) (hr8 : RealRow A8) (hr9 : RealMat A9) (hr10 : RealRow A10) (hr11 : RealMat A11) (hr12 : RealRow A12) (hr13 : RealRow A13) (hr14 : RealRow A14) :
    netK (fun y => Cert.KernelIdeal.Hand.kAgg y A1) (Ideal.ofBits FTy.f32 0x47C35000#32) (Ideal.ofBits FTy.f32 0x3727C5AC#32) A0 A3 A4 A5 A6 A7 A8 A9 A10 A11 A12 A13 A14 A15 A16 A2
      = netR (fun y => Cert.ReferenceIdeal.Hand.refAgg (F := Ideal) y (Cert.ReferenceIdeal.Hand.refSrc A1) (Cert.ReferenceIdeal.Hand.refDst A1)) (Ideal.ofBits FTy.f32 0x47C35000#32) (Ideal.ofBits FTy.f32 0x3727C5AC#32) A0 A3 A4 A5 A6 A7 A8 A9 A10 A11 A12 A13 A14 A15 A16 A2 := by
  have hagg : (fun y : Mat 100000 128 => Cert.KernelIdeal.Hand.kAgg y A1)
      = fun y : Mat 100000 128 => Cert.ReferenceIdeal.Hand.refAgg (F := Ideal) y (Cert.ReferenceIdeal.Hand.refSrc A1) (Cert.ReferenceIdeal.Hand.refDst A1) :=
    funext fun y => agg_same A1 y
  have hsame : netK (fun y => Cert.KernelIdeal.Hand.kAgg y A1) (Ideal.ofBits FTy.f32 0x47C35000#32) (Ideal.ofBits FTy.f32 0x3727C5AC#32) A0 A3 A4 A5 A6 A7 A8 A9 A10 A11 A12 A13 A14 A15 A16 A2
      = netK (fun y => Cert.ReferenceIdeal.Hand.refAgg (F := Ideal) y (Cert.ReferenceIdeal.Hand.refSrc A1) (Cert.ReferenceIdeal.Hand.refDst A1)) (Ideal.ofBits FTy.f32 0x47C35000#32) (Ideal.ofBits FTy.f32 0x3727C5AC#32) A0 A3 A4 A5 A6 A7 A8 A9 A10 A11 A12 A13 A14 A15 A16 A2 :=
    congrArg (fun A : Mat 100000 128 → Mat 100000 128 => netK A (Ideal.ofBits FTy.f32 0x47C35000#32) (Ideal.ofBits FTy.f32 0x3727C5AC#32) A0 A3 A4 A5 A6 A7 A8 A9 A10 A11 A12 A13 A14 A15 A16 A2) hagg
  obtain ⟨e, he, heps⟩ := lit_eps
  refine hsame.trans ?_
  exact net_eq _ (fun y hy => Cert.ReferenceIdeal.Hand.real_refAgg y _ _ hy) _ _ lit_N e he heps A0 hr0
    A3 A4 A5 A6 A7 A8 hr3 hr4 hr5 hr6 hr7 hr8 A9 A10 A11 A12 A13 A14 hr9 hr10 hr11 hr12 hr13 hr14 A15 A16 A2

theorem algebraic : Cert.algebraic_KernelIdeal_ReferenceIdeal := by
  intro m ρ m' ρ' hpre hagree
  refine ⟨fun c => Cert.ReferenceIdeal.Hand.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)), ?_, Cert.ReferenceIdeal.Hand.run m' ρ'⟩
  refine (θ_run (Cert.KernelIdeal.defs (F := Ideal)) _ _).mono (fun r h c => ⟨(h c).1.trans ?_, (h c).2⟩) (Cert.KernelIdeal.Hand.run_result m ρ)
  obtain ⟨e0, e1, e2, e3, e4, e5, e6, e7, e8, e9, e10, e11, e12, e13, e14, e15, e16⟩ := hagree c
  obtain ⟨r0, r3, r4, r5, r6, r7, r8, r9, r10, r11, r12, r13, r14, r15, r16⟩ := real_args _ _ _ _ _ _ _ _ _ _ _ _ _ _ _ _ _ (hpre c)
  refine (Cert.KernelIdeal.Hand.kernel_value m ρ Cert.KernelIdeal.Hand.dat0 Cert.KernelIdeal.Hand.dat1 Cert.KernelIdeal.Hand.dat2 Cert.KernelIdeal.Hand.dat3 Cert.KernelIdeal.Hand.dat4
    (fun V c w => Cert.KernelIdeal.Hand.A_eq0 V c w) (fun V c w => Cert.KernelIdeal.Hand.A_eq2 V c w) (fun V c w => Cert.KernelIdeal.Hand.A_eq4 V c w)
    (fun V c => Cert.KernelIdeal.Hand.arrAt0_6 V c) (fun V c => Cert.KernelIdeal.Hand.arrAt0_7 V c) (fun V c => Cert.KernelIdeal.Hand.arrAt0_8 V c)
    (fun V c => Cert.KernelIdeal.Hand.arrAt1_3 V c)
    (fun V c => Cert.KernelIdeal.Hand.arrAt2_6 V c) (fun V c => Cert.KernelIdeal.Hand.arrAt2_7 V c) (fun V c => Cert.KernelIdeal.Hand.arrAt2_8 V c)
    (fun V c => Cert.KernelIdeal.Hand.arrAt3_3 V c)
    (fun V c => Cert.KernelIdeal.Hand.arrAt4_4 V c) c).trans ?_
  refine Eq.trans ?_ (refOut_congr e0 e1 e2 e3 e4 e5 e6 e7 e8 e9 e10 e11 e12 e13 e14 e15 e16).symm
  rw [Cert.ReferenceIdeal.Hand.refOut_eq]
  exact nets_agree _ _ _ _ _ _ _ _ _ _ _ _ _ _ _ _ _ r0 r3 r4 r5 r6 r7 r8 r9 r10 r11 r12 r13 r14

end Cert.Proof

end
-- ==== Proof.lean ====
/-
  A two-layer graph isomorphism network with batch normalisation, pooled per graph and classified. Both programs
  compute one function of the arguments once every float argument is finite: the kernel's normalisation (scale and
  shift from the column sums) and the reference's (centre, divide by the root of the variance plus eps) are one affine
  map on real columns, and a one-hot product over zero-padded rows is the scatter-add of the rows.
-/
import proofs.«412881_j60095182405865_1_alg».proof.Defs
import proofs.«412881_j60095182405865_1_alg».proof.Proof.Gen.Kernel
import proofs.«412881_j60095182405865_1_alg».proof.Proof.Gen.KernelIdeal
import proofs.«412881_j60095182405865_1_alg».proof.Proof.Gen.ReferenceIdeal
import proofs.«412881_j60095182405865_1_alg».proof.Proof.Gen.Pre_finite_inputs
import proofs.«412881_j60095182405865_1_alg».proof.Proof.WAssemble
import proofs.«412881_j60095182405865_1_alg».proof.Proof.Assemble
import proofs.«412881_j60095182405865_1_alg».proof.Proof.RefRun
import proofs.«412881_j60095182405865_1_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run (Cert.ReferenceIdeal.defs (F := Ideal)) _ _).mono (fun _ h c => (h c).2) (Cert.ReferenceIdeal.Hand.run m ρ),
  trivial,
  Cert.Proof.algebraic⟩

end Cert.Proof

end
